-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048 : Shape := ⟨2, ![4, 2048]⟩
abbrev S32000x512 : Shape := ⟨2, ![32000, 512]⟩
abbrev S2048x512 : Shape := ⟨2, ![2048, 512]⟩
abbrev S512x512 : Shape := ⟨2, ![512, 512]⟩
abbrev S2048 : Shape := ⟨1, ![2048]⟩
abbrev S512x2048 : Shape := ⟨2, ![512, 2048]⟩
abbrev S512 : Shape := ⟨1, ![512]⟩
abbrev S32000 : Shape := ⟨1, ![32000]⟩
abbrev S_ : Shape := ⟨0, ![]⟩

class Facts : Prop where
  bcast_S_S32000x512 : S_.BroadcastsInDim S32000x512 (![] : Fin 0 → Fin S32000x512.rank)
  reducesTo_S32000x512_S_d0_1 : S32000x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x512 : S_.BroadcastsInDim S512x512 (![] : Fin 0 → Fin S512x512.rank)
  reducesTo_S512x512_S_d0_1 : S512x512.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S32000 : S_.BroadcastsInDim S32000 (![] : Fin 0 → Fin S32000.rank)
  reducesTo_S32000_S_d0 : S32000.ReducesTo [0] S_
  bcast_S_S4x2048 : S_.BroadcastsInDim S4x2048 (![] : Fin 0 → Fin S4x2048.rank)
  reducesTo_S4x2048_S_d0_1 : S4x2048.ReducesTo [0, 1] S_

variable [Facts]

def fn_part4 {F : FTy → Type} [FloatOps F] (main_arg1 : IVec S4x2048 32) (main_arg16 : FVec F S32000 .f32) (main_v63 : IVec S_ 1) (main_v67 : IVec S_ 1) : IVec S_ 1 :=
  let main_v68 : IVec S_ 1 := andi main_v63 main_v67
  let main_v69 : FVec F S32000 .f32 := Host.absf main_arg16
  let main_cst_26 : FVec F S_ .f32 := constant S_ .f32 0x7F800000#32
  let main_v70 : FVec F S32000 .f32 := broadcastInDim S32000 ![] bcast_S_S32000 main_cst_26
  let main_v71 : IVec S32000 1 := cmpf .olt main_v69 main_v70
  let main_c_27 : IVec S_ 1 := constantI S_ 1 1#1
  let main_v72 : IVec S_ 1 := (fun x v => Host.reduce IntOp.andi x v reducesTo_S32000_S_d0 h_S_) main_v71 main_c_27
  let main_v73 : IVec S_ 1 := andi main_v68 main_v72
  let main_c_28 : IVec S_ 32 := constantI S_ 32 0#32
  let main_v74 : IVec S4x2048 32 := broadcastInDim S4x2048 ![] bcast_S_S4x2048 main_c_28
  let main_v75 : IVec S4x2048 1 := cmpi .sge main_arg1 main_v74
  let main_c_29 : IVec S_ 1 := constantI S_ 1 1#1
  let main_v76 : IVec S_ 1 := (fun x v => Host.reduce IntOp.andi x v reducesTo_S4x2048_S_d0_1 h_S_) main_v75 main_c_29
  let main_v77 : IVec S_ 1 := andi main_v73 main_v76
  let main_c_30 : IVec S_ 32 := constantI S_ 32 32000#32
  let main_v78 : IVec S4x2048 32 := broadcastInDim S4x2048 ![] bcast_S_S4x2048 main_c_30
  let main_v79 : IVec S4x2048 1 := cmpi .slt main_arg1 main_v78
  let main_c_31 : IVec S_ 1 := constantI S_ 1 1#1
  let main_v80 : IVec S_ 1 := (fun x v => Host.reduce IntOp.andi x v reducesTo_S4x2048_S_d0_1 h_S_) main_v79 main_c_31
  let main_v81 : IVec S_ 1 := andi main_v77 main_v80
  main_v81

def fn_part3 {F : FTy → Type} [FloatOps F] (main_arg1 : IVec S4x2048 32) (main_arg13 : FVec F S512 .f32) (main_arg14 : FVec F S512 .f32) (main_arg15 : FVec F S32000x512 .f32) (main_arg16 : FVec F S32000 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg13
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg14
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S32000x512 .f32 := Host.absf main_arg15
  let main_cst_24 : FVec F S_ .f32 := constant S_ .f32 0x7F800000#32
  let main_v65 : FVec F S32000x512 .f32 := broadcastInDim S32000x512 ![] bcast_S_S32000x512 main_cst_24
  let main_v66 : IVec S32000x512 1 := cmpf .olt main_v64 main_v65
  let main_c_25 : IVec S_ 1 := constantI S_ 1 1#1
  let main_v67 : IVec S_ 1 := (fun x v => Host.reduce IntOp.andi x v reducesTo_S32000x512_S_d0_1 h_S_) main_v66 main_c_25
  fn_part4 (F := F) main_arg1 main_arg16 main_v63 main_v67

def fn_part2 {F : FTy → Type} [FloatOps F] (main_arg1 : IVec S4x2048 32) (main_arg9 : FVec F S512x2048 .f32) (main_arg10 : FVec F S512 .f32) (main_arg11 : FVec F S512 .f32) (main_arg12 : FVec F S512 .f32) (main_arg13 : FVec F S512 .f32) (main_arg14 : FVec F S512 .f32) (main_arg15 : FVec F S32000x512 .f32) (main_arg16 : FVec F S32000 .f32) (main_v33 : IVec S_ 1) : IVec S_ 1 :=
  let main_v34 : FVec F S512x2048 .f32 := Host.absf main_arg9
  let main_cst_12 : FVec F S_ .f32 := constant S_ .f32 0x7F800000#32
  let main_v35 : FVec F S512x2048 .f32 := broadcastInDim S512x2048 ![] bcast_S_S512x2048 main_cst_12
  let main_v36 : IVec S512x2048 1 := cmpf .olt main_v34 main_v35
  let main_c_13 : IVec S_ 1 := constantI S_ 1 1#1
  let main_v37 : IVec S_ 1 := (fun x v => Host.reduce IntOp.andi x v reducesTo_S512x2048_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg11
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg12
  let main_cst_18 : FVec F S_ .f32 := constant S_ .f32 0x7F800000#32
  let main_v50 : FVec F S512 .f32 := broadcastInDim S512 ![] bcast_S_S512 main_cst_18
  fn_part3 (F := F) main_arg1 main_arg13 main_arg14 main_arg15 main_arg16 main_v48 main_v49 main_v50

def fn_part1 {F : FTy → Type} [FloatOps F] (main_arg1 : IVec S4x2048 32) (main_arg6 : FVec F S512x512 .f32) (main_arg7 : FVec F S2048x512 .f32) (main_arg8 : FVec F S2048 .f32) (main_arg9 : FVec F S512x2048 .f32) (main_arg10 : FVec F S512 .f32) (main_arg11 : FVec F S512 .f32) (main_arg12 : FVec F S512 .f32) (main_arg13 : FVec F S512 .f32) (main_arg14 : FVec F S512 .f32) (main_arg15 : FVec F S32000x512 .f32) (main_arg16 : FVec F S32000 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg6
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S2048x512 .f32 := Host.absf main_arg7
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048 .f32 := Host.absf main_arg8
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg1 main_arg9 main_arg10 main_arg11 main_arg12 main_arg13 main_arg14 main_arg15 main_arg16 main_v33

def fn {F : FTy → Type} [FloatOps F] (main_arg0 : IVec S4x2048 32) (main_arg1 : IVec S4x2048 32) (main_arg2 : FVec F S32000x512 .f32) (main_arg3 : FVec F S2048x512 .f32) (main_arg4 : FVec F S512x512 .f32) (main_arg5 : FVec F S512x512 .f32) (main_arg6 : FVec F S512x512 .f32) (main_arg7 : FVec F S2048x512 .f32) (main_arg8 : FVec F S2048 .f32) (main_arg9 : FVec F S512x2048 .f32) (main_arg10 : FVec F S512 .f32) (main_arg11 : FVec F S512 .f32) (main_arg12 : FVec F S512 .f32) (main_arg13 : FVec F S512 .f32) (main_arg14 : FVec F S512 .f32) (main_arg15 : FVec F S32000x512 .f32) (main_arg16 : FVec F S32000 .f32) : IVec S_ 1 :=
  let main_v0 : FVec F S32000x512 .f32 := Host.absf main_arg2
  let main_cst : FVec F S_ .f32 := constant S_ .f32 0x7F800000#32
  let main_v1 : FVec F S32000x512 .f32 := broadcastInDim S32000x512 ![] bcast_S_S32000x512 main_cst
  let main_v2 : IVec S32000x512 1 := cmpf .olt main_v0 main_v1
  let main_c : IVec S_ 1 := constantI S_ 1 1#1
  let main_v3 : IVec S_ 1 := (fun x v => Host.reduce IntOp.andi x v reducesTo_S32000x512_S_d0_1 h_S_) main_v2 main_c
  let main_v4 : FVec F S2048x512 .f32 := Host.absf main_arg3
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg6 main_arg7 main_arg8 main_arg9 main_arg10 main_arg11 main_arg12 main_arg13 main_arg14 main_arg15 main_arg16 main_v13 main_v16
-- ==== Kernel.lean ====
abbrev S4x2048 : Shape := ⟨2, ![4, 2048]⟩
abbrev S32000x512 : Shape := ⟨2, ![32000, 512]⟩
abbrev S2048x512 : Shape := ⟨2, ![2048, 512]⟩
abbrev S512x512 : Shape := ⟨2, ![512, 512]⟩
abbrev S2048 : Shape := ⟨1, ![2048]⟩
abbrev S512x2048 : Shape := ⟨2, ![512, 2048]⟩
abbrev S512 : Shape := ⟨1, ![512]⟩
abbrev S32000 : Shape := ⟨1, ![32000]⟩
abbrev S_ : Shape := ⟨0, ![]⟩
abbrev S4x2048x1 : Shape := ⟨3, ![4, 2048, 1]⟩
abbrev S4x2048x512 : Shape := ⟨3, ![4, 2048, 512]⟩
abbrev S1x2048x512 : Shape := ⟨3, ![1, 2048, 512]⟩
abbrev S8192x512 : Shape := ⟨2, ![8192, 512]⟩
abbrev S512x1536 : Shape := ⟨2, ![512, 1536]⟩
abbrev S1024x512 : Shape := ⟨2, ![1024, 512]⟩
abbrev S1024 : Shape := ⟨1, ![1024]⟩
abbrev S1024x1 : Shape := ⟨2, ![1024, 1]⟩
abbrev S1x512 : Shape := ⟨2, ![1, 512]⟩
abbrev S1024x1536 : Shape := ⟨2, ![1024, 1536]⟩
abbrev S1x512x512 : Shape := ⟨3, ![1, 512, 512]⟩
abbrev S512x1 : Shape := ⟨2, ![512, 1]⟩
abbrev S1024x2048 : Shape := ⟨2, ![1024, 2048]⟩
abbrev S1x2048 : Shape := ⟨2, ![1, 2048]⟩
abbrev S512x32000 : Shape := ⟨2, ![512, 32000]⟩
abbrev S1x32000 : Shape := ⟨2, ![1, 32000]⟩
abbrev S8192x1 : Shape := ⟨2, ![8192, 1]⟩
abbrev S8192x32000 : Shape := ⟨2, ![8192, 32000]⟩
abbrev S512x640 : Shape := ⟨2, ![512, 640]⟩
abbrev S1x640 : Shape := ⟨2, ![1, 640]⟩
abbrev S2048x1 : Shape := ⟨2, ![2048, 1]⟩
abbrev S2048x640 : Shape := ⟨2, ![2048, 640]⟩
abbrev S8192 : Shape := ⟨1, ![8192]⟩

abbrev nBuf : Space → Nat
  | .hbm => 63
  | .vmem => 51
  | .smem => 0
  | _ => 0

abbrev bufTy : (tb : Table) → Fin (tcTables nBuf tb) → BufTy
  | .hbm, ⟨0, _⟩ => ⟨S4x2048, .i32⟩
  | .hbm, ⟨1, _⟩ => ⟨S4x2048, .i32⟩
  | .hbm, ⟨2, _⟩ => ⟨S32000x512, .f32⟩
  | .hbm, ⟨3, _⟩ => ⟨S2048x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S2048x512, .f32⟩
  | .hbm, ⟨8, _⟩ => ⟨S2048, .f32⟩
  | .hbm, ⟨9, _⟩ => ⟨S512x2048, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S32000x512, .f32⟩
  | .hbm, ⟨16, _⟩ => ⟨S32000, .f32⟩
  | .hbm, ⟨17, _⟩ => ⟨S_, .i32⟩
  | .hbm, ⟨18, _⟩ => ⟨S4x2048, .i32⟩
  | .hbm, ⟨19, _⟩ => ⟨S4x2048, .i1⟩
  | .hbm, ⟨20, _⟩ => ⟨S_, .i32⟩
  | .hbm, ⟨21, _⟩ => ⟨S4x2048, .i32⟩
  | .hbm, ⟨22, _⟩ => ⟨S4x2048, .i32⟩
  | .hbm, ⟨23, _⟩ => ⟨S4x2048, .i32⟩
  | .hbm, ⟨24, _⟩ => ⟨S4x2048x1, .i32⟩
  | .hbm, ⟨25, _⟩ => ⟨S4x2048x512, .f32⟩
  | .hbm, ⟨26, _⟩ => ⟨S1x2048x512, .f32⟩
  | .hbm, ⟨27, _⟩ => ⟨S4x2048x512, .f32⟩
  | .hbm, ⟨28, _⟩ => ⟨S4x2048x512, .f32⟩
  | .hbm, ⟨29, _⟩ => ⟨S8192x512, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S512x1536, .f32⟩
  | .hbm, ⟨34, _⟩ => ⟨S512x1536, .bf16⟩
  | .hbm, ⟨35, _⟩ => ⟨S8192x512, .bf16⟩
  | .hbm, ⟨36, _⟩ => ⟨S8192x512, .bf16⟩
  | .hbm, ⟨37, _⟩ => ⟨S8192x512, .bf16⟩
  | .hbm, ⟨38, _⟩ => ⟨S4x2048x512, .bf16⟩
  | .hbm, ⟨39, _⟩ => ⟨S4x2048x512, .bf16⟩
  | .hbm, ⟨40, _⟩ => ⟨S4x2048x512, .bf16⟩
  | .hbm, ⟨41, _⟩ => ⟨S4x2048x512, .f32⟩
  | .hbm, ⟨42, _⟩ => ⟨S8192x512, .f32⟩
  | .hbm, ⟨43, _⟩ => ⟨S512x2048, .f32⟩
  | .hbm, ⟨44, _⟩ => ⟨S512x2048, .bf16⟩
  | .hbm, ⟨45, _⟩ => ⟨S2048x512, .f32⟩
  | .hbm, ⟨46, _⟩ => ⟨S2048x512, .bf16⟩
  | .hbm, ⟨47, _⟩ => ⟨S8192x512, .bf16⟩
  | .hbm, ⟨48, _⟩ => ⟨S512x32000, .f32⟩
  | .hbm, ⟨49, _⟩ => ⟨S512x32000, .bf16⟩
  | .hbm, ⟨50, _⟩ => ⟨S1x32000, .f32⟩
  | .hbm, ⟨51, _⟩ => ⟨S8192x1, .i32⟩
  | .hbm, ⟨52, _⟩ => ⟨S8192x32000, .f32⟩
  | .hbm, ⟨53, _⟩ => ⟨S8192x1, .f32⟩
  | .hbm, ⟨54, _⟩ => ⟨S8192x1, .f32⟩
  | .hbm, ⟨55, _⟩ => ⟨S8192, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S512, .f32⟩
  | .local _ .vmem, ⟨3, _⟩ => ⟨S512, .f32⟩
  | .local _ .vmem, ⟨4, _⟩ => ⟨S512x1536, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1x512x512, .f32⟩
  | .local _ .vmem, ⟨12, _⟩ => ⟨S1x512x512, .f32⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .f32⟩
  | .local _ .vmem, ⟨20, _⟩ => ⟨S1x512x512, .f32⟩
  | .local _ .vmem, ⟨21, _⟩ => ⟨S512x1, .f32⟩
  | .local _ .vmem, ⟨22, _⟩ => ⟨S512x1, .f32⟩
  | .local _ .vmem, ⟨23, _⟩ => ⟨S512x512, .f32⟩
  | .local _ .vmem, ⟨24, _⟩ => ⟨S1024x512, .f32⟩
  | .local _ .vmem, ⟨25, _⟩ => ⟨S1024x512, .f32⟩
  | .local _ .vmem, ⟨26, _⟩ => ⟨S512, .f32⟩
  | .local _ .vmem, ⟨27, _⟩ => ⟨S512, .f32⟩
  | .local _ .vmem, ⟨28, _⟩ => ⟨S512x2048, .bf16⟩
  | .local _ .vmem, ⟨29, _⟩ => ⟨S2048, .f32⟩
  | .local _ .vmem, ⟨30, _⟩ => ⟨S2048x512, .bf16⟩
  | .local _ .vmem, ⟨31, _⟩ => ⟨S512, .f32⟩
  | .local _ .vmem, ⟨32, _⟩ => ⟨S1024x512, .bf16⟩
  | .local _ .vmem, ⟨33, _⟩ => ⟨S1024x512, .bf16⟩
  | .local _ .vmem, ⟨34, _⟩ => ⟨S2048x512, .bf16⟩
  | .local _ .vmem, ⟨35, _⟩ => ⟨S2048x512, .bf16⟩
  | .local _ .vmem, ⟨36, _⟩ => ⟨S512x640, .bf16⟩
  | .local _ .vmem, ⟨37, _⟩ => ⟨S512x640, .bf16⟩
  | .local _ .vmem, ⟨38, _⟩ => ⟨S1x640, .f32⟩
  | .local _ .vmem, ⟨39, _⟩ => ⟨S1x640, .f32⟩
  | .local _ .vmem, ⟨40, _⟩ => ⟨S2048x1, .i32⟩
  | .local _ .vmem, ⟨41, _⟩ => ⟨S2048x1, .i32⟩
  | .local _ .vmem, ⟨42, _⟩ => ⟨S2048x640, .f32⟩
  | .local _ .vmem, ⟨43, _⟩ => ⟨S2048x640, .f32⟩
  | .local _ .vmem, ⟨44, _⟩ => ⟨S2048x1, .f32⟩
  | .local _ .vmem, ⟨45, _⟩ => ⟨S2048x1, .f32⟩
  | .local _ .vmem, ⟨46, _⟩ => ⟨S2048x1, .f32⟩
  | .local _ .vmem, ⟨47, _⟩ => ⟨S2048x1, .f32⟩
  | .local _ .vmem, ⟨48, _⟩ => ⟨S2048x1, .f32⟩
  | .local _ .vmem, ⟨49, _⟩ => ⟨S2048x1, .f32⟩
  | .local _ .vmem, ⟨50, _⟩ => ⟨S2048x1, .f32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16_0 : Ref sig .tc := ⟨.hbm, 35, rfl⟩
abbrev main_v16_1 : Ref sig .tc := ⟨.hbm, 36, rfl⟩
abbrev main_v16_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31_0 : Ref sig .tc := ⟨.hbm, 52, rfl⟩
abbrev main_v31_1 : Ref sig .tc := ⟨.hbm, 53, rfl⟩
abbrev main_v31_2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst : Ref sig .tc := ⟨.hbm, 58, rfl⟩
abbrev main_v35 : Ref sig .tc := ⟨.hbm, 59, rfl⟩
abbrev main_cst_1 : Ref sig .tc := ⟨.hbm, 60, rfl⟩
abbrev main_v36 : Ref sig .tc := ⟨.hbm, 61, rfl⟩
abbrev main_v37 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc3_scratch0 : Ref sig .tc := ⟨.vmem, 48, rfl⟩
abbrev cc3_scratch1 : Ref sig .tc := ⟨.vmem, 49, rfl⟩
abbrev cc3_scratch2 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem7_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem3_1 : DmaSem sig := 38
abbrev cc3_sem4_0 : DmaSem sig := 39
abbrev cc3_sem4_1 : DmaSem sig := 40
abbrev cc3_sem5_0 : DmaSem sig := 41
abbrev cc3_sem5_1 : DmaSem sig := 42
abbrev cc3_sem6_0 : DmaSem sig := 43
abbrev cc3_sem6_1 : DmaSem sig := 44

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![4, 4, 4], ![false, false, false]⟩

def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x2048 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2048x512 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1024x512 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨2, ![4, 50], ![false, false]⟩

def k3_cond2 (i : grid3.Coords) : BitVec 1 :=
  let arg1 : BitVec 32 := BitVec.ofNat 32 (i 1).val
  let c49_i32 : BitVec 32 := 49#32
  let v50 : BitVec 1 := Scalar.cmpi .eq arg1 c49_i32
  let v51 : BitVec 32 := Scalar.extui v50
  let c0_i32_26 : BitVec 32 := 0#32
  let v52 : BitVec 1 := Scalar.cmpi .ne v51 c0_i32_26
  v52

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x640 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x640 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S2048x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S2048x640 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S2048x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S2048x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

class Facts₀ : Prop where
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S2048x512_S1x2048x512_1_2 : S2048x512.BroadcastsInDim S1x2048x512 (![1, 2] : Fin 2 → Fin S1x2048x512.rank)
  bcast_S1x2048x512_S4x2048x512_0_1_2 : S1x2048x512.BroadcastsInDim S4x2048x512 (![0, 1, 2] : Fin 3 → Fin S4x2048x512.rank)
  shapeCasts_S4x2048x512_S8192x512 : S4x2048x512.ShapeCasts S8192x512
  transposes_S512x512_S512x512_1_0 : S512x512.Transposes [1, 0] S512x512
  concatenates_S512x512_S512x512_S512x512_S512x1536_d1 : Shape.Concatenates [S512x512, S512x512, S512x512] S512x1536 1
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  slices_S1024x1536_o0_0_S1024x512 : S1024x1536.Slices ![0, 0] S1024x512
  packedbf16_S1024x512_S1024x512_0_0 : (Rect.unit (s := S1024x512) ![0, 0] S1024x512.size inb_S1024x512_S1024x512_0_0).PackedRows (EltTy.packing .bf16)
  slices_S1024x1536_o0_512_S1024x512 : S1024x1536.Slices ![0, 512] S1024x512
  slices_S1024x1536_o0_1024_S1024x512 : S1024x1536.Slices ![0, 1024] S1024x512
  shapeCasts_S8192x512_S4x2048x512 : S8192x512.ShapeCasts S4x2048x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  transposes_S512x512_p1_0_S512x512 : S512x512.Transposes [1, 0] S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  shapeCasts_S512x512_S1x512x512 : S512x512.ShapeCasts S1x512x512
  transposes_S2048x512_S512x2048_1_0 : S2048x512.Transposes [1, 0] S512x2048
  transposes_S512x2048_S2048x512_1_0 : S512x2048.Transposes [1, 0] S2048x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  transposes_S32000x512_S512x32000_1_0 : S32000x512.Transposes [1, 0] S512x32000
  shapeCasts_S32000_S1x32000 : S32000.ShapeCasts S1x32000
  shapeCasts_S4x2048_S8192x1 : S4x2048.ShapeCasts S8192x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S2048x640 : S1x640.Broadcasts S2048x640
  inb_S2048x640_S2048x640_0_0 : ∀ a, (![0, 0] : Fin 2 → Nat) a + S2048x640.size a ≤ S2048x640.size a
  h_S2048x640 : 0 < S2048x640.numel
  reduces_S2048x640_S2048 : S2048x640.Reduces [1] S2048
  shapeCasts_S2048_S2048x1 : S2048.ShapeCasts S2048x1
  broadcasts_S2048x1_S2048x640 : S2048x1.Broadcasts S2048x640
  iota_S2048x640_d1_w32 : S2048x640.Iotas .tc 32 [1]
  shapeCasts_S8192x1_S8192 : S8192x1.ShapeCasts S8192
  reducesTo_S8192_S_d0 : S8192.ReducesTo [0] S_
  h_S_ : 0 < S_.numel
  gather_S32000x512_S4x2048x1_S4x2048x512_2_0_n_n_0_2_1512_wf : GatherDims.WF S32000x512 S4x2048x1 S4x2048x512 [2] [0] [] [0] [] 2 ![1, 512]
  dot_S1024x512_S512x1536_S1024x1536_1_0_0_1_n_n_wf : DotDims.WF S1024x512 S512x1536 S1024x1536 [1] [0] [0] [1] [] []
  dot_S512x512_S512x512_S512x512_1_0_0_1_n_n_wf : DotDims.WF S512x512 S512x512 S512x512 [1] [0] [0] [1] [] []
  dot_S1024x512_S512x2048_S1024x2048_1_0_0_1_n_n_wf : DotDims.WF S1024x512 S512x2048 S1024x2048 [1] [0] [0] [1] [] []
  dot_S1024x2048_S2048x512_S1024x512_1_0_0_1_n_n_wf : DotDims.WF S1024x2048 S2048x512 S1024x512 [1] [0] [0] [1] [] []
  dot_S2048x512_S512x640_S2048x640_1_0_0_1_n_n_wf : DotDims.WF S2048x512 S512x640 S2048x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S512.size a
  hwx0_1 : ∀ i : grid0.Coords, EltTy.bits .f32 = 32 ∨ (Rect.block (s := S512) S512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .bf16 = 32 ∨ (Rect.block (s := S512x1536) S512x1536.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x512.size a
  hwx0_4 : ∀ i : grid0.Coords, EltTy.bits .bf16 = 32 ∨ (Rect.block (s := S8192x512) S1024x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x512.size a
  hwx0_5 : ∀ i : grid0.Coords, EltTy.bits .bf16 = 32 ∨ (Rect.block (s := S8192x512) S1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S8192x512.size a
  hwx0_6 : ∀ i : grid0.Coords, EltTy.bits .bf16 = 32 ∨ (Rect.block (s := S8192x512) S1024x512.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S4x2048x512.size a
  hwx1_0 : ∀ i : grid1.Coords, EltTy.bits .f32 = 32 ∨ (Rect.block (s := S4x2048x512) S1x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S4x2048x512.size a
  hwx1_1 : ∀ i : grid1.Coords, EltTy.bits .bf16 = 32 ∨ (Rect.block (s := S4x2048x512) S1x512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x512.size a ≤ S4x2048x512.size a
  hwx1_2 : ∀ i : grid1.Coords, EltTy.bits .bf16 = 32 ∨ (Rect.block (s := S4x2048x512) S1x512x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x512.size a ≤ S4x2048x512.size a
  hwx1_3 : ∀ i : grid1.Coords, EltTy.bits .bf16 = 32 ∨ (Rect.block (s := S4x2048x512) S1x512x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x512.size a ≤ S4x2048x512.size a
  hwx1_4 : ∀ i : grid1.Coords, EltTy.bits .f32 = 32 ∨ (Rect.block (s := S4x2048x512) S1x512x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .f32 = 32 ∨ (Rect.block (s := S8192x512) S1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512.size a ≤ S512.size a
  hwx2_1 : ∀ i : grid2.Coords, EltTy.bits .f32 = 32 ∨ (Rect.block (s := S512) S512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S512.size a
  hwx2_2 : ∀ i : grid2.Coords, EltTy.bits .f32 = 32 ∨ (Rect.block (s := S512) S512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x2048.size a ≤ S512x2048.size a
  hwx2_3 : ∀ i : grid2.Coords, EltTy.bits .bf16 = 32 ∨ (Rect.block (s := S512x2048) S512x2048.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2048.size a ≤ S2048.size a
  hwx2_4 : ∀ i : grid2.Coords, EltTy.bits .f32 = 32 ∨ (Rect.block (s := S2048) S2048.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2048x512.size a ≤ S2048x512.size a
  hwx2_5 : ∀ i : grid2.Coords, EltTy.bits .bf16 = 32 ∨ (Rect.block (s := S2048x512) S2048x512.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S512.size a ≤ S512.size a
  hwx2_6 : ∀ i : grid2.Coords, EltTy.bits .f32 = 32 ∨ (Rect.block (s := S512) S512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x512.size a ≤ S8192x512.size a
  hwx2_7 : ∀ i : grid2.Coords, EltTy.bits .bf16 = 32 ∨ (Rect.block (s := S8192x512) S1024x512.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x512.size a ≤ S8192x512.size a
  hwx3_0 : ∀ i : grid3.Coords, EltTy.bits .bf16 = 32 ∨ (Rect.block (s := S8192x512) S2048x512.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x640.size a ≤ S512x32000.size a
  hwx3_1 : ∀ i : grid3.Coords, EltTy.bits .bf16 = 32 ∨ (Rect.block (s := S512x32000) S512x640.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x640.size a ≤ S1x32000.size a
  hwx3_2 : ∀ i : grid3.Coords, EltTy.bits .f32 = 32 ∨ (Rect.block (s := S1x32000) S1x640.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x1.size a ≤ S8192x1.size a
  hwx3_3 : ∀ i : grid3.Coords, EltTy.bits .i32 = 32 ∨ (Rect.block (s := S8192x1) S2048x1.size (cc3_transform_3 i) (hinb3_3 i)).WholeWords (EltTy.packing .i32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x640.size a ≤ S8192x32000.size a
  hwx3_4 : ∀ i : grid3.Coords, EltTy.bits .f32 = 32 ∨ (Rect.block (s := S8192x32000) S2048x640.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x1.size a ≤ S8192x1.size a
  hwx3_5 : ∀ i : grid3.Coords, EltTy.bits .f32 = 32 ∨ (Rect.block (s := S8192x1) S2048x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2048x1.size a ≤ S8192x1.size a
  hwx3_6 : ∀ i : grid3.Coords, EltTy.bits .f32 = 32 ∨ (Rect.block (s := S8192x1) S2048x1.size (cc3_transform_6 i) (hinb3_6 i)).WholeWords (EltTy.packing .f32)

variable [Facts₀]

def gather_S32000x512_S4x2048x1_S4x2048x512_2_0_n_n_0_2_1512 : GatherDims S32000x512 S4x2048x1 S4x2048x512 where
  offsetDims := [2]
  collapsedSliceDims := [0]
  operandBatchingDims := []
  startIndicesBatchingDims := []
  startIndexMap := [0]
  indexVectorDim := 2
  sliceSizes := ![1, 512]
  wf := gather_S32000x512_S4x2048x1_S4x2048x512_2_0_n_n_0_2_1512_wf
def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S2048x512_S512x640_S2048x640_1_0_0_1_n_n : DotDims S2048x512 S512x640 S2048x640 where
  lhsContracting := [1]
  rhsContracting := [0]
  lhsNonContracting := [0]
  rhsNonContracting := [1]
  lhsBatch := []
  rhsBatch := []
  wf := dot_S2048x512_S512x640_S2048x640_1_0_0_1_n_n_wf

abbrev win0_0 : Pipeline.Window sig grid0 :=
  Pipeline.Window.ofSpec (Memref.whole main_v10) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg11) S512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg12) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16_0) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_1) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16_2) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v9) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond3 i == 1#1) | ⟨_ + 5, h⟩ => absurd h (Nat.not_lt.2 (Nat.le_add_left _ _))

abbrev win2_0 : Pipeline.Window sig grid2 :=
  Pipeline.Window.ofSpec (Memref.whole main_v21) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg13) S512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S512x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25) S2048x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v26) S1024x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v26) S2048x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S512x640.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S1x640.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v30) S2048x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v31_0) S2048x640.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v31_1) S2048x1.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v31_2) S2048x1.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun i => !(k3_cond2 i == 1#1) | 6 => fun i => !(k3_cond2 i == 1#1) | ⟨_ + 7, h⟩ => absurd h (Nat.not_lt.2 (Nat.le_add_left _ _))

class Facts : Prop extends Facts₀ where

variable [Facts]
-- ==== ReferenceIdeal.lean ====
abbrev S4x2048 : Shape := ⟨2, ![4, 2048]⟩
abbrev S32000x512 : Shape := ⟨2, ![32000, 512]⟩
abbrev S2048x512 : Shape := ⟨2, ![2048, 512]⟩
abbrev S512x512 : Shape := ⟨2, ![512, 512]⟩
abbrev S2048 : Shape := ⟨1, ![2048]⟩
abbrev S512x2048 : Shape := ⟨2, ![512, 2048]⟩
abbrev S512 : Shape := ⟨1, ![512]⟩
abbrev S32000 : Shape := ⟨1, ![32000]⟩
abbrev S_ : Shape := ⟨0, ![]⟩
abbrev S4x2048x1 : Shape := ⟨3, ![4, 2048, 1]⟩
abbrev S4x2048x512 : Shape := ⟨3, ![4, 2048, 512]⟩
abbrev S1x2048x512 : Shape := ⟨3, ![1, 2048, 512]⟩
abbrev S1x1x512 : Shape := ⟨3, ![1, 1, 512]⟩
abbrev S4x2048x2048 : Shape := ⟨3, ![4, 2048, 2048]⟩
abbrev S2048x2048 : Shape := ⟨2, ![2048, 2048]⟩
abbrev S1x1x2048 : Shape := ⟨3, ![1, 1, 2048]⟩
abbrev S4x2048x32000 : Shape := ⟨3, ![4, 2048, 32000]⟩
abbrev S1x1x32000 : Shape := ⟨3, ![1, 1, 32000]⟩
abbrev S8192x32000 : Shape := ⟨2, ![8192, 32000]⟩
abbrev S8192 : Shape := ⟨1, ![8192]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 186
  | .vmem => 0
  | .smem => 0
  | _ => 0

abbrev hbmTy0_0 (i : Nat) : BufTy := match i % 128 with
  | 0 => ⟨S4x2048, .i32⟩
  | 1 => ⟨S4x2048, .i32⟩
  | 2 => ⟨S32000x512, .f32⟩
  | 3 => ⟨S2048x512, .f32⟩
  | 4 => ⟨S512x512, .f32⟩
  | 5 => ⟨S512x512, .f32⟩
  | 6 => ⟨S512x512, .f32⟩
  | 7 => ⟨S2048x512, .f32⟩
  | 8 => ⟨S2048, .f32⟩
  | 9 => ⟨S512x2048, .f32⟩
  | 10 => ⟨S512, .f32⟩
  | 11 => ⟨S512, .f32⟩
  | 12 => ⟨S512, .f32⟩
  | 13 => ⟨S512, .f32⟩
  | 14 => ⟨S512, .f32⟩
  | 15 => ⟨S32000x512, .f32⟩
  | 16 => ⟨S32000, .f32⟩
  | 17 => ⟨S_, .i32⟩
  | 18 => ⟨S4x2048, .i32⟩
  | 19 => ⟨S4x2048, .i1⟩
  | 20 => ⟨S_, .i32⟩
  | 21 => ⟨S4x2048, .i32⟩
  | 22 => ⟨S4x2048, .i32⟩
  | 23 => ⟨S4x2048, .i32⟩
  | 24 => ⟨S4x2048x1, .i32⟩
  | 25 => ⟨S4x2048x512, .f32⟩
  | 26 => ⟨S1x2048x512, .f32⟩
  | 27 => ⟨S4x2048x512, .f32⟩
  | 28 => ⟨S4x2048x512, .f32⟩
  | 29 => ⟨S_, .f32⟩
  | 30 => ⟨S4x2048, .f32⟩
  | 31 => ⟨S4x2048x1, .f32⟩
  | 32 => ⟨S_, .f32⟩
  | 33 => ⟨S4x2048x1, .f32⟩
  | 34 => ⟨S4x2048x1, .f32⟩
  | 35 => ⟨S4x2048x512, .f32⟩
  | 36 => ⟨S4x2048x512, .f32⟩
  | 37 => ⟨S4x2048x512, .f32⟩
  | 38 => ⟨S_, .f32⟩
  | 39 => ⟨S4x2048, .f32⟩
  | 40 => ⟨S4x2048x1, .f32⟩
  | 41 => ⟨S_, .f32⟩
  | 42 => ⟨S4x2048x1, .f32⟩
  | 43 => ⟨S4x2048x1, .f32⟩
  | 44 => ⟨S4x2048x512, .f32⟩
  | 45 => ⟨S4x2048x512, .f32⟩
  | 46 => ⟨S_, .f32⟩
  | 47 => ⟨S4x2048x1, .f32⟩
  | 48 => ⟨S4x2048x1, .f32⟩
  | 49 => ⟨S4x2048x1, .f32⟩
  | 50 => ⟨S4x2048x512, .f32⟩
  | 51 => ⟨S4x2048x512, .f32⟩
  | 52 => ⟨S1x1x512, .f32⟩
  | 53 => ⟨S4x2048x512, .f32⟩
  | 54 => ⟨S4x2048x512, .f32⟩
  | 55 => ⟨S1x1x512, .f32⟩
  | 56 => ⟨S4x2048x512, .f32⟩
  | 57 => ⟨S4x2048x512, .f32⟩
  | 58 => ⟨S4x2048x512, .f32⟩
  | 59 => ⟨S4x2048x512, .f32⟩
  | 60 => ⟨S4x2048x512, .f32⟩
  | 61 => ⟨S4x2048x2048, .f32⟩
  | 62 => ⟨S_, .f32⟩
  | 63 => ⟨S4x2048x2048, .f32⟩
  | 64 => ⟨S4x2048x2048, .f32⟩
  | 65 => ⟨S_, .i1⟩
  | 66 => ⟨S2048x2048, .i1⟩
  | 67 => ⟨S2048x2048, .i32⟩
  | 68 => ⟨S_, .i32⟩
  | 69 => ⟨S2048x2048, .i32⟩
  | 70 => ⟨S2048x2048, .i32⟩
  | 71 => ⟨S2048x2048, .i32⟩
  | 72 => ⟨S2048x2048, .i1⟩
  | 73 => ⟨S_, .i1⟩
  | 74 => ⟨S2048x2048, .i1⟩
  | 75 => ⟨S2048x2048, .i1⟩
  | 76 => ⟨S_, .f32⟩
  | 77 => ⟨S_, .f32⟩
  | 78 => ⟨S4x2048x2048, .i1⟩
  | 79 => ⟨S4x2048x2048, .f32⟩
  | 80 => ⟨S4x2048x2048, .f32⟩
  | 81 => ⟨S_, .f32⟩
  | 82 => ⟨S4x2048, .f32⟩
  | 83 => ⟨S_, .f32⟩
  | 84 => ⟨S4x2048, .f32⟩
  | 85 => ⟨S4x2048, .f32⟩
  | 86 => ⟨S4x2048x1, .f32⟩
  | 87 => ⟨S4x2048x2048, .f32⟩
  | 88 => ⟨S4x2048x2048, .f32⟩
  | 89 => ⟨S4x2048x2048, .f32⟩
  | 90 => ⟨S_, .f32⟩
  | 91 => ⟨S4x2048, .f32⟩
  | 92 => ⟨S4x2048x1, .f32⟩
  | 93 => ⟨S4x2048x2048, .f32⟩
  | 94 => ⟨S4x2048x2048, .f32⟩
  | 95 => ⟨S4x2048x512, .f32⟩
  | 96 => ⟨S4x2048x512, .f32⟩
  | 97 => ⟨S_, .f32⟩
  | 98 => ⟨S4x2048, .f32⟩
  | 99 => ⟨S4x2048x1, .f32⟩
  | 100 => ⟨S_, .f32⟩
  | 101 => ⟨S4x2048x1, .f32⟩
  | 102 => ⟨S4x2048x1, .f32⟩
  | 103 => ⟨S4x2048x512, .f32⟩
  | 104 => ⟨S4x2048x512, .f32⟩
  | 105 => ⟨S4x2048x512, .f32⟩
  | 106 => ⟨S_, .f32⟩
  | 107 => ⟨S4x2048, .f32⟩
  | 108 => ⟨S4x2048x1, .f32⟩
  | 109 => ⟨S_, .f32⟩
  | 110 => ⟨S4x2048x1, .f32⟩
  | 111 => ⟨S4x2048x1, .f32⟩
  | 112 => ⟨S4x2048x512, .f32⟩
  | 113 => ⟨S4x2048x512, .f32⟩
  | 114 => ⟨S_, .f32⟩
  | 115 => ⟨S4x2048x1, .f32⟩
  | 116 => ⟨S4x2048x1, .f32⟩
  | 117 => ⟨S4x2048x1, .f32⟩
  | 118 => ⟨S4x2048x512, .f32⟩
  | 119 => ⟨S4x2048x512, .f32⟩
  | 120 => ⟨S1x1x512, .f32⟩
  | 121 => ⟨S4x2048x512, .f32⟩
  | 122 => ⟨S4x2048x512, .f32⟩
  | 123 => ⟨S1x1x512, .f32⟩
  | 124 => ⟨S4x2048x512, .f32⟩
  | 125 => ⟨S4x2048x512, .f32⟩
  | 126 => ⟨S4x2048x2048, .f32⟩
  | 127 => ⟨S1x1x2048, .f32⟩
  | _ => ⟨S4x2048, .i32⟩

abbrev hbmTy0_1 (i : Nat) : BufTy := match i % 128 with
  | 0 => ⟨S4x2048x2048, .f32⟩
  | 1 => ⟨S4x2048x2048, .f32⟩
  | 2 => ⟨S_, .f32⟩
  | 3 => ⟨S4x2048x2048, .f32⟩
  | 4 => ⟨S4x2048x2048, .f32⟩
  | 5 => ⟨S4x2048x512, .f32⟩
  | 6 => ⟨S4x2048x512, .f32⟩
  | 7 => ⟨S1x1x512, .f32⟩
  | 8 => ⟨S4x2048x512, .f32⟩
  | 9 => ⟨S4x2048x512, .f32⟩
  | 10 => ⟨S4x2048x32000, .f32⟩
  | 11 => ⟨S1x1x32000, .f32⟩
  | 12 => ⟨S4x2048x32000, .f32⟩
  | 13 => ⟨S4x2048x32000, .f32⟩
  | 14 => ⟨S8192x32000, .f32⟩
  | 15 => ⟨S_, .f32⟩
  | 16 => ⟨S8192, .f32⟩
  | 17 => ⟨S_, .f32⟩
  | 18 => ⟨S8192, .f32⟩
  | 19 => ⟨S8192, .f32⟩
  | 20 => ⟨S8192x1, .f32⟩
  | 21 => ⟨S8192x32000, .f32⟩
  | 22 => ⟨S8192x32000, .f32⟩
  | 23 => ⟨S8192x32000, .f32⟩
  | 24 => ⟨S_, .f32⟩
  | 25 => ⟨S8192, .f32⟩
  | 26 => ⟨S8192x1, .f32⟩
  | 27 => ⟨S8192x1, .f32⟩
  | 28 => ⟨S8192x32000, .f32⟩
  | 29 => ⟨S8192x32000, .f32⟩
  | 30 => ⟨S8192x1, .i32⟩
  | 31 => ⟨S_, .i32⟩
  | 32 => ⟨S8192x1, .i32⟩
  | 33 => ⟨S8192x1, .i1⟩
  | 34 => ⟨S_, .i32⟩
  | 35 => ⟨S8192x1, .i32⟩
  | 36 => ⟨S8192x1, .i32⟩
  | 37 => ⟨S8192x1, .i32⟩
  | 38 => ⟨S8192x1x1, .i32⟩
  | 39 => ⟨S1, .i32⟩
  | 40 => ⟨S_, .i32⟩
  | 41 => ⟨S8192x1x1, .i32⟩
  | 42 => ⟨S8192x1x1, .i1⟩
  | 43 => ⟨S1x1x1, .i32⟩
  | 44 => ⟨S8192x1x1, .i32⟩
  | 45 => ⟨S8192x1x1, .i1⟩
  | 46 => ⟨S8192x1x1, .i1⟩
  | 47 => ⟨S_, .i1⟩
  | 48 => ⟨S8192x1, .i1⟩
  | 49 => ⟨S8192x1, .f32⟩
  | 50 => ⟨S_, .f32⟩
  | 51 => ⟨S8192x1, .f32⟩
  | 52 => ⟨S8192x1, .f32⟩
  | 53 => ⟨S_, .f32⟩
  | 54 => ⟨S_, .f32⟩
  | 55 => ⟨S_, .f32⟩
  | 56 => ⟨S_, .f32⟩
  | 57 => ⟨S_, .f32⟩
  | _ => ⟨S4x2048, .i32⟩

abbrev hbmTy (i : Nat) : BufTy := match i / 128 with
  | 0 => hbmTy0_0 i
  | 1 => hbmTy0_1 i
  | _ => ⟨S4x2048, .i32⟩

abbrev bufTy : (tb : Table) → Fin (tcTables nBuf tb) → BufTy
  | .hbm, ⟨i, _⟩ => hbmTy i
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_c_6 : Ref sig .tc := ⟨.hbm, 65, rfl⟩
abbrev main_v40 : Ref sig .tc := ⟨.hbm, 66, rfl⟩
abbrev main_call0_v0 : Ref sig .tc := ⟨.hbm, 67, rfl⟩
abbrev main_call0_c : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_c_0 : Ref sig .tc := ⟨.hbm, 73, rfl⟩
abbrev main_call0_v5 : Ref sig .tc := ⟨.hbm, 74, rfl⟩
abbrev main_v41 : Ref sig .tc := ⟨.hbm, 75, rfl⟩
abbrev main_cst_7 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v42 : Ref sig .tc := ⟨.hbm, 80, rfl⟩
abbrev main_cst_8 : Ref sig .tc := ⟨.hbm, 81, rfl⟩
abbrev main_v43 : Ref sig .tc := ⟨.hbm, 82, rfl⟩
abbrev main_cst_9 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_10 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_11 : Ref sig .tc := ⟨.hbm, 97, rfl⟩
abbrev main_v56 : Ref sig .tc := ⟨.hbm, 98, rfl⟩
abbrev main_v57 : Ref sig .tc := ⟨.hbm, 99, rfl⟩
abbrev main_cst_12 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_13 : Ref sig .tc := ⟨.hbm, 106, rfl⟩
abbrev main_v63 : Ref sig .tc := ⟨.hbm, 107, rfl⟩
abbrev main_v64 : Ref sig .tc := ⟨.hbm, 108, rfl⟩
abbrev main_cst_14 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_cst_15 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_call2_cst : Ref sig .tc := ⟨.hbm, 130, rfl⟩
abbrev main_call2_v0 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_call3_cst : Ref sig .tc := ⟨.hbm, 143, rfl⟩
abbrev main_call3_v0 : Ref sig .tc := ⟨.hbm, 144, rfl⟩
abbrev main_call3_cst_0 : Ref sig .tc := ⟨.hbm, 145, rfl⟩
abbrev main_call3_v1 : Ref sig .tc := ⟨.hbm, 146, rfl⟩
abbrev main_call3_v2 : Ref sig .tc := ⟨.hbm, 147, rfl⟩
abbrev main_call3_v3 : Ref sig .tc := ⟨.hbm, 148, rfl⟩
abbrev main_call3_v4 : Ref sig .tc := ⟨.hbm, 149, rfl⟩
abbrev main_call3_v5 : Ref sig .tc := ⟨.hbm, 150, rfl⟩
abbrev main_call3_v6 : Ref sig .tc := ⟨.hbm, 151, rfl⟩
abbrev main_call3_cst_1 : Ref sig .tc := ⟨.hbm, 152, rfl⟩
abbrev main_call3_v7 : Ref sig .tc := ⟨.hbm, 153, rfl⟩
abbrev main_call3_v8 : Ref sig .tc := ⟨.hbm, 154, rfl⟩
abbrev main_call3_v9 : Ref sig .tc := ⟨.hbm, 155, rfl⟩
abbrev main_call3_v10 : Ref sig .tc := ⟨.hbm, 156, rfl⟩
abbrev main_v95 : Ref sig .tc := ⟨.hbm, 157, rfl⟩
abbrev main_v96 : Ref sig .tc := ⟨.hbm, 158, rfl⟩
abbrev main_call4_c : Ref sig .tc := ⟨.hbm, 159, rfl⟩
abbrev main_call4_v0 : Ref sig .tc := ⟨.hbm, 160, rfl⟩
abbrev main_call4_v1 : Ref sig .tc := ⟨.hbm, 161, rfl⟩
abbrev main_call4_c_0 : Ref sig .tc := ⟨.hbm, 162, rfl⟩
abbrev main_call4_v2 : Ref sig .tc := ⟨.hbm, 163, rfl⟩
abbrev main_call4_v3 : Ref sig .tc := ⟨.hbm, 164, rfl⟩
abbrev main_call4_v4 : Ref sig .tc := ⟨.hbm, 165, rfl⟩
abbrev main_call4_v5 : Ref sig .tc := ⟨.hbm, 166, rfl⟩
abbrev main_call4_c_1 : Ref sig .tc := ⟨.hbm, 167, rfl⟩
abbrev main_call4_c_2 : Ref sig .tc := ⟨.hbm, 168, rfl⟩
abbrev main_call4_v6 : Ref sig .tc := ⟨.hbm, 169, rfl⟩
abbrev main_call4_v7 : Ref sig .tc := ⟨.hbm, 170, rfl⟩
abbrev main_call4_v8 : Ref sig .tc := ⟨.hbm, 171, rfl⟩
abbrev main_call4_v9 : Ref sig .tc := ⟨.hbm, 172, rfl⟩
abbrev main_call4_v10 : Ref sig .tc := ⟨.hbm, 173, rfl⟩
abbrev main_call4_v11 : Ref sig .tc := ⟨.hbm, 174, rfl⟩
abbrev main_call4_c_3 : Ref sig .tc := ⟨.hbm, 175, rfl⟩
abbrev main_call4_v12 : Ref sig .tc := ⟨.hbm, 176, rfl⟩
abbrev main_call4_v13 : Ref sig .tc := ⟨.hbm, 177, rfl⟩
abbrev main_call4_cst : Ref sig .tc := ⟨.hbm, 178, rfl⟩
abbrev main_call4_v14 : Ref sig .tc := ⟨.hbm, 179, rfl⟩
abbrev main_v97 : Ref sig .tc := ⟨.hbm, 180, rfl⟩
abbrev main_cst_16 : Ref sig .tc := ⟨.hbm, 181, rfl⟩
abbrev main_v98 : Ref sig .tc := ⟨.hbm, 182, rfl⟩
abbrev main_cst_17 : Ref sig .tc := ⟨.hbm, 183, rfl⟩
abbrev main_v99 : Ref sig .tc := ⟨.hbm, 184, rfl⟩
abbrev main_v100 : Ref sig .tc := ⟨.hbm, 185, rfl⟩

abbrev nD : Nat := 1
abbrev τ : Topo := Topo.v7x

variable {F : FTy → Type} [FloatOps F]

class Facts₀ : Prop where
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S2048x512_S1x2048x512_1_2 : S2048x512.BroadcastsInDim S1x2048x512 (![1, 2] : Fin 2 → Fin S1x2048x512.rank)
  bcast_S1x2048x512_S4x2048x512_0_1_2 : S1x2048x512.BroadcastsInDim S4x2048x512 (![0, 1, 2] : Fin 3 → Fin S4x2048x512.rank)
  reducesTo_S4x2048x512_S4x2048_d2 : S4x2048x512.ReducesTo [2] S4x2048
  h_S_ : 0 < S_.numel
  bcast_S_S4x2048x1 : S_.BroadcastsInDim S4x2048x1 (![] : Fin 0 → Fin S4x2048x1.rank)
  bcast_S4x2048x1_S4x2048x512_0_1_2 : S4x2048x1.BroadcastsInDim S4x2048x512 (![0, 1, 2] : Fin 3 → Fin S4x2048x512.rank)
  bcast_S512_S1x1x512_2 : S512.BroadcastsInDim S1x1x512 (![2] : Fin 1 → Fin S1x1x512.rank)
  bcast_S1x1x512_S4x2048x512_0_1_2 : S1x1x512.BroadcastsInDim S4x2048x512 (![0, 1, 2] : Fin 3 → Fin S4x2048x512.rank)
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  reducesTo_S4x2048x2048_S4x2048_d2 : S4x2048x2048.ReducesTo [2] S4x2048
  bcast_S4x2048x1_S4x2048x2048_0_1_2 : S4x2048x1.BroadcastsInDim S4x2048x2048 (![0, 1, 2] : Fin 3 → Fin S4x2048x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  bcast_S32000_S1x1x32000_2 : S32000.BroadcastsInDim S1x1x32000 (![2] : Fin 1 → Fin S1x1x32000.rank)
  bcast_S1x1x32000_S4x2048x32000_0_1_2 : S1x1x32000.BroadcastsInDim S4x2048x32000 (![0, 1, 2] : Fin 3 → Fin S4x2048x32000.rank)
  shapeCasts_S4x2048x32000_S8192x32000 : S4x2048x32000.ShapeCasts S8192x32000
  reducesTo_S8192x32000_S8192_d1 : S8192x32000.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  shapeCasts_S4x2048_S8192x1 : S4x2048.ShapeCasts S8192x1
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  gather_S32000x512_S4x2048x1_S4x2048x512_2_0_n_n_0_2_1512_wf : GatherDims.WF S32000x512 S4x2048x1 S4x2048x512 [2] [0] [] [0] [] 2 ![1, 512]
  dot_S4x2048x512_S512x512_S4x2048x512_2_1_01_0_n_n_wf : DotDims.WF S4x2048x512 S512x512 S4x2048x512 [2] [1] [0, 1] [0] [] []
  dot_S4x2048x512_S4x2048x512_S4x2048x2048_2_2_1_1_0_0_wf : DotDims.WF S4x2048x512 S4x2048x512 S4x2048x2048 [2] [2] [1] [1] [0] [0]
  dot_S4x2048x2048_S4x2048x512_S4x2048x512_2_1_1_2_0_0_wf : DotDims.WF S4x2048x2048 S4x2048x512 S4x2048x512 [2] [1] [1] [2] [0] [0]
  dot_S4x2048x512_S2048x512_S4x2048x2048_2_1_01_0_n_n_wf : DotDims.WF S4x2048x512 S2048x512 S4x2048x2048 [2] [1] [0, 1] [0] [] []
  dot_S4x2048x2048_S512x2048_S4x2048x512_2_1_01_0_n_n_wf : DotDims.WF S4x2048x2048 S512x2048 S4x2048x512 [2] [1] [0, 1] [0] [] []
  dot_S4x2048x512_S32000x512_S4x2048x32000_2_1_01_0_n_n_wf : DotDims.WF S4x2048x512 S32000x512 S4x2048x32000 [2] [1] [0, 1] [0] [] []
  gather_S8192x32000_S8192x1x1_S8192x1_n_1_0_0_1_2_11_wf : GatherDims.WF S8192x32000 S8192x1x1 S8192x1 [] [1] [0] [1] [0] 2 ![1, 1]

variable [Facts₀]

def gather_S32000x512_S4x2048x1_S4x2048x512_2_0_n_n_0_2_1512 : GatherDims S32000x512 S4x2048x1 S4x2048x512 where
  offsetDims := [2]
  collapsedSliceDims := [0]
  operandBatchingDims := []
  startIndicesBatchingDims := []
  startIndexMap := [0]
  indexVectorDim := 2
  sliceSizes := ![1, 512]
  wf := gather_S32000x512_S4x2048x1_S4x2048x512_2_0_n_n_0_2_1512_wf
def dot_S4x2048x512_S512x512_S4x2048x512_2_1_01_0_n_n : DotDims S4x2048x512 S512x512 S4x2048x512 where
  lhsContracting := [2]
  rhsContracting := [1]
  lhsNonContracting := [0, 1]
  rhsNonContracting := [0]
  lhsBatch := []
  rhsBatch := []
  wf := dot_S4x2048x512_S512x512_S4x2048x512_2_1_01_0_n_n_wf
def dot_S4x2048x512_S4x2048x512_S4x2048x2048_2_2_1_1_0_0 : DotDims S4x2048x512 S4x2048x512 S4x2048x2048 where
  lhsContracting := [2]
  rhsContracting := [2]
  lhsNonContracting := [1]
  rhsNonContracting := [1]
  lhsBatch := [0]
  rhsBatch := [0]
  wf := dot_S4x2048x512_S4x2048x512_S4x2048x2048_2_2_1_1_0_0_wf
def dot_S4x2048x2048_S4x2048x512_S4x2048x512_2_1_1_2_0_0 : DotDims S4x2048x2048 S4x2048x512 S4x2048x512 where
  lhsContracting := [2]
  rhsContracting := [1]
  lhsNonContracting := [1]
  rhsNonContracting := [2]
  lhsBatch := [0]
  rhsBatch := [0]
  wf := dot_S4x2048x2048_S4x2048x512_S4x2048x512_2_1_1_2_0_0_wf
def dot_S4x2048x512_S2048x512_S4x2048x2048_2_1_01_0_n_n : DotDims S4x2048x512 S2048x512 S4x2048x2048 where
  lhsContracting := [2]
  rhsContracting := [1]
  lhsNonContracting := [0, 1]
  rhsNonContracting := [0]
  lhsBatch := []
  rhsBatch := []
  wf := dot_S4x2048x512_S2048x512_S4x2048x2048_2_1_01_0_n_n_wf
def dot_S4x2048x2048_S512x2048_S4x2048x512_2_1_01_0_n_n : DotDims S4x2048x2048 S512x2048 S4x2048x512 where
  lhsContracting := [2]
  rhsContracting := [1]
  lhsNonContracting := [0, 1]
  rhsNonContracting := [0]
  lhsBatch := []
  rhsBatch := []
  wf := dot_S4x2048x2048_S512x2048_S4x2048x512_2_1_01_0_n_n_wf
def dot_S4x2048x512_S32000x512_S4x2048x32000_2_1_01_0_n_n : DotDims S4x2048x512 S32000x512 S4x2048x32000 where
  lhsContracting := [2]
  rhsContracting := [1]
  lhsNonContracting := [0, 1]
  rhsNonContracting := [0]
  lhsBatch := []
  rhsBatch := []
  wf := dot_S4x2048x512_S32000x512_S4x2048x32000_2_1_01_0_n_n_wf
def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.K.Reg0.lean ====
import proofs.«421533_j19645180411976_3_alg».proof.Proof.Gen.Kernel.Launch
import proofs.«421533_j19645180411976_3_alg».proof.Proof.Gen.Kernel.Skeleton
import proofs.«421533_j19645180411976_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x512 := Rect.unit (s := S1024x512) ![0, 0] S1024x512.size inb_S1024x512_S1024x512_0_0
abbrev r0_1 : Rect S512 := Rect.unit (s := S512) ![0] S512.size inb_S512_S512_0
abbrev r0_2 : Rect S512x1536 := Rect.unit (s := S512x1536) ![0, 0] S512x1536.size inb_S512x1536_S512x1536_0_0

def out0_4 (x0 : Vec F S1024x512 .f32) (x1 : Vec F S512 .f32) (x2 : Vec F S512 .f32) (x3 : Vec F S512x1536 .bf16) : Vec F S1024x512 .bf16 :=
  View.canon [⟨r0_0, k0_pay2 (View.ld x0 r0_0) (View.ld x1 r0_1) (View.ld x2 r0_1) (View.ld x3 r0_2)⟩]

theorem cover0_4 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

def out0_5 (x0 : Vec F S1024x512 .f32) (x1 : Vec F S512 .f32) (x2 : Vec F S512 .f32) (x3 : Vec F S512x1536 .bf16) : Vec F S1024x512 .bf16 :=
  View.canon [⟨r0_0, k0_pay3 (View.ld x0 r0_0) (View.ld x1 r0_1) (View.ld x2 r0_1) (View.ld x3 r0_2)⟩]

theorem cover0_5 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

def out0_6 (x0 : Vec F S1024x512 .f32) (x1 : Vec F S512 .f32) (x2 : Vec F S512 .f32) (x3 : Vec F S512x1536 .bf16) : Vec F S1024x512 .bf16 :=
  View.canon [⟨r0_0, k0_pay4 (View.ld x0 r0_0) (View.ld x1 r0_1) (View.ld x2 r0_1) (View.ld x3 r0_2)⟩]

theorem cover0_6 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

set_option maxHeartbeats 4000000 in

theorem sound_kernel0 (c : Dev nD) (E : Set ℕ) (i : grid0.Coords) (arg1 : Memref sig .tc .vmem S1024x512 .f32) (harg1 : arg1.IsWhole) (arg2 : Memref sig .tc .vmem S512 .f32) (harg2 : arg2.IsWhole) (arg3 : Memref sig .tc .vmem S512 .f32) (harg3 : arg3.IsWhole) (arg4 : Memref sig .tc .vmem S512x1536 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole)
    (x0 : Vec F S1024x512 .f32) (x1 : Vec F S512 .f32) (x2 : Vec F S512 .f32) (x3 : Vec F S512x1536 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3)) -∗ K ⟨⟩))
      ⊢ wp frame (wpE (defs₀ (F := F)) Variants.none c none) E (cc0_qkv_kernel i arg1 harg1 arg2 harg2 arg3 harg3 arg4 harg4 arg5 harg5 arg6 harg6 arg7 harg7) K := by
  simp only [cc0_qkv_kernel_eq_skeleton]; unfold cc0_qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

theorem Phi_in0 (c : Dev nD) : (Pipeline.ΦA (U := UR sig nD τ) (Val := Elt F) spec0 c : sProp 𝕄) ⊢ (dat0 V c).Φ 0 := BI.Entails.refl _

theorem Phi_out0 (c : Dev nD) : (dat0 V c).Φ (Fin.last _) ⊢ (Pipeline.ΦA (U := UR sig nD τ) (Val := Elt F) spec0 c : sProp 𝕄) := BI.Entails.refl _

end Cert.Kernel.Hand

end
-- ==== Proof.K.Reg1.lean ====
import proofs.«421533_j19645180411976_3_alg».proof.Proof.Gen.Kernel.Launch
import proofs.«421533_j19645180411976_3_alg».proof.Proof.Gen.Kernel.Skeleton
import proofs.«421533_j19645180411976_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_1 (i : grid1.Coords) : Prop := (Scalar.cmpi .ne (Scalar.extui (Scalar.cmpi .eq (BitVec.ofNat 32 (i 2).val) 0#32)) 0#32) = 1#1

abbrev cond1_2 (i : grid1.Coords) : Prop := (Scalar.cmpi .ne (Scalar.extui (Scalar.cmpi .sle (BitVec.ofNat 32 (i 2).val) (BitVec.ofNat 32 (i 1).val))) 0#32) = 1#1

abbrev cond1_3 (i : grid1.Coords) : Prop := k1_cond3 i = 1#1

theorem hcond1_1 : ∀ t : Fin cfg1.N, cond1_1 (grid1.coords t) ↔ t.val % 4 = 0 :=
  (by decide +kernel : ∀ t : Fin grid1.N, cond1_1 (grid1.coords t) ↔ t.val % 4 = 0)
theorem hcond1_2 : ∀ t : Fin cfg1.N, cond1_2 (grid1.coords t) ↔ t.val % 4 ≤ t.val / 4 % 4 :=
  (by decide +kernel : ∀ t : Fin grid1.N, cond1_2 (grid1.coords t) ↔ t.val % 4 ≤ t.val / 4 % 4)
theorem hcond1_3 : ∀ t : Fin cfg1.N, cond1_3 (grid1.coords t) ↔ t.val % 4 = 3 :=
  (by decide +kernel : ∀ t : Fin grid1.N, cond1_3 (grid1.coords t) ↔ t.val % 4 = 3)

abbrev Sc (F : FTy → Type) : Type := Vec F S512x1 .f32 × Vec F S512x1 .f32 × Vec F S512x512 .f32

def scReset : Sc F := (k1_pay1, k1_pay2, k1_pay3)

def scUpd (a1 a2 : BitVec 32) (q k v : Vec F S1x512x512 .bf16) (s : Sc F) : Sc F :=
  (k1_pay5 (k1_pay9 a1 a2 q k s.1),
   k1_pay12 a1 a2 q k s.1 s.2.1,
   k1_pay4 (k1_pay7 v) (k1_pay10 a1 a2 q k s.1) (k1_pay11 a1 a2 q k s.1) s.2.2)

def scStepAt (i : grid1.Coords) (q k v : Vec F S1x512x512 .bf16) (s : Sc F) : Sc F :=
  let s1 := if cond1_1 i then scReset else s
  if cond1_2 i then scUpd (BitVec.ofNat 32 (i 1).val) (BitVec.ofNat 32 (i 2).val) q k v s1 else s1

def scStep (c : Dev nD) (t : Fin cfg1.N) (s : Sc F) : Sc F :=
  scStepAt (grid1.coords t) (iblk1 V c 1 t) (iblk1 V c 2 t) (iblk1 V c 3 t) s

def sc1N (c : Dev nD) : ℕ → Sc F
  | 0 => scReset
  | n + 1 => if h : n < cfg1.N then scStep V c ⟨n, h⟩ (sc1N c n) else sc1N c n

def sc1 (c : Dev nD) (t : Fin (cfg1.N + 1)) : Sc F := sc1N V c t.val

theorem sc1N_at (c : Dev nD) (t : Fin cfg1.N) : sc1N V c (t.val + 1) = scStep V c t (sc1N V c t.val) := by
  show (if h : t.val < cfg1.N then scStep V c ⟨t.val, h⟩ (sc1N V c t.val) else sc1N V c t.val) = _
  rw [dif_pos t.isLt]

theorem sc1_succ (c : Dev nD) (t : Fin cfg1.N) : sc1 V c t.succ = scStep V c t (sc1 V c t.castSucc) := by
  unfold sc1
  simp only [Fin.val_succ, Fin.coe_castSucc]
  exact sc1N_at V c t

theorem scStepAt_reset (i : grid1.Coords) (h1 : cond1_1 i) (h2 : cond1_2 i) (q k v : Vec F S1x512x512 .bf16) (s : Sc F) :
    scStepAt i q k v s = scUpd (BitVec.ofNat 32 (i 1).val) (BitVec.ofNat 32 (i 2).val) q k v scReset := by
  unfold scStepAt; simp only [if_pos h1, if_pos h2]
theorem scStepAt_upd (i : grid1.Coords) (h1 : ¬cond1_1 i) (h2 : cond1_2 i) (q k v : Vec F S1x512x512 .bf16) (s : Sc F) :
    scStepAt i q k v s = scUpd (BitVec.ofNat 32 (i 1).val) (BitVec.ofNat 32 (i 2).val) q k v s := by
  unfold scStepAt; simp only [if_neg h1, if_pos h2]
theorem scStepAt_keep (i : grid1.Coords) (h1 : ¬cond1_1 i) (h2 : ¬cond1_2 i) (q k v : Vec F S1x512x512 .bf16) (s : Sc F) :
    scStepAt i q k v s = s := by
  unfold scStepAt; simp only [if_neg h1, if_neg h2]

def out1_4 (x0 : Vec F S1x512x512 .f32) (s : Sc F) : Vec F S1x512x512 .f32 := k1_pay6 x0 s.2.2 s.2.1

abbrev scM1_0 : Memref sig .tc .vmem S512x1 .f32 := Memref.whole cc1_scratch0
abbrev scM1_1 : Memref sig .tc .vmem S512x1 .f32 := Memref.whole cc1_scratch1
abbrev scM1_2 : Memref sig .tc .vmem S512x512 .f32 := Memref.whole cc1_scratch2

def scOwn (c : Dev nD) (s : Sc F) : sProp 𝕄 :=
  iprop(owns (c : Thread nD τ) scM1_0 fullShare s.1 ∗ owns (c : Thread nD τ) scM1_1 fullShare s.2.1 ∗ owns (c : Thread nD τ) scM1_2 fullShare s.2.2)

def restBut1 (c : Dev nD) : sProp 𝕄 :=
  iprop(Pipeline.scopedRestBut (Ix := Unit) (Name := ℕ) (U := UR sig nD τ) (Lvl := ℕ) (Val := Elt F) spec1 c [cc1_scratch0, cc1_scratch1, cc1_scratch2] ∗ ∃ r, prngReg c r)

private theorem sep_assoc_eq1 (A B C : sProp 𝕄) : (iprop((A ∗ B) ∗ C) : sProp 𝕄) = iprop(A ∗ B ∗ C) := by
  have h₁ : iprop((A ∗ B) ∗ C) ⊢ (iprop(A ∗ B ∗ C) : sProp 𝕄) := by
    iintro ⟨⟨HA, HB⟩, HC⟩
    isplitl [HA]; · iexact HA
    isplitl [HB]; · iexact HB
    iexact HC
  have h₂ : iprop(A ∗ B ∗ C) ⊢ (iprop((A ∗ B) ∗ C) : sProp 𝕄) := by
    iintro ⟨HA, HB, HC⟩
    isplitl [HA HB]
    · isplitl [HA]; · iexact HA
      iexact HB
    iexact HC
  exact BI.equiv_iff.mp ⟨h₁, h₂⟩

theorem PhiA1_eq (c : Dev nD) :
    (Pipeline.ΦA (U := UR sig nD τ) (Val := Elt F) spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d))
          ∗ restBut1 (F := F) c) := by
  unfold Pipeline.ΦA restBut1; rw [scopedRest1_split]; simp only [scM1_0, scM1_1, scM1_2, owns_whole]
  rw [sep_assoc_eq1]
  rfl

def Phi1 (c : Dev nD) : ℕ → sProp 𝕄
  | 0 => Pipeline.ΦA (U := UR sig nD τ) (Val := Elt F) spec1 c
  | n + 1 => iprop(scOwn c (sc1N V c (n + 1)) ∗ restBut1 (F := F) c)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (sc1 V c t.succ)
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (sc1 V c t.succ) := by dsimp only [dat1]

private theorem hz2 : (![0, 0] : Fin 2 → Nat) = fun _ => 0 := funext fun a => by fin_cases a <;> rfl
private theorem hz3 : (![0, 0, 0] : Fin 3 → Nat) = fun _ => 0 := funext fun a => by fin_cases a <;> rfl

set_option maxHeartbeats 8000000 in

theorem run1_A (c : Dev nD) (i : grid1.Coords) (arg3 : Memref sig .tc .vmem S1x512x512 .f32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole)
    (hc1 : cond1_1 i) (hc2 : cond1_2 i) (hc3 : ¬cond1_3 i)
    (x0 : Vec F S1x512x512 .f32) (q k v : Vec F S1x512x512 .bf16) (xo : Vec F S1x512x512 .f32) (E : Set ℕ) (K : PUnit → sProp 𝕄) :
    iprop(owns (c : Thread nD τ) arg3 fullShare x0 ∗ owns (c : Thread nD τ) arg4 fullShare q ∗ owns (c : Thread nD τ) arg5 fullShare k ∗ owns (c : Thread nD τ) arg6 fullShare v ∗ owns (c : Thread nD τ) arg7 fullShare xo ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare q ∗ owns (c : Thread nD τ) arg5 fullShare k ∗ owns (c : Thread nD τ) arg6 fullShare v ∗ owns (c : Thread nD τ) arg7 fullShare xo ∗ owns (c : Thread nD τ) arg8 fullShare (scUpd (BitVec.ofNat 32 (i 1).val) (BitVec.ofNat 32 (i 2).val) q k v scReset).1 ∗ owns (c : Thread nD τ) arg9 fullShare (scUpd (BitVec.ofNat 32 (i 1).val) (BitVec.ofNat 32 (i 2).val) q k v scReset).2.1 ∗ owns (c : Thread nD τ) arg10 fullShare (scUpd (BitVec.ofNat 32 (i 1).val) (BitVec.ofNat 32 (i 2).val) q k v scReset).2.2) -∗ K ⟨⟩))
      ⊢ wp frame (wpE (defs₀ (F := F)) Variants.none c none) E (cc1_attn_kernel i arg3 harg3 arg4 harg4 arg5 harg5 arg6 harg6 arg7 harg7 arg8 harg8 arg9 harg9 arg10 harg10) K := by
  simp only [cc1_attn_kernel_eq_skeleton]; unfold cc1_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf3 hf4 hf5 hf6 hf7
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    (try sl_unfold_words)
    rw [View.read_writes_eq_canon _ _ _ (fun y => ⟨_, List.Mem.head _, View.mem_set_unit_zero hz2 inb_S512x1_S512x1_0_0 y⟩), View.canon_cons_unit_zero hz2]
    (try sl_unfold_words)
    (try simp only [scUpd, scReset, out1_4, View.readAt_eq_ld, View.readCov_cons_toLoadRect, View.ld_unit_zero (S := S1x512x512) hz3, View.ld_unit_zero (S := S512x1) hz2, View.ld_unit_zero (S := S512x512) hz2])
  isplitl [H9]
  · iexists _; isplitr
    swap; · iexact H9
    ipureintro
    (try sl_unfold_words)
    rw [View.read_writes_eq_canon _ _ _ (fun y => ⟨_, List.Mem.head _, View.mem_set_unit_zero hz2 inb_S512x1_S512x1_0_0 y⟩), View.canon_cons_unit_zero hz2]
    (try sl_unfold_words)
    (try simp only [scUpd, scReset, out1_4, View.readAt_eq_ld, View.readCov_cons_toLoadRect, View.ld_unit_zero (S := S1x512x512) hz3, View.ld_unit_zero (S := S512x1) hz2, View.ld_unit_zero (S := S512x512) hz2])
  iexists _; isplitr
  swap; · iexact H10
  ipureintro
  (try sl_unfold_words)
  rw [View.read_writes_eq_canon _ _ _ (fun y => ⟨_, List.Mem.head _, View.mem_set_unit_zero hz2 inb_S512x512_S512x512_0_0 y⟩), View.canon_cons_unit_zero hz2]
  (try sl_unfold_words)
  (try simp only [scUpd, scReset, out1_4, View.readAt_eq_ld, View.readCov_cons_toLoadRect, View.ld_unit_zero (S := S1x512x512) hz3, View.ld_unit_zero (S := S512x1) hz2, View.ld_unit_zero (S := S512x512) hz2])

set_option maxHeartbeats 8000000 in

theorem run1_B (c : Dev nD) (i : grid1.Coords) (arg3 : Memref sig .tc .vmem S1x512x512 .f32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole)
    (hc1 : ¬cond1_1 i) (hc2 : cond1_2 i) (hc3 : ¬cond1_3 i)
    (x0 : Vec F S1x512x512 .f32) (q k v : Vec F S1x512x512 .bf16) (xo : Vec F S1x512x512 .f32) (sm sl : Vec F S512x1 .f32) (sa : Vec F S512x512 .f32) (E : Set ℕ) (K : PUnit → sProp 𝕄) :
    iprop(owns (c : Thread nD τ) arg3 fullShare x0 ∗ owns (c : Thread nD τ) arg4 fullShare q ∗ owns (c : Thread nD τ) arg5 fullShare k ∗ owns (c : Thread nD τ) arg6 fullShare v ∗ owns (c : Thread nD τ) arg7 fullShare xo ∗ owns (c : Thread nD τ) arg8 fullShare sm ∗ owns (c : Thread nD τ) arg9 fullShare sl ∗ owns (c : Thread nD τ) arg10 fullShare sa
        ∗ (iprop(owns (c : Thread nD τ) arg3 fullShare x0 ∗ owns (c : Thread nD τ) arg4 fullShare q ∗ owns (c : Thread nD τ) arg5 fullShare k ∗ owns (c : Thread nD τ) arg6 fullShare v ∗ owns (c : Thread nD τ) arg7 fullShare xo ∗ owns (c : Thread nD τ) arg8 fullShare (scUpd (BitVec.ofNat 32 (i 1).val) (BitVec.ofNat 32 (i 2).val) q k v (sm, sl, sa)).1 ∗ owns (c : Thread nD τ) arg9 fullShare (scUpd (BitVec.ofNat 32 (i 1).val) (BitVec.ofNat 32 (i 2).val) q k v (sm, sl, sa)).2.1 ∗ owns (c : Thread nD τ) arg10 fullShare (scUpd (BitVec.ofNat 32 (i 1).val) (BitVec.ofNat 32 (i 2).val) q k v (sm, sl, sa)).2.2) -∗ K ⟨⟩))
      ⊢ wp frame (wpE (defs₀ (F := F)) Variants.none c none) E (cc1_attn_kernel i arg3 harg3 arg4 harg4 arg5 harg5 arg6 harg6 arg7 harg7 arg8 harg8 arg9 harg9 arg10 harg10) K := by
  simp only [cc1_attn_kernel_eq_skeleton]; unfold cc1_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf3 hf4 hf5 hf6 hf7 hf8 hf9 hf10
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    (try sl_unfold_words)
    rw [View.read_writes_eq_canon _ _ _ (fun y => ⟨_, List.Mem.head _, View.mem_set_unit_zero hz2 inb_S512x1_S512x1_0_0 y⟩), View.canon_cons_unit_zero hz2]
    (try sl_unfold_words)
    (try simp only [scUpd, scReset, out1_4, View.readAt_eq_ld, View.readCov_cons_toLoadRect, View.ld_unit_zero (S := S1x512x512) hz3, View.ld_unit_zero (S := S512x1) hz2, View.ld_unit_zero (S := S512x512) hz2])
  isplitl [H9]
  · iexists _; isplitr
    swap; · iexact H9
    ipureintro
    (try sl_unfold_words)
    rw [View.read_writes_eq_canon _ _ _ (fun y => ⟨_, List.Mem.head _, View.mem_set_unit_zero hz2 inb_S512x1_S512x1_0_0 y⟩), View.canon_cons_unit_zero hz2]
    (try sl_unfold_words)
    (try simp only [scUpd, scReset, out1_4, View.readAt_eq_ld, View.readCov_cons_toLoadRect, View.ld_unit_zero (S := S1x512x512) hz3, View.ld_unit_zero (S := S512x1) hz2, View.ld_unit_zero (S := S512x512) hz2])
  iexists _; isplitr
  swap; · iexact H10
  ipureintro
  (try sl_unfold_words)
  rw [View.read_writes_eq_canon _ _ _ (fun y => ⟨_, List.Mem.head _, View.mem_set_unit_zero hz2 inb_S512x512_S512x512_0_0 y⟩), View.canon_cons_unit_zero hz2]
  (try sl_unfold_words)
  (try simp only [scUpd, scReset, out1_4, View.readAt_eq_ld, View.readCov_cons_toLoadRect, View.ld_unit_zero (S := S1x512x512) hz3, View.ld_unit_zero (S := S512x1) hz2, View.ld_unit_zero (S := S512x512) hz2])

set_option maxHeartbeats 8000000 in

theorem run1_C (c : Dev nD) (i : grid1.Coords) (arg3 : Memref sig .tc .vmem S1x512x512 .f32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole)
    (hc1 : ¬cond1_1 i) (hc2 : cond1_2 i) (hc3 : cond1_3 i)
    (x0 : Vec F S1x512x512 .f32) (q k v : Vec F S1x512x512 .bf16) (sm sl : Vec F S512x1 .f32) (sa : Vec F S512x512 .f32) (E : Set ℕ) (K : PUnit → sProp 𝕄) :
    iprop(owns (c : Thread nD τ) arg3 fullShare x0 ∗ owns (c : Thread nD τ) arg4 fullShare q ∗ owns (c : Thread nD τ) arg5 fullShare k ∗ owns (c : Thread nD τ) arg6 fullShare v ∗ (∃ d, owns (c : Thread nD τ) arg7 fullShare d) ∗ owns (c : Thread nD τ) arg8 fullShare sm ∗ owns (c : Thread nD τ) arg9 fullShare sl ∗ owns (c : Thread nD τ) arg10 fullShare sa
        ∗ (iprop(owns (c : Thread nD τ) arg3 fullShare x0 ∗ owns (c : Thread nD τ) arg4 fullShare q ∗ owns (c : Thread nD τ) arg5 fullShare k ∗ owns (c : Thread nD τ) arg6 fullShare v ∗ owns (c : Thread nD τ) arg7 fullShare (out1_4 x0 (scUpd (BitVec.ofNat 32 (i 1).val) (BitVec.ofNat 32 (i 2).val) q k v (sm, sl, sa))) ∗ owns (c : Thread nD τ) arg8 fullShare (scUpd (BitVec.ofNat 32 (i 1).val) (BitVec.ofNat 32 (i 2).val) q k v (sm, sl, sa)).1 ∗ owns (c : Thread nD τ) arg9 fullShare (scUpd (BitVec.ofNat 32 (i 1).val) (BitVec.ofNat 32 (i 2).val) q k v (sm, sl, sa)).2.1 ∗ owns (c : Thread nD τ) arg10 fullShare (scUpd (BitVec.ofNat 32 (i 1).val) (BitVec.ofNat 32 (i 2).val) q k v (sm, sl, sa)).2.2) -∗ K ⟨⟩))
      ⊢ wp frame (wpE (defs₀ (F := F)) Variants.none c none) E (cc1_attn_kernel i arg3 harg3 arg4 harg4 arg5 harg5 arg6 harg6 arg7 harg7 arg8 harg8 arg9 harg9 arg10 harg10) K := by
  simp only [cc1_attn_kernel_eq_skeleton]; unfold cc1_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  subst hf3 hf4 hf5 hf6 hf8 hf9 hf10
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    (try sl_unfold_words)
    rw [View.read_writes_eq_canon _ _ _ (fun y => ⟨_, List.Mem.head _, View.mem_set_unit_zero hz3 inb_S1x512x512_S1x512x512_0_0_0 y⟩), View.canon_cons_unit_zero hz3]
    (try sl_unfold_words)
    (try simp only [scUpd, scReset, out1_4, View.readAt_eq_ld, View.readCov_cons_toLoadRect, View.ld_unit_zero (S := S1x512x512) hz3, View.ld_unit_zero (S := S512x1) hz2, View.ld_unit_zero (S := S512x512) hz2])
  isplitl [H8]
  · iexists _; isplitr
    swap; · iexact H8
    ipureintro
    (try sl_unfold_words)
    rw [View.read_writes_eq_canon _ _ _ (fun y => ⟨_, List.Mem.head _, View.mem_set_unit_zero hz2 inb_S512x1_S512x1_0_0 y⟩), View.canon_cons_unit_zero hz2]
    (try sl_unfold_words)
    (try simp only [scUpd, scReset, out1_4, View.readAt_eq_ld, View.readCov_cons_toLoadRect, View.ld_unit_zero (S := S1x512x512) hz3, View.ld_unit_zero (S := S512x1) hz2, View.ld_unit_zero (S := S512x512) hz2])
  isplitl [H9]
  · iexists _; isplitr
    swap; · iexact H9
    ipureintro
    (try sl_unfold_words)
    rw [View.read_writes_eq_canon _ _ _ (fun y => ⟨_, List.Mem.head _, View.mem_set_unit_zero hz2 inb_S512x1_S512x1_0_0 y⟩), View.canon_cons_unit_zero hz2]
    (try sl_unfold_words)
    (try simp only [scUpd, scReset, out1_4, View.readAt_eq_ld, View.readCov_cons_toLoadRect, View.ld_unit_zero (S := S1x512x512) hz3, View.ld_unit_zero (S := S512x1) hz2, View.ld_unit_zero (S := S512x512) hz2])
  iexists _; isplitr
  swap; · iexact H10
  ipureintro
  (try sl_unfold_words)
  rw [View.read_writes_eq_canon _ _ _ (fun y => ⟨_, List.Mem.head _, View.mem_set_unit_zero hz2 inb_S512x512_S512x512_0_0 y⟩), View.canon_cons_unit_zero hz2]
  (try sl_unfold_words)
  (try simp only [scUpd, scReset, out1_4, View.readAt_eq_ld, View.readCov_cons_toLoadRect, View.ld_unit_zero (S := S1x512x512) hz3, View.ld_unit_zero (S := S512x1) hz2, View.ld_unit_zero (S := S512x512) hz2])

set_option maxHeartbeats 8000000 in

theorem run1_D (c : Dev nD) (i : grid1.Coords) (arg3 : Memref sig .tc .vmem S1x512x512 .f32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole)
    (hc1 : ¬cond1_1 i) (hc2 : ¬cond1_2 i) (hc3 : ¬cond1_3 i)
    (x0 : Vec F S1x512x512 .f32) (q k v : Vec F S1x512x512 .bf16) (xo : Vec F S1x512x512 .f32) (sm sl : Vec F S512x1 .f32) (sa : Vec F S512x512 .f32) (E : Set ℕ) (K : PUnit → sProp 𝕄) :
    iprop(owns (c : Thread nD τ) arg3 fullShare x0 ∗ owns (c : Thread nD τ) arg4 fullShare q ∗ owns (c : Thread nD τ) arg5 fullShare k ∗ owns (c : Thread nD τ) arg6 fullShare v ∗ owns (c : Thread nD τ) arg7 fullShare xo ∗ owns (c : Thread nD τ) arg8 fullShare sm ∗ owns (c : Thread nD τ) arg9 fullShare sl ∗ owns (c : Thread nD τ) arg10 fullShare sa
        ∗ (iprop(owns (c : Thread nD τ) arg3 fullShare x0 ∗ owns (c : Thread nD τ) arg4 fullShare q ∗ owns (c : Thread nD τ) arg5 fullShare k ∗ owns (c : Thread nD τ) arg6 fullShare v ∗ owns (c : Thread nD τ) arg7 fullShare xo ∗ owns (c : Thread nD τ) arg8 fullShare sm ∗ owns (c : Thread nD τ) arg9 fullShare sl ∗ owns (c : Thread nD τ) arg10 fullShare sa) -∗ K ⟨⟩))
      ⊢ wp frame (wpE (defs₀ (F := F)) Variants.none c none) E (cc1_attn_kernel i arg3 harg3 arg4 harg4 arg5 harg5 arg6 harg6 arg7 harg7 arg8 harg8 arg9 harg9 arg10 harg10) K := by
  simp only [cc1_attn_kernel_eq_skeleton]; unfold cc1_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf3 hf4 hf5 hf6 hf7 hf8 hf9 hf10
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists f10; isplitr; · ipureintro; rfl
  iexact H10

set_option maxHeartbeats 8000000 in

theorem run1_E (c : Dev nD) (i : grid1.Coords) (arg3 : Memref sig .tc .vmem S1x512x512 .f32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole)
    (hc1 : ¬cond1_1 i) (hc2 : ¬cond1_2 i) (hc3 : cond1_3 i)
    (x0 : Vec F S1x512x512 .f32) (q k v : Vec F S1x512x512 .bf16) (sm sl : Vec F S512x1 .f32) (sa : Vec F S512x512 .f32) (E : Set ℕ) (K : PUnit → sProp 𝕄) :
    iprop(owns (c : Thread nD τ) arg3 fullShare x0 ∗ owns (c : Thread nD τ) arg4 fullShare q ∗ owns (c : Thread nD τ) arg5 fullShare k ∗ owns (c : Thread nD τ) arg6 fullShare v ∗ (∃ d, owns (c : Thread nD τ) arg7 fullShare d) ∗ owns (c : Thread nD τ) arg8 fullShare sm ∗ owns (c : Thread nD τ) arg9 fullShare sl ∗ owns (c : Thread nD τ) arg10 fullShare sa
        ∗ (iprop(owns (c : Thread nD τ) arg3 fullShare x0 ∗ owns (c : Thread nD τ) arg4 fullShare q ∗ owns (c : Thread nD τ) arg5 fullShare k ∗ owns (c : Thread nD τ) arg6 fullShare v ∗ owns (c : Thread nD τ) arg7 fullShare (out1_4 x0 (sm, sl, sa)) ∗ owns (c : Thread nD τ) arg8 fullShare sm ∗ owns (c : Thread nD τ) arg9 fullShare sl ∗ owns (c : Thread nD τ) arg10 fullShare sa) -∗ K ⟨⟩))
      ⊢ wp frame (wpE (defs₀ (F := F)) Variants.none c none) E (cc1_attn_kernel i arg3 harg3 arg4 harg4 arg5 harg5 arg6 harg6 arg7 harg7 arg8 harg8 arg9 harg9 arg10 harg10) K := by
  simp only [cc1_attn_kernel_eq_skeleton]; unfold cc1_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  subst hf3 hf4 hf5 hf6 hf8 hf9 hf10
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    (try sl_unfold_words)
    rw [View.read_writes_eq_canon _ _ _ (fun y => ⟨_, List.Mem.head _, View.mem_set_unit_zero hz3 inb_S1x512x512_S1x512x512_0_0_0 y⟩), View.canon_cons_unit_zero hz3]
    (try sl_unfold_words)
    (try simp only [scUpd, scReset, out1_4, View.readAt_eq_ld, View.readCov_cons_toLoadRect, View.ld_unit_zero (S := S1x512x512) hz3, View.ld_unit_zero (S := S512x1) hz2, View.ld_unit_zero (S := S512x512) hz2])
  isplitl [H8]
  · iexists f8; isplitr; · ipureintro; rfl
    iexact H8
  isplitl [H9]
  · iexists f9; isplitr; · ipureintro; rfl
    iexact H9
  iexists f10; isplitr; · ipureintro; rfl
  iexact H10

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

theorem idleAt1_4 : ∀ t : Fin cfg1.N, ¬cond1_3 (grid1.coords t) → cfg1.idle 4 (grid1.coords t) = true := by decide +kernel
theorem noFlush1_4 : ∀ t : Fin cfg1.N, ¬cond1_3 (grid1.coords t) → (cfg1.win 4).flush t = false := by decide +kernel
theorem liveAt1_4 : ∀ t : Fin cfg1.N, cond1_3 (grid1.coords t) → cfg1.idle 4 (grid1.coords t) = false := by decide +kernel

theorem leaves1_0 (c : Dev nD) (t : Fin cfg1.N) :
    (dat1 V c).leavesExact 0 t = owns (c : Thread nD τ) (st1_0 t) fullShare (iblk1 V c 0 t) := by
  rw [show (dat1 V c).leavesExact 0 t = owns (c : Thread nD τ) (st1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (st1_1 t) fullShare (iblk1 V c 1 t) := by
  rw [show (dat1 V c).leavesExact 1 t = owns (c : Thread nD τ) (st1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (st1_2 t) fullShare (iblk1 V c 2 t) := by
  rw [show (dat1 V c).leavesExact 2 t = owns (c : Thread nD τ) (st1_2 t) fullShare ((dat1 V c).after 2 t) from by
    unfold Dat.leavesExact; rw [liveAt1_2 t], after1_2]
theorem leaves1_3 (c : Dev nD) (t : Fin cfg1.N) :
    (dat1 V c).leavesExact 3 t = owns (c : Thread nD τ) (st1_3 t) fullShare (iblk1 V c 3 t) := by
  rw [show (dat1 V c).leavesExact 3 t = owns (c : Thread nD τ) (st1_3 t) fullShare ((dat1 V c).after 3 t) from by
    unfold Dat.leavesExact; rw [liveAt1_3 t], after1_3]

theorem Phi1_succ (c : Dev nD) (n : ℕ) : Phi1 V c (n + 1) = iprop(scOwn c (sc1N V c (n + 1)) ∗ restBut1 (F := F) c) := rfl

theorem Phi1_pos (c : Dev nD) (n : ℕ) (hn : n ≠ 0) : Phi1 V c n = iprop(scOwn c (sc1N V c n) ∗ restBut1 (F := F) c) := by
  cases n with
  | zero => exact absurd rfl hn
  | succ n => rfl

theorem Phi1_weak (c : Dev nD) (n : ℕ) :
    Phi1 V c n ⊢ (iprop(iprop((∃ d, owns (c : Thread nD τ) scM1_0 fullShare d) ∗ (∃ d, owns (c : Thread nD τ) scM1_1 fullShare d) ∗ (∃ d, owns (c : Thread nD τ) scM1_2 fullShare d))
      ∗ restBut1 (F := F) c) : sProp 𝕄) := by
  cases n with
  | zero => rw [show Phi1 V c 0 = Pipeline.ΦA (U := UR sig nD τ) (Val := Elt F) spec1 c from rfl, PhiA1_eq]
  | succ n =>
    rw [Phi1_succ]; unfold scOwn
    iintro ⟨⟨H0, H1, H2⟩, Hr⟩
    isplitl [H0 H1 H2]
    · isplitl [H0]; · iexists _; iexact H0
      isplitl [H1]; · iexists _; iexact H1
      iexists _; iexact H2
    iexact Hr

theorem Phi1_castSucc (c : Dev nD) (t : Fin cfg1.N) : (dat1 V c).Φ t.castSucc = Phi1 V c t.val := by
  dsimp only [dat1]; simp only [Fin.coe_castSucc]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) from rfl, Phi1_succ, sc1N_at, Phi1_castSucc]
  rw [leaves1_0, leaves1_1, leaves1_2, leaves1_3]
  have hN : t.val < 64 := lt_of_lt_of_eq t.isLt (show cfg1.N = 64 from N_1)
  unfold scStep scOwn
  by_cases h1 : cond1_1 (grid1.coords t)
  · have e1 := (hcond1_1 t).mp h1
    have h2 : cond1_2 (grid1.coords t) := (hcond1_2 t).mpr (by omega)
    have h3 : ¬cond1_3 (grid1.coords t) := fun h => by have := (hcond1_3 t).mp h; omega
    rw [Dat.leavesExact_idle (dat1 V c) 4 t (idleAt1_4 t h3) (noFlush1_4 t h3), scStepAt_reset _ h1 h2]
    refine (sep_mono (Phi1_weak V c t.val) .rfl).trans ?_
    iintro ⟨⟨⟨HS0, HS1, HS2⟩, Hr⟩, Ho, ⟨%d0, H0⟩, ⟨%d1, H1⟩, ⟨%d2, H2⟩, ⟨%d3, H3⟩, ⟨%d4, H4⟩⟩
    iapply (run1_A c (grid1.coords t) _ _ _ _ _ _ _ _ _ _ _ _ _ _ _ _ h1 h2 h3 (iblk1 V c 0 t) (iblk1 V c 1 t) (iblk1 V c 2 t) (iblk1 V c 3 t) _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS1 HS2 Hr]
    · isplitl [HS0 HS1 HS2]
      · isplitl [HS0]; · iexact HS0
        isplitl [HS1]; · iexact HS1
        iexact HS2
      iexact Hr
    isplitl [Ho]; · iexact Ho
    isplitl [H0]; · iexact H0
    isplitl [H1]; · iexact H1
    isplitl [H2]; · iexact H2
    isplitl [H3]; · iexact H3
    iexists _; iexact H4
  · have hz : t.val ≠ 0 := fun e => h1 ((hcond1_1 t).mpr (by rw [e]))
    rw [Phi1_pos V c _ hz]; unfold scOwn
    by_cases h2 : cond1_2 (grid1.coords t)
    · rw [scStepAt_upd _ h1 h2]
      by_cases h3 : cond1_3 (grid1.coords t)
      · rw [show (dat1 V c).leavesExact 4 t = owns (c : Thread nD τ) (st1_4 t) fullShare ((dat1 V c).after 4 t) from by
          unfold Dat.leavesExact; rw [liveAt1_4 t h3], after1_4, sc1_succ]
        unfold scStep sc1; simp only [Fin.coe_castSucc]; rw [scStepAt_upd _ h1 h2]
        iintro ⟨⟨⟨HS0, HS1, HS2⟩, Hr⟩, Ho, ⟨%d0, H0⟩, ⟨%d1, H1⟩, ⟨%d2, H2⟩, ⟨%d3, H3⟩, ⟨%d4, H4⟩⟩
        iapply (run1_C c (grid1.coords t) _ _ _ _ _ _ _ _ _ _ _ _ _ _ _ _ h1 h2 h3 (iblk1 V c 0 t) (iblk1 V c 1 t) (iblk1 V c 2 t) (iblk1 V c 3 t) (sc1N V c t.val).1 (sc1N V c t.val).2.1 (sc1N V c t.val).2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, H4, HS0, HS1, HS2⟩
        isplitl [HS0 HS1 HS2 Hr]
        · isplitl [HS0 HS1 HS2]
          · isplitl [HS0]; · iexact HS0
            isplitl [HS1]; · iexact HS1
            iexact HS2
          iexact Hr
        isplitl [Ho]; · iexact Ho
        isplitl [H0]; · iexact H0
        isplitl [H1]; · iexact H1
        isplitl [H2]; · iexact H2
        isplitl [H3]; · iexact H3
        iexact H4
      · rw [Dat.leavesExact_idle (dat1 V c) 4 t (idleAt1_4 t h3) (noFlush1_4 t h3)]
        iintro ⟨⟨⟨HS0, HS1, HS2⟩, Hr⟩, Ho, ⟨%d0, H0⟩, ⟨%d1, H1⟩, ⟨%d2, H2⟩, ⟨%d3, H3⟩, ⟨%d4, H4⟩⟩
        iapply (run1_B c (grid1.coords t) _ _ _ _ _ _ _ _ _ _ _ _ _ _ _ _ h1 h2 h3 (iblk1 V c 0 t) (iblk1 V c 1 t) (iblk1 V c 2 t) (iblk1 V c 3 t) _ (sc1N V c t.val).1 (sc1N V c t.val).2.1 (sc1N V c t.val).2.2 Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, HS0, HS1, HS2⟩
        isplitl [HS0 HS1 HS2 Hr]
        · isplitl [HS0 HS1 HS2]
          · isplitl [HS0]; · iexact HS0
            isplitl [HS1]; · iexact HS1
            iexact HS2
          iexact Hr
        isplitl [Ho]; · iexact Ho
        isplitl [H0]; · iexact H0
        isplitl [H1]; · iexact H1
        isplitl [H2]; · iexact H2
        isplitl [H3]; · iexact H3
        iexists _; iexact H4
    · rw [scStepAt_keep _ h1 h2]
      by_cases h3 : cond1_3 (grid1.coords t)
      · rw [show (dat1 V c).leavesExact 4 t = owns (c : Thread nD τ) (st1_4 t) fullShare ((dat1 V c).after 4 t) from by
          unfold Dat.leavesExact; rw [liveAt1_4 t h3], after1_4, sc1_succ]
        unfold scStep sc1; simp only [Fin.coe_castSucc]; rw [scStepAt_keep _ h1 h2]
        iintro ⟨⟨⟨HS0, HS1, HS2⟩, Hr⟩, Ho, ⟨%d0, H0⟩, ⟨%d1, H1⟩, ⟨%d2, H2⟩, ⟨%d3, H3⟩, ⟨%d4, H4⟩⟩
        iapply (run1_E c (grid1.coords t) _ _ _ _ _ _ _ _ _ _ _ _ _ _ _ _ h1 h2 h3 (iblk1 V c 0 t) (iblk1 V c 1 t) (iblk1 V c 2 t) (iblk1 V c 3 t) (sc1N V c t.val).1 (sc1N V c t.val).2.1 (sc1N V c t.val).2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, H4, HS0, HS1, HS2⟩
        isplitl [HS0 HS1 HS2 Hr]
        · isplitl [HS0 HS1 HS2]
          · isplitl [HS0]; · iexact HS0
            isplitl [HS1]; · iexact HS1
            iexact HS2
          iexact Hr
        isplitl [Ho]; · iexact Ho
        isplitl [H0]; · iexact H0
        isplitl [H1]; · iexact H1
        isplitl [H2]; · iexact H2
        isplitl [H3]; · iexact H3
        iexact H4
      · rw [Dat.leavesExact_idle (dat1 V c) 4 t (idleAt1_4 t h3) (noFlush1_4 t h3)]
        iintro ⟨⟨⟨HS0, HS1, HS2⟩, Hr⟩, Ho, ⟨%d0, H0⟩, ⟨%d1, H1⟩, ⟨%d2, H2⟩, ⟨%d3, H3⟩, ⟨%d4, H4⟩⟩
        iapply (run1_D c (grid1.coords t) _ _ _ _ _ _ _ _ _ _ _ _ _ _ _ _ h1 h2 h3 (iblk1 V c 0 t) (iblk1 V c 1 t) (iblk1 V c 2 t) (iblk1 V c 3 t) _ (sc1N V c t.val).1 (sc1N V c t.val).2.1 (sc1N V c t.val).2.2 Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, HS0, HS1, HS2⟩
        isplitl [HS0 HS1 HS2 Hr]
        · isplitl [HS0 HS1 HS2]
          · isplitl [HS0]; · iexact HS0
            isplitl [HS1]; · iexact HS1
            iexact HS2
          iexact Hr
        isplitl [Ho]; · iexact Ho
        isplitl [H0]; · iexact H0
        isplitl [H1]; · iexact H1
        isplitl [H2]; · iexact H2
        isplitl [H3]; · iexact H3
        iexists _; iexact H4

theorem body_obligation1 (c : Dev nD) : BodyObligation (dat1 (F := F) V c) (defs₀ (F := F)) Variants.none () Set.univ := fun t => by
  rw [bigSep_W1, bigSep_W1]
  exact sound_body1 V c t

theorem Phi_in1 (c : Dev nD) : (Pipeline.ΦA (U := UR sig nD τ) (Val := Elt F) spec1 c : sProp 𝕄) ⊢ (dat1 V c).Φ 0 := by
  rw [show (dat1 V c).Φ 0 = Phi1 V c 0 from rfl]
  exact .rfl

theorem Phi_out1 (c : Dev nD) : (dat1 V c).Φ (Fin.last _) ⊢ (Pipeline.ΦA (U := UR sig nD τ) (Val := Elt F) spec1 c : sProp 𝕄) := by
  rw [show (dat1 V c).Φ (Fin.last _) = Phi1 V c cfg1.N from rfl]
  exact (Phi1_weak V c cfg1.N).trans (by rw [PhiA1_eq])

end Cert.Kernel.Hand

end
-- ==== Proof.K.Reg2.lean ====
import proofs.«421533_j19645180411976_3_alg».proof.Proof.Gen.Kernel.Launch
import proofs.«421533_j19645180411976_3_alg».proof.Proof.Gen.Kernel.Skeleton
import proofs.«421533_j19645180411976_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1024x512 := Rect.unit (s := S1024x512) ![0, 0] S1024x512.size inb_S1024x512_S1024x512_0_0
abbrev r2_1 : Rect S512 := Rect.unit (s := S512) ![0] S512.size inb_S512_S512_0
abbrev r2_2 : Rect S512x2048 := Rect.unit (s := S512x2048) ![0, 0] S512x2048.size inb_S512x2048_S512x2048_0_0
abbrev r2_3 : Rect S2048 := Rect.unit (s := S2048) ![0] S2048.size inb_S2048_S2048_0
abbrev r2_4 : Rect S2048x512 := Rect.unit (s := S2048x512) ![0, 0] S2048x512.size inb_S2048x512_S2048x512_0_0

def out2_7 (x0 : Vec F S1024x512 .f32) (x1 : Vec F S512 .f32) (x2 : Vec F S512 .f32) (x3 : Vec F S512x2048 .bf16) (x4 : Vec F S2048 .f32) (x5 : Vec F S2048x512 .bf16) (x6 : Vec F S512 .f32) : Vec F S1024x512 .bf16 :=
  View.canon [⟨r2_0, k2_pay1 (k2_pay2 (View.ld x0 r2_0)) (k2_pay3 (View.ld x0 r2_0) (View.ld x1 r2_1) (View.ld x2 r2_1) (View.ld x3 r2_2) (View.ld x4 r2_3) (View.ld x5 r2_4)) (View.ld x6 r2_1)⟩]

theorem cover2_7 (p0 : Vec F S1024x512 .bf16) (y : S1024x512.Idx) :
    ∃ pc ∈ ([⟨r2_0, p0⟩] : List (View.Piece (Elt F) S1024x512 .bf16)), y ∈ pc.1.set :=
  View.cover_of_tiled [⟨r2_0, p0⟩] S1024x512.size (by rfl) y

set_option maxHeartbeats 4000000 in

theorem sound_kernel2 (c : Dev nD) (E : Set ℕ) (i : grid2.Coords) (arg1 : Memref sig .tc .vmem S1024x512 .f32) (harg1 : arg1.IsWhole) (arg2 : Memref sig .tc .vmem S512 .f32) (harg2 : arg2.IsWhole) (arg3 : Memref sig .tc .vmem S512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S2048x512 .bf16) (harg6 : arg6.IsWhole) (arg7 : Memref sig .tc .vmem S512 .f32) (harg7 : arg7.IsWhole) (arg8 : Memref sig .tc .vmem S1024x512 .bf16) (harg8 : arg8.IsWhole)
    (x0 : Vec F S1024x512 .f32) (x1 : Vec F S512 .f32) (x2 : Vec F S512 .f32) (x3 : Vec F S512x2048 .bf16) (x4 : Vec F S2048 .f32) (x5 : Vec F S2048x512 .bf16) (x6 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2_ffn_kernel i arg1 harg1 arg2 harg2 arg3 harg3 arg4 harg4 arg5 harg5 arg6 harg6 arg7 harg7 arg8 harg8) K := by
  simp only [cc2_ffn_kernel_eq_skeleton]; unfold cc2_ffn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

theorem Phi_in2 (c : Dev nD) : (Pipeline.ΦA (U := UR sig nD τ) (Val := Elt F) spec2 c : sProp 𝕄) ⊢ (dat2 V c).Φ 0 := BI.Entails.refl _

theorem Phi_out2 (c : Dev nD) : (dat2 V c).Φ (Fin.last _) ⊢ (Pipeline.ΦA (U := UR sig nD τ) (Val := Elt F) spec2 c : sProp 𝕄) := BI.Entails.refl _

end Cert.Kernel.Hand

end
-- ==== Proof.K.Reg3.lean ====
import proofs.«421533_j19645180411976_3_alg».proof.Proof.Gen.Kernel.Launch
import proofs.«421533_j19645180411976_3_alg».proof.Proof.Gen.Kernel.Skeleton
import proofs.«421533_j19645180411976_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rX3 : Rect S2048x512 := Rect.unit (s := S2048x512) ![0, 0] S2048x512.size inb_S2048x512_S2048x512_0_0
abbrev rW3 : Rect S512x640 := Rect.unit (s := S512x640) ![0, 0] S512x640.size inb_S512x640_S512x640_0_0
abbrev rB3 : Rect S1x640 := Rect.unit (s := S1x640) ![0, 0] S1x640.size inb_S1x640_S1x640_0_0
abbrev rL3 : Rect S2048x640 := Rect.unit (s := S2048x640) ![0, 0] S2048x640.size inb_S2048x640_S2048x640_0_0
abbrev rS3 : Rect S2048x1 := Rect.unit (s := S2048x1) ![0, 0] S2048x1.size inb_S2048x1_S2048x1_0_0

abbrev Sc3 (F : FTy → Type) : Type := Vec F S2048x1 .f32 × Vec F S2048x1 .f32 × Vec F S2048x1 .f32

def scReset3 : Sc3 F :=
  (View.canon [⟨rS3, k3_pay3 (F := F)⟩], View.canon [⟨rS3, k3_pay4 (F := F)⟩], View.canon [⟨rS3, k3_pay5 (F := F)⟩])

def lg3 (x0 : Vec F S2048x512 .bf16) (x1 : Vec F S512x640 .bf16) (x2 : Vec F S1x640 .f32) : FVec F S2048x640 .f32 :=
  k3_pay6 (View.ld x0 rX3) (View.ld x1 rW3) (View.ld x2 rB3)

def scUpd3 (vi : BitVec 32) (x0 : Vec F S2048x512 .bf16) (x1 : Vec F S512x640 .bf16) (x2 : Vec F S1x640 .f32) (x3 : Vec F S2048x1 .i32) (s : Sc3 F) : Sc3 F :=
  (View.canon [⟨rS3, k3_pay9 (View.ld x0 rX3) (View.ld x1 rW3) (View.ld x2 rB3) (View.ld s.1 rS3)⟩],
   View.canon [⟨rS3, k3_pay8 (View.ld x0 rX3) (View.ld x1 rW3) (View.ld x2 rB3) (View.ld s.1 rS3) (View.ld s.2.1 rS3)⟩],
   View.canon [⟨rS3, k3_pay1 vi (lg3 x0 x1 x2) (View.ld x3 rS3) (View.ld s.2.2 rS3)⟩])

def scStep3 (i : grid3.Coords) (x0 : Vec F S2048x512 .bf16) (x1 : Vec F S512x640 .bf16) (x2 : Vec F S1x640 .f32) (x3 : Vec F S2048x1 .i32) (s : Sc3 F) : Sc3 F :=
  scUpd3 (BitVec.ofNat 32 (i 1).val) x0 x1 x2 x3 (if (i 1).val = 0 then scReset3 else s)

def out3_4 (x0 : Vec F S2048x512 .bf16) (x1 : Vec F S512x640 .bf16) (x2 : Vec F S1x640 .f32) : Vec F S2048x640 .f32 :=
  View.canon [⟨rL3, lg3 x0 x1 x2⟩]

def out3_5 (s : Sc3 F) : Vec F S2048x1 .f32 :=
  View.canon [⟨rS3, k3_pay2 (View.ld s.1 rS3) (View.ld s.2.1 rS3)⟩]

def out3_6 (s : Sc3 F) : Vec F S2048x1 .f32 :=
  View.canon [⟨rS3, View.ld s.2.2 rS3⟩]

def sc3N (c : Dev nD) : (n : ℕ) → n ≤ cfg3.N → Sc3 F
  | 0, _ => scReset3
  | n + 1, hn => scStep3 (cfg3.grid.coords ⟨n, hn⟩) (iblk3 V c 0 ⟨n, hn⟩) (iblk3 V c 1 ⟨n, hn⟩) (iblk3 V c 2 ⟨n, hn⟩) (iblk3 V c 3 ⟨n, hn⟩) (sc3N c n (Nat.le_of_succ_le hn))

def sc3 (c : Dev nD) (t : Fin (cfg3.N + 1)) : Sc3 F := sc3N V c t.val (Nat.le_of_lt_succ t.isLt)

theorem sc3_succ (c : Dev nD) (t : Fin cfg3.N) :
    sc3 V c t.succ = scStep3 (cfg3.grid.coords t) (iblk3 V c 0 t) (iblk3 V c 1 t) (iblk3 V c 2 t) (iblk3 V c 3 t) (sc3 V c t.castSucc) := rfl

abbrev cond3_0 (i : grid3.Coords) : Prop := (Scalar.cmpi .ne (Scalar.extui (Scalar.cmpi .eq (BitVec.ofNat 32 (i 1).val) 0#32)) 0#32) = 1#1
abbrev cond3_1 (i : grid3.Coords) : Prop := k3_cond2 i = 1#1

theorem hcond3_0 : ∀ t : Fin cfg3.N, cond3_0 (grid3.coords t) ↔ t.val % 50 = 0 :=
  (by decide +kernel : ∀ t : Fin grid3.N, cond3_0 (grid3.coords t) ↔ t.val % 50 = 0)
theorem hcond3_1 : ∀ t : Fin cfg3.N, cond3_1 (grid3.coords t) ↔ t.val % 50 = 49 :=
  (by decide +kernel : ∀ t : Fin grid3.N, cond3_1 (grid3.coords t) ↔ t.val % 50 = 49)
theorem hvi3_0 : ∀ t : Fin cfg3.N, ((grid3.coords t) 1).val = 0 ↔ t.val % 50 = 0 :=
  (by decide +kernel : ∀ t : Fin grid3.N, ((grid3.coords t) 1).val = 0 ↔ t.val % 50 = 0)

abbrev scM3_0 : Memref sig .tc .vmem S2048x1 .f32 := Memref.whole cc3_scratch0
abbrev scM3_1 : Memref sig .tc .vmem S2048x1 .f32 := Memref.whole cc3_scratch1
abbrev scM3_2 : Memref sig .tc .vmem S2048x1 .f32 := Memref.whole cc3_scratch2

def scOwn3 (c : Dev nD) (s : Sc3 F) : sProp 𝕄 :=
  iprop(owns (c : Thread nD τ) scM3_0 fullShare s.1 ∗ owns (c : Thread nD τ) scM3_1 fullShare s.2.1 ∗ owns (c : Thread nD τ) scM3_2 fullShare s.2.2)

def scAny3 (c : Dev nD) : sProp 𝕄 :=
  iprop((∃ d, owns (c : Thread nD τ) scM3_0 fullShare d) ∗ (∃ d, owns (c : Thread nD τ) scM3_1 fullShare d) ∗ (∃ d, owns (c : Thread nD τ) scM3_2 fullShare d))

theorem coverS3 (p : Vec F S2048x1 .f32) (y : S2048x1.Idx) :
    ∃ pc ∈ ([⟨rS3, p⟩] : List (View.Piece (Elt F) S2048x1 .f32)), y ∈ pc.1.set :=
  View.cover_of_tiled [⟨rS3, p⟩] S2048x1.size (by rfl) y

theorem coverL3 (p : Vec F S2048x640 .f32) (y : S2048x640.Idx) :
    ∃ pc ∈ ([⟨rL3, p⟩] : List (View.Piece (Elt F) S2048x640 .f32)), y ∈ pc.1.set :=
  View.cover_of_tiled [⟨rL3, p⟩] S2048x640.size (by rfl) y

theorem memS3 (y : S2048x1.Idx) : y ∈ rS3.set := by
  obtain ⟨pc, hm, hy⟩ := View.cover_of_tiled (Val := fun _ => Unit) (e := .f32) [⟨rS3, fun _ => ()⟩] S2048x1.size (by rfl) y
  rw [List.mem_singleton] at hm; subst hm; exact hy

theorem readCovS3 (v : View sig .tc .vmem S2048x1 .f32) (p : Vec F S2048x1 .f32) :
    v.readCov [⟨rS3, p⟩] rS3 = View.ld (View.canon [⟨rS3, p⟩]) rS3 :=
  View.readCov_eq_canon_ld v _ rS3 (coverS3 p)

theorem readS3_last (v : View sig .tc .vmem S2048x1 .f32) (f : v.ty.Contents (Elt F)) (p : Vec F S2048x1 .f32)
    (L : List (View.Piece (Elt F) S2048x1 .f32)) :
    v.read (Elt F) (v.writes (Elt F) f (⟨rS3, p⟩ :: L)) = View.canon [⟨rS3, p⟩] :=
  (View.read_writes_of_cover_last v f v f ⟨rS3, p⟩ L [] memS3).trans (View.read_writes_eq_canon v f [⟨rS3, p⟩] (coverS3 p))

theorem run3_A (c : Dev nD) (E : Set ℕ) (i : grid3.Coords) (h0 : cond3_0 i) (h1 : ¬cond3_1 i) (arg2 : Memref sig .tc .vmem S2048x512 .bf16) (harg2 : arg2.IsWhole) (arg3 : Memref sig .tc .vmem S512x640 .bf16) (harg3 : arg3.IsWhole) (arg4 : Memref sig .tc .vmem S1x640 .f32) (harg4 : arg4.IsWhole) (arg5 : Memref sig .tc .vmem S2048x1 .i32) (harg5 : arg5.IsWhole) (arg6 : Memref sig .tc .vmem S2048x640 .f32) (harg6 : arg6.IsWhole) (arg7 : Memref sig .tc .vmem S2048x1 .f32) (harg7 : arg7.IsWhole) (arg8 : Memref sig .tc .vmem S2048x1 .f32) (harg8 : arg8.IsWhole)
    (x0 : Vec F S2048x512 .bf16) (x1 : Vec F S512x640 .bf16) (x2 : Vec F S1x640 .f32) (x3 : Vec F S2048x1 .i32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ scAny3 (F := F) c
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out3_4 x0 x1 x2)
            ∗ scOwn3 c (scUpd3 (BitVec.ofNat 32 (i 1).val) x0 x1 x2 x3 scReset3)) -∗ K ⟨⟩))
      ⊢ wp frame (wpE (defs₀ (F := F)) Variants.none c none) E (cc3_lmhead_kernel i arg2 harg2 arg3 harg3 arg4 harg4 arg5 harg5 arg6 harg6 arg7 harg7 arg8 harg8 scM3_0 (Memref.isWhole_whole _) scM3_1 (Memref.isWhole_whole _) scM3_2 (Memref.isWhole_whole _)) K := by
  simp only [cc3_lmhead_kernel_eq_skeleton]; unfold cc3_lmhead_kernel_skel
  simp only [k3_part1_eq_skeleton]; unfold k3_part1_skel
  unfold scOwn3 scAny3 scUpd3 scReset3 out3_4 lg3; dsimp only
  unfold owns
  iintro ⟨⟨%f0, %hf0, H0⟩, ⟨%f1, %hf1, H1⟩, ⟨%f2, %hf2, H2⟩, ⟨%f3, %hf3, H3⟩, ⟨%d4, %f4, -, H4⟩, ⟨⟨%e0, %g0, -, S0⟩, ⟨%e1, %g1, -, S1⟩, ⟨%e2, %g2, -, S2⟩⟩, Hk⟩
  subst hf0 hf1 hf2 hf3
  sl_exec (disch := first | exact h0 | exact h1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro
    exact View.read_writes_eq_canon _ _ _ (coverL3 _)
  isplitl [S0]
  · iexists _; isplitr
    swap; · iexact S0
    ipureintro
    refine (readS3_last _ _ _ _).trans ?_
    rw [← readCovS3 scM3_0.view (k3_pay3 (F := F))]
    rfl
  isplitl [S1]
  · iexists _; isplitr
    swap; · iexact S1
    ipureintro
    refine (readS3_last _ _ _ _).trans ?_
    rw [← readCovS3 scM3_0.view (k3_pay3 (F := F)), ← readCovS3 scM3_1.view (k3_pay4 (F := F))]
    rfl
  iexists _; isplitr
  swap; · iexact S2
  ipureintro
  refine (readS3_last _ _ _ _).trans ?_
  rw [← readCovS3 scM3_2.view (k3_pay5 (F := F))]
  rfl

theorem run3_B (c : Dev nD) (E : Set ℕ) (i : grid3.Coords) (h0 : ¬cond3_0 i) (h1 : ¬cond3_1 i) (arg2 : Memref sig .tc .vmem S2048x512 .bf16) (harg2 : arg2.IsWhole) (arg3 : Memref sig .tc .vmem S512x640 .bf16) (harg3 : arg3.IsWhole) (arg4 : Memref sig .tc .vmem S1x640 .f32) (harg4 : arg4.IsWhole) (arg5 : Memref sig .tc .vmem S2048x1 .i32) (harg5 : arg5.IsWhole) (arg6 : Memref sig .tc .vmem S2048x640 .f32) (harg6 : arg6.IsWhole) (arg7 : Memref sig .tc .vmem S2048x1 .f32) (harg7 : arg7.IsWhole) (arg8 : Memref sig .tc .vmem S2048x1 .f32) (harg8 : arg8.IsWhole)
    (x0 : Vec F S2048x512 .bf16) (x1 : Vec F S512x640 .bf16) (x2 : Vec F S1x640 .f32) (x3 : Vec F S2048x1 .i32) (s : Sc3 F) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ scOwn3 c s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out3_4 x0 x1 x2)
            ∗ scOwn3 c (scUpd3 (BitVec.ofNat 32 (i 1).val) x0 x1 x2 x3 s)) -∗ K ⟨⟩))
      ⊢ wp frame (wpE (defs₀ (F := F)) Variants.none c none) E (cc3_lmhead_kernel i arg2 harg2 arg3 harg3 arg4 harg4 arg5 harg5 arg6 harg6 arg7 harg7 arg8 harg8 scM3_0 (Memref.isWhole_whole _) scM3_1 (Memref.isWhole_whole _) scM3_2 (Memref.isWhole_whole _)) K := by
  obtain ⟨sm, sl, st⟩ := s
  simp only [cc3_lmhead_kernel_eq_skeleton]; unfold cc3_lmhead_kernel_skel
  simp only [k3_part1_eq_skeleton]; unfold k3_part1_skel
  unfold scOwn3 scUpd3 out3_4 lg3; dsimp only
  unfold owns
  iintro ⟨⟨%f0, %hf0, H0⟩, ⟨%f1, %hf1, H1⟩, ⟨%f2, %hf2, H2⟩, ⟨%f3, %hf3, H3⟩, ⟨%d4, %f4, -, H4⟩, ⟨⟨%g0, %hg0, S0⟩, ⟨%g1, %hg1, S1⟩, ⟨%g2, %hg2, S2⟩⟩, Hk⟩
  subst hf0 hf1 hf2 hf3 hg0 hg1 hg2
  sl_exec (disch := first | exact h0 | exact h1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro
    exact View.read_writes_eq_canon _ _ _ (coverL3 _)
  isplitl [S0]
  · iexists _; isplitr
    swap; · iexact S0
    ipureintro
    exact View.read_writes_eq_canon _ _ _ (coverS3 _)
  isplitl [S1]
  · iexists _; isplitr
    swap; · iexact S1
    ipureintro
    exact View.read_writes_eq_canon _ _ _ (coverS3 _)
  iexists _; isplitr
  swap; · iexact S2
  ipureintro
  exact View.read_writes_eq_canon _ _ _ (coverS3 _)

theorem run3_C (c : Dev nD) (E : Set ℕ) (i : grid3.Coords) (h0 : ¬cond3_0 i) (h1 : cond3_1 i) (arg2 : Memref sig .tc .vmem S2048x512 .bf16) (harg2 : arg2.IsWhole) (arg3 : Memref sig .tc .vmem S512x640 .bf16) (harg3 : arg3.IsWhole) (arg4 : Memref sig .tc .vmem S1x640 .f32) (harg4 : arg4.IsWhole) (arg5 : Memref sig .tc .vmem S2048x1 .i32) (harg5 : arg5.IsWhole) (arg6 : Memref sig .tc .vmem S2048x640 .f32) (harg6 : arg6.IsWhole) (arg7 : Memref sig .tc .vmem S2048x1 .f32) (harg7 : arg7.IsWhole) (arg8 : Memref sig .tc .vmem S2048x1 .f32) (harg8 : arg8.IsWhole)
    (x0 : Vec F S2048x512 .bf16) (x1 : Vec F S512x640 .bf16) (x2 : Vec F S1x640 .f32) (x3 : Vec F S2048x1 .i32) (s : Sc3 F) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ scOwn3 c s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out3_4 x0 x1 x2)
            ∗ owns (c : Thread nD τ) arg7 fullShare (out3_5 (scUpd3 (BitVec.ofNat 32 (i 1).val) x0 x1 x2 x3 s))
            ∗ owns (c : Thread nD τ) arg8 fullShare (out3_6 (scUpd3 (BitVec.ofNat 32 (i 1).val) x0 x1 x2 x3 s))
            ∗ scOwn3 c (scUpd3 (BitVec.ofNat 32 (i 1).val) x0 x1 x2 x3 s)) -∗ K ⟨⟩))
      ⊢ wp frame (wpE (defs₀ (F := F)) Variants.none c none) E (cc3_lmhead_kernel i arg2 harg2 arg3 harg3 arg4 harg4 arg5 harg5 arg6 harg6 arg7 harg7 arg8 harg8 scM3_0 (Memref.isWhole_whole _) scM3_1 (Memref.isWhole_whole _) scM3_2 (Memref.isWhole_whole _)) K := by
  obtain ⟨sm, sl, st⟩ := s
  simp only [cc3_lmhead_kernel_eq_skeleton]; unfold cc3_lmhead_kernel_skel
  simp only [k3_part1_eq_skeleton]; unfold k3_part1_skel
  unfold scOwn3 out3_5 out3_6 scUpd3 out3_4 lg3; dsimp only
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨⟨%g0, %hg0, S0⟩, ⟨%g1, %hg1, S1⟩, ⟨%g2, %hg2, S2⟩⟩, Hk⟩
  subst hf0 hf1 hf2 hf3 hg0 hg1 hg2
  sl_exec (disch := first | exact h0 | exact h1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro
    exact View.read_writes_eq_canon _ _ _ (coverL3 _)
  isplitl [H5]
  · iexists _; isplitr
    swap; · iexact H5
    ipureintro
    refine (View.read_writes_eq_canon _ _ _ (coverS3 _)).trans ?_
    rw [← readCovS3 scM3_0.view (k3_pay9 _ _ _ _), ← readCovS3 scM3_1.view (k3_pay8 _ _ _ _ _)]
    rfl
  isplitl [H6]
  · iexists _; isplitr
    swap; · iexact H6
    ipureintro
    refine (View.read_writes_eq_canon _ _ _ (coverS3 _)).trans ?_
    rw [← readCovS3 scM3_2.view (k3_pay1 _ _ _ _)]
    rfl
  isplitl [S0]
  · iexists _; isplitr
    swap; · iexact S0
    ipureintro
    exact View.read_writes_eq_canon _ _ _ (coverS3 _)
  isplitl [S1]
  · iexists _; isplitr
    swap; · iexact S1
    ipureintro
    exact View.read_writes_eq_canon _ _ _ (coverS3 _)
  iexists _; isplitr
  swap; · iexact S2
  ipureintro
  exact View.read_writes_eq_canon _ _ _ (coverS3 _)

def Phi3 (c : Dev nD) : (n : ℕ) → n ≤ cfg3.N → sProp 𝕄
  | 0, _ => iprop(scAny3 (F := F) c ∗ Pipeline.scopedRestBut (Ix := Unit) (Name := ℕ) (U := UR sig nD τ) (Lvl := ℕ) (Val := Elt F) spec3 c [cc3_scratch0, cc3_scratch1, cc3_scratch2] ∗ ∃ r, prngReg c r)
  | n + 1, hn => iprop(scOwn3 c (sc3N V c (n + 1) hn) ∗ Pipeline.scopedRestBut (Ix := Unit) (Name := ℕ) (U := UR sig nD τ) (Lvl := ℕ) (Val := Elt F) spec3 c [cc3_scratch0, cc3_scratch1, cc3_scratch2] ∗ ∃ r, prngReg c r)

theorem scOwn3_any (c : Dev nD) (s : Sc3 F) : scOwn3 c s ⊢ (scAny3 (F := F) c : sProp 𝕄) := by
  unfold scOwn3 scAny3
  iintro ⟨S0, S1, S2⟩
  isplitl [S0]; · iexists _; iexact S0
  isplitl [S1]; · iexists _; iexact S1
  iexists _; iexact S2

theorem Phi3_pos (c : Dev nD) (n : ℕ) (h : n ≤ cfg3.N) (hz : n ≠ 0) :
    Phi3 V c n h = iprop(scOwn3 c (sc3N V c n h) ∗ Pipeline.scopedRestBut (Ix := Unit) (Name := ℕ) (U := UR sig nD τ) (Lvl := ℕ) (Val := Elt F) spec3 c [cc3_scratch0, cc3_scratch1, cc3_scratch2] ∗ ∃ r, prngReg c r) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t)
    | ⟨5, _⟩ => out3_5 (sc3 V c t.succ)
    | ⟨6, _⟩ => out3_6 (sc3 V c t.succ)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) := by dsimp only [dat3]
theorem after3_5 (c : Dev nD) (t : Fin cfg3.N) : (dat3 V c).after 5 t = out3_5 (sc3 V c t.succ) := by dsimp only [dat3]
theorem after3_6 (c : Dev nD) (t : Fin cfg3.N) : (dat3 V c).after 6 t = out3_6 (sc3 V c t.succ) := by dsimp only [dat3]

theorem sc3_succ_first (c : Dev nD) (t : Fin cfg3.N) (h : t.val % 50 = 0) :
    sc3 V c t.succ = scUpd3 (BitVec.ofNat 32 ((cfg3.grid.coords t) 1).val) (iblk3 V c 0 t) (iblk3 V c 1 t) (iblk3 V c 2 t) (iblk3 V c 3 t) scReset3 := by
  rw [sc3_succ]; unfold scStep3; rw [if_pos ((hvi3_0 t).mpr h)]

theorem sc3_succ_later (c : Dev nD) (t : Fin cfg3.N) (h : ¬t.val % 50 = 0) :
    sc3 V c t.succ = scUpd3 (BitVec.ofNat 32 ((cfg3.grid.coords t) 1).val) (iblk3 V c 0 t) (iblk3 V c 1 t) (iblk3 V c 2 t) (iblk3 V c 3 t) (sc3 V c t.castSucc) := by
  rw [sc3_succ]; unfold scStep3; rw [if_neg (fun e => h ((hvi3_0 t).mp e))]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem idleAt3_5 : ∀ t : Fin cfg3.N, ¬cond3_1 (grid3.coords t) → cfg3.idle 5 (grid3.coords t) = true := by decide +kernel
theorem idleAt3_6 : ∀ t : Fin cfg3.N, ¬cond3_1 (grid3.coords t) → cfg3.idle 6 (grid3.coords t) = true := by decide +kernel
theorem noFlush3_5 : ∀ t : Fin cfg3.N, ¬cond3_1 (grid3.coords t) → (cfg3.win 5).flush t = false := by decide +kernel
theorem noFlush3_6 : ∀ t : Fin cfg3.N, ¬cond3_1 (grid3.coords t) → (cfg3.win 6).flush t = false := by decide +kernel
theorem liveAt3_5 : ∀ t : Fin cfg3.N, cond3_1 (grid3.coords t) → cfg3.idle 5 (grid3.coords t) = false := by decide +kernel
theorem liveAt3_6 : ∀ t : Fin cfg3.N, cond3_1 (grid3.coords t) → cfg3.idle 6 (grid3.coords t) = false := by decide +kernel

theorem Phi3_castSucc (c : Dev nD) (t : Fin cfg3.N) :
    (dat3 V c).Φ t.castSucc = Phi3 V c t.val (Nat.le_of_lt t.isLt) := by
  dsimp only [dat3]; simp only [Fin.coe_castSucc]

theorem Phi3_succ (c : Dev nD) (t : Fin cfg3.N) :
    (dat3 V c).Φ t.succ = iprop(scOwn3 c (sc3 V c t.succ) ∗ Pipeline.scopedRestBut (Ix := Unit) (Name := ℕ) (U := UR sig nD τ) (Lvl := ℕ) (Val := Elt F) spec3 c [cc3_scratch0, cc3_scratch1, cc3_scratch2] ∗ ∃ r, prngReg c r) := rfl

theorem Phi3_zero (c : Dev nD) (n : ℕ) (h : n ≤ cfg3.N) (hz : n = 0) :
    Phi3 V c n h = iprop(scAny3 (F := F) c ∗ Pipeline.scopedRestBut (Ix := Unit) (Name := ℕ) (U := UR sig nD τ) (Lvl := ℕ) (Val := Elt F) spec3 c [cc3_scratch0, cc3_scratch1, cc3_scratch2] ∗ ∃ r, prngReg c r) := by
  subst hz; rfl

theorem sc3_castSucc (c : Dev nD) (t : Fin cfg3.N) : sc3 V c t.castSucc = sc3N V c t.val (Nat.le_of_lt t.isLt) := rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t
    ∗ (dat3 V c).leavesExact 4 t ∗ (dat3 V c).leavesExact 5 t ∗ (dat3 V c).leavesExact 6 t)

set_option maxHeartbeats 2000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl, Phi3_succ, Phi3_castSucc]
  have hN : t.val < 200 := lt_of_lt_of_eq t.isLt (show cfg3.N = 200 from N_3)
  rw [show (dat3 V c).leavesExact 0 t = owns (c : Thread nD τ) (st3_0 t) fullShare ((dat3 V c).after 0 t) from by
      unfold Dat.leavesExact; rw [liveAt3_0 t], after3_0]
  rw [show (dat3 V c).leavesExact 1 t = owns (c : Thread nD τ) (st3_1 t) fullShare ((dat3 V c).after 1 t) from by
      unfold Dat.leavesExact; rw [liveAt3_1 t], after3_1]
  rw [show (dat3 V c).leavesExact 2 t = owns (c : Thread nD τ) (st3_2 t) fullShare ((dat3 V c).after 2 t) from by
      unfold Dat.leavesExact; rw [liveAt3_2 t], after3_2]
  rw [show (dat3 V c).leavesExact 3 t = owns (c : Thread nD τ) (st3_3 t) fullShare ((dat3 V c).after 3 t) from by
      unfold Dat.leavesExact; rw [liveAt3_3 t], after3_3]
  rw [show (dat3 V c).leavesExact 4 t = owns (c : Thread nD τ) (st3_4 t) fullShare ((dat3 V c).after 4 t) from by
      unfold Dat.leavesExact; rw [liveAt3_4 t], after3_4]
  by_cases h0 : t.val % 50 = 0
  · have h1 : ¬t.val % 50 = 49 := by omega
    have c0 : cond3_0 (grid3.coords t) := (hcond3_0 t).mpr h0
    have c1 : ¬cond3_1 (grid3.coords t) := fun h => h1 ((hcond3_1 t).mp h)
    rw [Dat.leavesExact_idle (dat3 V c) 5 t (idleAt3_5 t c1) (noFlush3_5 t c1),
      Dat.leavesExact_idle (dat3 V c) 6 t (idleAt3_6 t c1) (noFlush3_6 t c1)]
    rw [sc3_succ_first V c t h0]
    have hany : Phi3 V c t.val (Nat.le_of_lt t.isLt) ⊢ (iprop(scAny3 (F := F) c ∗ Pipeline.scopedRestBut (Ix := Unit) (Name := ℕ) (U := UR sig nD τ) (Lvl := ℕ) (Val := Elt F) spec3 c [cc3_scratch0, cc3_scratch1, cc3_scratch2] ∗ ∃ r, prngReg c r) : sProp 𝕄) := by
      by_cases hz : t.val = 0
      · rw [Phi3_zero V c _ _ hz]
      · rw [Phi3_pos V c _ _ hz]
        iintro ⟨HS, HR, Hg⟩
        isplitl [HS]; · iapply (scOwn3_any c _); iexact HS
        isplitl [HR]; · iexact HR
        iexact Hg
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := hany $$ HΦ
    icases HΦ' with ⟨HS, HR, Hg⟩
    iapply (run3_A c Set.univ (grid3.coords t) c0 c1 _ _ _ _ _ _ _ _ _ _ _ _ _ _ (iblk3 V c 0 t) (iblk3 V c 1 t) (iblk3 V c 2 t) (iblk3 V c 3 t) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hz : t.val ≠ 0 := fun e => h0 (by rw [e])
    have c0 : ¬cond3_0 (grid3.coords t) := fun h => h0 ((hcond3_0 t).mp h)
    by_cases h1 : t.val % 50 = 49
    · have c1 : cond3_1 (grid3.coords t) := (hcond3_1 t).mpr h1
      rw [show (dat3 V c).leavesExact 5 t = owns (c : Thread nD τ) (st3_5 t) fullShare ((dat3 V c).after 5 t) from by
        unfold Dat.leavesExact; rw [liveAt3_5 t c1], after3_5]
      rw [show (dat3 V c).leavesExact 6 t = owns (c : Thread nD τ) (st3_6 t) fullShare ((dat3 V c).after 6 t) from by
        unfold Dat.leavesExact; rw [liveAt3_6 t c1], after3_6]
      rw [Phi3_pos V c _ _ hz, sc3_succ_later V c t h0, sc3_castSucc]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
      iapply (run3_C c Set.univ (grid3.coords t) c0 c1 _ _ _ _ _ _ _ _ _ _ _ _ _ _ (iblk3 V c 0 t) (iblk3 V c 1 t) (iblk3 V c 2 t) (iblk3 V c 3 t) _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS]; · iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have c1 : ¬cond3_1 (grid3.coords t) := fun h => h1 ((hcond3_1 t).mp h)
      rw [Dat.leavesExact_idle (dat3 V c) 5 t (idleAt3_5 t c1) (noFlush3_5 t c1),
        Dat.leavesExact_idle (dat3 V c) 6 t (idleAt3_6 t c1) (noFlush3_6 t c1)]
      rw [Phi3_pos V c _ _ hz, sc3_succ_later V c t h0, sc3_castSucc]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
      iapply (run3_B c Set.univ (grid3.coords t) c0 c1 _ _ _ _ _ _ _ _ _ _ _ _ _ _ (iblk3 V c 0 t) (iblk3 V c 1 t) (iblk3 V c 2 t) (iblk3 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

theorem body_obligation3 (c : Dev nD) : BodyObligation (dat3 (F := F) V c) (defs₀ (F := F)) Variants.none () Set.univ := fun t => by
  rw [bigSep_W3, bigSep_W3]
  exact sound_body3 V c t

theorem PhiA3_eq (c : Dev nD) :
    (Pipeline.ΦA (U := UR sig nD τ) (Val := Elt F) spec3 c : sProp 𝕄)
      = iprop(iprop(scAny3 (F := F) c ∗ Pipeline.scopedRestBut (Ix := Unit) (Name := ℕ) (U := UR sig nD τ) (Lvl := ℕ) (Val := Elt F) spec3 c [cc3_scratch0, cc3_scratch1, cc3_scratch2]) ∗ ∃ r, prngReg c r) := by
  unfold Pipeline.ΦA scAny3; rw [scopedRest3_split]; simp only [scM3_0, scM3_1, scM3_2, owns_whole]; try rfl

theorem Phi_in3 (c : Dev nD) : (Pipeline.ΦA (U := UR sig nD τ) (Val := Elt F) spec3 c : sProp 𝕄) ⊢ (dat3 V c).Φ 0 := by
  rw [show (dat3 V c).Φ 0 = Phi3 V c 0 (Nat.zero_le _) from rfl, PhiA3_eq]
  unfold Phi3
  iintro ⟨⟨HS, HR⟩, Hg⟩
  isplitl [HS]; · iexact HS
  isplitl [HR]; · iexact HR
  iexact Hg

theorem Phi_out3 (c : Dev nD) : (dat3 V c).Φ (Fin.last _) ⊢ (Pipeline.ΦA (U := UR sig nD τ) (Val := Elt F) spec3 c : sProp 𝕄) := by
  rw [show (dat3 V c).Φ (Fin.last _) = Phi3 V c (Fin.last cfg3.N).val (Nat.le_of_lt_succ (Fin.last cfg3.N).isLt) from rfl,
    Phi3_pos V c _ _ (by rw [Fin.val_last]; have : cfg3.N = 200 := N_3; omega), PhiA3_eq]
  iintro ⟨HS, HR, Hg⟩
  isplitl [HS HR]
  · isplitl [HS]; · iapply (scOwn3_any c _); iexact HS
    iexact HR
  iexact Hg

end Cert.Kernel.Hand

end
-- ==== Proof.K.Run.lean ====
import proofs.«421533_j19645180411976_3_alg».proof.Proof.K.Reg0
import proofs.«421533_j19645180411976_3_alg».proof.Proof.K.Reg1
import proofs.«421533_j19645180411976_3_alg».proof.Proof.K.Reg2
import proofs.«421533_j19645180411976_3_alg».proof.Proof.K.Reg3
import proofs.«421533_j19645180411976_3_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W2_of_in (c : Dev nD) (b : Ref sig .tc) (hb : ∀ w, Pipeline.arrRef spec0 w = b → (cfg0.win w).isOut = false) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (hb w rfl) _).trans (A_eq0 (V1 m ρ) c w))
  · exact W2_of_ne m ρ c b fun w e => h ⟨w, e⟩

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
theorem W4_of_in (c : Dev nD) (b : Ref sig .tc) (hb : ∀ w, Pipeline.arrRef spec1 w = b → (cfg1.win w).isOut = false) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (hb w rfl) _).trans (A_eq1 (V3 m ρ) c w))
  · exact W4_of_ne m ρ c b fun w e => h ⟨w, e⟩

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
theorem W6_of_in (c : Dev nD) (b : Ref sig .tc) (hb : ∀ w, Pipeline.arrRef spec2 w = b → (cfg2.win w).isOut = false) :
    W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (hb w rfl) _).trans (A_eq2 (V5 m ρ) c w))
  · exact W6_of_ne m ρ c b fun w e => h ⟨w, e⟩

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
theorem W8_of_in (c : Dev nD) (b : Ref sig .tc) (hb : ∀ w, Pipeline.arrRef spec3 w = b → (cfg3.win w).isOut = false) :
    W8 m ρ c (Proc.devRef .tc b) = W7 m ρ c (Proc.devRef .tc b) := by
  by_cases h : ∃ w, Pipeline.arrRef spec3 w = b
  · obtain ⟨w, rfl⟩ := h
    exact (W8_arr m ρ c w).trans (((dat3 (V7 m ρ) c).arrAt_in w (hb w rfl) _).trans (A_eq3 (V7 m ρ) c w))
  · exact W8_of_ne m ρ c b fun w e => h ⟨w, e⟩

abbrev W9 : Dev nD → Valuation τ sig (Elt F) := fun c => StableHlo.after hostOps4 (W8 m ρ c)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h

theorem W9_of_untouched (c : Dev nD) (r : Ref sig .tc)
    (h0 : r ∉ hostOps0_W) (h1 : r ∉ hostOps1_W) (h2 : r ∉ hostOps2_W) (h3 : r ∉ hostOps3_W) (h4 : r ∉ hostOps4_W)
    (g0 : ∀ w, Pipeline.arrRef spec0 w = r → (cfg0.win w).isOut = false)
    (g1 : ∀ w, Pipeline.arrRef spec1 w = r → (cfg1.win w).isOut = false)
    (g2 : ∀ w, Pipeline.arrRef spec2 w = r → (cfg2.win w).isOut = false)
    (g3 : ∀ w, Pipeline.arrRef spec3 w = r → (cfg3.win w).isOut = false) :
    W9 m ρ c (Proc.devRef .tc r) = m ((c : Thread nD τ).loc r) :=
  (W9_of m ρ c r h4).trans <| (W8_of_in m ρ c r g3).trans <| (W7_of m ρ c r h3).trans <| (W6_of_in m ρ c r g2).trans <|
    (W5_of m ρ c r h2).trans <| (W4_of_in m ρ c r g1).trans <| (W3_of m ρ c r h1).trans <| (W2_of_in m ρ c r g0).trans <|
    (W1_of m ρ c r h0).trans rfl

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- An unscoped buffer that neither a host stretch nor a region writes ends as the launch memory has it.
theorem kept {s : MemSt nD τ sig (Elt F)}
    (h : ∀ c : Dev nD, ∀ b ∈ Pipeline.ucRefs τ sig, s.mem (((c : Thread nD τ)).1, b) = W9 m ρ c b) (c : Dev nD) (r : Ref sig .tc)
    (hu : ¬ (Proc.devRef .tc r : DevRef τ sig).isScoped := by decide)
    (h0 : r ∉ hostOps0_W := by decide) (h1 : r ∉ hostOps1_W := by decide) (h2 : r ∉ hostOps2_W := by decide)
    (h3 : r ∉ hostOps3_W := by decide) (h4 : r ∉ hostOps4_W := by decide)
    (g0 : ∀ w, Pipeline.arrRef spec0 w = r → (cfg0.win w).isOut = false := by decide)
    (g1 : ∀ w, Pipeline.arrRef spec1 w = r → (cfg1.win w).isOut = false := by decide)
    (g2 : ∀ w, Pipeline.arrRef spec2 w = r → (cfg2.win w).isOut = false := by decide)
    (g3 : ∀ w, Pipeline.arrRef spec3 w = r → (cfg3.win w).isOut = false := by decide) :
    s.mem ((c.tc : Thread nD τ).loc r) = m ((c.tc : Thread nD τ).loc r) :=
  (h c _ (mem_uc r hu)).trans (W9_of_untouched m ρ c r h0 h1 h2 h3 h4 g0 g1 g2 g3)

abbrev Tₙ (c : Dev nD) : sProp 𝕄 := iprop(StableHlo.held (c : Thread nD τ) (Pipeline.ucRefs τ sig) (W9 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi_in0 (V1 m ρ) c)
    unfold Pipeline.ΦA
    iintro ⟨Hp, -, Hr⟩
    isplitl [Hr]; · iexact Hr
    iexact Hp
  hout c := by
    rw [Pipeline.ownSems0_none]
    refine BIBase.Entails.trans (Phi_out0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi_in1 (V3 m ρ) c)
    unfold Pipeline.ΦA
    iintro ⟨Hp, -, Hr⟩
    isplitl [Hr]; · iexact Hr
    iexact Hp
  hout c := by
    rw [Pipeline.ownSems0_none]
    refine BIBase.Entails.trans (Phi_out1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi_in2 (V5 m ρ) c)
    unfold Pipeline.ΦA
    iintro ⟨Hp, -, Hr⟩
    isplitl [Hr]; · iexact Hr
    iexact Hp
  hout c := by
    rw [Pipeline.ownSems0_none]
    refine BIBase.Entails.trans (Phi_out2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun w => A_eq3 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi_in3 (V7 m ρ) c)
    unfold Pipeline.ΦA
    iintro ⟨Hp, -, Hr⟩
    isplitl [Hr]; · iexact Hr
    iexact Hp
  hout c := by
    rw [Pipeline.ownSems0_none]
    refine BIBase.Entails.trans (Phi_out3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

theorem main_run (c : Dev nD) : main (F := F) c = Pipeline.Seg.run (segs m ρ) := by
  rw [main_chain c, Pipeline.Seg.run_eq_chain]
  rfl

set_option backward.isDefEq.respectTransparency.types false in

theorem run_Q {Q : PUnit × MemSt nD τ sig (Elt F) → Prop}
    (hQ : ∀ s : MemSt nD τ sig (Elt F),
      (∀ c : Dev nD, ∀ b ∈ Pipeline.ucRefs τ sig, s.mem (((c : Thread nD τ)).1, b) = W9 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := hQ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  run_Q m ρ fun s h c =>
    ⟨kept m ρ h c main_arg0, kept m ρ h c main_arg1, kept m ρ h c main_arg2, kept m ρ h c main_arg3,
     kept m ρ h c main_arg4, kept m ρ h c main_arg5, kept m ρ h c main_arg6, kept m ρ h c main_arg7,
     kept m ρ h c main_arg8, kept m ρ h c main_arg9, kept m ρ h c main_arg10, kept m ρ h c main_arg11,
     kept m ρ h c main_arg12, kept m ρ h c main_arg13, kept m ρ h c main_arg14, kept m ρ h c main_arg15,
     kept m ρ h c main_arg16⟩

end Cert.Kernel.Hand

end
-- ==== Proof.KI.Reg0.lean ====
import proofs.«421533_j19645180411976_3_alg».proof.Proof.Gen.KernelIdeal.Launch
import proofs.«421533_j19645180411976_3_alg».proof.Proof.Gen.KernelIdeal.Skeleton
import proofs.«421533_j19645180411976_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x512 := Rect.unit (s := S1024x512) ![0, 0] S1024x512.size inb_S1024x512_S1024x512_0_0
abbrev r0_1 : Rect S512 := Rect.unit (s := S512) ![0] S512.size inb_S512_S512_0
abbrev r0_2 : Rect S512x1536 := Rect.unit (s := S512x1536) ![0, 0] S512x1536.size inb_S512x1536_S512x1536_0_0

def out0_4 (x0 : Vec F S1024x512 .f32) (x1 : Vec F S512 .f32) (x2 : Vec F S512 .f32) (x3 : Vec F S512x1536 .bf16) : Vec F S1024x512 .bf16 :=
  View.canon [⟨r0_0, k0_pay2 (View.ld x0 r0_0) (View.ld x1 r0_1) (View.ld x2 r0_1) (View.ld x3 r0_2)⟩]

theorem cover0_4 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

def out0_5 (x0 : Vec F S1024x512 .f32) (x1 : Vec F S512 .f32) (x2 : Vec F S512 .f32) (x3 : Vec F S512x1536 .bf16) : Vec F S1024x512 .bf16 :=
  View.canon [⟨r0_0, k0_pay3 (View.ld x0 r0_0) (View.ld x1 r0_1) (View.ld x2 r0_1) (View.ld x3 r0_2)⟩]

theorem cover0_5 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

def out0_6 (x0 : Vec F S1024x512 .f32) (x1 : Vec F S512 .f32) (x2 : Vec F S512 .f32) (x3 : Vec F S512x1536 .bf16) : Vec F S1024x512 .bf16 :=
  View.canon [⟨r0_0, k0_pay4 (View.ld x0 r0_0) (View.ld x1 r0_1) (View.ld x2 r0_1) (View.ld x3 r0_2)⟩]

theorem cover0_6 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

set_option maxHeartbeats 4000000 in

theorem sound_kernel0 (c : Dev nD) (E : Set ℕ) (i : grid0.Coords) (arg1 : Memref sig .tc .vmem S1024x512 .f32) (harg1 : arg1.IsWhole) (arg2 : Memref sig .tc .vmem S512 .f32) (harg2 : arg2.IsWhole) (arg3 : Memref sig .tc .vmem S512 .f32) (harg3 : arg3.IsWhole) (arg4 : Memref sig .tc .vmem S512x1536 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole)
    (x0 : Vec F S1024x512 .f32) (x1 : Vec F S512 .f32) (x2 : Vec F S512 .f32) (x3 : Vec F S512x1536 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3)) -∗ K ⟨⟩))
      ⊢ wp frame (wpE (defs₀ (F := F)) Variants.none c none) E (cc0_qkv_kernel i arg1 harg1 arg2 harg2 arg3 harg3 arg4 harg4 arg5 harg5 arg6 harg6 arg7 harg7) K := by
  simp only [cc0_qkv_kernel_eq_skeleton]; unfold cc0_qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

theorem Phi_in0 (c : Dev nD) : (Pipeline.ΦA (U := UR sig nD τ) (Val := Elt F) spec0 c : sProp 𝕄) ⊢ (dat0 V c).Φ 0 := BI.Entails.refl _

theorem Phi_out0 (c : Dev nD) : (dat0 V c).Φ (Fin.last _) ⊢ (Pipeline.ΦA (U := UR sig nD τ) (Val := Elt F) spec0 c : sProp 𝕄) := BI.Entails.refl _

end Cert.KernelIdeal.Hand

end
-- ==== Proof.KI.Reg1.lean ====
import proofs.«421533_j19645180411976_3_alg».proof.Proof.Gen.KernelIdeal.Launch
import proofs.«421533_j19645180411976_3_alg».proof.Proof.Gen.KernelIdeal.Skeleton
import proofs.«421533_j19645180411976_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_1 (i : grid1.Coords) : Prop := (Scalar.cmpi .ne (Scalar.extui (Scalar.cmpi .eq (BitVec.ofNat 32 (i 2).val) 0#32)) 0#32) = 1#1

abbrev cond1_2 (i : grid1.Coords) : Prop := (Scalar.cmpi .ne (Scalar.extui (Scalar.cmpi .sle (BitVec.ofNat 32 (i 2).val) (BitVec.ofNat 32 (i 1).val))) 0#32) = 1#1

abbrev cond1_3 (i : grid1.Coords) : Prop := k1_cond3 i = 1#1

theorem hcond1_1 : ∀ t : Fin cfg1.N, cond1_1 (grid1.coords t) ↔ t.val % 4 = 0 :=
  (by decide +kernel : ∀ t : Fin grid1.N, cond1_1 (grid1.coords t) ↔ t.val % 4 = 0)
theorem hcond1_2 : ∀ t : Fin cfg1.N, cond1_2 (grid1.coords t) ↔ t.val % 4 ≤ t.val / 4 % 4 :=
  (by decide +kernel : ∀ t : Fin grid1.N, cond1_2 (grid1.coords t) ↔ t.val % 4 ≤ t.val / 4 % 4)
theorem hcond1_3 : ∀ t : Fin cfg1.N, cond1_3 (grid1.coords t) ↔ t.val % 4 = 3 :=
  (by decide +kernel : ∀ t : Fin grid1.N, cond1_3 (grid1.coords t) ↔ t.val % 4 = 3)

abbrev Sc (F : FTy → Type) : Type := Vec F S512x1 .f32 × Vec F S512x1 .f32 × Vec F S512x512 .f32

def scReset : Sc F := (k1_pay1, k1_pay2, k1_pay3)

def scUpd (a1 a2 : BitVec 32) (q k v : Vec F S1x512x512 .bf16) (s : Sc F) : Sc F :=
  (k1_pay5 (k1_pay9 a1 a2 q k s.1),
   k1_pay12 a1 a2 q k s.1 s.2.1,
   k1_pay4 (k1_pay7 v) (k1_pay10 a1 a2 q k s.1) (k1_pay11 a1 a2 q k s.1) s.2.2)

def scStepAt (i : grid1.Coords) (q k v : Vec F S1x512x512 .bf16) (s : Sc F) : Sc F :=
  let s1 := if cond1_1 i then scReset else s
  if cond1_2 i then scUpd (BitVec.ofNat 32 (i 1).val) (BitVec.ofNat 32 (i 2).val) q k v s1 else s1

def scStep (c : Dev nD) (t : Fin cfg1.N) (s : Sc F) : Sc F :=
  scStepAt (grid1.coords t) (iblk1 V c 1 t) (iblk1 V c 2 t) (iblk1 V c 3 t) s

def sc1N (c : Dev nD) : ℕ → Sc F
  | 0 => scReset
  | n + 1 => if h : n < cfg1.N then scStep V c ⟨n, h⟩ (sc1N c n) else sc1N c n

def sc1 (c : Dev nD) (t : Fin (cfg1.N + 1)) : Sc F := sc1N V c t.val

theorem sc1N_at (c : Dev nD) (t : Fin cfg1.N) : sc1N V c (t.val + 1) = scStep V c t (sc1N V c t.val) := by
  show (if h : t.val < cfg1.N then scStep V c ⟨t.val, h⟩ (sc1N V c t.val) else sc1N V c t.val) = _
  rw [dif_pos t.isLt]

theorem sc1_succ (c : Dev nD) (t : Fin cfg1.N) : sc1 V c t.succ = scStep V c t (sc1 V c t.castSucc) := by
  unfold sc1
  simp only [Fin.val_succ, Fin.coe_castSucc]
  exact sc1N_at V c t

theorem scStepAt_reset (i : grid1.Coords) (h1 : cond1_1 i) (h2 : cond1_2 i) (q k v : Vec F S1x512x512 .bf16) (s : Sc F) :
    scStepAt i q k v s = scUpd (BitVec.ofNat 32 (i 1).val) (BitVec.ofNat 32 (i 2).val) q k v scReset := by
  unfold scStepAt; simp only [if_pos h1, if_pos h2]
theorem scStepAt_upd (i : grid1.Coords) (h1 : ¬cond1_1 i) (h2 : cond1_2 i) (q k v : Vec F S1x512x512 .bf16) (s : Sc F) :
    scStepAt i q k v s = scUpd (BitVec.ofNat 32 (i 1).val) (BitVec.ofNat 32 (i 2).val) q k v s := by
  unfold scStepAt; simp only [if_neg h1, if_pos h2]
theorem scStepAt_keep (i : grid1.Coords) (h1 : ¬cond1_1 i) (h2 : ¬cond1_2 i) (q k v : Vec F S1x512x512 .bf16) (s : Sc F) :
    scStepAt i q k v s = s := by
  unfold scStepAt; simp only [if_neg h1, if_neg h2]

def out1_4 (x0 : Vec F S1x512x512 .f32) (s : Sc F) : Vec F S1x512x512 .f32 := k1_pay6 x0 s.2.2 s.2.1

abbrev scM1_0 : Memref sig .tc .vmem S512x1 .f32 := Memref.whole cc1_scratch0
abbrev scM1_1 : Memref sig .tc .vmem S512x1 .f32 := Memref.whole cc1_scratch1
abbrev scM1_2 : Memref sig .tc .vmem S512x512 .f32 := Memref.whole cc1_scratch2

def scOwn (c : Dev nD) (s : Sc F) : sProp 𝕄 :=
  iprop(owns (c : Thread nD τ) scM1_0 fullShare s.1 ∗ owns (c : Thread nD τ) scM1_1 fullShare s.2.1 ∗ owns (c : Thread nD τ) scM1_2 fullShare s.2.2)

def restBut1 (c : Dev nD) : sProp 𝕄 :=
  iprop(Pipeline.scopedRestBut (Ix := Unit) (Name := ℕ) (U := UR sig nD τ) (Lvl := ℕ) (Val := Elt F) spec1 c [cc1_scratch0, cc1_scratch1, cc1_scratch2] ∗ ∃ r, prngReg c r)

private theorem sep_assoc_eq1 (A B C : sProp 𝕄) : (iprop((A ∗ B) ∗ C) : sProp 𝕄) = iprop(A ∗ B ∗ C) := by
  have h₁ : iprop((A ∗ B) ∗ C) ⊢ (iprop(A ∗ B ∗ C) : sProp 𝕄) := by
    iintro ⟨⟨HA, HB⟩, HC⟩
    isplitl [HA]; · iexact HA
    isplitl [HB]; · iexact HB
    iexact HC
  have h₂ : iprop(A ∗ B ∗ C) ⊢ (iprop((A ∗ B) ∗ C) : sProp 𝕄) := by
    iintro ⟨HA, HB, HC⟩
    isplitl [HA HB]
    · isplitl [HA]; · iexact HA
      iexact HB
    iexact HC
  exact BI.equiv_iff.mp ⟨h₁, h₂⟩

theorem PhiA1_eq (c : Dev nD) :
    (Pipeline.ΦA (U := UR sig nD τ) (Val := Elt F) spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d))
          ∗ restBut1 (F := F) c) := by
  unfold Pipeline.ΦA restBut1; rw [scopedRest1_split]; simp only [scM1_0, scM1_1, scM1_2, owns_whole]
  rw [sep_assoc_eq1]
  rfl

def Phi1 (c : Dev nD) : ℕ → sProp 𝕄
  | 0 => Pipeline.ΦA (U := UR sig nD τ) (Val := Elt F) spec1 c
  | n + 1 => iprop(scOwn c (sc1N V c (n + 1)) ∗ restBut1 (F := F) c)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (sc1 V c t.succ)
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (sc1 V c t.succ) := by dsimp only [dat1]

private theorem hz2 : (![0, 0] : Fin 2 → Nat) = fun _ => 0 := funext fun a => by fin_cases a <;> rfl
private theorem hz3 : (![0, 0, 0] : Fin 3 → Nat) = fun _ => 0 := funext fun a => by fin_cases a <;> rfl

set_option maxHeartbeats 8000000 in

theorem run1_A (c : Dev nD) (i : grid1.Coords) (arg3 : Memref sig .tc .vmem S1x512x512 .f32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole)
    (hc1 : cond1_1 i) (hc2 : cond1_2 i) (hc3 : ¬cond1_3 i)
    (x0 : Vec F S1x512x512 .f32) (q k v : Vec F S1x512x512 .bf16) (xo : Vec F S1x512x512 .f32) (E : Set ℕ) (K : PUnit → sProp 𝕄) :
    iprop(owns (c : Thread nD τ) arg3 fullShare x0 ∗ owns (c : Thread nD τ) arg4 fullShare q ∗ owns (c : Thread nD τ) arg5 fullShare k ∗ owns (c : Thread nD τ) arg6 fullShare v ∗ owns (c : Thread nD τ) arg7 fullShare xo ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare q ∗ owns (c : Thread nD τ) arg5 fullShare k ∗ owns (c : Thread nD τ) arg6 fullShare v ∗ owns (c : Thread nD τ) arg7 fullShare xo ∗ owns (c : Thread nD τ) arg8 fullShare (scUpd (BitVec.ofNat 32 (i 1).val) (BitVec.ofNat 32 (i 2).val) q k v scReset).1 ∗ owns (c : Thread nD τ) arg9 fullShare (scUpd (BitVec.ofNat 32 (i 1).val) (BitVec.ofNat 32 (i 2).val) q k v scReset).2.1 ∗ owns (c : Thread nD τ) arg10 fullShare (scUpd (BitVec.ofNat 32 (i 1).val) (BitVec.ofNat 32 (i 2).val) q k v scReset).2.2) -∗ K ⟨⟩))
      ⊢ wp frame (wpE (defs₀ (F := F)) Variants.none c none) E (cc1_attn_kernel i arg3 harg3 arg4 harg4 arg5 harg5 arg6 harg6 arg7 harg7 arg8 harg8 arg9 harg9 arg10 harg10) K := by
  simp only [cc1_attn_kernel_eq_skeleton]; unfold cc1_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf3 hf4 hf5 hf6 hf7
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    (try sl_unfold_words)
    rw [View.read_writes_eq_canon _ _ _ (fun y => ⟨_, List.Mem.head _, View.mem_set_unit_zero hz2 inb_S512x1_S512x1_0_0 y⟩), View.canon_cons_unit_zero hz2]
    (try sl_unfold_words)
    (try simp only [scUpd, scReset, out1_4, View.readAt_eq_ld, View.readCov_cons_toLoadRect, View.ld_unit_zero (S := S1x512x512) hz3, View.ld_unit_zero (S := S512x1) hz2, View.ld_unit_zero (S := S512x512) hz2])
  isplitl [H9]
  · iexists _; isplitr
    swap; · iexact H9
    ipureintro
    (try sl_unfold_words)
    rw [View.read_writes_eq_canon _ _ _ (fun y => ⟨_, List.Mem.head _, View.mem_set_unit_zero hz2 inb_S512x1_S512x1_0_0 y⟩), View.canon_cons_unit_zero hz2]
    (try sl_unfold_words)
    (try simp only [scUpd, scReset, out1_4, View.readAt_eq_ld, View.readCov_cons_toLoadRect, View.ld_unit_zero (S := S1x512x512) hz3, View.ld_unit_zero (S := S512x1) hz2, View.ld_unit_zero (S := S512x512) hz2])
  iexists _; isplitr
  swap; · iexact H10
  ipureintro
  (try sl_unfold_words)
  rw [View.read_writes_eq_canon _ _ _ (fun y => ⟨_, List.Mem.head _, View.mem_set_unit_zero hz2 inb_S512x512_S512x512_0_0 y⟩), View.canon_cons_unit_zero hz2]
  (try sl_unfold_words)
  (try simp only [scUpd, scReset, out1_4, View.readAt_eq_ld, View.readCov_cons_toLoadRect, View.ld_unit_zero (S := S1x512x512) hz3, View.ld_unit_zero (S := S512x1) hz2, View.ld_unit_zero (S := S512x512) hz2])

set_option maxHeartbeats 8000000 in

theorem run1_B (c : Dev nD) (i : grid1.Coords) (arg3 : Memref sig .tc .vmem S1x512x512 .f32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole)
    (hc1 : ¬cond1_1 i) (hc2 : cond1_2 i) (hc3 : ¬cond1_3 i)
    (x0 : Vec F S1x512x512 .f32) (q k v : Vec F S1x512x512 .bf16) (xo : Vec F S1x512x512 .f32) (sm sl : Vec F S512x1 .f32) (sa : Vec F S512x512 .f32) (E : Set ℕ) (K : PUnit → sProp 𝕄) :
    iprop(owns (c : Thread nD τ) arg3 fullShare x0 ∗ owns (c : Thread nD τ) arg4 fullShare q ∗ owns (c : Thread nD τ) arg5 fullShare k ∗ owns (c : Thread nD τ) arg6 fullShare v ∗ owns (c : Thread nD τ) arg7 fullShare xo ∗ owns (c : Thread nD τ) arg8 fullShare sm ∗ owns (c : Thread nD τ) arg9 fullShare sl ∗ owns (c : Thread nD τ) arg10 fullShare sa
        ∗ (iprop(owns (c : Thread nD τ) arg3 fullShare x0 ∗ owns (c : Thread nD τ) arg4 fullShare q ∗ owns (c : Thread nD τ) arg5 fullShare k ∗ owns (c : Thread nD τ) arg6 fullShare v ∗ owns (c : Thread nD τ) arg7 fullShare xo ∗ owns (c : Thread nD τ) arg8 fullShare (scUpd (BitVec.ofNat 32 (i 1).val) (BitVec.ofNat 32 (i 2).val) q k v (sm, sl, sa)).1 ∗ owns (c : Thread nD τ) arg9 fullShare (scUpd (BitVec.ofNat 32 (i 1).val) (BitVec.ofNat 32 (i 2).val) q k v (sm, sl, sa)).2.1 ∗ owns (c : Thread nD τ) arg10 fullShare (scUpd (BitVec.ofNat 32 (i 1).val) (BitVec.ofNat 32 (i 2).val) q k v (sm, sl, sa)).2.2) -∗ K ⟨⟩))
      ⊢ wp frame (wpE (defs₀ (F := F)) Variants.none c none) E (cc1_attn_kernel i arg3 harg3 arg4 harg4 arg5 harg5 arg6 harg6 arg7 harg7 arg8 harg8 arg9 harg9 arg10 harg10) K := by
  simp only [cc1_attn_kernel_eq_skeleton]; unfold cc1_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf3 hf4 hf5 hf6 hf7 hf8 hf9 hf10
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    (try sl_unfold_words)
    rw [View.read_writes_eq_canon _ _ _ (fun y => ⟨_, List.Mem.head _, View.mem_set_unit_zero hz2 inb_S512x1_S512x1_0_0 y⟩), View.canon_cons_unit_zero hz2]
    (try sl_unfold_words)
    (try simp only [scUpd, scReset, out1_4, View.readAt_eq_ld, View.readCov_cons_toLoadRect, View.ld_unit_zero (S := S1x512x512) hz3, View.ld_unit_zero (S := S512x1) hz2, View.ld_unit_zero (S := S512x512) hz2])
  isplitl [H9]
  · iexists _; isplitr
    swap; · iexact H9
    ipureintro
    (try sl_unfold_words)
    rw [View.read_writes_eq_canon _ _ _ (fun y => ⟨_, List.Mem.head _, View.mem_set_unit_zero hz2 inb_S512x1_S512x1_0_0 y⟩), View.canon_cons_unit_zero hz2]
    (try sl_unfold_words)
    (try simp only [scUpd, scReset, out1_4, View.readAt_eq_ld, View.readCov_cons_toLoadRect, View.ld_unit_zero (S := S1x512x512) hz3, View.ld_unit_zero (S := S512x1) hz2, View.ld_unit_zero (S := S512x512) hz2])
  iexists _; isplitr
  swap; · iexact H10
  ipureintro
  (try sl_unfold_words)
  rw [View.read_writes_eq_canon _ _ _ (fun y => ⟨_, List.Mem.head _, View.mem_set_unit_zero hz2 inb_S512x512_S512x512_0_0 y⟩), View.canon_cons_unit_zero hz2]
  (try sl_unfold_words)
  (try simp only [scUpd, scReset, out1_4, View.readAt_eq_ld, View.readCov_cons_toLoadRect, View.ld_unit_zero (S := S1x512x512) hz3, View.ld_unit_zero (S := S512x1) hz2, View.ld_unit_zero (S := S512x512) hz2])

set_option maxHeartbeats 8000000 in

theorem run1_C (c : Dev nD) (i : grid1.Coords) (arg3 : Memref sig .tc .vmem S1x512x512 .f32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole)
    (hc1 : ¬cond1_1 i) (hc2 : cond1_2 i) (hc3 : cond1_3 i)
    (x0 : Vec F S1x512x512 .f32) (q k v : Vec F S1x512x512 .bf16) (sm sl : Vec F S512x1 .f32) (sa : Vec F S512x512 .f32) (E : Set ℕ) (K : PUnit → sProp 𝕄) :
    iprop(owns (c : Thread nD τ) arg3 fullShare x0 ∗ owns (c : Thread nD τ) arg4 fullShare q ∗ owns (c : Thread nD τ) arg5 fullShare k ∗ owns (c : Thread nD τ) arg6 fullShare v ∗ (∃ d, owns (c : Thread nD τ) arg7 fullShare d) ∗ owns (c : Thread nD τ) arg8 fullShare sm ∗ owns (c : Thread nD τ) arg9 fullShare sl ∗ owns (c : Thread nD τ) arg10 fullShare sa
        ∗ (iprop(owns (c : Thread nD τ) arg3 fullShare x0 ∗ owns (c : Thread nD τ) arg4 fullShare q ∗ owns (c : Thread nD τ) arg5 fullShare k ∗ owns (c : Thread nD τ) arg6 fullShare v ∗ owns (c : Thread nD τ) arg7 fullShare (out1_4 x0 (scUpd (BitVec.ofNat 32 (i 1).val) (BitVec.ofNat 32 (i 2).val) q k v (sm, sl, sa))) ∗ owns (c : Thread nD τ) arg8 fullShare (scUpd (BitVec.ofNat 32 (i 1).val) (BitVec.ofNat 32 (i 2).val) q k v (sm, sl, sa)).1 ∗ owns (c : Thread nD τ) arg9 fullShare (scUpd (BitVec.ofNat 32 (i 1).val) (BitVec.ofNat 32 (i 2).val) q k v (sm, sl, sa)).2.1 ∗ owns (c : Thread nD τ) arg10 fullShare (scUpd (BitVec.ofNat 32 (i 1).val) (BitVec.ofNat 32 (i 2).val) q k v (sm, sl, sa)).2.2) -∗ K ⟨⟩))
      ⊢ wp frame (wpE (defs₀ (F := F)) Variants.none c none) E (cc1_attn_kernel i arg3 harg3 arg4 harg4 arg5 harg5 arg6 harg6 arg7 harg7 arg8 harg8 arg9 harg9 arg10 harg10) K := by
  simp only [cc1_attn_kernel_eq_skeleton]; unfold cc1_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  subst hf3 hf4 hf5 hf6 hf8 hf9 hf10
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    (try sl_unfold_words)
    rw [View.read_writes_eq_canon _ _ _ (fun y => ⟨_, List.Mem.head _, View.mem_set_unit_zero hz3 inb_S1x512x512_S1x512x512_0_0_0 y⟩), View.canon_cons_unit_zero hz3]
    (try sl_unfold_words)
    (try simp only [scUpd, scReset, out1_4, View.readAt_eq_ld, View.readCov_cons_toLoadRect, View.ld_unit_zero (S := S1x512x512) hz3, View.ld_unit_zero (S := S512x1) hz2, View.ld_unit_zero (S := S512x512) hz2])
  isplitl [H8]
  · iexists _; isplitr
    swap; · iexact H8
    ipureintro
    (try sl_unfold_words)
    rw [View.read_writes_eq_canon _ _ _ (fun y => ⟨_, List.Mem.head _, View.mem_set_unit_zero hz2 inb_S512x1_S512x1_0_0 y⟩), View.canon_cons_unit_zero hz2]
    (try sl_unfold_words)
    (try simp only [scUpd, scReset, out1_4, View.readAt_eq_ld, View.readCov_cons_toLoadRect, View.ld_unit_zero (S := S1x512x512) hz3, View.ld_unit_zero (S := S512x1) hz2, View.ld_unit_zero (S := S512x512) hz2])
  isplitl [H9]
  · iexists _; isplitr
    swap; · iexact H9
    ipureintro
    (try sl_unfold_words)
    rw [View.read_writes_eq_canon _ _ _ (fun y => ⟨_, List.Mem.head _, View.mem_set_unit_zero hz2 inb_S512x1_S512x1_0_0 y⟩), View.canon_cons_unit_zero hz2]
    (try sl_unfold_words)
    (try simp only [scUpd, scReset, out1_4, View.readAt_eq_ld, View.readCov_cons_toLoadRect, View.ld_unit_zero (S := S1x512x512) hz3, View.ld_unit_zero (S := S512x1) hz2, View.ld_unit_zero (S := S512x512) hz2])
  iexists _; isplitr
  swap; · iexact H10
  ipureintro
  (try sl_unfold_words)
  rw [View.read_writes_eq_canon _ _ _ (fun y => ⟨_, List.Mem.head _, View.mem_set_unit_zero hz2 inb_S512x512_S512x512_0_0 y⟩), View.canon_cons_unit_zero hz2]
  (try sl_unfold_words)
  (try simp only [scUpd, scReset, out1_4, View.readAt_eq_ld, View.readCov_cons_toLoadRect, View.ld_unit_zero (S := S1x512x512) hz3, View.ld_unit_zero (S := S512x1) hz2, View.ld_unit_zero (S := S512x512) hz2])

set_option maxHeartbeats 8000000 in

theorem run1_D (c : Dev nD) (i : grid1.Coords) (arg3 : Memref sig .tc .vmem S1x512x512 .f32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole)
    (hc1 : ¬cond1_1 i) (hc2 : ¬cond1_2 i) (hc3 : ¬cond1_3 i)
    (x0 : Vec F S1x512x512 .f32) (q k v : Vec F S1x512x512 .bf16) (xo : Vec F S1x512x512 .f32) (sm sl : Vec F S512x1 .f32) (sa : Vec F S512x512 .f32) (E : Set ℕ) (K : PUnit → sProp 𝕄) :
    iprop(owns (c : Thread nD τ) arg3 fullShare x0 ∗ owns (c : Thread nD τ) arg4 fullShare q ∗ owns (c : Thread nD τ) arg5 fullShare k ∗ owns (c : Thread nD τ) arg6 fullShare v ∗ owns (c : Thread nD τ) arg7 fullShare xo ∗ owns (c : Thread nD τ) arg8 fullShare sm ∗ owns (c : Thread nD τ) arg9 fullShare sl ∗ owns (c : Thread nD τ) arg10 fullShare sa
        ∗ (iprop(owns (c : Thread nD τ) arg3 fullShare x0 ∗ owns (c : Thread nD τ) arg4 fullShare q ∗ owns (c : Thread nD τ) arg5 fullShare k ∗ owns (c : Thread nD τ) arg6 fullShare v ∗ owns (c : Thread nD τ) arg7 fullShare xo ∗ owns (c : Thread nD τ) arg8 fullShare sm ∗ owns (c : Thread nD τ) arg9 fullShare sl ∗ owns (c : Thread nD τ) arg10 fullShare sa) -∗ K ⟨⟩))
      ⊢ wp frame (wpE (defs₀ (F := F)) Variants.none c none) E (cc1_attn_kernel i arg3 harg3 arg4 harg4 arg5 harg5 arg6 harg6 arg7 harg7 arg8 harg8 arg9 harg9 arg10 harg10) K := by
  simp only [cc1_attn_kernel_eq_skeleton]; unfold cc1_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf3 hf4 hf5 hf6 hf7 hf8 hf9 hf10
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists f10; isplitr; · ipureintro; rfl
  iexact H10

set_option maxHeartbeats 8000000 in

theorem run1_E (c : Dev nD) (i : grid1.Coords) (arg3 : Memref sig .tc .vmem S1x512x512 .f32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x512 .f32) (harg10 : arg10.IsWhole)
    (hc1 : ¬cond1_1 i) (hc2 : ¬cond1_2 i) (hc3 : cond1_3 i)
    (x0 : Vec F S1x512x512 .f32) (q k v : Vec F S1x512x512 .bf16) (sm sl : Vec F S512x1 .f32) (sa : Vec F S512x512 .f32) (E : Set ℕ) (K : PUnit → sProp 𝕄) :
    iprop(owns (c : Thread nD τ) arg3 fullShare x0 ∗ owns (c : Thread nD τ) arg4 fullShare q ∗ owns (c : Thread nD τ) arg5 fullShare k ∗ owns (c : Thread nD τ) arg6 fullShare v ∗ (∃ d, owns (c : Thread nD τ) arg7 fullShare d) ∗ owns (c : Thread nD τ) arg8 fullShare sm ∗ owns (c : Thread nD τ) arg9 fullShare sl ∗ owns (c : Thread nD τ) arg10 fullShare sa
        ∗ (iprop(owns (c : Thread nD τ) arg3 fullShare x0 ∗ owns (c : Thread nD τ) arg4 fullShare q ∗ owns (c : Thread nD τ) arg5 fullShare k ∗ owns (c : Thread nD τ) arg6 fullShare v ∗ owns (c : Thread nD τ) arg7 fullShare (out1_4 x0 (sm, sl, sa)) ∗ owns (c : Thread nD τ) arg8 fullShare sm ∗ owns (c : Thread nD τ) arg9 fullShare sl ∗ owns (c : Thread nD τ) arg10 fullShare sa) -∗ K ⟨⟩))
      ⊢ wp frame (wpE (defs₀ (F := F)) Variants.none c none) E (cc1_attn_kernel i arg3 harg3 arg4 harg4 arg5 harg5 arg6 harg6 arg7 harg7 arg8 harg8 arg9 harg9 arg10 harg10) K := by
  simp only [cc1_attn_kernel_eq_skeleton]; unfold cc1_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  subst hf3 hf4 hf5 hf6 hf8 hf9 hf10
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    (try sl_unfold_words)
    rw [View.read_writes_eq_canon _ _ _ (fun y => ⟨_, List.Mem.head _, View.mem_set_unit_zero hz3 inb_S1x512x512_S1x512x512_0_0_0 y⟩), View.canon_cons_unit_zero hz3]
    (try sl_unfold_words)
    (try simp only [scUpd, scReset, out1_4, View.readAt_eq_ld, View.readCov_cons_toLoadRect, View.ld_unit_zero (S := S1x512x512) hz3, View.ld_unit_zero (S := S512x1) hz2, View.ld_unit_zero (S := S512x512) hz2])
  isplitl [H8]
  · iexists f8; isplitr; · ipureintro; rfl
    iexact H8
  isplitl [H9]
  · iexists f9; isplitr; · ipureintro; rfl
    iexact H9
  iexists f10; isplitr; · ipureintro; rfl
  iexact H10

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

theorem idleAt1_4 : ∀ t : Fin cfg1.N, ¬cond1_3 (grid1.coords t) → cfg1.idle 4 (grid1.coords t) = true := by decide +kernel
theorem noFlush1_4 : ∀ t : Fin cfg1.N, ¬cond1_3 (grid1.coords t) → (cfg1.win 4).flush t = false := by decide +kernel
theorem liveAt1_4 : ∀ t : Fin cfg1.N, cond1_3 (grid1.coords t) → cfg1.idle 4 (grid1.coords t) = false := by decide +kernel

theorem leaves1_0 (c : Dev nD) (t : Fin cfg1.N) :
    (dat1 V c).leavesExact 0 t = owns (c : Thread nD τ) (st1_0 t) fullShare (iblk1 V c 0 t) := by
  rw [show (dat1 V c).leavesExact 0 t = owns (c : Thread nD τ) (st1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (st1_1 t) fullShare (iblk1 V c 1 t) := by
  rw [show (dat1 V c).leavesExact 1 t = owns (c : Thread nD τ) (st1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (st1_2 t) fullShare (iblk1 V c 2 t) := by
  rw [show (dat1 V c).leavesExact 2 t = owns (c : Thread nD τ) (st1_2 t) fullShare ((dat1 V c).after 2 t) from by
    unfold Dat.leavesExact; rw [liveAt1_2 t], after1_2]
theorem leaves1_3 (c : Dev nD) (t : Fin cfg1.N) :
    (dat1 V c).leavesExact 3 t = owns (c : Thread nD τ) (st1_3 t) fullShare (iblk1 V c 3 t) := by
  rw [show (dat1 V c).leavesExact 3 t = owns (c : Thread nD τ) (st1_3 t) fullShare ((dat1 V c).after 3 t) from by
    unfold Dat.leavesExact; rw [liveAt1_3 t], after1_3]

theorem Phi1_succ (c : Dev nD) (n : ℕ) : Phi1 V c (n + 1) = iprop(scOwn c (sc1N V c (n + 1)) ∗ restBut1 (F := F) c) := rfl

theorem Phi1_pos (c : Dev nD) (n : ℕ) (hn : n ≠ 0) : Phi1 V c n = iprop(scOwn c (sc1N V c n) ∗ restBut1 (F := F) c) := by
  cases n with
  | zero => exact absurd rfl hn
  | succ n => rfl

theorem Phi1_weak (c : Dev nD) (n : ℕ) :
    Phi1 V c n ⊢ (iprop(iprop((∃ d, owns (c : Thread nD τ) scM1_0 fullShare d) ∗ (∃ d, owns (c : Thread nD τ) scM1_1 fullShare d) ∗ (∃ d, owns (c : Thread nD τ) scM1_2 fullShare d))
      ∗ restBut1 (F := F) c) : sProp 𝕄) := by
  cases n with
  | zero => rw [show Phi1 V c 0 = Pipeline.ΦA (U := UR sig nD τ) (Val := Elt F) spec1 c from rfl, PhiA1_eq]
  | succ n =>
    rw [Phi1_succ]; unfold scOwn
    iintro ⟨⟨H0, H1, H2⟩, Hr⟩
    isplitl [H0 H1 H2]
    · isplitl [H0]; · iexists _; iexact H0
      isplitl [H1]; · iexists _; iexact H1
      iexists _; iexact H2
    iexact Hr

theorem Phi1_castSucc (c : Dev nD) (t : Fin cfg1.N) : (dat1 V c).Φ t.castSucc = Phi1 V c t.val := by
  dsimp only [dat1]; simp only [Fin.coe_castSucc]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) from rfl, Phi1_succ, sc1N_at, Phi1_castSucc]
  rw [leaves1_0, leaves1_1, leaves1_2, leaves1_3]
  have hN : t.val < 64 := lt_of_lt_of_eq t.isLt (show cfg1.N = 64 from N_1)
  unfold scStep scOwn
  by_cases h1 : cond1_1 (grid1.coords t)
  · have e1 := (hcond1_1 t).mp h1
    have h2 : cond1_2 (grid1.coords t) := (hcond1_2 t).mpr (by omega)
    have h3 : ¬cond1_3 (grid1.coords t) := fun h => by have := (hcond1_3 t).mp h; omega
    rw [Dat.leavesExact_idle (dat1 V c) 4 t (idleAt1_4 t h3) (noFlush1_4 t h3), scStepAt_reset _ h1 h2]
    refine (sep_mono (Phi1_weak V c t.val) .rfl).trans ?_
    iintro ⟨⟨⟨HS0, HS1, HS2⟩, Hr⟩, Ho, ⟨%d0, H0⟩, ⟨%d1, H1⟩, ⟨%d2, H2⟩, ⟨%d3, H3⟩, ⟨%d4, H4⟩⟩
    iapply (run1_A c (grid1.coords t) _ _ _ _ _ _ _ _ _ _ _ _ _ _ _ _ h1 h2 h3 (iblk1 V c 0 t) (iblk1 V c 1 t) (iblk1 V c 2 t) (iblk1 V c 3 t) _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS1 HS2 Hr]
    · isplitl [HS0 HS1 HS2]
      · isplitl [HS0]; · iexact HS0
        isplitl [HS1]; · iexact HS1
        iexact HS2
      iexact Hr
    isplitl [Ho]; · iexact Ho
    isplitl [H0]; · iexact H0
    isplitl [H1]; · iexact H1
    isplitl [H2]; · iexact H2
    isplitl [H3]; · iexact H3
    iexists _; iexact H4
  · have hz : t.val ≠ 0 := fun e => h1 ((hcond1_1 t).mpr (by rw [e]))
    rw [Phi1_pos V c _ hz]; unfold scOwn
    by_cases h2 : cond1_2 (grid1.coords t)
    · rw [scStepAt_upd _ h1 h2]
      by_cases h3 : cond1_3 (grid1.coords t)
      · rw [show (dat1 V c).leavesExact 4 t = owns (c : Thread nD τ) (st1_4 t) fullShare ((dat1 V c).after 4 t) from by
          unfold Dat.leavesExact; rw [liveAt1_4 t h3], after1_4, sc1_succ]
        unfold scStep sc1; simp only [Fin.coe_castSucc]; rw [scStepAt_upd _ h1 h2]
        iintro ⟨⟨⟨HS0, HS1, HS2⟩, Hr⟩, Ho, ⟨%d0, H0⟩, ⟨%d1, H1⟩, ⟨%d2, H2⟩, ⟨%d3, H3⟩, ⟨%d4, H4⟩⟩
        iapply (run1_C c (grid1.coords t) _ _ _ _ _ _ _ _ _ _ _ _ _ _ _ _ h1 h2 h3 (iblk1 V c 0 t) (iblk1 V c 1 t) (iblk1 V c 2 t) (iblk1 V c 3 t) (sc1N V c t.val).1 (sc1N V c t.val).2.1 (sc1N V c t.val).2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, H4, HS0, HS1, HS2⟩
        isplitl [HS0 HS1 HS2 Hr]
        · isplitl [HS0 HS1 HS2]
          · isplitl [HS0]; · iexact HS0
            isplitl [HS1]; · iexact HS1
            iexact HS2
          iexact Hr
        isplitl [Ho]; · iexact Ho
        isplitl [H0]; · iexact H0
        isplitl [H1]; · iexact H1
        isplitl [H2]; · iexact H2
        isplitl [H3]; · iexact H3
        iexact H4
      · rw [Dat.leavesExact_idle (dat1 V c) 4 t (idleAt1_4 t h3) (noFlush1_4 t h3)]
        iintro ⟨⟨⟨HS0, HS1, HS2⟩, Hr⟩, Ho, ⟨%d0, H0⟩, ⟨%d1, H1⟩, ⟨%d2, H2⟩, ⟨%d3, H3⟩, ⟨%d4, H4⟩⟩
        iapply (run1_B c (grid1.coords t) _ _ _ _ _ _ _ _ _ _ _ _ _ _ _ _ h1 h2 h3 (iblk1 V c 0 t) (iblk1 V c 1 t) (iblk1 V c 2 t) (iblk1 V c 3 t) _ (sc1N V c t.val).1 (sc1N V c t.val).2.1 (sc1N V c t.val).2.2 Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, HS0, HS1, HS2⟩
        isplitl [HS0 HS1 HS2 Hr]
        · isplitl [HS0 HS1 HS2]
          · isplitl [HS0]; · iexact HS0
            isplitl [HS1]; · iexact HS1
            iexact HS2
          iexact Hr
        isplitl [Ho]; · iexact Ho
        isplitl [H0]; · iexact H0
        isplitl [H1]; · iexact H1
        isplitl [H2]; · iexact H2
        isplitl [H3]; · iexact H3
        iexists _; iexact H4
    · rw [scStepAt_keep _ h1 h2]
      by_cases h3 : cond1_3 (grid1.coords t)
      · rw [show (dat1 V c).leavesExact 4 t = owns (c : Thread nD τ) (st1_4 t) fullShare ((dat1 V c).after 4 t) from by
          unfold Dat.leavesExact; rw [liveAt1_4 t h3], after1_4, sc1_succ]
        unfold scStep sc1; simp only [Fin.coe_castSucc]; rw [scStepAt_keep _ h1 h2]
        iintro ⟨⟨⟨HS0, HS1, HS2⟩, Hr⟩, Ho, ⟨%d0, H0⟩, ⟨%d1, H1⟩, ⟨%d2, H2⟩, ⟨%d3, H3⟩, ⟨%d4, H4⟩⟩
        iapply (run1_E c (grid1.coords t) _ _ _ _ _ _ _ _ _ _ _ _ _ _ _ _ h1 h2 h3 (iblk1 V c 0 t) (iblk1 V c 1 t) (iblk1 V c 2 t) (iblk1 V c 3 t) (sc1N V c t.val).1 (sc1N V c t.val).2.1 (sc1N V c t.val).2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, H4, HS0, HS1, HS2⟩
        isplitl [HS0 HS1 HS2 Hr]
        · isplitl [HS0 HS1 HS2]
          · isplitl [HS0]; · iexact HS0
            isplitl [HS1]; · iexact HS1
            iexact HS2
          iexact Hr
        isplitl [Ho]; · iexact Ho
        isplitl [H0]; · iexact H0
        isplitl [H1]; · iexact H1
        isplitl [H2]; · iexact H2
        isplitl [H3]; · iexact H3
        iexact H4
      · rw [Dat.leavesExact_idle (dat1 V c) 4 t (idleAt1_4 t h3) (noFlush1_4 t h3)]
        iintro ⟨⟨⟨HS0, HS1, HS2⟩, Hr⟩, Ho, ⟨%d0, H0⟩, ⟨%d1, H1⟩, ⟨%d2, H2⟩, ⟨%d3, H3⟩, ⟨%d4, H4⟩⟩
        iapply (run1_D c (grid1.coords t) _ _ _ _ _ _ _ _ _ _ _ _ _ _ _ _ h1 h2 h3 (iblk1 V c 0 t) (iblk1 V c 1 t) (iblk1 V c 2 t) (iblk1 V c 3 t) _ (sc1N V c t.val).1 (sc1N V c t.val).2.1 (sc1N V c t.val).2.2 Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, HS0, HS1, HS2⟩
        isplitl [HS0 HS1 HS2 Hr]
        · isplitl [HS0 HS1 HS2]
          · isplitl [HS0]; · iexact HS0
            isplitl [HS1]; · iexact HS1
            iexact HS2
          iexact Hr
        isplitl [Ho]; · iexact Ho
        isplitl [H0]; · iexact H0
        isplitl [H1]; · iexact H1
        isplitl [H2]; · iexact H2
        isplitl [H3]; · iexact H3
        iexists _; iexact H4

theorem body_obligation1 (c : Dev nD) : BodyObligation (dat1 (F := F) V c) (defs₀ (F := F)) Variants.none () Set.univ := fun t => by
  rw [bigSep_W1, bigSep_W1]
  exact sound_body1 V c t

theorem Phi_in1 (c : Dev nD) : (Pipeline.ΦA (U := UR sig nD τ) (Val := Elt F) spec1 c : sProp 𝕄) ⊢ (dat1 V c).Φ 0 := by
  rw [show (dat1 V c).Φ 0 = Phi1 V c 0 from rfl]
  exact .rfl

theorem Phi_out1 (c : Dev nD) : (dat1 V c).Φ (Fin.last _) ⊢ (Pipeline.ΦA (U := UR sig nD τ) (Val := Elt F) spec1 c : sProp 𝕄) := by
  rw [show (dat1 V c).Φ (Fin.last _) = Phi1 V c cfg1.N from rfl]
  exact (Phi1_weak V c cfg1.N).trans (by rw [PhiA1_eq])

end Cert.KernelIdeal.Hand

end
-- ==== Proof.KI.Reg2.lean ====
import proofs.«421533_j19645180411976_3_alg».proof.Proof.Gen.KernelIdeal.Launch
import proofs.«421533_j19645180411976_3_alg».proof.Proof.Gen.KernelIdeal.Skeleton
import proofs.«421533_j19645180411976_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1024x512 := Rect.unit (s := S1024x512) ![0, 0] S1024x512.size inb_S1024x512_S1024x512_0_0
abbrev r2_1 : Rect S512 := Rect.unit (s := S512) ![0] S512.size inb_S512_S512_0
abbrev r2_2 : Rect S512x2048 := Rect.unit (s := S512x2048) ![0, 0] S512x2048.size inb_S512x2048_S512x2048_0_0
abbrev r2_3 : Rect S2048 := Rect.unit (s := S2048) ![0] S2048.size inb_S2048_S2048_0
abbrev r2_4 : Rect S2048x512 := Rect.unit (s := S2048x512) ![0, 0] S2048x512.size inb_S2048x512_S2048x512_0_0

def out2_7 (x0 : Vec F S1024x512 .f32) (x1 : Vec F S512 .f32) (x2 : Vec F S512 .f32) (x3 : Vec F S512x2048 .bf16) (x4 : Vec F S2048 .f32) (x5 : Vec F S2048x512 .bf16) (x6 : Vec F S512 .f32) : Vec F S1024x512 .bf16 :=
  View.canon [⟨r2_0, k2_pay1 (k2_pay2 (View.ld x0 r2_0)) (k2_pay3 (View.ld x0 r2_0) (View.ld x1 r2_1) (View.ld x2 r2_1) (View.ld x3 r2_2) (View.ld x4 r2_3) (View.ld x5 r2_4)) (View.ld x6 r2_1)⟩]

theorem cover2_7 (p0 : Vec F S1024x512 .bf16) (y : S1024x512.Idx) :
    ∃ pc ∈ ([⟨r2_0, p0⟩] : List (View.Piece (Elt F) S1024x512 .bf16)), y ∈ pc.1.set :=
  View.cover_of_tiled [⟨r2_0, p0⟩] S1024x512.size (by rfl) y

set_option maxHeartbeats 4000000 in

theorem sound_kernel2 (c : Dev nD) (E : Set ℕ) (i : grid2.Coords) (arg1 : Memref sig .tc .vmem S1024x512 .f32) (harg1 : arg1.IsWhole) (arg2 : Memref sig .tc .vmem S512 .f32) (harg2 : arg2.IsWhole) (arg3 : Memref sig .tc .vmem S512 .f32) (harg3 : arg3.IsWhole) (arg4 : Memref sig .tc .vmem S512x2048 .bf16) (harg4 : arg4.IsWhole) (arg5 : Memref sig .tc .vmem S2048 .f32) (harg5 : arg5.IsWhole) (arg6 : Memref sig .tc .vmem S2048x512 .bf16) (harg6 : arg6.IsWhole) (arg7 : Memref sig .tc .vmem S512 .f32) (harg7 : arg7.IsWhole) (arg8 : Memref sig .tc .vmem S1024x512 .bf16) (harg8 : arg8.IsWhole)
    (x0 : Vec F S1024x512 .f32) (x1 : Vec F S512 .f32) (x2 : Vec F S512 .f32) (x3 : Vec F S512x2048 .bf16) (x4 : Vec F S2048 .f32) (x5 : Vec F S2048x512 .bf16) (x6 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2_ffn_kernel i arg1 harg1 arg2 harg2 arg3 harg3 arg4 harg4 arg5 harg5 arg6 harg6 arg7 harg7 arg8 harg8) K := by
  simp only [cc2_ffn_kernel_eq_skeleton]; unfold cc2_ffn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

theorem Phi_in2 (c : Dev nD) : (Pipeline.ΦA (U := UR sig nD τ) (Val := Elt F) spec2 c : sProp 𝕄) ⊢ (dat2 V c).Φ 0 := BI.Entails.refl _

theorem Phi_out2 (c : Dev nD) : (dat2 V c).Φ (Fin.last _) ⊢ (Pipeline.ΦA (U := UR sig nD τ) (Val := Elt F) spec2 c : sProp 𝕄) := BI.Entails.refl _

end Cert.KernelIdeal.Hand

end
-- ==== Proof.KI.Reg3.lean ====
import proofs.«421533_j19645180411976_3_alg».proof.Proof.Gen.KernelIdeal.Launch
import proofs.«421533_j19645180411976_3_alg».proof.Proof.Gen.KernelIdeal.Skeleton
import proofs.«421533_j19645180411976_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rX3 : Rect S2048x512 := Rect.unit (s := S2048x512) ![0, 0] S2048x512.size inb_S2048x512_S2048x512_0_0
abbrev rW3 : Rect S512x640 := Rect.unit (s := S512x640) ![0, 0] S512x640.size inb_S512x640_S512x640_0_0
abbrev rB3 : Rect S1x640 := Rect.unit (s := S1x640) ![0, 0] S1x640.size inb_S1x640_S1x640_0_0
abbrev rL3 : Rect S2048x640 := Rect.unit (s := S2048x640) ![0, 0] S2048x640.size inb_S2048x640_S2048x640_0_0
abbrev rS3 : Rect S2048x1 := Rect.unit (s := S2048x1) ![0, 0] S2048x1.size inb_S2048x1_S2048x1_0_0

abbrev Sc3 (F : FTy → Type) : Type := Vec F S2048x1 .f32 × Vec F S2048x1 .f32 × Vec F S2048x1 .f32

def scReset3 : Sc3 F :=
  (View.canon [⟨rS3, k3_pay3 (F := F)⟩], View.canon [⟨rS3, k3_pay4 (F := F)⟩], View.canon [⟨rS3, k3_pay5 (F := F)⟩])

def lg3 (x0 : Vec F S2048x512 .bf16) (x1 : Vec F S512x640 .bf16) (x2 : Vec F S1x640 .f32) : FVec F S2048x640 .f32 :=
  k3_pay6 (View.ld x0 rX3) (View.ld x1 rW3) (View.ld x2 rB3)

def scUpd3 (vi : BitVec 32) (x0 : Vec F S2048x512 .bf16) (x1 : Vec F S512x640 .bf16) (x2 : Vec F S1x640 .f32) (x3 : Vec F S2048x1 .i32) (s : Sc3 F) : Sc3 F :=
  (View.canon [⟨rS3, k3_pay9 (View.ld x0 rX3) (View.ld x1 rW3) (View.ld x2 rB3) (View.ld s.1 rS3)⟩],
   View.canon [⟨rS3, k3_pay8 (View.ld x0 rX3) (View.ld x1 rW3) (View.ld x2 rB3) (View.ld s.1 rS3) (View.ld s.2.1 rS3)⟩],
   View.canon [⟨rS3, k3_pay1 vi (lg3 x0 x1 x2) (View.ld x3 rS3) (View.ld s.2.2 rS3)⟩])

def scStep3 (i : grid3.Coords) (x0 : Vec F S2048x512 .bf16) (x1 : Vec F S512x640 .bf16) (x2 : Vec F S1x640 .f32) (x3 : Vec F S2048x1 .i32) (s : Sc3 F) : Sc3 F :=
  scUpd3 (BitVec.ofNat 32 (i 1).val) x0 x1 x2 x3 (if (i 1).val = 0 then scReset3 else s)

def out3_4 (x0 : Vec F S2048x512 .bf16) (x1 : Vec F S512x640 .bf16) (x2 : Vec F S1x640 .f32) : Vec F S2048x640 .f32 :=
  View.canon [⟨rL3, lg3 x0 x1 x2⟩]

def out3_5 (s : Sc3 F) : Vec F S2048x1 .f32 :=
  View.canon [⟨rS3, k3_pay2 (View.ld s.1 rS3) (View.ld s.2.1 rS3)⟩]

def out3_6 (s : Sc3 F) : Vec F S2048x1 .f32 :=
  View.canon [⟨rS3, View.ld s.2.2 rS3⟩]

def sc3N (c : Dev nD) : (n : ℕ) → n ≤ cfg3.N → Sc3 F
  | 0, _ => scReset3
  | n + 1, hn => scStep3 (cfg3.grid.coords ⟨n, hn⟩) (iblk3 V c 0 ⟨n, hn⟩) (iblk3 V c 1 ⟨n, hn⟩) (iblk3 V c 2 ⟨n, hn⟩) (iblk3 V c 3 ⟨n, hn⟩) (sc3N c n (Nat.le_of_succ_le hn))

def sc3 (c : Dev nD) (t : Fin (cfg3.N + 1)) : Sc3 F := sc3N V c t.val (Nat.le_of_lt_succ t.isLt)

theorem sc3_succ (c : Dev nD) (t : Fin cfg3.N) :
    sc3 V c t.succ = scStep3 (cfg3.grid.coords t) (iblk3 V c 0 t) (iblk3 V c 1 t) (iblk3 V c 2 t) (iblk3 V c 3 t) (sc3 V c t.castSucc) := rfl

abbrev cond3_0 (i : grid3.Coords) : Prop := (Scalar.cmpi .ne (Scalar.extui (Scalar.cmpi .eq (BitVec.ofNat 32 (i 1).val) 0#32)) 0#32) = 1#1
abbrev cond3_1 (i : grid3.Coords) : Prop := k3_cond2 i = 1#1

theorem hcond3_0 : ∀ t : Fin cfg3.N, cond3_0 (grid3.coords t) ↔ t.val % 50 = 0 :=
  (by decide +kernel : ∀ t : Fin grid3.N, cond3_0 (grid3.coords t) ↔ t.val % 50 = 0)
theorem hcond3_1 : ∀ t : Fin cfg3.N, cond3_1 (grid3.coords t) ↔ t.val % 50 = 49 :=
  (by decide +kernel : ∀ t : Fin grid3.N, cond3_1 (grid3.coords t) ↔ t.val % 50 = 49)
theorem hvi3_0 : ∀ t : Fin cfg3.N, ((grid3.coords t) 1).val = 0 ↔ t.val % 50 = 0 :=
  (by decide +kernel : ∀ t : Fin grid3.N, ((grid3.coords t) 1).val = 0 ↔ t.val % 50 = 0)

abbrev scM3_0 : Memref sig .tc .vmem S2048x1 .f32 := Memref.whole cc3_scratch0
abbrev scM3_1 : Memref sig .tc .vmem S2048x1 .f32 := Memref.whole cc3_scratch1
abbrev scM3_2 : Memref sig .tc .vmem S2048x1 .f32 := Memref.whole cc3_scratch2

def scOwn3 (c : Dev nD) (s : Sc3 F) : sProp 𝕄 :=
  iprop(owns (c : Thread nD τ) scM3_0 fullShare s.1 ∗ owns (c : Thread nD τ) scM3_1 fullShare s.2.1 ∗ owns (c : Thread nD τ) scM3_2 fullShare s.2.2)

def scAny3 (c : Dev nD) : sProp 𝕄 :=
  iprop((∃ d, owns (c : Thread nD τ) scM3_0 fullShare d) ∗ (∃ d, owns (c : Thread nD τ) scM3_1 fullShare d) ∗ (∃ d, owns (c : Thread nD τ) scM3_2 fullShare d))

theorem coverS3 (p : Vec F S2048x1 .f32) (y : S2048x1.Idx) :
    ∃ pc ∈ ([⟨rS3, p⟩] : List (View.Piece (Elt F) S2048x1 .f32)), y ∈ pc.1.set :=
  View.cover_of_tiled [⟨rS3, p⟩] S2048x1.size (by rfl) y

theorem coverL3 (p : Vec F S2048x640 .f32) (y : S2048x640.Idx) :
    ∃ pc ∈ ([⟨rL3, p⟩] : List (View.Piece (Elt F) S2048x640 .f32)), y ∈ pc.1.set :=
  View.cover_of_tiled [⟨rL3, p⟩] S2048x640.size (by rfl) y

theorem memS3 (y : S2048x1.Idx) : y ∈ rS3.set := by
  obtain ⟨pc, hm, hy⟩ := View.cover_of_tiled (Val := fun _ => Unit) (e := .f32) [⟨rS3, fun _ => ()⟩] S2048x1.size (by rfl) y
  rw [List.mem_singleton] at hm; subst hm; exact hy

theorem readCovS3 (v : View sig .tc .vmem S2048x1 .f32) (p : Vec F S2048x1 .f32) :
    v.readCov [⟨rS3, p⟩] rS3 = View.ld (View.canon [⟨rS3, p⟩]) rS3 :=
  View.readCov_eq_canon_ld v _ rS3 (coverS3 p)

theorem readS3_last (v : View sig .tc .vmem S2048x1 .f32) (f : v.ty.Contents (Elt F)) (p : Vec F S2048x1 .f32)
    (L : List (View.Piece (Elt F) S2048x1 .f32)) :
    v.read (Elt F) (v.writes (Elt F) f (⟨rS3, p⟩ :: L)) = View.canon [⟨rS3, p⟩] :=
  (View.read_writes_of_cover_last v f v f ⟨rS3, p⟩ L [] memS3).trans (View.read_writes_eq_canon v f [⟨rS3, p⟩] (coverS3 p))

theorem run3_A (c : Dev nD) (E : Set ℕ) (i : grid3.Coords) (h0 : cond3_0 i) (h1 : ¬cond3_1 i) (arg2 : Memref sig .tc .vmem S2048x512 .bf16) (harg2 : arg2.IsWhole) (arg3 : Memref sig .tc .vmem S512x640 .bf16) (harg3 : arg3.IsWhole) (arg4 : Memref sig .tc .vmem S1x640 .f32) (harg4 : arg4.IsWhole) (arg5 : Memref sig .tc .vmem S2048x1 .i32) (harg5 : arg5.IsWhole) (arg6 : Memref sig .tc .vmem S2048x640 .f32) (harg6 : arg6.IsWhole) (arg7 : Memref sig .tc .vmem S2048x1 .f32) (harg7 : arg7.IsWhole) (arg8 : Memref sig .tc .vmem S2048x1 .f32) (harg8 : arg8.IsWhole)
    (x0 : Vec F S2048x512 .bf16) (x1 : Vec F S512x640 .bf16) (x2 : Vec F S1x640 .f32) (x3 : Vec F S2048x1 .i32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ scAny3 (F := F) c
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out3_4 x0 x1 x2)
            ∗ scOwn3 c (scUpd3 (BitVec.ofNat 32 (i 1).val) x0 x1 x2 x3 scReset3)) -∗ K ⟨⟩))
      ⊢ wp frame (wpE (defs₀ (F := F)) Variants.none c none) E (cc3_lmhead_kernel i arg2 harg2 arg3 harg3 arg4 harg4 arg5 harg5 arg6 harg6 arg7 harg7 arg8 harg8 scM3_0 (Memref.isWhole_whole _) scM3_1 (Memref.isWhole_whole _) scM3_2 (Memref.isWhole_whole _)) K := by
  simp only [cc3_lmhead_kernel_eq_skeleton]; unfold cc3_lmhead_kernel_skel
  simp only [k3_part1_eq_skeleton]; unfold k3_part1_skel
  unfold scOwn3 scAny3 scUpd3 scReset3 out3_4 lg3; dsimp only
  unfold owns
  iintro ⟨⟨%f0, %hf0, H0⟩, ⟨%f1, %hf1, H1⟩, ⟨%f2, %hf2, H2⟩, ⟨%f3, %hf3, H3⟩, ⟨%d4, %f4, -, H4⟩, ⟨⟨%e0, %g0, -, S0⟩, ⟨%e1, %g1, -, S1⟩, ⟨%e2, %g2, -, S2⟩⟩, Hk⟩
  subst hf0 hf1 hf2 hf3
  sl_exec (disch := first | exact h0 | exact h1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro
    exact View.read_writes_eq_canon _ _ _ (coverL3 _)
  isplitl [S0]
  · iexists _; isplitr
    swap; · iexact S0
    ipureintro
    refine (readS3_last _ _ _ _).trans ?_
    rw [← readCovS3 scM3_0.view (k3_pay3 (F := F))]
    rfl
  isplitl [S1]
  · iexists _; isplitr
    swap; · iexact S1
    ipureintro
    refine (readS3_last _ _ _ _).trans ?_
    rw [← readCovS3 scM3_0.view (k3_pay3 (F := F)), ← readCovS3 scM3_1.view (k3_pay4 (F := F))]
    rfl
  iexists _; isplitr
  swap; · iexact S2
  ipureintro
  refine (readS3_last _ _ _ _).trans ?_
  rw [← readCovS3 scM3_2.view (k3_pay5 (F := F))]
  rfl

theorem run3_B (c : Dev nD) (E : Set ℕ) (i : grid3.Coords) (h0 : ¬cond3_0 i) (h1 : ¬cond3_1 i) (arg2 : Memref sig .tc .vmem S2048x512 .bf16) (harg2 : arg2.IsWhole) (arg3 : Memref sig .tc .vmem S512x640 .bf16) (harg3 : arg3.IsWhole) (arg4 : Memref sig .tc .vmem S1x640 .f32) (harg4 : arg4.IsWhole) (arg5 : Memref sig .tc .vmem S2048x1 .i32) (harg5 : arg5.IsWhole) (arg6 : Memref sig .tc .vmem S2048x640 .f32) (harg6 : arg6.IsWhole) (arg7 : Memref sig .tc .vmem S2048x1 .f32) (harg7 : arg7.IsWhole) (arg8 : Memref sig .tc .vmem S2048x1 .f32) (harg8 : arg8.IsWhole)
    (x0 : Vec F S2048x512 .bf16) (x1 : Vec F S512x640 .bf16) (x2 : Vec F S1x640 .f32) (x3 : Vec F S2048x1 .i32) (s : Sc3 F) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ scOwn3 c s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out3_4 x0 x1 x2)
            ∗ scOwn3 c (scUpd3 (BitVec.ofNat 32 (i 1).val) x0 x1 x2 x3 s)) -∗ K ⟨⟩))
      ⊢ wp frame (wpE (defs₀ (F := F)) Variants.none c none) E (cc3_lmhead_kernel i arg2 harg2 arg3 harg3 arg4 harg4 arg5 harg5 arg6 harg6 arg7 harg7 arg8 harg8 scM3_0 (Memref.isWhole_whole _) scM3_1 (Memref.isWhole_whole _) scM3_2 (Memref.isWhole_whole _)) K := by
  obtain ⟨sm, sl, st⟩ := s
  simp only [cc3_lmhead_kernel_eq_skeleton]; unfold cc3_lmhead_kernel_skel
  simp only [k3_part1_eq_skeleton]; unfold k3_part1_skel
  unfold scOwn3 scUpd3 out3_4 lg3; dsimp only
  unfold owns
  iintro ⟨⟨%f0, %hf0, H0⟩, ⟨%f1, %hf1, H1⟩, ⟨%f2, %hf2, H2⟩, ⟨%f3, %hf3, H3⟩, ⟨%d4, %f4, -, H4⟩, ⟨⟨%g0, %hg0, S0⟩, ⟨%g1, %hg1, S1⟩, ⟨%g2, %hg2, S2⟩⟩, Hk⟩
  subst hf0 hf1 hf2 hf3 hg0 hg1 hg2
  sl_exec (disch := first | exact h0 | exact h1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro
    exact View.read_writes_eq_canon _ _ _ (coverL3 _)
  isplitl [S0]
  · iexists _; isplitr
    swap; · iexact S0
    ipureintro
    exact View.read_writes_eq_canon _ _ _ (coverS3 _)
  isplitl [S1]
  · iexists _; isplitr
    swap; · iexact S1
    ipureintro
    exact View.read_writes_eq_canon _ _ _ (coverS3 _)
  iexists _; isplitr
  swap; · iexact S2
  ipureintro
  exact View.read_writes_eq_canon _ _ _ (coverS3 _)

theorem run3_C (c : Dev nD) (E : Set ℕ) (i : grid3.Coords) (h0 : ¬cond3_0 i) (h1 : cond3_1 i) (arg2 : Memref sig .tc .vmem S2048x512 .bf16) (harg2 : arg2.IsWhole) (arg3 : Memref sig .tc .vmem S512x640 .bf16) (harg3 : arg3.IsWhole) (arg4 : Memref sig .tc .vmem S1x640 .f32) (harg4 : arg4.IsWhole) (arg5 : Memref sig .tc .vmem S2048x1 .i32) (harg5 : arg5.IsWhole) (arg6 : Memref sig .tc .vmem S2048x640 .f32) (harg6 : arg6.IsWhole) (arg7 : Memref sig .tc .vmem S2048x1 .f32) (harg7 : arg7.IsWhole) (arg8 : Memref sig .tc .vmem S2048x1 .f32) (harg8 : arg8.IsWhole)
    (x0 : Vec F S2048x512 .bf16) (x1 : Vec F S512x640 .bf16) (x2 : Vec F S1x640 .f32) (x3 : Vec F S2048x1 .i32) (s : Sc3 F) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ scOwn3 c s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out3_4 x0 x1 x2)
            ∗ owns (c : Thread nD τ) arg7 fullShare (out3_5 (scUpd3 (BitVec.ofNat 32 (i 1).val) x0 x1 x2 x3 s))
            ∗ owns (c : Thread nD τ) arg8 fullShare (out3_6 (scUpd3 (BitVec.ofNat 32 (i 1).val) x0 x1 x2 x3 s))
            ∗ scOwn3 c (scUpd3 (BitVec.ofNat 32 (i 1).val) x0 x1 x2 x3 s)) -∗ K ⟨⟩))
      ⊢ wp frame (wpE (defs₀ (F := F)) Variants.none c none) E (cc3_lmhead_kernel i arg2 harg2 arg3 harg3 arg4 harg4 arg5 harg5 arg6 harg6 arg7 harg7 arg8 harg8 scM3_0 (Memref.isWhole_whole _) scM3_1 (Memref.isWhole_whole _) scM3_2 (Memref.isWhole_whole _)) K := by
  obtain ⟨sm, sl, st⟩ := s
  simp only [cc3_lmhead_kernel_eq_skeleton]; unfold cc3_lmhead_kernel_skel
  simp only [k3_part1_eq_skeleton]; unfold k3_part1_skel
  unfold scOwn3 out3_5 out3_6 scUpd3 out3_4 lg3; dsimp only
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨⟨%g0, %hg0, S0⟩, ⟨%g1, %hg1, S1⟩, ⟨%g2, %hg2, S2⟩⟩, Hk⟩
  subst hf0 hf1 hf2 hf3 hg0 hg1 hg2
  sl_exec (disch := first | exact h0 | exact h1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro
    exact View.read_writes_eq_canon _ _ _ (coverL3 _)
  isplitl [H5]
  · iexists _; isplitr
    swap; · iexact H5
    ipureintro
    refine (View.read_writes_eq_canon _ _ _ (coverS3 _)).trans ?_
    rw [← readCovS3 scM3_0.view (k3_pay9 _ _ _ _), ← readCovS3 scM3_1.view (k3_pay8 _ _ _ _ _)]
    rfl
  isplitl [H6]
  · iexists _; isplitr
    swap; · iexact H6
    ipureintro
    refine (View.read_writes_eq_canon _ _ _ (coverS3 _)).trans ?_
    rw [← readCovS3 scM3_2.view (k3_pay1 _ _ _ _)]
    rfl
  isplitl [S0]
  · iexists _; isplitr
    swap; · iexact S0
    ipureintro
    exact View.read_writes_eq_canon _ _ _ (coverS3 _)
  isplitl [S1]
  · iexists _; isplitr
    swap; · iexact S1
    ipureintro
    exact View.read_writes_eq_canon _ _ _ (coverS3 _)
  iexists _; isplitr
  swap; · iexact S2
  ipureintro
  exact View.read_writes_eq_canon _ _ _ (coverS3 _)

def Phi3 (c : Dev nD) : (n : ℕ) → n ≤ cfg3.N → sProp 𝕄
  | 0, _ => iprop(scAny3 (F := F) c ∗ Pipeline.scopedRestBut (Ix := Unit) (Name := ℕ) (U := UR sig nD τ) (Lvl := ℕ) (Val := Elt F) spec3 c [cc3_scratch0, cc3_scratch1, cc3_scratch2] ∗ ∃ r, prngReg c r)
  | n + 1, hn => iprop(scOwn3 c (sc3N V c (n + 1) hn) ∗ Pipeline.scopedRestBut (Ix := Unit) (Name := ℕ) (U := UR sig nD τ) (Lvl := ℕ) (Val := Elt F) spec3 c [cc3_scratch0, cc3_scratch1, cc3_scratch2] ∗ ∃ r, prngReg c r)

theorem scOwn3_any (c : Dev nD) (s : Sc3 F) : scOwn3 c s ⊢ (scAny3 (F := F) c : sProp 𝕄) := by
  unfold scOwn3 scAny3
  iintro ⟨S0, S1, S2⟩
  isplitl [S0]; · iexists _; iexact S0
  isplitl [S1]; · iexists _; iexact S1
  iexists _; iexact S2

theorem Phi3_pos (c : Dev nD) (n : ℕ) (h : n ≤ cfg3.N) (hz : n ≠ 0) :
    Phi3 V c n h = iprop(scOwn3 c (sc3N V c n h) ∗ Pipeline.scopedRestBut (Ix := Unit) (Name := ℕ) (U := UR sig nD τ) (Lvl := ℕ) (Val := Elt F) spec3 c [cc3_scratch0, cc3_scratch1, cc3_scratch2] ∗ ∃ r, prngReg c r) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t)
    | ⟨5, _⟩ => out3_5 (sc3 V c t.succ)
    | ⟨6, _⟩ => out3_6 (sc3 V c t.succ)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) := by dsimp only [dat3]
theorem after3_5 (c : Dev nD) (t : Fin cfg3.N) : (dat3 V c).after 5 t = out3_5 (sc3 V c t.succ) := by dsimp only [dat3]
theorem after3_6 (c : Dev nD) (t : Fin cfg3.N) : (dat3 V c).after 6 t = out3_6 (sc3 V c t.succ) := by dsimp only [dat3]

theorem sc3_succ_first (c : Dev nD) (t : Fin cfg3.N) (h : t.val % 50 = 0) :
    sc3 V c t.succ = scUpd3 (BitVec.ofNat 32 ((cfg3.grid.coords t) 1).val) (iblk3 V c 0 t) (iblk3 V c 1 t) (iblk3 V c 2 t) (iblk3 V c 3 t) scReset3 := by
  rw [sc3_succ]; unfold scStep3; rw [if_pos ((hvi3_0 t).mpr h)]

theorem sc3_succ_later (c : Dev nD) (t : Fin cfg3.N) (h : ¬t.val % 50 = 0) :
    sc3 V c t.succ = scUpd3 (BitVec.ofNat 32 ((cfg3.grid.coords t) 1).val) (iblk3 V c 0 t) (iblk3 V c 1 t) (iblk3 V c 2 t) (iblk3 V c 3 t) (sc3 V c t.castSucc) := by
  rw [sc3_succ]; unfold scStep3; rw [if_neg (fun e => h ((hvi3_0 t).mp e))]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem idleAt3_5 : ∀ t : Fin cfg3.N, ¬cond3_1 (grid3.coords t) → cfg3.idle 5 (grid3.coords t) = true := by decide +kernel
theorem idleAt3_6 : ∀ t : Fin cfg3.N, ¬cond3_1 (grid3.coords t) → cfg3.idle 6 (grid3.coords t) = true := by decide +kernel
theorem noFlush3_5 : ∀ t : Fin cfg3.N, ¬cond3_1 (grid3.coords t) → (cfg3.win 5).flush t = false := by decide +kernel
theorem noFlush3_6 : ∀ t : Fin cfg3.N, ¬cond3_1 (grid3.coords t) → (cfg3.win 6).flush t = false := by decide +kernel
theorem liveAt3_5 : ∀ t : Fin cfg3.N, cond3_1 (grid3.coords t) → cfg3.idle 5 (grid3.coords t) = false := by decide +kernel
theorem liveAt3_6 : ∀ t : Fin cfg3.N, cond3_1 (grid3.coords t) → cfg3.idle 6 (grid3.coords t) = false := by decide +kernel

theorem Phi3_castSucc (c : Dev nD) (t : Fin cfg3.N) :
    (dat3 V c).Φ t.castSucc = Phi3 V c t.val (Nat.le_of_lt t.isLt) := by
  dsimp only [dat3]; simp only [Fin.coe_castSucc]

theorem Phi3_succ (c : Dev nD) (t : Fin cfg3.N) :
    (dat3 V c).Φ t.succ = iprop(scOwn3 c (sc3 V c t.succ) ∗ Pipeline.scopedRestBut (Ix := Unit) (Name := ℕ) (U := UR sig nD τ) (Lvl := ℕ) (Val := Elt F) spec3 c [cc3_scratch0, cc3_scratch1, cc3_scratch2] ∗ ∃ r, prngReg c r) := rfl

theorem Phi3_zero (c : Dev nD) (n : ℕ) (h : n ≤ cfg3.N) (hz : n = 0) :
    Phi3 V c n h = iprop(scAny3 (F := F) c ∗ Pipeline.scopedRestBut (Ix := Unit) (Name := ℕ) (U := UR sig nD τ) (Lvl := ℕ) (Val := Elt F) spec3 c [cc3_scratch0, cc3_scratch1, cc3_scratch2] ∗ ∃ r, prngReg c r) := by
  subst hz; rfl

theorem sc3_castSucc (c : Dev nD) (t : Fin cfg3.N) : sc3 V c t.castSucc = sc3N V c t.val (Nat.le_of_lt t.isLt) := rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t
    ∗ (dat3 V c).leavesExact 4 t ∗ (dat3 V c).leavesExact 5 t ∗ (dat3 V c).leavesExact 6 t)

set_option maxHeartbeats 2000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl, Phi3_succ, Phi3_castSucc]
  have hN : t.val < 200 := lt_of_lt_of_eq t.isLt (show cfg3.N = 200 from N_3)
  rw [show (dat3 V c).leavesExact 0 t = owns (c : Thread nD τ) (st3_0 t) fullShare ((dat3 V c).after 0 t) from by
      unfold Dat.leavesExact; rw [liveAt3_0 t], after3_0]
  rw [show (dat3 V c).leavesExact 1 t = owns (c : Thread nD τ) (st3_1 t) fullShare ((dat3 V c).after 1 t) from by
      unfold Dat.leavesExact; rw [liveAt3_1 t], after3_1]
  rw [show (dat3 V c).leavesExact 2 t = owns (c : Thread nD τ) (st3_2 t) fullShare ((dat3 V c).after 2 t) from by
      unfold Dat.leavesExact; rw [liveAt3_2 t], after3_2]
  rw [show (dat3 V c).leavesExact 3 t = owns (c : Thread nD τ) (st3_3 t) fullShare ((dat3 V c).after 3 t) from by
      unfold Dat.leavesExact; rw [liveAt3_3 t], after3_3]
  rw [show (dat3 V c).leavesExact 4 t = owns (c : Thread nD τ) (st3_4 t) fullShare ((dat3 V c).after 4 t) from by
      unfold Dat.leavesExact; rw [liveAt3_4 t], after3_4]
  by_cases h0 : t.val % 50 = 0
  · have h1 : ¬t.val % 50 = 49 := by omega
    have c0 : cond3_0 (grid3.coords t) := (hcond3_0 t).mpr h0
    have c1 : ¬cond3_1 (grid3.coords t) := fun h => h1 ((hcond3_1 t).mp h)
    rw [Dat.leavesExact_idle (dat3 V c) 5 t (idleAt3_5 t c1) (noFlush3_5 t c1),
      Dat.leavesExact_idle (dat3 V c) 6 t (idleAt3_6 t c1) (noFlush3_6 t c1)]
    rw [sc3_succ_first V c t h0]
    have hany : Phi3 V c t.val (Nat.le_of_lt t.isLt) ⊢ (iprop(scAny3 (F := F) c ∗ Pipeline.scopedRestBut (Ix := Unit) (Name := ℕ) (U := UR sig nD τ) (Lvl := ℕ) (Val := Elt F) spec3 c [cc3_scratch0, cc3_scratch1, cc3_scratch2] ∗ ∃ r, prngReg c r) : sProp 𝕄) := by
      by_cases hz : t.val = 0
      · rw [Phi3_zero V c _ _ hz]
      · rw [Phi3_pos V c _ _ hz]
        iintro ⟨HS, HR, Hg⟩
        isplitl [HS]; · iapply (scOwn3_any c _); iexact HS
        isplitl [HR]; · iexact HR
        iexact Hg
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := hany $$ HΦ
    icases HΦ' with ⟨HS, HR, Hg⟩
    iapply (run3_A c Set.univ (grid3.coords t) c0 c1 _ _ _ _ _ _ _ _ _ _ _ _ _ _ (iblk3 V c 0 t) (iblk3 V c 1 t) (iblk3 V c 2 t) (iblk3 V c 3 t) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hz : t.val ≠ 0 := fun e => h0 (by rw [e])
    have c0 : ¬cond3_0 (grid3.coords t) := fun h => h0 ((hcond3_0 t).mp h)
    by_cases h1 : t.val % 50 = 49
    · have c1 : cond3_1 (grid3.coords t) := (hcond3_1 t).mpr h1
      rw [show (dat3 V c).leavesExact 5 t = owns (c : Thread nD τ) (st3_5 t) fullShare ((dat3 V c).after 5 t) from by
        unfold Dat.leavesExact; rw [liveAt3_5 t c1], after3_5]
      rw [show (dat3 V c).leavesExact 6 t = owns (c : Thread nD τ) (st3_6 t) fullShare ((dat3 V c).after 6 t) from by
        unfold Dat.leavesExact; rw [liveAt3_6 t c1], after3_6]
      rw [Phi3_pos V c _ _ hz, sc3_succ_later V c t h0, sc3_castSucc]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
      iapply (run3_C c Set.univ (grid3.coords t) c0 c1 _ _ _ _ _ _ _ _ _ _ _ _ _ _ (iblk3 V c 0 t) (iblk3 V c 1 t) (iblk3 V c 2 t) (iblk3 V c 3 t) _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS]; · iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have c1 : ¬cond3_1 (grid3.coords t) := fun h => h1 ((hcond3_1 t).mp h)
      rw [Dat.leavesExact_idle (dat3 V c) 5 t (idleAt3_5 t c1) (noFlush3_5 t c1),
        Dat.leavesExact_idle (dat3 V c) 6 t (idleAt3_6 t c1) (noFlush3_6 t c1)]
      rw [Phi3_pos V c _ _ hz, sc3_succ_later V c t h0, sc3_castSucc]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
      iapply (run3_B c Set.univ (grid3.coords t) c0 c1 _ _ _ _ _ _ _ _ _ _ _ _ _ _ (iblk3 V c 0 t) (iblk3 V c 1 t) (iblk3 V c 2 t) (iblk3 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

theorem body_obligation3 (c : Dev nD) : BodyObligation (dat3 (F := F) V c) (defs₀ (F := F)) Variants.none () Set.univ := fun t => by
  rw [bigSep_W3, bigSep_W3]
  exact sound_body3 V c t

theorem PhiA3_eq (c : Dev nD) :
    (Pipeline.ΦA (U := UR sig nD τ) (Val := Elt F) spec3 c : sProp 𝕄)
      = iprop(iprop(scAny3 (F := F) c ∗ Pipeline.scopedRestBut (Ix := Unit) (Name := ℕ) (U := UR sig nD τ) (Lvl := ℕ) (Val := Elt F) spec3 c [cc3_scratch0, cc3_scratch1, cc3_scratch2]) ∗ ∃ r, prngReg c r) := by
  unfold Pipeline.ΦA scAny3; rw [scopedRest3_split]; simp only [scM3_0, scM3_1, scM3_2, owns_whole]; try rfl

theorem Phi_in3 (c : Dev nD) : (Pipeline.ΦA (U := UR sig nD τ) (Val := Elt F) spec3 c : sProp 𝕄) ⊢ (dat3 V c).Φ 0 := by
  rw [show (dat3 V c).Φ 0 = Phi3 V c 0 (Nat.zero_le _) from rfl, PhiA3_eq]
  unfold Phi3
  iintro ⟨⟨HS, HR⟩, Hg⟩
  isplitl [HS]; · iexact HS
  isplitl [HR]; · iexact HR
  iexact Hg

theorem Phi_out3 (c : Dev nD) : (dat3 V c).Φ (Fin.last _) ⊢ (Pipeline.ΦA (U := UR sig nD τ) (Val := Elt F) spec3 c : sProp 𝕄) := by
  rw [show (dat3 V c).Φ (Fin.last _) = Phi3 V c (Fin.last cfg3.N).val (Nat.le_of_lt_succ (Fin.last cfg3.N).isLt) from rfl,
    Phi3_pos V c _ _ (by rw [Fin.val_last]; have : cfg3.N = 200 := N_3; omega), PhiA3_eq]
  iintro ⟨HS, HR, Hg⟩
  isplitl [HS HR]
  · isplitl [HS]; · iapply (scOwn3_any c _); iexact HS
    iexact HR
  iexact Hg

end Cert.KernelIdeal.Hand

end
-- ==== Proof.KI.Run.lean ====
import proofs.«421533_j19645180411976_3_alg».proof.Proof.KI.Reg0
import proofs.«421533_j19645180411976_3_alg».proof.Proof.KI.Reg1
import proofs.«421533_j19645180411976_3_alg».proof.Proof.KI.Reg2
import proofs.«421533_j19645180411976_3_alg».proof.Proof.KI.Reg3
import proofs.«421533_j19645180411976_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W2_of_in (c : Dev nD) (b : Ref sig .tc) (hb : ∀ w, Pipeline.arrRef spec0 w = b → (cfg0.win w).isOut = false) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (hb w rfl) _).trans (A_eq0 (V1 m ρ) c w))
  · exact W2_of_ne m ρ c b fun w e => h ⟨w, e⟩

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
theorem W4_of_in (c : Dev nD) (b : Ref sig .tc) (hb : ∀ w, Pipeline.arrRef spec1 w = b → (cfg1.win w).isOut = false) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (hb w rfl) _).trans (A_eq1 (V3 m ρ) c w))
  · exact W4_of_ne m ρ c b fun w e => h ⟨w, e⟩

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
theorem W6_of_in (c : Dev nD) (b : Ref sig .tc) (hb : ∀ w, Pipeline.arrRef spec2 w = b → (cfg2.win w).isOut = false) :
    W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (hb w rfl) _).trans (A_eq2 (V5 m ρ) c w))
  · exact W6_of_ne m ρ c b fun w e => h ⟨w, e⟩

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
theorem W8_of_in (c : Dev nD) (b : Ref sig .tc) (hb : ∀ w, Pipeline.arrRef spec3 w = b → (cfg3.win w).isOut = false) :
    W8 m ρ c (Proc.devRef .tc b) = W7 m ρ c (Proc.devRef .tc b) := by
  by_cases h : ∃ w, Pipeline.arrRef spec3 w = b
  · obtain ⟨w, rfl⟩ := h
    exact (W8_arr m ρ c w).trans (((dat3 (V7 m ρ) c).arrAt_in w (hb w rfl) _).trans (A_eq3 (V7 m ρ) c w))
  · exact W8_of_ne m ρ c b fun w e => h ⟨w, e⟩

abbrev W9 : Dev nD → Valuation τ sig (Elt F) := fun c => StableHlo.after hostOps4 (W8 m ρ c)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h

theorem W9_of_untouched (c : Dev nD) (r : Ref sig .tc)
    (h0 : r ∉ hostOps0_W) (h1 : r ∉ hostOps1_W) (h2 : r ∉ hostOps2_W) (h3 : r ∉ hostOps3_W) (h4 : r ∉ hostOps4_W)
    (g0 : ∀ w, Pipeline.arrRef spec0 w = r → (cfg0.win w).isOut = false)
    (g1 : ∀ w, Pipeline.arrRef spec1 w = r → (cfg1.win w).isOut = false)
    (g2 : ∀ w, Pipeline.arrRef spec2 w = r → (cfg2.win w).isOut = false)
    (g3 : ∀ w, Pipeline.arrRef spec3 w = r → (cfg3.win w).isOut = false) :
    W9 m ρ c (Proc.devRef .tc r) = m ((c : Thread nD τ).loc r) :=
  (W9_of m ρ c r h4).trans <| (W8_of_in m ρ c r g3).trans <| (W7_of m ρ c r h3).trans <| (W6_of_in m ρ c r g2).trans <|
    (W5_of m ρ c r h2).trans <| (W4_of_in m ρ c r g1).trans <| (W3_of m ρ c r h1).trans <| (W2_of_in m ρ c r g0).trans <|
    (W1_of m ρ c r h0).trans rfl

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- An unscoped buffer that neither a host stretch nor a region writes ends as the launch memory has it.
theorem kept {s : MemSt nD τ sig (Elt F)}
    (h : ∀ c : Dev nD, ∀ b ∈ Pipeline.ucRefs τ sig, s.mem (((c : Thread nD τ)).1, b) = W9 m ρ c b) (c : Dev nD) (r : Ref sig .tc)
    (hu : ¬ (Proc.devRef .tc r : DevRef τ sig).isScoped := by decide)
    (h0 : r ∉ hostOps0_W := by decide) (h1 : r ∉ hostOps1_W := by decide) (h2 : r ∉ hostOps2_W := by decide)
    (h3 : r ∉ hostOps3_W := by decide) (h4 : r ∉ hostOps4_W := by decide)
    (g0 : ∀ w, Pipeline.arrRef spec0 w = r → (cfg0.win w).isOut = false := by decide)
    (g1 : ∀ w, Pipeline.arrRef spec1 w = r → (cfg1.win w).isOut = false := by decide)
    (g2 : ∀ w, Pipeline.arrRef spec2 w = r → (cfg2.win w).isOut = false := by decide)
    (g3 : ∀ w, Pipeline.arrRef spec3 w = r → (cfg3.win w).isOut = false := by decide) :
    s.mem ((c.tc : Thread nD τ).loc r) = m ((c.tc : Thread nD τ).loc r) :=
  (h c _ (mem_uc r hu)).trans (W9_of_untouched m ρ c r h0 h1 h2 h3 h4 g0 g1 g2 g3)

abbrev Tₙ (c : Dev nD) : sProp 𝕄 := iprop(StableHlo.held (c : Thread nD τ) (Pipeline.ucRefs τ sig) (W9 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi_in0 (V1 m ρ) c)
    unfold Pipeline.ΦA
    iintro ⟨Hp, -, Hr⟩
    isplitl [Hr]; · iexact Hr
    iexact Hp
  hout c := by
    rw [Pipeline.ownSems0_none]
    refine BIBase.Entails.trans (Phi_out0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi_in1 (V3 m ρ) c)
    unfold Pipeline.ΦA
    iintro ⟨Hp, -, Hr⟩
    isplitl [Hr]; · iexact Hr
    iexact Hp
  hout c := by
    rw [Pipeline.ownSems0_none]
    refine BIBase.Entails.trans (Phi_out1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi_in2 (V5 m ρ) c)
    unfold Pipeline.ΦA
    iintro ⟨Hp, -, Hr⟩
    isplitl [Hr]; · iexact Hr
    iexact Hp
  hout c := by
    rw [Pipeline.ownSems0_none]
    refine BIBase.Entails.trans (Phi_out2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun w => A_eq3 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi_in3 (V7 m ρ) c)
    unfold Pipeline.ΦA
    iintro ⟨Hp, -, Hr⟩
    isplitl [Hr]; · iexact Hr
    iexact Hp
  hout c := by
    rw [Pipeline.ownSems0_none]
    refine BIBase.Entails.trans (Phi_out3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

theorem main_run (c : Dev nD) : main (F := F) c = Pipeline.Seg.run (segs m ρ) := by
  rw [main_chain c, Pipeline.Seg.run_eq_chain]
  rfl

set_option backward.isDefEq.respectTransparency.types false in

theorem run_Q {Q : PUnit × MemSt nD τ sig (Elt F) → Prop}
    (hQ : ∀ s : MemSt nD τ sig (Elt F),
      (∀ c : Dev nD, ∀ b ∈ Pipeline.ucRefs τ sig, s.mem (((c : Thread nD τ)).1, b) = W9 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := hQ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  run_Q m ρ fun s h c =>
    ⟨kept m ρ h c main_arg0, kept m ρ h c main_arg1, kept m ρ h c main_arg2, kept m ρ h c main_arg3,
     kept m ρ h c main_arg4, kept m ρ h c main_arg5, kept m ρ h c main_arg6, kept m ρ h c main_arg7,
     kept m ρ h c main_arg8, kept m ρ h c main_arg9, kept m ρ h c main_arg10, kept m ρ h c main_arg11,
     kept m ρ h c main_arg12, kept m ρ h c main_arg13, kept m ρ h c main_arg14, kept m ρ h c main_arg15,
     kept m ρ h c main_arg16⟩

end Cert.KernelIdeal.Hand

end
-- ==== Proof.KI.GlueHost.lean ====
import proofs.«421533_j19645180411976_3_alg».proof.Proof.Gen.KernelIdeal.Launch
import proofs.«421533_j19645180411976_3_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx
open scoped BigOperators

variable (W : Valuation τ sig (Elt Ideal))

abbrev hRowB (r : Fin 8192) : Fin 4 := ⟨r.val / 2048, by omega⟩

abbrev hRowT (r : Fin 8192) : Fin 2048 := ⟨r.val % 2048, by omega⟩

abbrev hFlatRow (b : Fin 4) (t : Fin 2048) : Fin 8192 := ⟨b.val * 2048 + t.val, by omega⟩

abbrev hTlCol : Vec Ideal S8192x1 .f32 := W (Proc.devRef .tc main_v31_2)

abbrev hLseCol : Vec Ideal S8192x1 .f32 := W (Proc.devRef .tc main_v31_1)

section Reads
variable {α : Type}

theorem glue_shapeCast_flatten (X : S4x2048x512.Idx → α) (h : S4x2048x512.ShapeCasts S8192x512) (r : Fin 8192) (c : Fin 512) :
    shapeCast S8192x512 X h (ix2 r c) = X (ix3 (hRowB r) (hRowT r) c) :=
  shapeCast_apply X h _ _ (by
    rw [Shape.rowMajor_val_three, Shape.rowMajor_val_two]
    show (r.val / 2048 * 2048 + r.val % 2048) * 512 + c.val = r.val * 512 + c.val
    omega)

theorem glue_shapeCast_unflatten (X : S8192x512.Idx → α) (h : S8192x512.ShapeCasts S4x2048x512) (b : Fin 4) (t : Fin 2048) (d : Fin 512) :
    shapeCast S4x2048x512 X h (ix3 b t d) = X (ix2 (hFlatRow b t) d) :=
  shapeCast_apply X h _ _ (by
    rw [Shape.rowMajor_val_three, Shape.rowMajor_val_two]
    show (b.val * 2048 + t.val) * 512 + d.val = (b.val * 2048 + t.val) * 512 + d.val
    rfl)

theorem glue_shapeCast_flattenCol (X : S4x2048.Idx → α) (h : S4x2048.ShapeCasts S8192x1) (r : Fin 8192) :
    shapeCast S8192x1 X h (ix2 r (0 : Fin 1)) = X (ix2 (hRowB r) (hRowT r)) :=
  shapeCast_apply X h _ _ (by
    rw [Shape.rowMajor_val_two, Shape.rowMajor_val_two]
    show r.val / 2048 * 2048 + r.val % 2048 = r.val * 1 + 0
    omega)

theorem glue_shapeCast_col (X : S8192x1.Idx → α) (h : S8192x1.ShapeCasts S8192) (r : Fin 8192) :
    shapeCast S8192 X h (ix1 r) = X (ix2 r (0 : Fin 1)) :=
  shapeCast_apply X h _ _ (by
    rw [Shape.rowMajor_val_two, Shape.rowMajor_val_one]
    show r.val * 1 + 0 = r.val
    omega)

def glue_idxEquiv1 {n : Nat} : (⟨1, ![n]⟩ : Shape).Idx ≃ Fin n where
  toFun i := i 0
  invFun a := ix1 a
  left_inv i := (eq_ix1 i).symm
  right_inv _ := rfl

theorem glue_sum_idx1 {M : Type*} [AddCommMonoid M] {n : Nat} (f : (⟨1, ![n]⟩ : Shape).Idx → M) :
    ∑ i, f i = ∑ a : Fin n, f (ix1 a) := by
  rw [← Equiv.sum_comp (glue_idxEquiv1 (n := n)).symm f]
  rfl

end Reads

section Real

theorem glue_real_gather {s si t : Shape} {w : Nat} (d : GatherDims s si t) (x : s.Idx → EReal) (idx : IVec si w)
    (hx : ∀ i, ∃ r : ℝ, x i = (r : EReal)) : ∀ j, ∃ r : ℝ, Host.gather d x idx j = (r : EReal) := fun j => hx _

theorem glue_real_broadcastInDim {s t : Shape} (dims : Fin s.rank → Fin t.rank) (h : s.BroadcastsInDim t dims) (x : s.Idx → EReal)
    (hx : ∀ i, ∃ r : ℝ, x i = (r : EReal)) : ∀ j, ∃ r : ℝ, broadcastInDim t dims h x j = (r : EReal) := fun j => hx _

theorem glue_real_addf {s : Shape} {φ : FTy} (a b : FVec Ideal s φ) (ha : ∀ i, ∃ r : ℝ, a i = (r : EReal))
    (hb : ∀ i, ∃ r : ℝ, b i = (r : EReal)) : ∀ j, ∃ r : ℝ, addf a b j = (r : EReal) := fun j => by
  obtain ⟨ra, ea⟩ := ha j
  obtain ⟨rb, eb⟩ := hb j
  exact ⟨ra + rb, by rw [addf_apply, ea, eb, EReal.coe_add]⟩

end Real

theorem glue_nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

open StableHlo in

macro "glue_host_results_simp" : tactic =>
  `(tactic| (simp (disch := decide) only [after_cons, after_nil,
      nullary_result', unary_result', binary_result', ternary_result', reshape_result', glue_nary3_result,
      nullary_result_ne', unary_result_ne', binary_result_ne', ternary_result_ne', reshape_result_ne', nary_result_ne']))

abbrev hTokIdx : Vec Ideal S4x2048x1 .i32 :=
  broadcastInDim S4x2048x1 ![0, 1] Gen.bcast_S4x2048_S4x2048x1_0_1
    (select (cmpi .slt (W (Proc.devRef .tc main_arg0) : Vec Ideal S4x2048 .i32) (broadcastInDim S4x2048 ![] Gen.bcast_S_S4x2048 (constantI S_ 32 0#32)))
      (addi (W (Proc.devRef .tc main_arg0) : Vec Ideal S4x2048 .i32) (broadcastInDim S4x2048 ![] Gen.bcast_S_S4x2048 (constantI S_ 32 32000#32)))
      (W (Proc.devRef .tc main_arg0) : Vec Ideal S4x2048 .i32))

set_option maxHeartbeats 1600000 in

theorem host0_v9_eq :
    (StableHlo.after (hostOps0 (F := Ideal)) W (Proc.devRef .tc main_v9) : Vec Ideal S4x2048x512 .f32)
      = addf (F := Ideal) (φ := .f32)
          (Host.gather gather_S32000x512_S4x2048x1_S4x2048x512_2_0_n_n_0_2_1512 (W (Proc.devRef .tc main_arg2) : Vec Ideal S32000x512 .f32) (hTokIdx W))
          (broadcastInDim S4x2048x512 ![0, 1, 2] Gen.bcast_S1x2048x512_S4x2048x512_0_1_2
            (broadcastInDim S1x2048x512 ![1, 2] Gen.bcast_S2048x512_S1x2048x512_1_2 (W (Proc.devRef .tc main_arg3) : Vec Ideal S2048x512 .f32))) := by
  show StableHlo.after (hostOps0 (F := Ideal)) W (Proc.devRef .tc main_v9) = _
  glue_host_results_simp

set_option maxHeartbeats 1600000 in

theorem host0_v10_eq :
    (StableHlo.after (hostOps0 (F := Ideal)) W (Proc.devRef .tc main_v10) : Vec Ideal S8192x512 .f32)
      = shapeCast S8192x512 (StableHlo.after (hostOps0 (F := Ideal)) W (Proc.devRef .tc main_v9) : Vec Ideal S4x2048x512 .f32)
          Gen.shapeCasts_S4x2048x512_S8192x512 := by
  show StableHlo.after (hostOps0 (F := Ideal)) W (Proc.devRef .tc main_v10)
    = shapeCast S8192x512 (StableHlo.after (hostOps0 (F := Ideal)) W (Proc.devRef .tc main_v9)) _
  glue_host_results_simp
  rfl

theorem host0_v10 (r : Fin 8192) (c : Fin 512) :
    (StableHlo.after (hostOps0 (F := Ideal)) W (Proc.devRef .tc main_v10) : Vec Ideal S8192x512 .f32) (ix2 r c)
      = (StableHlo.after (hostOps0 (F := Ideal)) W (Proc.devRef .tc main_v9) : Vec Ideal S4x2048x512 .f32) (ix3 (hRowB r) (hRowT r) c) := by
  exact (congrFun (host0_v10_eq W) _).trans (glue_shapeCast_flatten _ _ r c)

theorem host0_v9_real
    (h2 : ∀ i, ∃ r : ℝ, (W (Proc.devRef .tc main_arg2) : Vec Ideal S32000x512 .f32) i = (r : EReal))
    (h3 : ∀ i, ∃ r : ℝ, (W (Proc.devRef .tc main_arg3) : Vec Ideal S2048x512 .f32) i = (r : EReal)) :
    ∀ i, ∃ r : ℝ, (StableHlo.after (hostOps0 (F := Ideal)) W (Proc.devRef .tc main_v9) : Vec Ideal S4x2048x512 .f32) i = (r : EReal) := by
  intro i
  obtain ⟨r, e⟩ := glue_real_addf (φ := .f32) _ _
    (glue_real_gather gather_S32000x512_S4x2048x1_S4x2048x512_2_0_n_n_0_2_1512 (W (Proc.devRef .tc main_arg2) : Vec Ideal S32000x512 .f32) (hTokIdx W) h2)
    (glue_real_broadcastInDim _ Gen.bcast_S1x2048x512_S4x2048x512_0_1_2 _
      (glue_real_broadcastInDim _ Gen.bcast_S2048x512_S1x2048x512_1_2 (W (Proc.devRef .tc main_arg3) : Vec Ideal S2048x512 .f32) h3)) i
  exact ⟨r, (congrFun (host0_v9_eq W) i).trans e⟩

abbrev hWqkvPieces : List ((s : Shape) × (s.Idx → Ideal .f32)) :=
  [⟨S512x512, transpose S512x512 [1, 0] (W (Proc.devRef .tc main_arg5) : Vec Ideal S512x512 .f32) Gen.transposes_S512x512_S512x512_1_0⟩,
   ⟨S512x512, transpose S512x512 [1, 0] (W (Proc.devRef .tc main_arg4) : Vec Ideal S512x512 .f32) Gen.transposes_S512x512_S512x512_1_0⟩,
   ⟨S512x512, transpose S512x512 [1, 0] (W (Proc.devRef .tc main_arg6) : Vec Ideal S512x512 .f32) Gen.transposes_S512x512_S512x512_1_0⟩]

abbrev hWqkvT : Vec Ideal S512x1536 .f32 :=
  concatenate S512x1536 1 (hWqkvPieces W) Gen.concatenates_S512x512_S512x512_S512x512_S512x1536_d1

set_option maxHeartbeats 1600000 in

theorem host0_v15_eq :
    (StableHlo.after (hostOps0 (F := Ideal)) W (Proc.devRef .tc main_v15) : Vec Ideal S512x1536 .bf16)
      = truncf (F := Ideal) .bf16 (hWqkvT W) Gen.bitsLt_bf16_f32 := by
  show StableHlo.after (hostOps0 (F := Ideal)) W (Proc.devRef .tc main_v15) = _
  glue_host_results_simp
  rfl

theorem host0_v15_q (c d : Fin 512) :
    (StableHlo.after (hostOps0 (F := Ideal)) W (Proc.devRef .tc main_v15) : Vec Ideal S512x1536 .bf16) (ix2 c (⟨d.val, by omega⟩ : Fin 1536))
      = (W (Proc.devRef .tc main_arg5) : Vec Ideal S512x512 .f32) (ix2 d c) := by
  refine (congrFun (host0_v15_eq W) _).trans ?_
  show hWqkvT W (ix2 c _) = _
  refine (concatenate_apply_piece (1 : Fin S512x1536.rank) (hWqkvPieces W) Gen.concatenates_S512x512_S512x512_S512x512_S512x1536_d1
    (ix2 c _) 0 (by show (0 : ℕ) < 3; omega) S512x512 _ rfl rfl 0 (by rfl) (ix2 c d) ?_ ?_).trans ?_
  · intro b hb
    match b with
    | ⟨0, _⟩ => rfl
    | ⟨1, _⟩ => exact absurd (Fin.ext rfl) hb
  · exact Nat.zero_add _
  · exact transpose_ix2_apply _ _ c d

theorem host0_v15_k (c d : Fin 512) :
    (StableHlo.after (hostOps0 (F := Ideal)) W (Proc.devRef .tc main_v15) : Vec Ideal S512x1536 .bf16) (ix2 c (⟨512 + d.val, by omega⟩ : Fin 1536))
      = (W (Proc.devRef .tc main_arg4) : Vec Ideal S512x512 .f32) (ix2 d c) := by
  refine (congrFun (host0_v15_eq W) _).trans ?_
  show hWqkvT W (ix2 c _) = _
  refine (concatenate_apply_piece (1 : Fin S512x1536.rank) (hWqkvPieces W) Gen.concatenates_S512x512_S512x512_S512x512_S512x1536_d1
    (ix2 c _) 1 (by show (1 : ℕ) < 3; omega) S512x512 _ rfl rfl 512 (by rfl) (ix2 c d) ?_ ?_).trans ?_
  · intro b hb
    match b with
    | ⟨0, _⟩ => rfl
    | ⟨1, _⟩ => exact absurd (Fin.ext rfl) hb
  · rfl
  · exact transpose_ix2_apply _ _ c d

theorem host0_v15_v (c d : Fin 512) :
    (StableHlo.after (hostOps0 (F := Ideal)) W (Proc.devRef .tc main_v15) : Vec Ideal S512x1536 .bf16) (ix2 c (⟨1024 + d.val, by omega⟩ : Fin 1536))
      = (W (Proc.devRef .tc main_arg6) : Vec Ideal S512x512 .f32) (ix2 d c) := by
  refine (congrFun (host0_v15_eq W) _).trans ?_
  show hWqkvT W (ix2 c _) = _
  refine (concatenate_apply_piece (1 : Fin S512x1536.rank) (hWqkvPieces W) Gen.concatenates_S512x512_S512x512_S512x512_S512x1536_d1
    (ix2 c _) 2 (by show (2 : ℕ) < 3; omega) S512x512 _ rfl rfl 1024 (by rfl) (ix2 c d) ?_ ?_).trans ?_
  · intro b hb
    match b with
    | ⟨0, _⟩ => rfl
    | ⟨1, _⟩ => exact absurd (Fin.ext rfl) hb
  · rfl
  · exact transpose_ix2_apply _ _ c d

theorem host1_v17 (b : Fin 4) (t : Fin 2048) (d : Fin 512) :
    (StableHlo.after (hostOps1 (F := Ideal)) W (Proc.devRef .tc main_v17) : Vec Ideal S4x2048x512 .bf16) (ix3 b t d)
      = (W (Proc.devRef .tc main_v16_0) : Vec Ideal S8192x512 .bf16) (ix2 (hFlatRow b t) d) := by
  have e : (StableHlo.after (hostOps1 (F := Ideal)) W (Proc.devRef .tc main_v17) : Vec Ideal S4x2048x512 .bf16)
      = shapeCast S4x2048x512 (W (Proc.devRef .tc main_v16_0) : Vec Ideal S8192x512 .bf16) Gen.shapeCasts_S8192x512_S4x2048x512 := by
    show StableHlo.after (hostOps1 (F := Ideal)) W (Proc.devRef .tc main_v17) = _
    after_results
    rfl
  exact (congrFun e _).trans (glue_shapeCast_unflatten _ _ b t d)

theorem host1_v18 (b : Fin 4) (t : Fin 2048) (d : Fin 512) :
    (StableHlo.after (hostOps1 (F := Ideal)) W (Proc.devRef .tc main_v18) : Vec Ideal S4x2048x512 .bf16) (ix3 b t d)
      = (W (Proc.devRef .tc main_v16_1) : Vec Ideal S8192x512 .bf16) (ix2 (hFlatRow b t) d) := by
  have e : (StableHlo.after (hostOps1 (F := Ideal)) W (Proc.devRef .tc main_v18) : Vec Ideal S4x2048x512 .bf16)
      = shapeCast S4x2048x512 (W (Proc.devRef .tc main_v16_1) : Vec Ideal S8192x512 .bf16) Gen.shapeCasts_S8192x512_S4x2048x512 := by
    show StableHlo.after (hostOps1 (F := Ideal)) W (Proc.devRef .tc main_v18) = _
    after_results
    rfl
  exact (congrFun e _).trans (glue_shapeCast_unflatten _ _ b t d)

theorem host1_v19 (b : Fin 4) (t : Fin 2048) (d : Fin 512) :
    (StableHlo.after (hostOps1 (F := Ideal)) W (Proc.devRef .tc main_v19) : Vec Ideal S4x2048x512 .bf16) (ix3 b t d)
      = (W (Proc.devRef .tc main_v16_2) : Vec Ideal S8192x512 .bf16) (ix2 (hFlatRow b t) d) := by
  have e : (StableHlo.after (hostOps1 (F := Ideal)) W (Proc.devRef .tc main_v19) : Vec Ideal S4x2048x512 .bf16)
      = shapeCast S4x2048x512 (W (Proc.devRef .tc main_v16_2) : Vec Ideal S8192x512 .bf16) Gen.shapeCasts_S8192x512_S4x2048x512 := by
    show StableHlo.after (hostOps1 (F := Ideal)) W (Proc.devRef .tc main_v19) = _
    after_results
    rfl
  exact (congrFun e _).trans (glue_shapeCast_unflatten _ _ b t d)

theorem host2_v21 (r : Fin 8192) (c : Fin 512) :
    (StableHlo.after (hostOps2 (F := Ideal)) W (Proc.devRef .tc main_v21) : Vec Ideal S8192x512 .f32) (ix2 r c)
      = (W (Proc.devRef .tc main_v20) : Vec Ideal S4x2048x512 .f32) (ix3 (hRowB r) (hRowT r) c) := by
  have e : (StableHlo.after (hostOps2 (F := Ideal)) W (Proc.devRef .tc main_v21) : Vec Ideal S8192x512 .f32)
      = shapeCast S8192x512 (W (Proc.devRef .tc main_v20) : Vec Ideal S4x2048x512 .f32) Gen.shapeCasts_S4x2048x512_S8192x512 := by
    show StableHlo.after (hostOps2 (F := Ideal)) W (Proc.devRef .tc main_v21) = _
    after_results
    rfl
  exact (congrFun e _).trans (glue_shapeCast_flatten _ _ r c)

theorem host2_v23 (c : Fin 512) (f : Fin 2048) :
    (StableHlo.after (hostOps2 (F := Ideal)) W (Proc.devRef .tc main_v23) : Vec Ideal S512x2048 .bf16) (ix2 c f)
      = (W (Proc.devRef .tc main_arg7) : Vec Ideal S2048x512 .f32) (ix2 f c) := by
  have e : (StableHlo.after (hostOps2 (F := Ideal)) W (Proc.devRef .tc main_v23) : Vec Ideal S512x2048 .bf16)
      = truncf (F := Ideal) .bf16 (transpose S512x2048 [1, 0] (W (Proc.devRef .tc main_arg7) : Vec Ideal S2048x512 .f32) Gen.transposes_S2048x512_S512x2048_1_0)
          Gen.bitsLt_bf16_f32 := by
    show StableHlo.after (hostOps2 (F := Ideal)) W (Proc.devRef .tc main_v23) = _
    after_results
  exact (congrFun e _).trans (transpose_ix2_apply _ _ c f)

theorem host2_v25 (f : Fin 2048) (c : Fin 512) :
    (StableHlo.after (hostOps2 (F := Ideal)) W (Proc.devRef .tc main_v25) : Vec Ideal S2048x512 .bf16) (ix2 f c)
      = (W (Proc.devRef .tc main_arg9) : Vec Ideal S512x2048 .f32) (ix2 c f) := by
  have e : (StableHlo.after (hostOps2 (F := Ideal)) W (Proc.devRef .tc main_v25) : Vec Ideal S2048x512 .bf16)
      = truncf (F := Ideal) .bf16 (transpose S2048x512 [1, 0] (W (Proc.devRef .tc main_arg9) : Vec Ideal S512x2048 .f32) Gen.transposes_S512x2048_S2048x512_1_0)
          Gen.bitsLt_bf16_f32 := by
    show StableHlo.after (hostOps2 (F := Ideal)) W (Proc.devRef .tc main_v25) = _
    after_results
  exact (congrFun e _).trans (transpose_ix2_apply _ _ f c)

theorem host3_v28 (c : Fin 512) (w : Fin 32000) :
    (StableHlo.after (hostOps3 (F := Ideal)) W (Proc.devRef .tc main_v28) : Vec Ideal S512x32000 .bf16) (ix2 c w)
      = (W (Proc.devRef .tc main_arg15) : Vec Ideal S32000x512 .f32) (ix2 w c) := by
  have e : (StableHlo.after (hostOps3 (F := Ideal)) W (Proc.devRef .tc main_v28) : Vec Ideal S512x32000 .bf16)
      = truncf (F := Ideal) .bf16 (transpose S512x32000 [1, 0] (W (Proc.devRef .tc main_arg15) : Vec Ideal S32000x512 .f32) Gen.transposes_S32000x512_S512x32000_1_0)
          Gen.bitsLt_bf16_f32 := by
    show StableHlo.after (hostOps3 (F := Ideal)) W (Proc.devRef .tc main_v28) = _
    after_results
  exact (congrFun e _).trans (transpose_ix2_apply _ _ c w)

theorem host3_v29 (w : Fin 32000) :
    (StableHlo.after (hostOps3 (F := Ideal)) W (Proc.devRef .tc main_v29) : Vec Ideal S1x32000 .f32) (ix2 (0 : Fin 1) w)
      = (W (Proc.devRef .tc main_arg16) : Vec Ideal S32000 .f32) (ix1 w) := by
  have e : (StableHlo.after (hostOps3 (F := Ideal)) W (Proc.devRef .tc main_v29) : Vec Ideal S1x32000 .f32)
      = shapeCast S1x32000 (W (Proc.devRef .tc main_arg16) : Vec Ideal S32000 .f32) Gen.shapeCasts_S32000_S1x32000 := by
    show StableHlo.after (hostOps3 (F := Ideal)) W (Proc.devRef .tc main_v29) = _
    after_results
    rfl
  exact (congrFun e _).trans (shapeCast_a_1a_apply _ _ (0 : Fin 1) w)

theorem host3_v30 (r : Fin 8192) :
    (StableHlo.after (hostOps3 (F := Ideal)) W (Proc.devRef .tc main_v30) : Vec Ideal S8192x1 .i32) (ix2 r (0 : Fin 1))
      = (W (Proc.devRef .tc main_arg1) : Vec Ideal S4x2048 .i32) (ix2 (hRowB r) (hRowT r)) := by
  have e : (StableHlo.after (hostOps3 (F := Ideal)) W (Proc.devRef .tc main_v30) : Vec Ideal S8192x1 .i32)
      = shapeCast S8192x1 (W (Proc.devRef .tc main_arg1) : Vec Ideal S4x2048 .i32) Gen.shapeCasts_S4x2048_S8192x1 := by
    show StableHlo.after (hostOps3 (F := Ideal)) W (Proc.devRef .tc main_v30) = _
    after_results
    rfl
  exact (congrFun e _).trans (glue_shapeCast_flattenCol _ _ r)

theorem host4_v37_eq :
    (StableHlo.after (hostOps4 (F := Ideal)) W (Proc.devRef .tc main_v37) : Vec Ideal S_ .f32)
      = Host.negf (Host.divf
          (Host.reduceAdd (subf (F := Ideal) (φ := .f32) (shapeCast S8192 (hTlCol W) Gen.shapeCasts_S8192x1_S8192) (shapeCast S8192 (hLseCol W) Gen.shapeCasts_S8192x1_S8192))
            (constant (F := Ideal) S_ .f32 0x00000000#32) Gen.reducesTo_S8192_S_d0 Gen.h_S_)
          (constant (F := Ideal) S_ .f32 0x46000000#32)) := by
  show StableHlo.after (hostOps4 (F := Ideal)) W (Proc.devRef .tc main_v37) = _
  after_results
  rfl

theorem host4_v37 :
    (StableHlo.after (hostOps4 (F := Ideal)) W (Proc.devRef .tc main_v37) : Vec Ideal S_ .f32) ix0
      = -(Ideal.div (∑ r : Fin 8192, (hTlCol W (ix2 r (0 : Fin 1)) - hLseCol W (ix2 r (0 : Fin 1))))
            (Ideal.ofBits .f32 0x46000000#32)) := by
  refine (congrFun (host4_v37_eq W) ix0).trans ?_
  show -(Ideal.div (Ideal.hostReduceAdd Gen.reducesTo_S8192_S_d0
        (subf (F := Ideal) (φ := .f32) (shapeCast S8192 (hTlCol W) Gen.shapeCasts_S8192x1_S8192) (shapeCast S8192 (hLseCol W) Gen.shapeCasts_S8192x1_S8192))
        (Ideal.ofBits .f32 0x00000000#32) ix0) (Ideal.ofBits .f32 0x46000000#32)) = _
  rw [Ideal.hostReduceAdd_total Gen.reducesTo_S8192_S_d0 (fun b => b.elim0), Ideal.ofBits_zero_f32, zero_add, glue_sum_idx1]
  refine congrArg (fun s : EReal => -(Ideal.div s (Ideal.ofBits .f32 0x46000000#32))) ?_
  refine Finset.sum_congr rfl fun r _ => ?_
  show shapeCast S8192 (hTlCol W) Gen.shapeCasts_S8192x1_S8192 (ix1 r) - shapeCast S8192 (hLseCol W) Gen.shapeCasts_S8192x1_S8192 (ix1 r) = _
  rw [glue_shapeCast_col (hTlCol W) _ r, glue_shapeCast_col (hLseCol W) _ r]

theorem host4_v37_of (tl lse : Fin 8192 → EReal)
    (htl : ∀ r : Fin 8192, (W (Proc.devRef .tc main_v31_2) : Vec Ideal S8192x1 .f32) (ix2 r (0 : Fin 1)) = tl r)
    (hlse : ∀ r : Fin 8192, (W (Proc.devRef .tc main_v31_1) : Vec Ideal S8192x1 .f32) (ix2 r (0 : Fin 1)) = lse r) :
    (StableHlo.after (hostOps4 (F := Ideal)) W (Proc.devRef .tc main_v37) : Vec Ideal S_ .f32) ix0
      = -(Ideal.div (∑ r : Fin 8192, (tl r - lse r)) (Ideal.ofBits .f32 0x46000000#32)) := by
  refine (host4_v37 W).trans ?_
  refine congrArg (fun s : EReal => -(Ideal.div s (Ideal.ofBits .f32 0x46000000#32))) ?_
  refine Finset.sum_congr rfl fun r _ => ?_
  have h1 : hTlCol W (ix2 r (0 : Fin 1)) = tl r := htl r
  have h2 : hLseCol W (ix2 r (0 : Fin 1)) = lse r := hlse r
  rw [h1, h2]

end Cert.KernelIdeal.Val

end
-- ==== Proof.Spec.lean ====
import Idealize.ShloMosaic.PureOps.Ideal
import Idealize.ShloMosaic.PureOps.Ideal.Laws
import Idealize.ShloMosaic.Lib.ValueIdx

noncomputable section

open scoped BigOperators

namespace Cert.Spec

open Idealize.ShloMosaic

abbrev Act : Type := Fin 4 → Fin 2048 → Fin 512 → EReal

def mean (x : Act) (b : Fin 4) (t : Fin 2048) : EReal :=
  Ideal.div (∑ c : Fin 512, x b t c) (Ideal.ofBits .f32 0x44000000#32)

def var (x : Act) (b : Fin 4) (t : Fin 2048) : EReal :=
  Ideal.div (∑ c : Fin 512, (x b t c - mean x b t) * (x b t c - mean x b t)) (Ideal.ofBits .f32 0x44000000#32)

def ln (x : Act) (g β : Fin 512 → EReal) : Act := fun b t c =>
  ((x b t c - mean x b t) * Ideal.rsqrt (var x b t + Ideal.ofBits .f32 0x3727C5AC#32)) * g c + β c

def proj (h : Act) (W : Fin 512 → Fin 512 → EReal) : Act := fun b t d =>
  ∑ c : Fin 512, h b t c * W d c

def score (q k : Act) (b : Fin 4) (t u : Fin 2048) : EReal :=
  (∑ d : Fin 512, q b t d * k b u d) * Ideal.ofBits .f32 0x3D3504F3#32

def masked (q k : Act) (b : Fin 4) (t u : Fin 2048) : EReal :=
  if u.val ≤ t.val then score q k b t u else ⊥

def rowMax (q k : Act) (b : Fin 4) (t : Fin 2048) : EReal :=
  (Finset.univ : Finset (Fin 2048)).fold max ⊥ (fun u => masked q k b t u)

def pRef (q k : Act) (b : Fin 4) (t u : Fin 2048) : EReal :=
  Ideal.exp (masked q k b t u - rowMax q k b t)

def lRef (q k : Act) (b : Fin 4) (t : Fin 2048) : EReal :=
  ∑ u : Fin 2048, pRef q k b t u

def attRef (q k v : Act) : Act := fun b t d =>
  ∑ u : Fin 2048, Ideal.div (pRef q k b t u) (lRef q k b t) * v b u d

def ffn (h : Act) (W1 : Fin 2048 → Fin 512 → EReal) (b1 : Fin 2048 → EReal) (b : Fin 4) (t : Fin 2048) (f : Fin 2048) : EReal :=
  max ((∑ c : Fin 512, h b t c * W1 f c) + b1 f) 0

def ffnOut (x : Act) (ff : Fin 4 → Fin 2048 → Fin 2048 → EReal) (W2 : Fin 512 → Fin 2048 → EReal) (b2 : Fin 512 → EReal) : Act :=
  fun b t c => (x b t c + ∑ f : Fin 2048, ff b t f * W2 c f) + b2 c

def head (x : Act) (Wlm : Fin 32000 → Fin 512 → EReal) (blm : Fin 32000 → EReal) (b : Fin 4) (t : Fin 2048) (w : Fin 32000) : EReal :=
  (∑ c : Fin 512, x b t c * Wlm w c) + blm w

def rowB (r : Fin 8192) : Fin 4 := ⟨r.val / 2048, by omega⟩

def rowT (r : Fin 8192) : Fin 2048 := ⟨r.val % 2048, Nat.mod_lt _ (by norm_num)⟩

def lgMax (lg : Fin 8192 → Fin 32000 → EReal) (r : Fin 8192) : EReal :=
  (Finset.univ : Finset (Fin 32000)).fold max ⊥ (fun w => lg r w)

def logp (lg : Fin 8192 → Fin 32000 → EReal) (r : Fin 8192) (w : Fin 32000) : EReal :=
  (lg r w - lgMax lg r) - Ideal.log (∑ w' : Fin 32000, Ideal.exp (lg r w' - lgMax lg r))

def nll (lg : Fin 8192 → Fin 32000 → EReal) (tgt : Fin 8192 → Fin 32000) : EReal :=
  -(Ideal.div (∑ r : Fin 8192, logp lg r (tgt r)) (Ideal.ofBits .f32 0x46000000#32))

structure Params where
  x0 : Act
  g1 : Fin 512 → EReal
  β1 : Fin 512 → EReal
  g2 : Fin 512 → EReal
  β2 : Fin 512 → EReal
  Wq : Fin 512 → Fin 512 → EReal
  Wk : Fin 512 → Fin 512 → EReal
  Wv : Fin 512 → Fin 512 → EReal
  W1 : Fin 2048 → Fin 512 → EReal
  b1 : Fin 2048 → EReal
  W2 : Fin 512 → Fin 2048 → EReal
  b2 : Fin 512 → EReal
  Wlm : Fin 32000 → Fin 512 → EReal
  blm : Fin 32000 → EReal

def h1 (P : Params) : Act := ln P.x0 P.g1 P.β1
def qP (P : Params) : Act := proj (h1 P) P.Wq
def kP (P : Params) : Act := proj (h1 P) P.Wk
def vP (P : Params) : Act := proj (h1 P) P.Wv

def x1 (P : Params) : Act := fun b t c => P.x0 b t c + attRef (qP P) (kP P) (vP P) b t c
def h2 (P : Params) : Act := ln (x1 P) P.g2 P.β2
def ff (P : Params) : Fin 4 → Fin 2048 → Fin 2048 → EReal := ffn (h2 P) P.W1 P.b1

def x2 (P : Params) : Act := ffnOut (x1 P) (ff P) P.W2 P.b2

def logits3 (P : Params) : Fin 4 → Fin 2048 → Fin 32000 → EReal := head (x2 P) P.Wlm P.blm

def logits (P : Params) (r : Fin 8192) (w : Fin 32000) : EReal := logits3 P (rowB r) (rowT r) w

def lossRef (P : Params) (tgt : Fin 8192 → Fin 32000) : EReal := nll (logits P) tgt

end Cert.Spec

end
-- ==== Proof.KI.ValIdx.lean ====
import proofs.«421533_j19645180411976_3_alg».proof.KernelIdeal
import proofs.«421533_j19645180411976_3_alg».proof.Proof.Spec
import Idealize.ShloMosaic.Lib.ValueIdx

noncomputable section

namespace Cert.KernelIdeal.Val

open Cert.KernelIdeal Cert.Spec Idealize.ShloMosaic Idealize.ShloMosaic.ValueIdx

def flatRow (b : Fin 4) (t : Fin 2048) : Fin 8192 := ⟨b.val * 2048 + t.val, by omega⟩

theorem flatRow_rowB_rowT (r : Fin 8192) : flatRow (rowB r) (rowT r) = r :=
  Fin.ext (by show r.val / 2048 * 2048 + r.val % 2048 = r.val; omega)

theorem rowB_flatRow (b : Fin 4) (t : Fin 2048) : rowB (flatRow b t) = b :=
  Fin.ext (by show (b.val * 2048 + t.val) / 2048 = b.val; omega)
theorem rowT_flatRow (b : Fin 4) (t : Fin 2048) : rowT (flatRow b t) = t :=
  Fin.ext (by show (b.val * 2048 + t.val) % 2048 = t.val; omega)

def actOfFlat (x : S8192x512.Idx → EReal) : Act := fun b t c => x (ix2 (flatRow b t) c)

def actOf3 (x : S4x2048x512.Idx → EReal) : Act := fun b t c => x (ix3 b t c)

def vecOf {n : Nat} (x : (⟨1, ![n]⟩ : Shape).Idx → EReal) : Fin n → EReal := fun i => x (ix1 i)

def matOf {n0 n1 : Nat} (x : (⟨2, ![n0, n1]⟩ : Shape).Idx → EReal) : Fin n0 → Fin n1 → EReal := fun a b => x (ix2 a b)

def matOfT {n0 n1 : Nat} (x : (⟨2, ![n0, n1]⟩ : Shape).Idx → EReal) : Fin n1 → Fin n0 → EReal := fun b a => x (ix2 a b)

def colsOfT (x : S512x1536.Idx → EReal) (off : Nat) (h : off + 512 ≤ 1536) : Fin 512 → Fin 512 → EReal :=
  fun d c => x (ix2 c ⟨off + d.val, by omega⟩)

theorem actOfFlat_apply (x : S8192x512.Idx → EReal) (b : Fin 4) (t : Fin 2048) (c : Fin 512) :
    actOfFlat x b t c = x (ix2 (flatRow b t) c) := rfl

theorem actOfFlat_row (x : S8192x512.Idx → EReal) (r : Fin 8192) (c : Fin 512) :
    actOfFlat x (rowB r) (rowT r) c = x (ix2 r c) := by
  rw [actOfFlat_apply, flatRow_rowB_rowT]
theorem colsOfT_apply (x : S512x1536.Idx → EReal) (off : Nat) (h : off + 512 ≤ 1536) (d c : Fin 512) :
    colsOfT x off h d c = x (ix2 c ⟨off + d.val, by omega⟩) := rfl

theorem exists_ix2 {n0 n1 : Nat} (j : (⟨2, ![n0, n1]⟩ : Shape).Idx) : ∃ (p : Fin n0) (q : Fin n1), j = ix2 p q :=
  ⟨j 0, j 1, eq_ix2 j⟩

theorem ix2_congr {n0 n1 : Nat} {p p' : Fin n0} {q q' : Fin n1} (hp : p.val = p'.val) (hq : q.val = q'.val) :
    ix2 p q = ix2 p' q' := by
  rw [Fin.ext hp, Fin.ext hq]

def blockRow (k : Fin 8) (p : Fin 1024) : Fin 8192 := ⟨k.val * 1024 + p.val, by omega⟩
end Cert.KernelIdeal.Val

end
-- ==== Proof.KI.ValRow.lean ====
import proofs.«421533_j19645180411976_3_alg».proof.Proof.Gen.KernelIdeal
import proofs.«421533_j19645180411976_3_alg».proof.Proof.Spec
import proofs.«421533_j19645180411976_3_alg».proof.Proof.KI.ValIdx
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Val

open Cert.KernelIdeal Cert.Spec Idealize.ShloMosaic Idealize.ShloMosaic.ValueIdx

def meanRow (row : Fin 512 → EReal) : EReal :=
  Ideal.div (∑ c : Fin 512, row c) (Ideal.ofBits .f32 0x44000000#32)

def varRow (row : Fin 512 → EReal) : EReal :=
  Ideal.div (∑ c : Fin 512, (row c - meanRow row) * (row c - meanRow row)) (Ideal.ofBits .f32 0x44000000#32)

def lnRow (row g β : Fin 512 → EReal) (c : Fin 512) : EReal :=
  ((row c - meanRow row) * Ideal.rsqrt (varRow row + Ideal.ofBits .f32 0x3727C5AC#32)) * g c + β c

theorem ln_eq_lnRow (x : Act) (g β : Fin 512 → EReal) (b : Fin 4) (t : Fin 2048) (c : Fin 512) :
    Spec.ln x g β b t c = lnRow (x b t) g β c := rfl

section Layout
variable {α : Type}

theorem lift_row {a b : ℕ} (h : (⟨2, ![a, b]⟩ : Shape).Reduces [1] ⟨1, ![a]⟩) (p : Fin a) (k : Fin b) :
    h.lift (ix1 p) k = ix2 p k := by
  funext c
  apply Fin.ext
  refine (h.lift_val (ix1 p) k c).trans ?_
  match c with
  | ⟨0, _⟩ => simp [Shape.Reduces.liftVal]
  | ⟨1, _⟩ => simp [Shape.Reduces.liftVal]

theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem rowSum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ x 0x00000000#32 h hφ hacc (ix1 p) = ∑ k : Fin b, x (ix2 p k) := by
  refine (Ideal.multiReduction_add_single x 0x00000000#32 h hφ hacc (ix1 p)).trans ?_
  exact Finset.sum_congr rfl fun k _ => congrArg x (lift_row h p k)

theorem rsqrt_apply {s : Shape} {φ : FTy} (a : FVec Ideal s φ) (i : s.Idx) : rsqrt a i = Ideal.rsqrt (a i) := rfl

section LnBlock
variable {F : FTy → Type} [FloatOps F]

def lnBlock (hsc : S1024x512.ShapeCasts S1024x512) (hred : S1024x512.Reduces [1] S1024) (hcol : S1024.ShapeCasts S1024x1)
    (hbc : S1024x1.Broadcasts S1024x512) (hrow : S512.ShapeCasts S1x512) (hbr : S1x512.Broadcasts S1024x512)
    (hlt : FTy.bits .bf16 < FTy.bits .f32) (hφ : FKind.Formats .f32) (hacc : (0x00000000#32 : BitVec 32) = FKind.add.neutral .f32 hφ)
    (v0 : Vec F S1024x512 .f32) (v20 : Vec F S512 .f32) (v24 : Vec F S512 .f32) : FVec F S1024x512 .bf16 :=
  have v1 : FVec F S1024x512 .f32 := shapeCast S1024x512 v0 hsc
  have v2 : FVec F S1024 .f32 := multiReduction .add [1] S1024 v1 0x00000000#32 hred hφ hacc
  have v3 : FVec F S1024x1 .f32 := shapeCast S1024x1 v2 hcol
  have cst_1 : F .f32 := Scalar.ofBits .f32 0x44000000#32
  have v4 : FVec F S1024x1 .f32 := broadcast S1024x1 cst_1
  have v5 : FVec F S1024x1 .f32 := divf v3 v4
  have v6 : FVec F S1024x512 .f32 := broadcastTo S1024x512 v5 hbc
  have v7 : FVec F S1024x512 .f32 := subf v1 v6
  have v8 : FVec F S1024x512 .f32 := mulf v7 v7
  have v9 : FVec F S1024 .f32 := multiReduction .add [1] S1024 v8 0x00000000#32 hred hφ hacc
  have v10 : FVec F S1024x1 .f32 := shapeCast S1024x1 v9 hcol
  have cst_3 : F .f32 := Scalar.ofBits .f32 0x44000000#32
  have v11 : FVec F S1024x1 .f32 := broadcast S1024x1 cst_3
  have v12 : FVec F S1024x1 .f32 := divf v10 v11
  have v13 : FVec F S1024x512 .f32 := broadcastTo S1024x512 v5 hbc
  have v14 : FVec F S1024x512 .f32 := subf v1 v13
  have cst_4 : F .f32 := Scalar.ofBits .f32 0x3727C5AC#32
  have v15 : FVec F S1024x1 .f32 := broadcast S1024x1 cst_4
  have v16 : FVec F S1024x1 .f32 := addf v12 v15
  have v17 : FVec F S1024x1 .f32 := rsqrt v16
  have v18 : FVec F S1024x512 .f32 := broadcastTo S1024x512 v17 hbc
  have v19 : FVec F S1024x512 .f32 := mulf v14 v18
  have v21 : FVec F S1x512 .f32 := shapeCast S1x512 v20 hrow
  have v22 : FVec F S1024x512 .f32 := broadcastTo S1024x512 v21 hbr
  have v23 : FVec F S1024x512 .f32 := mulf v19 v22
  have v25 : FVec F S1x512 .f32 := shapeCast S1x512 v24 hrow
  have v26 : FVec F S1024x512 .f32 := broadcastTo S1024x512 v25 hbr
  have v27 : FVec F S1024x512 .f32 := addf v23 v26
  have v28 : FVec F S1024x512 .bf16 := truncf .bf16 v27 hlt
  v28

end LnBlock

theorem f32_formats : FKind.Formats .f32 := .inl rfl
theorem zero_is_neutral : (0x00000000#32 : BitVec 32) = FKind.add.neutral .f32 f32_formats := rfl

theorem lnBlock_apply (hsc : S1024x512.ShapeCasts S1024x512) (hred : S1024x512.Reduces [1] S1024) (hcol : S1024.ShapeCasts S1024x1)
    (hbc : S1024x1.Broadcasts S1024x512) (hrow : S512.ShapeCasts S1x512) (hbr : S1x512.Broadcasts S1024x512)
    (hlt : FTy.bits .bf16 < FTy.bits .f32) (hφ : FKind.Formats .f32) (hacc : (0x00000000#32 : BitVec 32) = FKind.add.neutral .f32 hφ)
    (v0 : Vec Ideal S1024x512 .f32) (v20 : Vec Ideal S512 .f32) (v24 : Vec Ideal S512 .f32) (p : Fin 1024) (c : Fin 512) :
    lnBlock (F := Ideal) hsc hred hcol hbc hrow hbr hlt hφ hacc v0 v20 v24 (ix2 p c)
      = lnRow (fun k => v0 (ix2 p k)) (vecOf v20) (vecOf v24) c := by
  unfold lnBlock lnRow varRow meanRow vecOf
  simp only [truncf_apply, addf_apply, mulf_apply, subf_apply, divf_apply, rsqrt_apply, broadcast_apply,
    broadcastTo_1b_ab_apply, shapeCast_a_1a_apply, broadcastTo_a1_ab_apply, shapeCast_a_a1_apply, rowSum_apply _ hred hφ hacc,
    shapeCast_self]
  rfl

theorem lhs_qkv_0 (i : S1024x1536.Idx) (q : dot_S1024x512_S512x1536_S1024x1536_1_0_0_1_n_n.contr.Idx) :
    (dot_S1024x512_S512x1536_S1024x1536_1_0_0_1_n_n.lhsIdx i q 0).val = (i 0).val := by
  unfold DotDims.lhsIdx
  rw [dif_neg (show ¬(0 : Fin S1024x512.rank) ∈ dot_S1024x512_S512x1536_S1024x1536_1_0_0_1_n_n.lhsBatch by decide), dif_pos (show (0 : Fin S1024x512.rank) ∈ dot_S1024x512_S512x1536_S1024x1536_1_0_0_1_n_n.lhsNonContracting by decide)]
  rfl
theorem lhs_qkv_1 (i : S1024x1536.Idx) (q : dot_S1024x512_S512x1536_S1024x1536_1_0_0_1_n_n.contr.Idx) :
    (dot_S1024x512_S512x1536_S1024x1536_1_0_0_1_n_n.lhsIdx i q 1).val = (q ⟨0, by decide⟩).val :=
  dot_S1024x512_S512x1536_S1024x1536_1_0_0_1_n_n.lhsIdx_val_of_single rfl i q
theorem rhs_qkv_0 (i : S1024x1536.Idx) (q : dot_S1024x512_S512x1536_S1024x1536_1_0_0_1_n_n.contr.Idx) :
    (dot_S1024x512_S512x1536_S1024x1536_1_0_0_1_n_n.rhsIdx i q 0).val = (q ⟨0, by decide⟩).val :=
  dot_S1024x512_S512x1536_S1024x1536_1_0_0_1_n_n.rhsIdx_val_of_single rfl i q
theorem rhs_qkv_1 (i : S1024x1536.Idx) (q : dot_S1024x512_S512x1536_S1024x1536_1_0_0_1_n_n.contr.Idx) :
    (dot_S1024x512_S512x1536_S1024x1536_1_0_0_1_n_n.rhsIdx i q 1).val = (i 1).val := by
  unfold DotDims.rhsIdx
  rw [dif_neg (show ¬(1 : Fin S512x1536.rank) ∈ dot_S1024x512_S512x1536_S1024x1536_1_0_0_1_n_n.rhsBatch by decide), dif_pos (show (1 : Fin S512x1536.rank) ∈ dot_S1024x512_S512x1536_S1024x1536_1_0_0_1_n_n.rhsNonContracting by decide)]
  rfl

theorem matmul_qkv_apply (lhs : FVec Ideal S1024x512 .bf16) (rhs : FVec Ideal S512x1536 .bf16) (p : Fin 1024) (j : Fin 1536) :
    matmul dot_S1024x512_S512x1536_S1024x1536_1_0_0_1_n_n none lhs rhs (constant (F := Ideal) S1024x1536 .f32 0x00000000#32) (ix2 p j)
      = ∑ k : Fin 512, lhs (ix2 p k) * rhs (ix2 k j) := by
  simp only [matmul]
  rw [Ideal.matmul_constant_zero_apply, ← Equiv.sum_comp (contrEquiv1 dot_S1024x512_S512x1536_S1024x1536_1_0_0_1_n_n 512 rfl rfl).symm]
  refine Finset.sum_congr rfl fun k _ => ?_
  have hk := contrEquiv1_symm_val dot_S1024x512_S512x1536_S1024x1536_1_0_0_1_n_n 512 rfl rfl k
  have el : dot_S1024x512_S512x1536_S1024x1536_1_0_0_1_n_n.lhsIdx (ix2 p j) ((contrEquiv1 dot_S1024x512_S512x1536_S1024x1536_1_0_0_1_n_n 512 rfl rfl).symm k) = ix2 p k := funext fun a => Fin.ext (by
    match a with
    | ⟨0, _⟩ => exact lhs_qkv_0 _ _
    | ⟨1, _⟩ => exact (lhs_qkv_1 _ _).trans hk)
  have er : dot_S1024x512_S512x1536_S1024x1536_1_0_0_1_n_n.rhsIdx (ix2 p j) ((contrEquiv1 dot_S1024x512_S512x1536_S1024x1536_1_0_0_1_n_n 512 rfl rfl).symm k) = ix2 k j := funext fun a => Fin.ext (by
    match a with
    | ⟨0, _⟩ => exact (rhs_qkv_0 _ _).trans hk
    | ⟨1, _⟩ => exact rhs_qkv_1 _ _)
  rw [el, er]

theorem lhs_up_0 (i : S1024x2048.Idx) (q : dot_S1024x512_S512x2048_S1024x2048_1_0_0_1_n_n.contr.Idx) :
    (dot_S1024x512_S512x2048_S1024x2048_1_0_0_1_n_n.lhsIdx i q 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
theorem lhs_up_1 (i : S1024x2048.Idx) (q : dot_S1024x512_S512x2048_S1024x2048_1_0_0_1_n_n.contr.Idx) :
    (dot_S1024x512_S512x2048_S1024x2048_1_0_0_1_n_n.lhsIdx i q 1).val = (q ⟨0, by decide⟩).val :=
  dot_S1024x512_S512x2048_S1024x2048_1_0_0_1_n_n.lhsIdx_val_of_single rfl i q
theorem rhs_up_0 (i : S1024x2048.Idx) (q : dot_S1024x512_S512x2048_S1024x2048_1_0_0_1_n_n.contr.Idx) :
    (dot_S1024x512_S512x2048_S1024x2048_1_0_0_1_n_n.rhsIdx i q 0).val = (q ⟨0, by decide⟩).val :=
  dot_S1024x512_S512x2048_S1024x2048_1_0_0_1_n_n.rhsIdx_val_of_single rfl i q
theorem rhs_up_1 (i : S1024x2048.Idx) (q : dot_S1024x512_S512x2048_S1024x2048_1_0_0_1_n_n.contr.Idx) :
    (dot_S1024x512_S512x2048_S1024x2048_1_0_0_1_n_n.rhsIdx i q 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

theorem matmul_up_apply (lhs : FVec Ideal S1024x512 .bf16) (rhs : FVec Ideal S512x2048 .bf16) (p : Fin 1024) (j : Fin 2048) :
    matmul dot_S1024x512_S512x2048_S1024x2048_1_0_0_1_n_n none lhs rhs (constant (F := Ideal) S1024x2048 .f32 0x00000000#32) (ix2 p j)
      = ∑ k : Fin 512, lhs (ix2 p k) * rhs (ix2 k j) := by
  simp only [matmul]
  rw [Ideal.matmul_constant_zero_apply, ← Equiv.sum_comp (contrEquiv1 dot_S1024x512_S512x2048_S1024x2048_1_0_0_1_n_n 512 rfl rfl).symm]
  refine Finset.sum_congr rfl fun k _ => ?_
  have hk := contrEquiv1_symm_val dot_S1024x512_S512x2048_S1024x2048_1_0_0_1_n_n 512 rfl rfl k
  have el : dot_S1024x512_S512x2048_S1024x2048_1_0_0_1_n_n.lhsIdx (ix2 p j) ((contrEquiv1 dot_S1024x512_S512x2048_S1024x2048_1_0_0_1_n_n 512 rfl rfl).symm k) = ix2 p k := funext fun a => Fin.ext (by
    match a with
    | ⟨0, _⟩ => exact lhs_up_0 _ _
    | ⟨1, _⟩ => exact (lhs_up_1 _ _).trans hk)
  have er : dot_S1024x512_S512x2048_S1024x2048_1_0_0_1_n_n.rhsIdx (ix2 p j) ((contrEquiv1 dot_S1024x512_S512x2048_S1024x2048_1_0_0_1_n_n 512 rfl rfl).symm k) = ix2 k j := funext fun a => Fin.ext (by
    match a with
    | ⟨0, _⟩ => exact (rhs_up_0 _ _).trans hk
    | ⟨1, _⟩ => exact rhs_up_1 _ _)
  rw [el, er]

theorem lhs_down_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
theorem lhs_down_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
theorem rhs_down_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
theorem rhs_down_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

theorem matmul_down_apply (lhs : FVec Ideal S1024x2048 .bf16) (rhs : FVec Ideal S2048x512 .bf16) (p : Fin 1024) (j : Fin 512) :
    matmul dot_S1024x2048_S2048x512_S1024x512_1_0_0_1_n_n none lhs rhs (constant (F := Ideal) S1024x512 .f32 0x00000000#32) (ix2 p j)
      = ∑ k : Fin 2048, lhs (ix2 p k) * rhs (ix2 k j) := by
  simp only [matmul]
  rw [Ideal.matmul_constant_zero_apply, ← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 p j) ((contrEquiv1 dot_S1024x2048_S2048x512_S1024x512_1_0_0_1_n_n 2048 rfl rfl).symm k) = ix2 p k := funext fun a => Fin.ext (by
    match a with
    | ⟨0, _⟩ => exact lhs_down_0 _ _
    | ⟨1, _⟩ => exact (lhs_down_1 _ _).trans hk)
  have er : dot_S1024x2048_S2048x512_S1024x512_1_0_0_1_n_n.rhsIdx (ix2 p j) ((contrEquiv1 dot_S1024x2048_S2048x512_S1024x512_1_0_0_1_n_n 2048 rfl rfl).symm k) = ix2 k j := funext fun a => Fin.ext (by
    match a with
    | ⟨0, _⟩ => exact (rhs_down_0 _ _).trans hk
    | ⟨1, _⟩ => exact rhs_down_1 _ _)
  rw [el, er]

end Cert.KernelIdeal.Val

end
-- ==== Proof.KI.Val0.lean ====
import proofs.«421533_j19645180411976_3_alg».proof.Proof.KI.Reg0
import proofs.«421533_j19645180411976_3_alg».proof.Proof.KI.ValRow
import Idealize.ShloMosaic.Lib.Pipeline.Value

set_option maxRecDepth 16384

noncomputable section

open scoped BigOperators

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

theorem k0_pay1_apply (v0 : Vec Ideal S1024x512 .f32) (v20 : Vec Ideal S512 .f32) (v24 : Vec Ideal S512 .f32) (v29 : Vec Ideal S512x1536 .bf16)
    (p : Fin 1024) (j : Fin 1536) :
    k0_pay1 v0 v20 v24 v29 (ix2 p j)
      = ∑ k : Fin 512, lnRow (fun c => v0 (ix2 p c)) (vecOf v20) (vecOf v24) k * v29 (ix2 k j) := by
  have e : k0_pay1 v0 v20 v24 v29 = matmul dot_S1024x512_S512x1536_S1024x1536_1_0_0_1_n_n none
      (lnBlock (F := Ideal) shapeCasts_S1024x512_S1024x512 reduces_S1024x512_S1024 shapeCasts_S1024_S1024x1 broadcasts_S1024x1_S1024x512 shapeCasts_S512_S1x512 broadcasts_S1x512_S1024x512 bitsLt_bf16_f32 f32_formats zero_is_neutral v0 v20 v24)
      (shapeCast S512x1536 v29 shapeCasts_S512x1536_S512x1536) (constant (F := Ideal) S1024x1536 .f32 0x00000000#32) := rfl
  rw [e, matmul_qkv_apply]
  refine Finset.sum_congr rfl fun k _ => ?_
  rw [lnBlock_apply, shapeCast_self]

theorem k0_pay2_apply (v0 : Vec Ideal S1024x512 .f32) (v20 : Vec Ideal S512 .f32) (v24 : Vec Ideal S512 .f32) (v29 : Vec Ideal S512x1536 .bf16)
    (p : Fin 1024) (d : Fin 512) (j : Fin 1536) (hj : j.val = 0 + d.val) :
    k0_pay2 v0 v20 v24 v29 (ix2 p d)
      = ∑ k : Fin 512, lnRow (fun c => v0 (ix2 p c)) (vecOf v20) (vecOf v24) k * v29 (ix2 k j) := by
  unfold k0_pay2
  rw [truncf_apply, slice2_axis1_apply 0 _ _ p d j hj, k0_pay1_apply]

theorem k0_pay3_apply (v0 : Vec Ideal S1024x512 .f32) (v20 : Vec Ideal S512 .f32) (v24 : Vec Ideal S512 .f32) (v29 : Vec Ideal S512x1536 .bf16)
    (p : Fin 1024) (d : Fin 512) (j : Fin 1536) (hj : j.val = 512 + d.val) :
    k0_pay3 v0 v20 v24 v29 (ix2 p d)
      = ∑ k : Fin 512, lnRow (fun c => v0 (ix2 p c)) (vecOf v20) (vecOf v24) k * v29 (ix2 k j) := by
  unfold k0_pay3
  rw [truncf_apply, slice2_axis1_apply 512 _ _ p d j hj, k0_pay1_apply]

theorem k0_pay4_apply (v0 : Vec Ideal S1024x512 .f32) (v20 : Vec Ideal S512 .f32) (v24 : Vec Ideal S512 .f32) (v29 : Vec Ideal S512x1536 .bf16)
    (p : Fin 1024) (d : Fin 512) (j : Fin 1536) (hj : j.val = 1024 + d.val) :
    k0_pay4 v0 v20 v24 v29 (ix2 p d)
      = ∑ k : Fin 512, lnRow (fun c => v0 (ix2 p c)) (vecOf v20) (vecOf v24) k * v29 (ix2 k j) := by
  unfold k0_pay4
  rw [truncf_apply, slice2_axis1_apply 1024 _ _ p d j hj, k0_pay1_apply]

theorem proj_entry (v0 : Vec Ideal S1024x512 .f32) (v20 : Vec Ideal S512 .f32) (v24 : Vec Ideal S512 .f32) (v29 : Vec Ideal S512x1536 .bf16)
    (X : S8192x512.Idx → EReal) (g β : S512.Idx → EReal) (W : S512x1536.Idx → EReal)
    (r : Fin 8192) (p : Fin 1024) (d : Fin 512) (off : Nat) (h : off + 512 ≤ 1536) (j : Fin 1536) (hj : j.val = off + d.val)
    (h0 : ∀ k : Fin 512, v0 (ix2 p k) = X (ix2 r k)) (h1 : ∀ k : Fin 512, v20 (ix1 k) = g (ix1 k))
    (h2 : ∀ k : Fin 512, v24 (ix1 k) = β (ix1 k)) (h3 : ∀ (k : Fin 512) (j : Fin 1536), v29 (ix2 k j) = W (ix2 k j)) :
    ∑ k : Fin 512, lnRow (fun c => v0 (ix2 p c)) (vecOf v20) (vecOf v24) k * v29 (ix2 k j)
      = Spec.proj (Spec.ln (actOfFlat X) (vecOf g) (vecOf β)) (colsOfT W off h) (rowB r) (rowT r) d := by
  unfold Spec.proj
  refine Finset.sum_congr rfl fun k _ => ?_
  rw [ln_eq_lnRow, colsOfT_apply, h3]
  have e0 : (fun c => v0 (ix2 p c)) = actOfFlat X (rowB r) (rowT r) := funext fun c => (h0 c).trans (actOfFlat_row X r c).symm
  have e1 : vecOf v20 = vecOf g := funext fun k => h1 k
  have e2 : vecOf v24 = vecOf β := funext fun k => h2 k
  rw [e0, e1, e2]
  exact congrArg (fun j' => _ * W (ix2 k j')) (Fin.ext hj)

variable (V : (c : Dev nD) → (b : Ref sig .tc) → Buf (Elt Ideal) ((c : Thread nD τ).loc b))

abbrev xArr0 (c : Dev nD) : S8192x512.Idx → EReal := V c main_v10
abbrev gArr0 (c : Dev nD) : S512.Idx → EReal := V c main_arg11
abbrev bArr0 (c : Dev nD) : S512.Idx → EReal := V c main_arg12
abbrev wArr0 (c : Dev nD) : S512x1536.Idx → EReal := V c main_v15

def qkvArr (c : Dev nD) (off : Nat) (h : off + 512 ≤ 1536) : S8192x512.Idx → EReal := fun i =>
  Spec.proj (Spec.ln (actOfFlat (xArr0 V c)) (vecOf (gArr0 V c)) (vecOf (bArr0 V c))) (colsOfT (wArr0 V c) off h)
    (rowB (i 0)) (rowT (i 0)) (i 1)

theorem hz0_1 : (![0] : Fin 1 → Nat) = fun _ => 0 := funext fun a => by fin_cases a; rfl
theorem hz0_2 : (![0, 0] : Fin 2 → Nat) = fun _ => 0 := funext fun a => by fin_cases a <;> rfl

theorem idx_facts0 : ∀ t : Fin cfg0.N, t.val < 8
    ∧ win0_0.index t (0 : Fin 2) = t.val ∧ win0_0.index t (1 : Fin 2) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

def pt0 (t : Fin cfg0.N) : Fin 8 := ⟨t.val, (idx_facts0 t).1⟩

theorem pt0_onto : ∀ k : Fin 8, ∃ t : Fin cfg0.N, t.val = k.val :=
  (by decide +kernel : ∀ k : Fin 8, ∃ t : Fin grid0.N, t.val = k.val)

theorem iblk0_0_apply (c : Dev nD) (t : Fin cfg0.N) (p : Fin 1024) (k : Fin 512) :
    (iblk0 V c 0 t : Vec Ideal S1024x512 .f32) (ix2 p k) = xArr0 V c (ix2 (blockRow (pt0 t) p) k) := by
  obtain ⟨-, e0, e1, -⟩ := idx_facts0 t
  show V c main_v10 (((cfg0.win 0).blk t).view.emb (ix2 p k)) = V c main_v10 (ix2 (blockRow (pt0 t) p) k)
  refine congrArg (V c main_v10) (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 512 + 1 * k.val = k.val; rw [e1]; omega

theorem iblk0_1_apply (c : Dev nD) (t : Fin cfg0.N) (k : Fin 512) :
    (iblk0 V c 1 t : Vec Ideal S512 .f32) (ix1 k) = gArr0 V c (ix1 k) := by
  obtain ⟨-, -, -, e, -⟩ := idx_facts0 t
  show V c main_arg11 (((cfg0.win 1).blk t).view.emb (ix1 k)) = V c main_arg11 (ix1 k)
  refine congrArg (V c main_arg11) (funext fun a => Fin.ext ?_)
  match a with
  | ⟨0, _⟩ => show win0_1.index t (0 : Fin 1) * 512 + 1 * k.val = k.val; rw [e]; omega
theorem iblk0_2_apply (c : Dev nD) (t : Fin cfg0.N) (k : Fin 512) :
    (iblk0 V c 2 t : Vec Ideal S512 .f32) (ix1 k) = bArr0 V c (ix1 k) := by
  obtain ⟨-, -, -, -, e, -⟩ := idx_facts0 t
  show V c main_arg12 (((cfg0.win 2).blk t).view.emb (ix1 k)) = V c main_arg12 (ix1 k)
  refine congrArg (V c main_arg12) (funext fun a => Fin.ext ?_)
  match a with
  | ⟨0, _⟩ => show win0_2.index t (0 : Fin 1) * 512 + 1 * k.val = k.val; rw [e]; omega
theorem iblk0_3_apply (c : Dev nD) (t : Fin cfg0.N) (k : Fin 512) (j : Fin 1536) :
    (iblk0 V c 3 t : Vec Ideal S512x1536 .bf16) (ix2 k j) = wArr0 V c (ix2 k j) := by
  obtain ⟨-, -, -, -, -, e0, e1, -⟩ := idx_facts0 t
  show V c main_v15 (((cfg0.win 3).blk t).view.emb (ix2 k j)) = V c main_v15 (ix2 k j)
  refine congrArg (V c main_v15) (funext fun a => Fin.ext ?_)
  match a with
  | ⟨0, _⟩ => show win0_3.index t (0 : Fin 2) * 512 + 1 * k.val = k.val; rw [e0]; omega
  | ⟨1, _⟩ => show win0_3.index t (1 : Fin 2) * 1536 + 1 * j.val = j.val; rw [e1]; omega

theorem emb0_4 (t : Fin cfg0.N) (p : Fin 1024) (d : Fin 512) :
    ((cfg0.win 4).blk t).view.emb (ix2 p d) = (ix2 (blockRow (pt0 t) p) d : S8192x512.Idx) := by
  obtain ⟨-, -, -, -, -, -, -, e0, e1, -⟩ := idx_facts0 t
  refine funext fun a => Fin.ext ?_
  match a with
  | ⟨0, _⟩ => show win0_4.index t (0 : Fin 2) * 1024 + 1 * p.val = t.val * 1024 + p.val; rw [e0]; omega
  | ⟨1, _⟩ => show win0_4.index t (1 : Fin 2) * 512 + 1 * d.val = d.val; rw [e1]; omega

theorem flushed0_4_eq (c : Dev nD) (t : Fin cfg0.N) :
    (dat0 (F := Ideal) V c).flushed 4 t = ((cfg0.win 4).blk t).view.read (Elt Ideal) (qkvArr V c 0 (by norm_num)) := by
  show (cfg0.win 4).cut (grid0.coords t) ((dat0 V c).after 4 t) = _
  rw [after0_4]
  unfold out0_4
  rw [View.canon_unit_zero hz0_2]
  simp only [View.ld_unit_zero (S := S1024x512) hz0_2, View.ld_unit_zero (S := S512) hz0_1, View.ld_unit_zero (S := S512x1536) hz0_2]
  refine funext fun (y : S1024x512.Idx) => ?_
  show k0_pay2 (iblk0 V c 0 t) (iblk0 V c 1 t) (iblk0 V c 2 t) (iblk0 V c 3 t) y
    = qkvArr V c 0 (by norm_num) (((cfg0.win 4).blk t).view.emb y)
  obtain ⟨p, d, rfl⟩ := exists_ix2 y
  refine (k0_pay2_apply (iblk0 V c 0 t) (iblk0 V c 1 t) (iblk0 V c 2 t) (iblk0 V c 3 t) p d ⟨0 + d.val, by omega⟩ rfl).trans ?_
  refine (proj_entry (iblk0 V c 0 t) (iblk0 V c 1 t) (iblk0 V c 2 t) (iblk0 V c 3 t) (xArr0 V c) (gArr0 V c) (bArr0 V c) (wArr0 V c)
    (blockRow (pt0 t) p) p d 0 (by norm_num) ⟨0 + d.val, by omega⟩ rfl
    (iblk0_0_apply V c t p) (iblk0_1_apply V c t) (iblk0_2_apply V c t) (iblk0_3_apply V c t)).trans ?_
  rw [emb0_4]
  rfl

theorem mem_blk0_4 (t : Fin cfg0.N) (i : S8192x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v16_0).slice (win0_4.rect t)).set ↔ _
  rw [View.set_slice_whole, Rect.mem_set_unit]
  exact Iff.rfl

theorem covered0_4 (i : S8192x512.Idx) :
    ∃ t : Fin cfg0.N, (cfg0.win 4).flush t = true ∧ i ∈ ((cfg0.win 4).blk t).view.set := by
  have hi0 : (i 0).val < 8192 := (i 0).isLt
  have hi1 : (i 1).val < 512 := (i 1).isLt
  obtain ⟨t, ht⟩ := pt0_onto ⟨(i 0).val / 1024, by omega⟩
  have ht' : t.val = (i 0).val / 1024 := ht
  obtain ⟨-, -, -, -, -, -, -, e0, e1, -⟩ := idx_facts0 t
  refine ⟨t, flush0_4 t, ?_⟩
  rw [mem_blk0_4]
  intro a
  match a with
  | ⟨0, _⟩ => show win0_4.index t (0 : Fin 2) * 1024 ≤ (i 0).val ∧ (i 0).val < win0_4.index t (0 : Fin 2) * 1024 + 1024; rw [e0]; omega
  | ⟨1, _⟩ => show win0_4.index t (1 : Fin 2) * 512 ≤ (i 1).val ∧ (i 1).val < win0_4.index t (1 : Fin 2) * 512 + 512; rw [e1]; omega

theorem final0_4 (c : Dev nD) : (dat0 (F := Ideal) V c).arrAt 4 cfg0.N = qkvArr V c 0 (by norm_num) :=
  (dat0 V c).arrAt_eq_of_cover 4 (qkvArr V c 0 (by norm_num)) (fun t _ => flushed0_4_eq V c t) covered0_4

theorem value0_4 (c : Dev nD) (r : Fin 8192) (d : Fin 512) :
    ((dat0 (F := Ideal) V c).arrAt 4 cfg0.N : S8192x512.Idx → EReal) (ix2 r d)
      = Spec.proj (Spec.ln (actOfFlat (xArr0 V c)) (vecOf (gArr0 V c)) (vecOf (bArr0 V c))) (colsOfT (wArr0 V c) 0 (by norm_num))
          (rowB r) (rowT r) d :=
  congrFun (final0_4 V c) (ix2 r d)

theorem emb0_5 (t : Fin cfg0.N) (p : Fin 1024) (d : Fin 512) :
    ((cfg0.win 5).blk t).view.emb (ix2 p d) = (ix2 (blockRow (pt0 t) p) d : S8192x512.Idx) := by
  obtain ⟨-, -, -, -, -, -, -, -, -, e0, e1, -⟩ := idx_facts0 t
  refine funext fun a => Fin.ext ?_
  match a with
  | ⟨0, _⟩ => show win0_5.index t (0 : Fin 2) * 1024 + 1 * p.val = t.val * 1024 + p.val; rw [e0]; omega
  | ⟨1, _⟩ => show win0_5.index t (1 : Fin 2) * 512 + 1 * d.val = d.val; rw [e1]; omega

theorem flushed0_5_eq (c : Dev nD) (t : Fin cfg0.N) :
    (dat0 (F := Ideal) V c).flushed 5 t = ((cfg0.win 5).blk t).view.read (Elt Ideal) (qkvArr V c 512 (by norm_num)) := by
  show (cfg0.win 5).cut (grid0.coords t) ((dat0 V c).after 5 t) = _
  rw [after0_5]
  unfold out0_5
  rw [View.canon_unit_zero hz0_2]
  simp only [View.ld_unit_zero (S := S1024x512) hz0_2, View.ld_unit_zero (S := S512) hz0_1, View.ld_unit_zero (S := S512x1536) hz0_2]
  refine funext fun (y : S1024x512.Idx) => ?_
  show k0_pay3 (iblk0 V c 0 t) (iblk0 V c 1 t) (iblk0 V c 2 t) (iblk0 V c 3 t) y
    = qkvArr V c 512 (by norm_num) (((cfg0.win 5).blk t).view.emb y)
  obtain ⟨p, d, rfl⟩ := exists_ix2 y
  refine (k0_pay3_apply (iblk0 V c 0 t) (iblk0 V c 1 t) (iblk0 V c 2 t) (iblk0 V c 3 t) p d ⟨512 + d.val, by omega⟩ rfl).trans ?_
  refine (proj_entry (iblk0 V c 0 t) (iblk0 V c 1 t) (iblk0 V c 2 t) (iblk0 V c 3 t) (xArr0 V c) (gArr0 V c) (bArr0 V c) (wArr0 V c)
    (blockRow (pt0 t) p) p d 512 (by norm_num) ⟨512 + d.val, by omega⟩ rfl
    (iblk0_0_apply V c t p) (iblk0_1_apply V c t) (iblk0_2_apply V c t) (iblk0_3_apply V c t)).trans ?_
  rw [emb0_5]
  rfl

theorem mem_blk0_5 (t : Fin cfg0.N) (i : S8192x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v16_1).slice (win0_5.rect t)).set ↔ _
  rw [View.set_slice_whole, Rect.mem_set_unit]
  exact Iff.rfl

theorem covered0_5 (i : S8192x512.Idx) :
    ∃ t : Fin cfg0.N, (cfg0.win 5).flush t = true ∧ i ∈ ((cfg0.win 5).blk t).view.set := by
  have hi0 : (i 0).val < 8192 := (i 0).isLt
  have hi1 : (i 1).val < 512 := (i 1).isLt
  obtain ⟨t, ht⟩ := pt0_onto ⟨(i 0).val / 1024, by omega⟩
  have ht' : t.val = (i 0).val / 1024 := ht
  obtain ⟨-, -, -, -, -, -, -, -, -, e0, e1, -⟩ := idx_facts0 t
  refine ⟨t, flush0_5 t, ?_⟩
  rw [mem_blk0_5]
  intro a
  match a with
  | ⟨0, _⟩ => show win0_5.index t (0 : Fin 2) * 1024 ≤ (i 0).val ∧ (i 0).val < win0_5.index t (0 : Fin 2) * 1024 + 1024; rw [e0]; omega
  | ⟨1, _⟩ => show win0_5.index t (1 : Fin 2) * 512 ≤ (i 1).val ∧ (i 1).val < win0_5.index t (1 : Fin 2) * 512 + 512; rw [e1]; omega

theorem final0_5 (c : Dev nD) : (dat0 (F := Ideal) V c).arrAt 5 cfg0.N = qkvArr V c 512 (by norm_num) :=
  (dat0 V c).arrAt_eq_of_cover 5 (qkvArr V c 512 (by norm_num)) (fun t _ => flushed0_5_eq V c t) covered0_5

theorem value0_5 (c : Dev nD) (r : Fin 8192) (d : Fin 512) :
    ((dat0 (F := Ideal) V c).arrAt 5 cfg0.N : S8192x512.Idx → EReal) (ix2 r d)
      = Spec.proj (Spec.ln (actOfFlat (xArr0 V c)) (vecOf (gArr0 V c)) (vecOf (bArr0 V c))) (colsOfT (wArr0 V c) 512 (by norm_num))
          (rowB r) (rowT r) d :=
  congrFun (final0_5 V c) (ix2 r d)

theorem emb0_6 (t : Fin cfg0.N) (p : Fin 1024) (d : Fin 512) :
    ((cfg0.win 6).blk t).view.emb (ix2 p d) = (ix2 (blockRow (pt0 t) p) d : S8192x512.Idx) := by
  obtain ⟨-, -, -, -, -, -, -, -, -, -, -, e0, e1⟩ := idx_facts0 t
  refine funext fun a => Fin.ext ?_
  match a with
  | ⟨0, _⟩ => show win0_6.index t (0 : Fin 2) * 1024 + 1 * p.val = t.val * 1024 + p.val; rw [e0]; omega
  | ⟨1, _⟩ => show win0_6.index t (1 : Fin 2) * 512 + 1 * d.val = d.val; rw [e1]; omega

theorem flushed0_6_eq (c : Dev nD) (t : Fin cfg0.N) :
    (dat0 (F := Ideal) V c).flushed 6 t = ((cfg0.win 6).blk t).view.read (Elt Ideal) (qkvArr V c 1024 (by norm_num)) := by
  show (cfg0.win 6).cut (grid0.coords t) ((dat0 V c).after 6 t) = _
  rw [after0_6]
  unfold out0_6
  rw [View.canon_unit_zero hz0_2]
  simp only [View.ld_unit_zero (S := S1024x512) hz0_2, View.ld_unit_zero (S := S512) hz0_1, View.ld_unit_zero (S := S512x1536) hz0_2]
  refine funext fun (y : S1024x512.Idx) => ?_
  show k0_pay4 (iblk0 V c 0 t) (iblk0 V c 1 t) (iblk0 V c 2 t) (iblk0 V c 3 t) y
    = qkvArr V c 1024 (by norm_num) (((cfg0.win 6).blk t).view.emb y)
  obtain ⟨p, d, rfl⟩ := exists_ix2 y
  refine (k0_pay4_apply (iblk0 V c 0 t) (iblk0 V c 1 t) (iblk0 V c 2 t) (iblk0 V c 3 t) p d ⟨1024 + d.val, by omega⟩ rfl).trans ?_
  refine (proj_entry (iblk0 V c 0 t) (iblk0 V c 1 t) (iblk0 V c 2 t) (iblk0 V c 3 t) (xArr0 V c) (gArr0 V c) (bArr0 V c) (wArr0 V c)
    (blockRow (pt0 t) p) p d 1024 (by norm_num) ⟨1024 + d.val, by omega⟩ rfl
    (iblk0_0_apply V c t p) (iblk0_1_apply V c t) (iblk0_2_apply V c t) (iblk0_3_apply V c t)).trans ?_
  rw [emb0_6]
  rfl

theorem mem_blk0_6 (t : Fin cfg0.N) (i : S8192x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v16_2).slice (win0_6.rect t)).set ↔ _
  rw [View.set_slice_whole, Rect.mem_set_unit]
  exact Iff.rfl

theorem covered0_6 (i : S8192x512.Idx) :
    ∃ t : Fin cfg0.N, (cfg0.win 6).flush t = true ∧ i ∈ ((cfg0.win 6).blk t).view.set := by
  have hi0 : (i 0).val < 8192 := (i 0).isLt
  have hi1 : (i 1).val < 512 := (i 1).isLt
  obtain ⟨t, ht⟩ := pt0_onto ⟨(i 0).val / 1024, by omega⟩
  have ht' : t.val = (i 0).val / 1024 := ht
  obtain ⟨-, -, -, -, -, -, -, -, -, -, -, e0, e1⟩ := idx_facts0 t
  refine ⟨t, flush0_6 t, ?_⟩
  rw [mem_blk0_6]
  intro a
  match a with
  | ⟨0, _⟩ => show win0_6.index t (0 : Fin 2) * 1024 ≤ (i 0).val ∧ (i 0).val < win0_6.index t (0 : Fin 2) * 1024 + 1024; rw [e0]; omega
  | ⟨1, _⟩ => show win0_6.index t (1 : Fin 2) * 512 ≤ (i 1).val ∧ (i 1).val < win0_6.index t (1 : Fin 2) * 512 + 512; rw [e1]; omega

theorem final0_6 (c : Dev nD) : (dat0 (F := Ideal) V c).arrAt 6 cfg0.N = qkvArr V c 1024 (by norm_num) :=
  (dat0 V c).arrAt_eq_of_cover 6 (qkvArr V c 1024 (by norm_num)) (fun t _ => flushed0_6_eq V c t) covered0_6

theorem value0_6 (c : Dev nD) (r : Fin 8192) (d : Fin 512) :
    ((dat0 (F := Ideal) V c).arrAt 6 cfg0.N : S8192x512.Idx → EReal) (ix2 r d)
      = Spec.proj (Spec.ln (actOfFlat (xArr0 V c)) (vecOf (gArr0 V c)) (vecOf (bArr0 V c))) (colsOfT (wArr0 V c) 1024 (by norm_num))
          (rowB r) (rowT r) d :=
  congrFun (final0_6 V c) (ix2 r d)

end Cert.KernelIdeal.Val

end
-- ==== Proof.KI.Pay1.lean ====
import proofs.«421533_j19645180411976_3_alg».proof.Proof.Gen.KernelIdeal.Skeleton
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value
import Idealize.ShloMosaic.Lib.Affine
import Idealize.ShloMosaic.Lib.WordArith

noncomputable section

open scoped BigOperators

namespace Cert.KernelIdeal.Val

open Cert.KernelIdeal Cert.KernelIdeal.Gen
open Idealize.ShloMosaic Idealize.ShloMosaic.ValueIdx

theorem att_colCast_apply {α : Type} (x : S512.Idx → α) (h : S512.ShapeCasts S512x1) (r : Fin 512) (u : Fin 1) :
    shapeCast S512x1 x h (ix2 r u) = x (ix1 r) :=
  shapeCast_apply x h _ _ (by
    have hu : u.val = 0 := by omega
    rw [Shape.rowMajor_val_one, Shape.rowMajor_val_two]
    show r.val = r.val * 1 + u.val
    omega)

theorem att_colBcast_apply {α : Type} (x : S512x1.Idx → α) (h : S512x1.Broadcasts S512x512) (r c : Fin 512) :
    broadcastTo S512x512 x h (ix2 r c) = x (ix2 r (0 : Fin 1)) :=
  broadcastTo_apply x h _ _ fun a => match a with
    | ⟨0, _⟩ => by show r.val = if (512 : ℕ) = 1 then 0 else r.val; rw [if_neg (by decide)]
    | ⟨1, _⟩ => by show (0 : ℕ) = if (1 : ℕ) = 1 then 0 else c.val; rw [if_pos rfl]

theorem att_lift_row (h : S512x512.Reduces [1] S512) (r c : Fin 512) : h.lift (ix1 r) c = ix2 r c := by
  funext a
  match a with
  | ⟨0, _⟩ => rfl
  | ⟨1, _⟩ => rfl

theorem att_ofBits_neg_inf : Ideal.ofBits .f32 0xFF800000#32 = ⊥ := by
  simp [Ideal.ofBits, Ideal.ieee]

theorem att_rowMax_apply (src : FVec Ideal S512x512 .f32) (h : S512x512.Reduces [1] S512) (hφ : FKind.Formats .f32)
    (hacc : (0xFF800000#32 : BitVec 32) = 0xFF800000#32) (r : Fin 512) :
    multiReduction (F := Ideal) .maximumf [1] S512 src 0xFF800000#32 h hφ hacc (ix1 r)
      = (Finset.univ : Finset (Fin 512)).fold max ⊥ fun c => src (ix2 r c) := by
  refine (Ideal.multiReduction_maximumf_single src 0xFF800000#32 h hφ hacc (ix1 r)).trans ?_
  show (Finset.univ : Finset (Fin 512)).fold max (Ideal.ofBits .f32 0xFF800000#32) _ = _
  rw [att_ofBits_neg_inf]
  congr 1
  funext c
  exact congrArg src (att_lift_row h r c)

theorem att_rowSum_apply (src : FVec Ideal S512x512 .f32) (h : S512x512.Reduces [1] S512) (hφ : FKind.Formats .f32)
    (hacc : (0x00000000#32 : BitVec 32) = 0x00000000#32) (r : Fin 512) :
    multiReduction (F := Ideal) .add [1] S512 src 0x00000000#32 h hφ hacc (ix1 r) = ∑ c : Fin 512, src (ix2 r c) := by
  refine (Ideal.multiReduction_add_single src 0x00000000#32 h hφ hacc (ix1 r)).trans ?_
  exact Finset.sum_congr rfl fun c _ => congrArg src (att_lift_row h r c)

theorem att_lhsD_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem att_lhsD_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem att_rhsD_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem att_rhsD_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

theorem att_mm_apply {φ₁ φ₂ : FTy} (A : FVec Ideal S512x512 φ₁) (B : FVec Ideal S512x512 φ₂) (r c : Fin 512) :
    FloatOps.matmul dot_S512x512_S512x512_S512x512_1_0_0_1_n_n none A B (constant S512x512 .f32 0x00000000#32) (ix2 r c)
      = ∑ d : Fin 512, A (ix2 r d) * B (ix2 d c) := by
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 r c) ((ValueIdx.contrEquiv1 dot_S512x512_S512x512_S512x512_1_0_0_1_n_n 512 rfl rfl).symm k) = ix2 r k := funext fun a => Fin.ext (by
    match a with
    | ⟨0, _⟩ => exact att_lhsD_0 _ _
    | ⟨1, _⟩ => exact (att_lhsD_1 _ _).trans hk)
  have er : dot_S512x512_S512x512_S512x512_1_0_0_1_n_n.rhsIdx (ix2 r c) ((ValueIdx.contrEquiv1 dot_S512x512_S512x512_S512x512_1_0_0_1_n_n 512 rfl rfl).symm k) = ix2 k c := funext fun a => Fin.ext (by
    match a with
    | ⟨0, _⟩ => exact (att_rhsD_0 _ _).trans hk
    | ⟨1, _⟩ => exact att_rhsD_1 _ _)
  rw [el, er]

theorem att_pay1_apply (j : S512x1.Idx) : k1_pay1 (F := Ideal) j = ⊥ := by
  unfold k1_pay1
  rw [shapeCast_self]
  exact att_ofBits_neg_inf

theorem att_pay2_apply (j : S512x1.Idx) : k1_pay2 (F := Ideal) j = 0 := by
  unfold k1_pay2
  rw [shapeCast_self]
  exact Ideal.ofBits_zero_f32

theorem att_pay3_apply (j : S512x512.Idx) : k1_pay3 (F := Ideal) j = 0 := by
  unfold k1_pay3
  rw [shapeCast_self]
  exact Ideal.ofBits_zero_f32

theorem att_pos_toInt (n x : ℕ) (hn : n < 4) (hx : x < 512) :
    (BitVec.ofNat 32 n * 512#32 + BitVec.ofNat 32 x).toInt = ((n * 512 + x : ℕ) : ℤ) := by
  have e : BitVec.ofNat 32 n * 512#32 + BitVec.ofNat 32 x = BitVec.ofNat 32 (n * 512 + x) := by
    apply BitVec.eq_of_toNat_eq
    simp only [BitVec.toNat_add, BitVec.toNat_mul, BitVec.toNat_ofNat]
    omega
  rw [e, WordArith.toInt_ofNat_small _ (by omega)]

def att_tileScore (qi ki : ℕ) (q k : Vec Ideal S1x512x512 .bf16) (r c : Fin 512) : EReal :=
  if ki * 512 + c.val ≤ qi * 512 + r.val then
    (∑ d : Fin 512, q (ix3 (0 : Fin 1) r d) * k (ix3 (0 : Fin 1) c d)) * Ideal.ofBits .f32 0x3D3504F3#32
  else ⊥

theorem att_pay8_apply (qi ki : ℕ) (hqi : qi < 4) (hki : ki < 4) (q k : Vec Ideal S1x512x512 .bf16) (r c : Fin 512) :
    k1_pay8 (F := Ideal) (BitVec.ofNat 32 qi) (BitVec.ofNat 32 ki) q k (ix2 r c) = att_tileScore qi ki q k r c := by
  unfold k1_pay8 att_tileScore
  dsimp only
  rw [select_apply, broadcast_apply]
  have hcond : (cmpi .sle
        (addi (broadcast S512x512 (Scalar.muli (BitVec.ofNat 32 ki) 512#32)) (iota .tc S512x512 32 [1] iota_S512x512_d1_w32))
        (addi (broadcast S512x512 (Scalar.muli (BitVec.ofNat 32 qi) 512#32)) (iota .tc S512x512 32 [0] iota_S512x512_d0_w32))
        (ix2 r c) = 1#1) ↔ ki * 512 + c.val ≤ qi * 512 + r.val := by
    show IntOp.cmpi .sle (IntOp.addi (IntOp.muli (BitVec.ofNat 32 ki) 512#32) (iota .tc S512x512 32 [1] iota_S512x512_d1_w32 (ix2 r c)))
        (IntOp.addi (IntOp.muli (BitVec.ofNat 32 qi) 512#32) (iota .tc S512x512 32 [0] iota_S512x512_d0_w32 (ix2 r c))) = 1#1 ↔ _
    rw [iota_single_apply, iota_single_apply, IntOp.cmpi_sle]
    show (BitVec.ofNat 32 ki * 512#32 + BitVec.ofNat 32 c.val).toInt ≤ (BitVec.ofNat 32 qi * 512#32 + BitVec.ofNat 32 r.val).toInt ↔ _
    rw [att_pos_toInt ki c.val hki c.isLt, att_pos_toInt qi r.val hqi r.isLt]
    exact Int.ofNat_le
  by_cases h : ki * 512 + c.val ≤ qi * 512 + r.val
  · rw [hcond.mpr h, select_one, if_pos h, mulf_apply, broadcast_apply]
    congr 1
    simp only [matmul]
    rw [att_mm_apply]
    refine Finset.sum_congr rfl fun d _ => ?_
    rw [shapeCast_1ab_ab_apply, transpose_ix2_apply, shapeCast_1ab_ab_apply]
  · rw [eq_zero_of_ne_one (fun e => h (hcond.mp e)), select_zero, if_neg h]
    exact IdealRules.named_const.ideal_named_scalar _ _ _ _ rfl

theorem att_pay9_apply (a1 a2 : BitVec 32) (q k : Vec Ideal S1x512x512 .bf16) (m : Vec Ideal S512x1 .f32) (r : Fin 512) (u : Fin 1) :
    k1_pay9 (F := Ideal) a1 a2 q k m (ix2 r u)
      = max (m (ix2 r u)) ((Finset.univ : Finset (Fin 512)).fold max ⊥ fun c => k1_pay8 (F := Ideal) a1 a2 q k (ix2 r c)) := by
  unfold k1_pay9
  dsimp only
  rw [maximumf_apply, att_colCast_apply, att_rowMax_apply]

theorem att_pay10_apply (a1 a2 : BitVec 32) (q k : Vec Ideal S1x512x512 .bf16) (m : Vec Ideal S512x1 .f32) (j : S512x1.Idx) :
    k1_pay10 (F := Ideal) a1 a2 q k m j = Ideal.exp (m j - k1_pay9 (F := Ideal) a1 a2 q k m j) := rfl

theorem att_pay11_apply (a1 a2 : BitVec 32) (q k : Vec Ideal S1x512x512 .bf16) (m : Vec Ideal S512x1 .f32) (r c : Fin 512) :
    k1_pay11 (F := Ideal) a1 a2 q k m (ix2 r c)
      = Ideal.exp (k1_pay8 (F := Ideal) a1 a2 q k (ix2 r c) - k1_pay9 (F := Ideal) a1 a2 q k m (ix2 r (0 : Fin 1))) := by
  unfold k1_pay11
  show Ideal.exp (k1_pay8 (F := Ideal) a1 a2 q k (ix2 r c)
      - broadcastTo S512x512 (k1_pay9 (F := Ideal) a1 a2 q k m) broadcasts_S512x1_S512x512 (ix2 r c)) = _
  rw [att_colBcast_apply]

theorem att_pay12_apply (a1 a2 : BitVec 32) (q k : Vec Ideal S1x512x512 .bf16) (m l : Vec Ideal S512x1 .f32) (r : Fin 512) (u : Fin 1) :
    k1_pay12 (F := Ideal) a1 a2 q k m l (ix2 r u)
      = k1_pay10 (F := Ideal) a1 a2 q k m (ix2 r u) * l (ix2 r u) + ∑ c : Fin 512, k1_pay11 (F := Ideal) a1 a2 q k m (ix2 r c) := by
  unfold k1_pay12
  dsimp only
  rw [shapeCast_self, addf_apply, mulf_apply, att_colCast_apply, att_rowSum_apply]

theorem att_pay5_eq (m : FVec Ideal S512x1 .f32) : k1_pay5 (F := Ideal) m = m := by
  unfold k1_pay5
  exact shapeCast_self _ _

theorem att_pay4_apply (v : Vec Ideal S1x512x512 .bf16) (a : FVec Ideal S512x1 .f32) (P : FVec Ideal S512x512 .f32)
    (acc : Vec Ideal S512x512 .f32) (r d : Fin 512) :
    k1_pay4 (F := Ideal) (k1_pay7 (F := Ideal) v) a P acc (ix2 r d)
      = a (ix2 r (0 : Fin 1)) * acc (ix2 r d) + ∑ c : Fin 512, P (ix2 r c) * v (ix3 (0 : Fin 1) c d) := by
  unfold k1_pay4 k1_pay7
  dsimp only
  rw [shapeCast_self, addf_apply, mulf_apply, att_colBcast_apply]
  congr 1
  simp only [matmul]
  rw [att_mm_apply]
  refine Finset.sum_congr rfl fun c _ => ?_
  rw [truncf_apply, shapeCast_1ab_ab_apply]

theorem att_pay6_apply (x0 : Vec Ideal S1x512x512 .f32) (acc : Vec Ideal S512x512 .f32) (l : Vec Ideal S512x1 .f32)
    (u : Fin 1) (r d : Fin 512) :
    k1_pay6 (F := Ideal) x0 acc l (ix3 u r d)
      = x0 (ix3 (0 : Fin 1) r d) + Ideal.div (acc (ix2 r d)) (l (ix2 r (0 : Fin 1))) := by
  unfold k1_pay6
  rw [shapeCast_ab_1ab_apply, addf_apply, divf_apply, shapeCast_1ab_ab_apply, att_colBcast_apply]

end Cert.KernelIdeal.Val
-- ==== Proof.OnlineSoftmax.lean ====
import Mathlib.Data.EReal.Basic
import Mathlib.Data.EReal.Operations
import Mathlib.Data.EReal.Inv
import Mathlib.Analysis.SpecialFunctions.Exp
import Mathlib.Algebra.BigOperators.Group.Finset.Basic
import Mathlib.Algebra.Order.BigOperators.Group.Finset
import Mathlib.Data.Finset.Lattice.Fold
import Idealize.ShloMosaic.PureOps.Ideal

noncomputable section

open scoped BigOperators

namespace Cert.OnlineSoftmax

open Idealize.ShloMosaic

theorem coe_sum {α : Type*} (A : Finset α) (f : α → ℝ) :
    ((∑ x ∈ A, f x : ℝ) : EReal) = ∑ x ∈ A, (f x : EReal) := by
  induction A using Finset.cons_induction with
  | empty => simp
  | cons a A ha ih => rw [Finset.sum_cons, Finset.sum_cons, EReal.coe_add, ih]

theorem fold_max_bot_eq_sup {α : Type*} (A : Finset α) (f : α → EReal) :
    A.fold max ⊥ f = A.sup f := by
  induction A using Finset.cons_induction with
  | empty => simp
  | cons a A ha ih => rw [Finset.fold_cons, Finset.sup_cons, ih]

def w (s : EReal) (r : ℝ) : ℝ := if s = ⊥ then 0 else Real.exp (s.toReal - r)

theorem w_bot (r : ℝ) : w ⊥ r = 0 := if_pos rfl

theorem w_coe (t r : ℝ) : w (t : EReal) r = Real.exp (t - r) := by
  rw [w, if_neg (EReal.coe_ne_bot t), EReal.toReal_coe]

theorem w_nonneg (s : EReal) (r : ℝ) : 0 ≤ w s r := by
  unfold w; split_ifs
  · exact le_rfl
  · exact (Real.exp_pos _).le

theorem exp_sub_coe {s : EReal} (hs : s ≠ ⊤) (r : ℝ) :
    Ideal.exp (s - (r : EReal)) = ((w s r : ℝ) : EReal) := by
  induction s using EReal.rec with
  | bot => rw [EReal.bot_sub, Ideal.exp_bot, w_bot, EReal.coe_zero]
  | coe t => rw [← EReal.coe_sub, Ideal.exp_coe, w_coe]
  | top => exact absurd rfl hs

theorem w_rescale (s : EReal) (r r' : ℝ) : Real.exp (r - r') * w s r = w s r' := by
  unfold w; split_ifs
  · exact mul_zero _
  · rw [← Real.exp_add]; congr 1; ring

def Inv {α : Type*} (s v : α → EReal) (A : Finset α) (m l acc : EReal) : Prop :=
  (m = ⊥ ∧ l = 0 ∧ acc = 0 ∧ ∀ x ∈ A, s x = ⊥) ∨
  ∃ r : ℝ, m = r ∧ A.sup s = r ∧ l = ((∑ x ∈ A, w (s x) r : ℝ) : EReal) ∧
    acc = ((∑ x ∈ A, w (s x) r * (v x).toReal : ℝ) : EReal)

variable {α : Type*} {s v : α → EReal} {A B : Finset α} {m l acc m' l' acc' : EReal}

theorem inv_empty : Inv s v ∅ ⊥ 0 0 :=
  Or.inl ⟨rfl, rfl, rfl, fun _ hx => absurd hx (Finset.notMem_empty _)⟩

theorem Inv.m_eq (h : Inv s v A m l acc) : m = A.sup s := by
  rcases h with ⟨hm, -, -, hA⟩ | ⟨r, hm, hsup, -, -⟩
  · rw [hm, (Finset.sup_eq_bot_iff s A).2 hA]
  · rw [hm, hsup]

theorem Inv.rescale (h : Inv s v A m l acc) (r' : ℝ) :
    Ideal.exp (m - (r' : EReal)) * l = ((∑ x ∈ A, w (s x) r' : ℝ) : EReal) ∧
    Ideal.exp (m - (r' : EReal)) * acc = ((∑ x ∈ A, w (s x) r' * (v x).toReal : ℝ) : EReal) := by
  rcases h with ⟨hm, hl, hacc, hA⟩ | ⟨r, hm, -, hl, hacc⟩
  · have h0 : ∀ x ∈ A, w (s x) r' = 0 := fun x hx => by rw [hA x hx, w_bot]
    rw [hl, hacc, mul_zero]
    constructor
    · rw [Finset.sum_eq_zero h0, EReal.coe_zero]
    · rw [Finset.sum_eq_zero (fun x hx => by rw [h0 x hx, zero_mul]), EReal.coe_zero]
  · rw [hm, hl, hacc, ← EReal.coe_sub, Ideal.exp_coe, ← EReal.coe_mul, ← EReal.coe_mul,
      Finset.mul_sum, Finset.mul_sum]
    constructor
    · congr 1; exact Finset.sum_congr rfl fun x _ => w_rescale _ _ _
    · congr 1; exact Finset.sum_congr rfl fun x _ => by rw [← mul_assoc, w_rescale]

theorem Inv.step [DecidableEq α] (h : Inv s v A m l acc) (hAB : Disjoint A B)
    (hsA : ∀ x ∈ A, s x ≠ ⊤) (hsB : ∀ x ∈ B, s x ≠ ⊤) (hvB : ∀ x ∈ B, v x ≠ ⊥ ∧ v x ≠ ⊤)
    (hm' : m' = max m (B.sup s)) (hne : m' ≠ ⊥)
    (hl' : l' = Ideal.exp (m - m') * l + ∑ x ∈ B, Ideal.exp (s x - m'))
    (hacc' : acc' = Ideal.exp (m - m') * acc + ∑ x ∈ B, Ideal.exp (s x - m') * v x) :
    Inv s v (A ∪ B) m' l' acc' := by
  have hsup : m' = (A ∪ B).sup s := by
    rw [hm', h.m_eq, Finset.sup_union]
  have htop : m' ≠ ⊤ := by
    rw [hsup]; apply ne_of_lt
    rw [Finset.sup_lt_iff bot_lt_top]
    intro x hx
    rcases Finset.mem_union.1 hx with hx | hx
    · exact lt_top_iff_ne_top.2 (hsA x hx)
    · exact lt_top_iff_ne_top.2 (hsB x hx)
  obtain ⟨r', hr'⟩ : ∃ r' : ℝ, m' = r' := ⟨m'.toReal, (EReal.coe_toReal htop hne).symm⟩
  refine Or.inr ⟨r', hr', by rw [← hsup, hr'], ?_, ?_⟩
  · rw [hl', hr', (h.rescale r').1, Finset.sum_union hAB, EReal.coe_add, coe_sum B]
    congr 1
    exact Finset.sum_congr rfl fun x hx => exp_sub_coe (hsB x hx) r'
  · rw [hacc', hr', (h.rescale r').2, Finset.sum_union hAB, EReal.coe_add, coe_sum B]
    congr 1
    refine Finset.sum_congr rfl fun x hx => ?_
    rw [EReal.coe_mul, EReal.coe_toReal (hvB x hx).2 (hvB x hx).1, exp_sub_coe (hsB x hx)]

theorem Inv.dead [DecidableEq α] (h : Inv s v A m l acc) (hAB : Disjoint A B)
    (hB : ∀ x ∈ B, s x = ⊥) : Inv s v (A ∪ B) m l acc := by
  rcases h with ⟨hm, hl, hacc, hA⟩ | ⟨r, hm, hsup, hl, hacc⟩
  · exact Or.inl ⟨hm, hl, hacc, fun x hx => (Finset.mem_union.1 hx).elim (hA x) (hB x)⟩
  · have h0 : ∀ x ∈ B, w (s x) r = 0 := fun x hx => by rw [hB x hx, w_bot]
    have h1 : ∀ x ∈ B, w (s x) r * (v x).toReal = 0 := fun x hx => by rw [h0 x hx, zero_mul]
    refine Or.inr ⟨r, hm, ?_, ?_, ?_⟩
    · rw [Finset.sup_union, hsup, (Finset.sup_eq_bot_iff s B).2 hB, sup_bot_eq]
    · rw [hl, Finset.sum_union hAB, Finset.sum_eq_zero h0, add_zero]
    · rw [hacc, Finset.sum_union hAB, Finset.sum_eq_zero h1, add_zero]

theorem Inv.div_eq (h : Inv s v A m l acc) (hne : m ≠ ⊥)
    (hs : ∀ x ∈ A, s x ≠ ⊤) (hv : ∀ x ∈ A, v x ≠ ⊥ ∧ v x ≠ ⊤) :
    Ideal.div acc l
      = ∑ x ∈ A, Ideal.div (Ideal.exp (s x - A.sup s)) (∑ y ∈ A, Ideal.exp (s y - A.sup s)) * v x := by
  rcases h with ⟨hm, -, -, -⟩ | ⟨r, -, hsup, hl, hacc⟩
  · exact absurd hm hne
  · have hL : ∑ y ∈ A, Ideal.exp (s y - A.sup s) = ((∑ y ∈ A, w (s y) r : ℝ) : EReal) := by
      rw [hsup, coe_sum]; exact Finset.sum_congr rfl fun y hy => exp_sub_coe (hs y hy) r
    have hAne : A.Nonempty := by
      rcases A.eq_empty_or_nonempty with h0 | h0
      · rw [h0, Finset.sup_empty] at hsup; exact absurd hsup.symm (EReal.coe_ne_bot r)
      · exact h0
    obtain ⟨x0, hx0, hx0r⟩ := Finset.exists_mem_eq_sup A hAne s
    have hpos : 0 < ∑ y ∈ A, w (s y) r := by
      refine Finset.sum_pos' (fun y _ => w_nonneg _ _) ⟨x0, hx0, ?_⟩
      rw [← hx0r, hsup, w_coe]; exact Real.exp_pos _
    rw [hL, hl, hacc, Ideal.div_coe hpos.ne', ← EReal.coe_mul, Finset.sum_mul, coe_sum]
    refine Finset.sum_congr rfl fun x hx => ?_
    rw [hsup, exp_sub_coe (hs x hx) r, Ideal.div_coe hpos.ne', ← EReal.coe_mul,
      ← EReal.coe_toReal (hv x hx).2 (hv x hx).1, ← EReal.coe_mul, EReal.toReal_coe]
    congr 1; ring

theorem flash_eq_softmax [DecidableEq α] (s v : α → EReal) (B : ℕ → Finset α) (k : ℕ)
    (hk : 0 < k)
    (hdisj : ∀ i < k, ∀ j < k, i ≠ j → Disjoint (B i) (B j))
    (A : Finset α) (hBA : ∀ j < k, B j ⊆ A)
    (hs : ∀ x ∈ A, s x ≠ ⊤) (hs0 : ∃ x ∈ B 0, s x ≠ ⊥)
    (hdead : ∀ x ∈ A, (∀ j < k, x ∉ B j) → s x = ⊥)
    (hv : ∀ x ∈ A, v x ≠ ⊥ ∧ v x ≠ ⊤)
    (m l acc : ℕ → EReal) (hm0 : m 0 = ⊥) (hl0 : l 0 = 0) (hacc0 : acc 0 = 0)
    (hm : ∀ j < k, m (j + 1) = max (m j) ((B j).sup s))
    (hl : ∀ j < k, l (j + 1) = Ideal.exp (m j - m (j + 1)) * l j + ∑ x ∈ B j, Ideal.exp (s x - m (j + 1)))
    (hacc : ∀ j < k, acc (j + 1) = Ideal.exp (m j - m (j + 1)) * acc j
        + ∑ x ∈ B j, Ideal.exp (s x - m (j + 1)) * v x) :
    Ideal.div (acc k) (l k)
      = ∑ x ∈ A, Ideal.div (Ideal.exp (s x - A.sup s)) (∑ y ∈ A, Ideal.exp (s y - A.sup s)) * v x := by

  have key : ∀ j, j ≤ k → Inv s v ((Finset.range j).biUnion B) (m j) (l j) (acc j) ∧ (0 < j → m j ≠ ⊥) := by
    intro j
    induction j with
    | zero =>
      intro _
      refine ⟨?_, fun h => absurd h (lt_irrefl 0)⟩
      rw [hm0, hl0, hacc0, Finset.range_zero, Finset.biUnion_empty]; exact inv_empty
    | succ j ih =>
      intro hj
      have hjk : j < k := hj
      obtain ⟨hinv, hmj⟩ := ih hjk.le
      have hsub : (Finset.range j).biUnion B ⊆ A :=
        Finset.biUnion_subset.2 fun i hi => hBA i (lt_trans (Finset.mem_range.1 hi) hjk)
      have hdj : Disjoint ((Finset.range j).biUnion B) (B j) :=
        (Finset.disjoint_biUnion_left _ _ _).2 fun i hi =>
          hdisj i (lt_trans (Finset.mem_range.1 hi) hjk) j hjk (ne_of_lt (Finset.mem_range.1 hi))
      have hne : m (j + 1) ≠ ⊥ := by
        rw [hm j hjk]
        rcases Nat.eq_zero_or_pos j with h0 | h0
        · subst h0
          obtain ⟨x0, hx0, hx0b⟩ := hs0
          exact ne_bot_of_le_ne_bot hx0b (le_trans (Finset.le_sup hx0) (le_max_right _ _))
        · exact ne_bot_of_le_ne_bot (hmj h0) (le_max_left _ _)
      refine ⟨?_, fun _ => hne⟩
      rw [Finset.range_add_one, Finset.biUnion_insert, Finset.union_comm]
      exact hinv.step hdj (fun x hx => hs x (hsub hx)) (fun x hx => hs x (hBA j hjk hx))
        (fun x hx => hv x (hBA j hjk hx)) (hm j hjk) hne (hl j hjk) (hacc j hjk)
  obtain ⟨hinv, hmk⟩ := key k le_rfl
  have hsub : (Finset.range k).biUnion B ⊆ A :=
    Finset.biUnion_subset.2 fun i hi => hBA i (Finset.mem_range.1 hi)
  have hall := hinv.dead (B := A \ (Finset.range k).biUnion B) Finset.disjoint_sdiff (fun x hx => by
    obtain ⟨hxA, hxU⟩ := Finset.mem_sdiff.1 hx
    exact hdead x hxA fun j hj hxj => hxU (Finset.mem_biUnion.2 ⟨j, Finset.mem_range.2 hj, hxj⟩))
  rw [Finset.union_sdiff_of_subset hsub] at hall
  exact hall.div_eq (hmk hk) hs hv

theorem flash_tiles_eq_softmax {ι : Type*} [DecidableEq α] [Fintype α] [Fintype ι]
    (s v : α → EReal) (col : ℕ → ι → α) (k : ℕ) (hk : 0 < k)
    (hinj : ∀ j < k, Function.Injective (col j))
    (hdisj : ∀ i < k, ∀ j < k, i ≠ j → ∀ c c', col i c ≠ col j c')
    (hs : ∀ x, s x ≠ ⊤) (hs0 : ∃ c, s (col 0 c) ≠ ⊥)
    (hdead : ∀ x, (∀ j < k, ∀ c, col j c ≠ x) → s x = ⊥)
    (hv : ∀ x, v x ≠ ⊥ ∧ v x ≠ ⊤)
    (m l acc : ℕ → EReal) (hm0 : m 0 = ⊥) (hl0 : l 0 = 0) (hacc0 : acc 0 = 0)
    (hm : ∀ j < k, m (j + 1) = max (m j) ((Finset.univ : Finset ι).fold max ⊥ fun c => s (col j c)))
    (hl : ∀ j < k, l (j + 1) = Ideal.exp (m j - m (j + 1)) * l j + ∑ c : ι, Ideal.exp (s (col j c) - m (j + 1)))
    (hacc : ∀ j < k, acc (j + 1) = Ideal.exp (m j - m (j + 1)) * acc j
        + ∑ c : ι, Ideal.exp (s (col j c) - m (j + 1)) * v (col j c)) :
    Ideal.div (acc k) (l k)
      = ∑ x : α, Ideal.div (Ideal.exp (s x - (Finset.univ : Finset α).fold max ⊥ s))
          (∑ y : α, Ideal.exp (s y - (Finset.univ : Finset α).fold max ⊥ s)) * v x := by
  rw [fold_max_bot_eq_sup]
  refine flash_eq_softmax s v (fun j => Finset.univ.image (col j)) k hk ?_ Finset.univ
    (fun _ _ => Finset.subset_univ _) (fun x _ => hs x) ?_ ?_ (fun x _ => hv x) m l acc hm0 hl0 hacc0 ?_ ?_ ?_
  · intro i hi j hj hij
    refine Finset.disjoint_left.2 fun x hxi hxj => ?_
    obtain ⟨c, -, rfl⟩ := Finset.mem_image.1 hxi
    obtain ⟨c', -, hc'⟩ := Finset.mem_image.1 hxj
    exact hdisj i hi j hj hij c c' hc'.symm
  · obtain ⟨c, hc⟩ := hs0
    exact ⟨col 0 c, Finset.mem_image_of_mem _ (Finset.mem_univ c), hc⟩
  · intro x _ hx
    exact hdead x fun j hj c hc => hx j hj (hc ▸ Finset.mem_image_of_mem _ (Finset.mem_univ c))
  · intro j hj
    rw [hm j hj, fold_max_bot_eq_sup, Finset.sup_image]; rfl
  · intro j hj
    rw [hl j hj, Finset.sum_image fun a _ b _ h => hinj j hj h]
  · intro j hj
    rw [hacc j hj, Finset.sum_image fun a _ b _ h => hinj j hj h]

end Cert.OnlineSoftmax
-- ==== Proof.KI.Row1.lean ====
import proofs.«421533_j19645180411976_3_alg».proof.Proof.KI.Pay1
import proofs.«421533_j19645180411976_3_alg».proof.Proof.Spec
import proofs.«421533_j19645180411976_3_alg».proof.Proof.OnlineSoftmax

noncomputable section

open scoped BigOperators

namespace Cert.KernelIdeal.Val

open Cert.KernelIdeal Cert.KernelIdeal.Gen
open Idealize.ShloMosaic Idealize.ShloMosaic.ValueIdx

def att_pos (j : ℕ) (c : Fin 512) : Fin 2048 :=
  ⟨j % 4 * 512 + c.val, by have := c.isLt; have := Nat.mod_lt j (show 0 < 4 by decide); omega⟩

theorem att_pos_val {j : ℕ} (hj : j < 4) (c : Fin 512) : (att_pos j c).val = j * 512 + c.val := by
  show j % 4 * 512 + c.val = _
  rw [Nat.mod_eq_of_lt hj]

theorem att_real_mul {x y : EReal} (hx : x ≠ ⊥ ∧ x ≠ ⊤) (hy : y ≠ ⊥ ∧ y ≠ ⊤) : x * y ≠ ⊥ ∧ x * y ≠ ⊤ := by
  rw [← EReal.coe_toReal hx.2 hx.1, ← EReal.coe_toReal hy.2 hy.1, ← EReal.coe_mul]
  exact ⟨EReal.coe_ne_bot _, EReal.coe_ne_top _⟩

theorem att_real_sum {ι : Type*} (A : Finset ι) (f : ι → EReal) (hf : ∀ i ∈ A, f i ≠ ⊥ ∧ f i ≠ ⊤) :
    (∑ i ∈ A, f i) ≠ ⊥ ∧ (∑ i ∈ A, f i) ≠ ⊤ := by
  have e : ∑ i ∈ A, f i = ((∑ i ∈ A, (f i).toReal : ℝ) : EReal) := by
    rw [OnlineSoftmax.coe_sum]
    exact Finset.sum_congr rfl fun i hi => (EReal.coe_toReal (hf i hi).2 (hf i hi).1).symm
  rw [e]
  exact ⟨EReal.coe_ne_bot _, EReal.coe_ne_top _⟩

theorem att_scale_real : Ideal.ofBits .f32 0x3D3504F3#32 ≠ ⊥ ∧ Ideal.ofBits .f32 0x3D3504F3#32 ≠ ⊤ := by
  constructor
  · first
      | (simp [Ideal.ofBits, Ideal.ieee, -EReal.coe_mul]; done)
      | (simp [Ideal.ofBits, Ideal.ieee]; rw [← EReal.coe_mul]; exact EReal.coe_ne_bot _)
  · first
      | (simp [Ideal.ofBits, Ideal.ieee, -EReal.coe_mul]; done)
      | (simp [Ideal.ofBits, Ideal.ieee]; rw [← EReal.coe_mul]; exact EReal.coe_ne_top _)

theorem att_score_real (q k : Spec.Act) (fq : ∀ b t d, q b t d ≠ ⊥ ∧ q b t d ≠ ⊤) (fk : ∀ b t d, k b t d ≠ ⊥ ∧ k b t d ≠ ⊤)
    (b : Fin 4) (t u : Fin 2048) : Spec.score q k b t u ≠ ⊥ ∧ Spec.score q k b t u ≠ ⊤ := by
  unfold Spec.score
  exact att_real_mul (att_real_sum _ _ fun d _ => att_real_mul (fq b t d) (fk b u d)) att_scale_real

theorem row_attention (q k v : Spec.Act)
    (fq : ∀ b t d, q b t d ≠ ⊥ ∧ q b t d ≠ ⊤) (fk : ∀ b t d, k b t d ≠ ⊥ ∧ k b t d ≠ ⊤)
    (fv : ∀ b t d, v b t d ≠ ⊥ ∧ v b t d ≠ ⊤)
    (b : Fin 4) (qi : ℕ) (hqi : qi < 4)
    (M L : ℕ → Vec Ideal S512x1 .f32) (A : ℕ → Vec Ideal S512x512 .f32)
    (hM0 : M 0 = k1_pay1 (F := Ideal)) (hL0 : L 0 = k1_pay2 (F := Ideal)) (hA0 : A 0 = k1_pay3 (F := Ideal))
    (hstep : ∀ j, j ≤ qi → ∃ Qb Kb Vb : Vec Ideal S1x512x512 .bf16,
        (∀ r d, Qb (ix3 (0 : Fin 1) r d) = q b (att_pos qi r) d) ∧
        (∀ c d, Kb (ix3 (0 : Fin 1) c d) = k b (att_pos j c) d) ∧
        (∀ c d, Vb (ix3 (0 : Fin 1) c d) = v b (att_pos j c) d) ∧
        M (j + 1) = k1_pay5 (k1_pay9 (BitVec.ofNat 32 qi) (BitVec.ofNat 32 j) Qb Kb (M j)) ∧
        L (j + 1) = k1_pay12 (BitVec.ofNat 32 qi) (BitVec.ofNat 32 j) Qb Kb (M j) (L j) ∧
        A (j + 1) = k1_pay4 (k1_pay7 Vb) (k1_pay10 (BitVec.ofNat 32 qi) (BitVec.ofNat 32 j) Qb Kb (M j))
                      (k1_pay11 (BitVec.ofNat 32 qi) (BitVec.ofNat 32 j) Qb Kb (M j)) (A j))
    (r d : Fin 512) :
    Ideal.div (A (qi + 1) (ix2 r d)) (L (qi + 1) (ix2 r (0 : Fin 1))) = Spec.attRef q k v b (att_pos qi r) d := by
  have hTv : (att_pos qi r).val = qi * 512 + r.val := att_pos_val hqi r

  have hsc : ∀ j, j ≤ qi → ∀ (Qb Kb : Vec Ideal S1x512x512 .bf16),
      (∀ r d, Qb (ix3 (0 : Fin 1) r d) = q b (att_pos qi r) d) → (∀ c d, Kb (ix3 (0 : Fin 1) c d) = k b (att_pos j c) d) →
      ∀ c, k1_pay8 (F := Ideal) (BitVec.ofNat 32 qi) (BitVec.ofNat 32 j) Qb Kb (ix2 r c)
        = Spec.masked q k b (att_pos qi r) (att_pos j c) := by
    intro j hj Qb Kb hQ hK c
    have hj4 : j < 4 := by omega
    rw [att_pay8_apply qi j hqi hj4]
    unfold att_tileScore Spec.masked Spec.score
    rw [att_pos_val hj4 c, hTv]
    refine if_congr Iff.rfl ?_ rfl
    congr 1
    exact Finset.sum_congr rfl fun d _ => by rw [hQ, hK]
  have hinj : ∀ j < qi + 1, Function.Injective (att_pos j) := by
    intro j hj c c' h
    have e := congrArg Fin.val h
    rw [att_pos_val (by omega) c, att_pos_val (by omega) c'] at e
    exact Fin.ext (by omega)
  have hdisj : ∀ i < qi + 1, ∀ j < qi + 1, i ≠ j → ∀ c c', att_pos i c ≠ att_pos j c' := by
    intro i hi j hj hij c c' h
    have e := congrArg Fin.val h
    rw [att_pos_val (by omega) c, att_pos_val (by omega) c'] at e
    have := c.isLt; have := c'.isLt
    omega
  have hs : ∀ u, Spec.masked q k b (att_pos qi r) u ≠ ⊤ := by
    intro u
    unfold Spec.masked
    split
    · exact (att_score_real q k fq fk b _ _).2
    · exact bot_ne_top
  have hs0 : ∃ c, Spec.masked q k b (att_pos qi r) (att_pos 0 c) ≠ ⊥ := by
    refine ⟨⟨0, by decide⟩, ?_⟩
    unfold Spec.masked
    rw [if_pos (by rw [att_pos_val (by decide) _, hTv]; show 0 * 512 + 0 ≤ _; omega)]
    exact (att_score_real q k fq fk b _ _).1
  have hdead : ∀ u, (∀ j < qi + 1, ∀ c, att_pos j c ≠ u) → Spec.masked q k b (att_pos qi r) u = ⊥ := by
    intro u hu
    unfold Spec.masked
    refine if_neg fun hle => ?_
    rw [hTv] at hle
    have hr := r.isLt
    refine hu (u.val / 512) (by omega) ⟨u.val % 512, Nat.mod_lt _ (by decide)⟩ (Fin.ext ?_)
    rw [att_pos_val (by omega)]
    show u.val / 512 * 512 + u.val % 512 = u.val
    omega
  have key := OnlineSoftmax.flash_tiles_eq_softmax (α := Fin 2048) (ι := Fin 512)
    (Spec.masked q k b (att_pos qi r)) (fun u => v b u d) att_pos (qi + 1) (Nat.succ_pos qi)
    hinj hdisj hs hs0 hdead (fun u => fv b u d)
    (fun j => M j (ix2 r (0 : Fin 1))) (fun j => L j (ix2 r (0 : Fin 1))) (fun j => A j (ix2 r d))
    (by show M 0 (ix2 r (0 : Fin 1)) = ⊥; rw [hM0]; exact att_pay1_apply _)
    (by show L 0 (ix2 r (0 : Fin 1)) = 0; rw [hL0]; exact att_pay2_apply _)
    (by show A 0 (ix2 r d) = 0; rw [hA0]; exact att_pay3_apply _)
    (by
      intro j hj
      obtain ⟨Qb, Kb, Vb, hQ, hK, hV, eM, eL, eA⟩ := hstep j (by omega)
      show M (j + 1) (ix2 r (0 : Fin 1)) = max (M j (ix2 r (0 : Fin 1))) _
      rw [eM, att_pay5_eq, att_pay9_apply]
      congr 2
      funext c
      exact hsc j (by omega) Qb Kb hQ hK c)
    (by
      intro j hj
      obtain ⟨Qb, Kb, Vb, hQ, hK, hV, eM, eL, eA⟩ := hstep j (by omega)
      have eM' : M (j + 1) = k1_pay9 (F := Ideal) (BitVec.ofNat 32 qi) (BitVec.ofNat 32 j) Qb Kb (M j) := by rw [eM, att_pay5_eq]
      show L (j + 1) (ix2 r (0 : Fin 1)) = Ideal.exp (M j (ix2 r (0 : Fin 1)) - M (j + 1) (ix2 r (0 : Fin 1))) * L j (ix2 r (0 : Fin 1)) + _
      rw [eM', eL, att_pay12_apply, att_pay10_apply]
      congr 1
      refine Finset.sum_congr rfl fun c _ => ?_
      rw [att_pay11_apply, hsc j (by omega) Qb Kb hQ hK c])
    (by
      intro j hj
      obtain ⟨Qb, Kb, Vb, hQ, hK, hV, eM, eL, eA⟩ := hstep j (by omega)
      have eM' : M (j + 1) = k1_pay9 (F := Ideal) (BitVec.ofNat 32 qi) (BitVec.ofNat 32 j) Qb Kb (M j) := by rw [eM, att_pay5_eq]
      show A (j + 1) (ix2 r d) = Ideal.exp (M j (ix2 r (0 : Fin 1)) - M (j + 1) (ix2 r (0 : Fin 1))) * A j (ix2 r d) + _
      rw [eM', eA, att_pay4_apply, att_pay10_apply]
      congr 1
      refine Finset.sum_congr rfl fun c _ => ?_
      rw [att_pay11_apply, hsc j (by omega) Qb Kb hQ hK c, hV])
  exact key

end Cert.KernelIdeal.Val
-- ==== Proof.KI.Val1.lean ====
import proofs.«421533_j19645180411976_3_alg».proof.Proof.KI.Reg1
import proofs.«421533_j19645180411976_3_alg».proof.Proof.KI.Row1
import Idealize.ShloMosaic.Lib.Pipeline.Value

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem att_lt64 (t : Fin cfg1.N) : t.val < 64 := by
  have h := t.isLt
  have e : cfg1.N = 64 := N_1
  omega

theorem coords1 : ∀ t : Fin cfg1.N, (grid1.coords t 0).val = t.val / 16 ∧ (grid1.coords t 1).val = t.val / 4 % 4
    ∧ (grid1.coords t 2).val = t.val % 4 :=
  (by decide +kernel : ∀ t : Fin grid1.N, (grid1.coords t 0).val = t.val / 16 ∧ (grid1.coords t 1).val = t.val / 4 % 4
    ∧ (grid1.coords t 2).val = t.val % 4)

theorem idx1 : ∀ t : Fin cfg1.N,
    (win1_0.index t (0 : Fin 3) = t.val / 16 ∧ win1_0.index t (1 : Fin 3) = t.val / 4 % 4 ∧ win1_0.index t (2 : Fin 3) = 0)
    ∧ (win1_1.index t (0 : Fin 3) = t.val / 16 ∧ win1_1.index t (1 : Fin 3) = t.val / 4 % 4 ∧ win1_1.index t (2 : Fin 3) = 0)
    ∧ (win1_2.index t (0 : Fin 3) = t.val / 16 ∧ win1_2.index t (1 : Fin 3) = min (t.val % 4) (t.val / 4 % 4) ∧ win1_2.index t (2 : Fin 3) = 0)
    ∧ (win1_3.index t (0 : Fin 3) = t.val / 16 ∧ win1_3.index t (1 : Fin 3) = min (t.val % 4) (t.val / 4 % 4) ∧ win1_3.index t (2 : Fin 3) = 0)
    ∧ (win1_4.index t (0 : Fin 3) = t.val / 16 ∧ win1_4.index t (1 : Fin 3) = t.val / 4 % 4 ∧ win1_4.index t (2 : Fin 3) = 0) :=
  (by decide +kernel : ∀ t : Fin grid1.N,
    (win1_0.index t (0 : Fin 3) = t.val / 16 ∧ win1_0.index t (1 : Fin 3) = t.val / 4 % 4 ∧ win1_0.index t (2 : Fin 3) = 0)
    ∧ (win1_1.index t (0 : Fin 3) = t.val / 16 ∧ win1_1.index t (1 : Fin 3) = t.val / 4 % 4 ∧ win1_1.index t (2 : Fin 3) = 0)
    ∧ (win1_2.index t (0 : Fin 3) = t.val / 16 ∧ win1_2.index t (1 : Fin 3) = min (t.val % 4) (t.val / 4 % 4) ∧ win1_2.index t (2 : Fin 3) = 0)
    ∧ (win1_3.index t (0 : Fin 3) = t.val / 16 ∧ win1_3.index t (1 : Fin 3) = min (t.val % 4) (t.val / 4 % 4) ∧ win1_3.index t (2 : Fin 3) = 0)
    ∧ (win1_4.index t (0 : Fin 3) = t.val / 16 ∧ win1_4.index t (1 : Fin 3) = t.val / 4 % 4 ∧ win1_4.index t (2 : Fin 3) = 0))

def att_bOf (t : Fin cfg1.N) : Fin 4 := ⟨t.val / 16, by have := att_lt64 t; omega⟩

theorem att_blkX (c : Dev nD) (x0 : Spec.Act) (h0 : ∀ b t d, V c main_v9 (ix3 b t d) = x0 b t d) (t : Fin cfg1.N) (r d : Fin 512) :
    (iblk1 V c 0 t : Vec Ideal S1x512x512 .f32) (ix3 (0 : Fin 1) r d) = x0 (att_bOf t) (att_pos (t.val / 4 % 4) r) d := by
  show V c main_v9 (((cfg1.win 0).blk t).view.emb (ix3 (0 : Fin 1) r d)) = _
  obtain ⟨⟨e0, e1, e2⟩, -⟩ := idx1 t
  have e : ((cfg1.win 0).blk t).view.emb (ix3 (0 : Fin 1) r d) = ix3 (att_bOf t) (att_pos (t.val / 4 % 4) r) d := by
    funext a; apply Fin.ext
    match a with
    | ⟨0, _⟩ => show win1_0.index t (0 : Fin 3) * 1 + 1 * 0 = t.val / 16; omega
    | ⟨1, _⟩ => show win1_0.index t (1 : Fin 3) * 512 + 1 * r.val = t.val / 4 % 4 % 4 * 512 + r.val; omega
    | ⟨2, _⟩ => show win1_0.index t (2 : Fin 3) * 512 + 1 * d.val = d.val; omega
  rw [e, h0]

theorem att_blkQ (c : Dev nD) (q : Spec.Act) (hq : ∀ b t d, V c main_v17 (ix3 b t d) = q b t d) (t : Fin cfg1.N) (r d : Fin 512) :
    (iblk1 V c 1 t : Vec Ideal S1x512x512 .bf16) (ix3 (0 : Fin 1) r d) = q (att_bOf t) (att_pos (t.val / 4 % 4) r) d := by
  show V c main_v17 (((cfg1.win 1).blk t).view.emb (ix3 (0 : Fin 1) r d)) = _
  obtain ⟨-, ⟨e0, e1, e2⟩, -⟩ := idx1 t
  have e : ((cfg1.win 1).blk t).view.emb (ix3 (0 : Fin 1) r d) = ix3 (att_bOf t) (att_pos (t.val / 4 % 4) r) d := by
    funext a; apply Fin.ext
    match a with
    | ⟨0, _⟩ => show win1_1.index t (0 : Fin 3) * 1 + 1 * 0 = t.val / 16; omega
    | ⟨1, _⟩ => show win1_1.index t (1 : Fin 3) * 512 + 1 * r.val = t.val / 4 % 4 % 4 * 512 + r.val; omega
    | ⟨2, _⟩ => show win1_1.index t (2 : Fin 3) * 512 + 1 * d.val = d.val; omega
  rw [e, hq]

theorem att_blkK (c : Dev nD) (k : Spec.Act) (hk : ∀ b t d, V c main_v18 (ix3 b t d) = k b t d) (t : Fin cfg1.N)
    (hlive : t.val % 4 ≤ t.val / 4 % 4) (x d : Fin 512) :
    (iblk1 V c 2 t : Vec Ideal S1x512x512 .bf16) (ix3 (0 : Fin 1) x d) = k (att_bOf t) (att_pos (t.val % 4) x) d := by
  show V c main_v18 (((cfg1.win 2).blk t).view.emb (ix3 (0 : Fin 1) x d)) = _
  obtain ⟨-, -, ⟨e0, e1, e2⟩, -⟩ := idx1 t
  have e : ((cfg1.win 2).blk t).view.emb (ix3 (0 : Fin 1) x d) = ix3 (att_bOf t) (att_pos (t.val % 4) x) d := by
    funext a; apply Fin.ext
    match a with
    | ⟨0, _⟩ => show win1_2.index t (0 : Fin 3) * 1 + 1 * 0 = t.val / 16; omega
    | ⟨1, _⟩ => show win1_2.index t (1 : Fin 3) * 512 + 1 * x.val = t.val % 4 % 4 * 512 + x.val; omega
    | ⟨2, _⟩ => show win1_2.index t (2 : Fin 3) * 512 + 1 * d.val = d.val; omega
  rw [e, hk]

theorem att_blkV (c : Dev nD) (v : Spec.Act) (hv : ∀ b t d, V c main_v19 (ix3 b t d) = v b t d) (t : Fin cfg1.N)
    (hlive : t.val % 4 ≤ t.val / 4 % 4) (x d : Fin 512) :
    (iblk1 V c 3 t : Vec Ideal S1x512x512 .bf16) (ix3 (0 : Fin 1) x d) = v (att_bOf t) (att_pos (t.val % 4) x) d := by
  show V c main_v19 (((cfg1.win 3).blk t).view.emb (ix3 (0 : Fin 1) x d)) = _
  obtain ⟨-, -, -, ⟨e0, e1, e2⟩, -⟩ := idx1 t
  have e : ((cfg1.win 3).blk t).view.emb (ix3 (0 : Fin 1) x d) = ix3 (att_bOf t) (att_pos (t.val % 4) x) d := by
    funext a; apply Fin.ext
    match a with
    | ⟨0, _⟩ => show win1_3.index t (0 : Fin 3) * 1 + 1 * 0 = t.val / 16; omega
    | ⟨1, _⟩ => show win1_3.index t (1 : Fin 3) * 512 + 1 * x.val = t.val % 4 % 4 * 512 + x.val; omega
    | ⟨2, _⟩ => show win1_3.index t (2 : Fin 3) * 512 + 1 * d.val = d.val; omega
  rw [e, hv]

theorem sc1N_step (c : Dev nD) (n : ℕ) (h : n < cfg1.N) : sc1N V c (n + 1) = scStep V c ⟨n, h⟩ (sc1N V c n) :=
  sc1_succ V c ⟨n, h⟩

theorem att_step_live (c : Dev nD) (t : Fin cfg1.N) (hlive : t.val % 4 ≤ t.val / 4 % 4) :
    sc1N V c (t.val + 1) = scUpd (BitVec.ofNat 32 (t.val / 4 % 4)) (BitVec.ofNat 32 (t.val % 4))
        (iblk1 V c 1 t) (iblk1 V c 2 t) (iblk1 V c 3 t) (if t.val % 4 = 0 then scReset else sc1N V c t.val) := by
  rw [sc1N_step V c t.val t.isLt]
  obtain ⟨-, c1, c2⟩ := coords1 t
  show scStepAt (grid1.coords t) _ _ _ _ = _
  unfold scStepAt
  dsimp only
  by_cases h0 : t.val % 4 = 0
  · rw [if_pos ((hcond1_2 t).mpr hlive), if_pos ((hcond1_1 t).mpr h0), if_pos h0, c1, c2]
  · rw [if_pos ((hcond1_2 t).mpr hlive), if_neg (fun h => h0 ((hcond1_1 t).mp h)), if_neg h0, c1, c2]

theorem att_step_dead (c : Dev nD) (t : Fin cfg1.N) (hdead : ¬ t.val % 4 ≤ t.val / 4 % 4) :
    sc1N V c (t.val + 1) = sc1N V c t.val := by
  rw [sc1N_step V c t.val t.isLt]
  show scStepAt (grid1.coords t) _ _ _ _ = _
  unfold scStepAt
  dsimp only
  have h0 : ¬ t.val % 4 = 0 := by omega
  rw [if_neg (fun h => hdead ((hcond1_2 t).mp h)), if_neg (fun h => h0 ((hcond1_1 t).mp h))]

theorem att_dead_tail (c : Dev nD) (g qi : ℕ) (hg : g % 16 % 4 = 0) (hg4 : g % 4 = 0) (hq : g / 4 % 4 = qi) (hg64 : g + 3 < 64) :
    ∀ n, qi + 1 + n ≤ 4 → sc1N V c (g + qi + 1 + n) = sc1N V c (g + qi + 1) := by
  intro n
  induction n with
  | zero => intro _; rfl
  | succ n ih =>
    intro hn
    have hlt : g + qi + 1 + n < cfg1.N := by rw [show cfg1.N = 64 from N_1]; omega
    have := att_step_dead V c ⟨g + qi + 1 + n, hlt⟩ (by show ¬ (g + qi + 1 + n) % 4 ≤ (g + qi + 1 + n) / 4 % 4; omega)
    exact this.trans (ih (by omega))

theorem att_out_apply (X0 : Vec Ideal S1x512x512 .f32) (s : Sc Ideal) (y : S1x512x512.Idx) :
    out1_4 X0 s y = X0 (ix3 (0 : Fin 1) (y 1) (y 2)) + Ideal.div (s.2.2 (ix2 (y 1) (y 2))) (s.2.1 (ix2 (y 1) (0 : Fin 1))) := by
  have h := att_pay6_apply X0 s.2.2 s.2.1 (y 0) (y 1) (y 2)
  exact (congrArg (k1_pay6 (F := Ideal) X0 s.2.2 s.2.1) (eq_ix3 y)).trans h

theorem group_attention (c : Dev nD) (q k v : Spec.Act)
    (hq : ∀ b t d, V c main_v17 (ix3 b t d) = q b t d) (hk : ∀ b t d, V c main_v18 (ix3 b t d) = k b t d)
    (hv : ∀ b t d, V c main_v19 (ix3 b t d) = v b t d)
    (fq : ∀ b t d, q b t d ≠ ⊥ ∧ q b t d ≠ ⊤) (fk : ∀ b t d, k b t d ≠ ⊥ ∧ k b t d ≠ ⊤)
    (fv : ∀ b t d, v b t d ≠ ⊥ ∧ v b t d ≠ ⊤)
    (t : Fin cfg1.N) (h3 : t.val % 4 = 3) (r d : Fin 512) :
    Ideal.div ((sc1 V c t.succ).2.2 (ix2 r d)) ((sc1 V c t.succ).2.1 (ix2 r (0 : Fin 1)))
      = Spec.attRef q k v (att_bOf t) (att_pos (t.val / 4 % 4) r) d := by
  have ht := att_lt64 t

  obtain ⟨g, hg⟩ : ∃ g, g = t.val - 3 := ⟨_, rfl⟩
  obtain ⟨qi, hqi⟩ : ∃ qi, qi = t.val / 4 % 4 := ⟨_, rfl⟩
  have hqi4 : qi < 4 := by omega
  have hN : cfg1.N = 64 := N_1

  let S : ℕ → Sc Ideal := fun j => if j = 0 then scReset else sc1N V c (g + j)
  have hS : ∀ (j : ℕ) (hj : j ≤ qi), S (j + 1) = scUpd (BitVec.ofNat 32 qi) (BitVec.ofNat 32 j)
      (iblk1 V c 1 ⟨g + j, by omega⟩) (iblk1 V c 2 ⟨g + j, by omega⟩) (iblk1 V c 3 ⟨g + j, by omega⟩) (S j) := by
    intro j hj
    have hlt : g + j < cfg1.N := by omega
    have hl := att_step_live V c ⟨g + j, hlt⟩ (by show (g + j) % 4 ≤ (g + j) / 4 % 4; omega)
    have e1 : (g + j) / 4 % 4 = qi := by omega
    have e2 : (g + j) % 4 = j := by omega
    show (if j + 1 = 0 then scReset else sc1N V c (g + (j + 1))) = _
    rw [if_neg (Nat.succ_ne_zero j)]
    refine hl.trans ?_
    show scUpd (BitVec.ofNat 32 ((g + j) / 4 % 4)) (BitVec.ofNat 32 ((g + j) % 4)) _ _ _
        (if (g + j) % 4 = 0 then scReset else sc1N V c (g + j)) = _
    rw [e1, e2]
  have hrow := row_attention q k v fq fk fv (att_bOf t) qi hqi4
    (fun j => (S j).1) (fun j => (S j).2.1) (fun j => (S j).2.2) rfl rfl rfl
    (fun j hj => ⟨iblk1 V c 1 ⟨g + j, by omega⟩, iblk1 V c 2 ⟨g + j, by omega⟩, iblk1 V c 3 ⟨g + j, by omega⟩,
      (fun r d => by
        have h := att_blkQ V c q hq ⟨g + j, by omega⟩ r d
        have eb : att_bOf ⟨g + j, by omega⟩ = att_bOf t := Fin.ext (by show (g + j) / 16 = t.val / 16; omega)
        have eq : (g + j) / 4 % 4 = qi := by omega
        rw [eb] at h
        dsimp only at h
        rw [eq] at h
        exact h),
      (fun x d => by
        have h := att_blkK V c k hk ⟨g + j, by omega⟩ (by show (g + j) % 4 ≤ (g + j) / 4 % 4; omega) x d
        have eb : att_bOf ⟨g + j, by omega⟩ = att_bOf t := Fin.ext (by show (g + j) / 16 = t.val / 16; omega)
        have ej : (g + j) % 4 = j := by omega
        rw [eb] at h
        dsimp only at h
        rw [ej] at h
        exact h),
      (fun x d => by
        have h := att_blkV V c v hv ⟨g + j, by omega⟩ (by show (g + j) % 4 ≤ (g + j) / 4 % 4; omega) x d
        have eb : att_bOf ⟨g + j, by omega⟩ = att_bOf t := Fin.ext (by show (g + j) / 16 = t.val / 16; omega)
        have ej : (g + j) % 4 = j := by omega
        rw [eb] at h
        dsimp only at h
        rw [ej] at h
        exact h),
      congrArg (fun s : Sc Ideal => s.1) (hS j hj), congrArg (fun s : Sc Ideal => s.2.1) (hS j hj),
      congrArg (fun s : Sc Ideal => s.2.2) (hS j hj)⟩) r d

  have hend : sc1 V c t.succ = S (qi + 1) := by
    show sc1N V c (t.val + 1) = (if qi + 1 = 0 then scReset else sc1N V c (g + (qi + 1)))
    rw [if_neg (Nat.succ_ne_zero qi)]
    have := att_dead_tail V c g qi (by omega) (by omega) (by omega) (by omega) (3 - qi) (by omega)
    rw [show g + qi + 1 + (3 - qi) = t.val + 1 by omega] at this
    exact this
  rw [hend, ← hqi]
  exact hrow

def G1 (x0 q k v : Spec.Act) : S4x2048x512.Idx → EReal :=
  fun i => x0 (i 0) (i 1) (i 2) + Spec.attRef q k v (i 0) (i 1) (i 2)

theorem flushed1_eq (c : Dev nD) (x0 q k v : Spec.Act)
    (h0 : ∀ b t d, V c main_v9 (ix3 b t d) = x0 b t d)
    (hq : ∀ b t d, V c main_v17 (ix3 b t d) = q b t d) (hk : ∀ b t d, V c main_v18 (ix3 b t d) = k b t d)
    (hv : ∀ b t d, V c main_v19 (ix3 b t d) = v b t d)
    (fq : ∀ b t d, q b t d ≠ ⊥ ∧ q b t d ≠ ⊤) (fk : ∀ b t d, k b t d ≠ ⊥ ∧ k b t d ≠ ⊤)
    (fv : ∀ b t d, v b t d ≠ ⊥ ∧ v b t d ≠ ⊤)
    (t : Fin cfg1.N) (hf : (cfg1.win 4).flush t = true) :
    (dat1 V c).flushed 4 t = ((cfg1.win 4).blk t).view.read (Elt Ideal) (G1 x0 q k v) := by
  have h3 : t.val % 4 = 3 := (flush1_4 t).mp hf
  show (cfg1.win 4).cut (grid1.coords t) ((dat1 V c).after 4 t) = _
  rw [after1_4]
  funext y
  show out1_4 (iblk1 V c 0 t) (sc1 V c t.succ) ((cfg1.win 4).xinj (grid1.coords t) y)
      = G1 x0 q k v (((cfg1.win 4).blk t).view.emb y)
  refine (att_out_apply _ _ _).trans ?_
  obtain ⟨-, -, -, -, e0, e1, e2⟩ := idx1 t
  have e : ((cfg1.win 4).blk t).view.emb y
      = ix3 (att_bOf t) (att_pos (t.val / 4 % 4) ((cfg1.win 4).xinj (grid1.coords t) y 1)) ((cfg1.win 4).xinj (grid1.coords t) y 2) := by
    funext a; apply Fin.ext
    match a with
    | ⟨0, _⟩ =>
      show win1_4.index t (0 : Fin 3) * 1 + 1 * (y 0).val = t.val / 16
      have hy : (y 0).val < 1 := (y 0).isLt
      omega
    | ⟨1, _⟩ => show win1_4.index t (1 : Fin 3) * 512 + 1 * (y 1).val = t.val / 4 % 4 % 4 * 512 + (y 1).val; omega
    | ⟨2, _⟩ => show win1_4.index t (2 : Fin 3) * 512 + 1 * (y 2).val = (y 2).val; omega
  rw [e]
  exact congrArg₂ (· + ·) (att_blkX V c x0 h0 t _ _) (group_attention V c q k v hq hk hv fq fk fv t h3 _ _)

theorem mem_blk1 (t : Fin cfg1.N) (i : S4x2048x512.Idx) :
    i ∈ ((cfg1.win 4).blk t).view.set ↔ ∀ a : Fin 3, win1_4.index t a * S1x512x512.size a ≤ (i a).val
      ∧ (i a).val < win1_4.index t a * S1x512x512.size a + S1x512x512.size a := by
  show i ∈ ((View.whole main_v20).slice (win1_4.rect t)).set ↔ _
  rw [View.set_slice_whole, Rect.mem_set_unit]
  exact Iff.rfl

theorem cover1 (i : S4x2048x512.Idx) :
    ∃ t : Fin cfg1.N, (cfg1.win 4).flush t = true ∧ i ∈ ((cfg1.win 4).blk t).view.set := by
  have h0 : (i 0).val < 4 := (i 0).isLt
  have h1 : (i 1).val < 2048 := (i 1).isLt
  have h2 : (i 2).val < 512 := (i 2).isLt
  have hN : cfg1.N = 64 := N_1
  obtain ⟨t, ht⟩ : ∃ t : Fin cfg1.N, t.val = (i 0).val * 16 + (i 1).val / 512 * 4 + 3 :=
    ⟨⟨(i 0).val * 16 + (i 1).val / 512 * 4 + 3, by omega⟩, rfl⟩
  refine ⟨t, (flush1_4 t).mpr (by omega), ?_⟩
  obtain ⟨-, -, -, -, e0, e1, e2⟩ := idx1 t
  rw [mem_blk1]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 512 ≤ (i 2).val ∧ (i 2).val < win1_4.index t (2 : Fin 3) * 512 + 512; omega

theorem val1 (c : Dev nD) (x0 q k v : Spec.Act)
    (h0 : ∀ b t d, V c main_v9 (ix3 b t d) = x0 b t d)
    (hq : ∀ b t d, V c main_v17 (ix3 b t d) = q b t d) (hk : ∀ b t d, V c main_v18 (ix3 b t d) = k b t d)
    (hv : ∀ b t d, V c main_v19 (ix3 b t d) = v b t d)
    (fq : ∀ b t d, q b t d ≠ ⊥ ∧ q b t d ≠ ⊤) (fk : ∀ b t d, k b t d ≠ ⊥ ∧ k b t d ≠ ⊤)
    (fv : ∀ b t d, v b t d ≠ ⊥ ∧ v b t d ≠ ⊤) :
    (dat1 V c).arrAt 4 cfg1.N = G1 x0 q k v :=
  (dat1 V c).arrAt_eq_of_cover 4 (G1 x0 q k v)
    (fun t hf => flushed1_eq V c x0 q k v h0 hq hk hv fq fk fv t hf) cover1

end Cert.KernelIdeal.Val
-- ==== Proof.KI.Val2.lean ====
import proofs.«421533_j19645180411976_3_alg».proof.Proof.KI.Reg2
import proofs.«421533_j19645180411976_3_alg».proof.Proof.KI.ValRow
import Idealize.ShloMosaic.Lib.Pipeline.Value

set_option maxRecDepth 16384

noncomputable section

open scoped BigOperators

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

def hidRow (row g β : Fin 512 → EReal) (w1 : S512x2048.Idx → EReal) (b1 : S2048.Idx → EReal) (f : Fin 2048) : EReal :=
  max ((∑ k : Fin 512, lnRow row g β k * w1 (ix2 k f)) + b1 (ix1 f)) 0

theorem k2_pay3_apply (v0 : Vec Ideal S1024x512 .f32) (v20 : Vec Ideal S512 .f32) (v24 : Vec Ideal S512 .f32)
    (v29 : Vec Ideal S512x2048 .bf16) (v32 : Vec Ideal S2048 .f32) (v39 : Vec Ideal S2048x512 .bf16) (p : Fin 1024) (c : Fin 512) :
    k2_pay3 v0 v20 v24 v29 v32 v39 (ix2 p c)
      = ∑ f : Fin 2048, hidRow (fun c' => v0 (ix2 p c')) (vecOf v20) (vecOf v24) v29 v32 f * v39 (ix2 f c) := by
  have e : k2_pay3 v0 v20 v24 v29 v32 v39 = matmul dot_S1024x2048_S2048x512_S1024x512_1_0_0_1_n_n none
      (truncf .bf16 (maximumf (addf (matmul dot_S1024x512_S512x2048_S1024x2048_1_0_0_1_n_n none
            (lnBlock (F := Ideal) shapeCasts_S1024x512_S1024x512 reduces_S1024x512_S1024 shapeCasts_S1024_S1024x1 broadcasts_S1024x1_S1024x512 shapeCasts_S512_S1x512 broadcasts_S1x512_S1024x512 bitsLt_bf16_f32 f32_formats zero_is_neutral v0 v20 v24)
            (shapeCast S512x2048 v29 shapeCasts_S512x2048_S512x2048) (constant (F := Ideal) S1024x2048 .f32 0x00000000#32))
          (broadcastTo S1024x2048 (shapeCast S1x2048 v32 shapeCasts_S2048_S1x2048) broadcasts_S1x2048_S1024x2048))
        (broadcast S1024x2048 (Scalar.ofBits .f32 0x00000000#32 : Ideal .f32))) bitsLt_bf16_f32)
      (shapeCast S2048x512 v39 shapeCasts_S2048x512_S2048x512) (constant (F := Ideal) S1024x512 .f32 0x00000000#32) := rfl
  rw [e, matmul_down_apply]
  refine Finset.sum_congr rfl fun f _ => ?_
  rw [truncf_apply, maximumf_apply, addf_apply, matmul_up_apply, broadcast_apply, broadcastTo_1b_ab_apply,
    shapeCast_a_1a_apply]
  simp only [shapeCast_self]
  have hs : (∑ k : Fin 512, lnBlock (F := Ideal) shapeCasts_S1024x512_S1024x512 reduces_S1024x512_S1024 shapeCasts_S1024_S1024x1 broadcasts_S1024x1_S1024x512 shapeCasts_S512_S1x512 broadcasts_S1x512_S1024x512 bitsLt_bf16_f32 f32_formats zero_is_neutral v0 v20 v24 (ix2 p k) * v29 (ix2 k f))
      = ∑ k : Fin 512, lnRow (fun c' => v0 (ix2 p c')) (vecOf v20) (vecOf v24) k * v29 (ix2 k f) :=
    Finset.sum_congr rfl fun k _ => by rw [lnBlock_apply]
  rw [hs]
  show max (_ + _) (Ideal.ofBits .f32 0x00000000#32) * _ = _
  rw [Ideal.ofBits_zero_f32]
  rfl

theorem k2_pay1_apply (v1 : FVec Ideal S1024x512 .f32) (v41 : FVec Ideal S1024x512 .f32) (v42 : Vec Ideal S512 .f32) (p : Fin 1024) (c : Fin 512) :
    k2_pay1 v1 v41 v42 (ix2 p c) = v1 (ix2 p c) + (v41 (ix2 p c) + v42 (ix1 c)) := by
  simp only [k2_pay1, truncf_apply, addf_apply, broadcastTo_1b_ab_apply, shapeCast_a_1a_apply]

theorem k2_pay2_apply (v0 : Vec Ideal S1024x512 .f32) (i : S1024x512.Idx) : k2_pay2 v0 i = v0 i := by
  simp only [k2_pay2, shapeCast_self]

theorem ffn_entry (v0 : Vec Ideal S1024x512 .f32) (v20 : Vec Ideal S512 .f32) (v24 : Vec Ideal S512 .f32)
    (v29 : Vec Ideal S512x2048 .bf16) (v32 : Vec Ideal S2048 .f32) (v39 : Vec Ideal S2048x512 .bf16) (v42 : Vec Ideal S512 .f32)
    (X : S8192x512.Idx → EReal) (g β : S512.Idx → EReal) (W1 : S512x2048.Idx → EReal) (B1 : S2048.Idx → EReal)
    (W2 : S2048x512.Idx → EReal) (B2 : S512.Idx → EReal)
    (r : Fin 8192) (p : Fin 1024) (c : Fin 512)
    (h0 : ∀ k : Fin 512, v0 (ix2 p k) = X (ix2 r k)) (h1 : ∀ k : Fin 512, v20 (ix1 k) = g (ix1 k))
    (h2 : ∀ k : Fin 512, v24 (ix1 k) = β (ix1 k)) (h3 : ∀ (k : Fin 512) (f : Fin 2048), v29 (ix2 k f) = W1 (ix2 k f))
    (h4 : ∀ f : Fin 2048, v32 (ix1 f) = B1 (ix1 f)) (h5 : ∀ (f : Fin 2048) (k : Fin 512), v39 (ix2 f k) = W2 (ix2 f k))
    (h6 : ∀ k : Fin 512, v42 (ix1 k) = B2 (ix1 k)) :
    v0 (ix2 p c) + ((∑ f : Fin 2048, hidRow (fun c' => v0 (ix2 p c')) (vecOf v20) (vecOf v24) v29 v32 f * v39 (ix2 f c)) + v42 (ix1 c))
      = Spec.ffnOut (actOfFlat X) (Spec.ffn (Spec.ln (actOfFlat X) (vecOf g) (vecOf β)) (matOfT W1) (vecOf B1)) (matOfT W2) (vecOf B2)
          (rowB r) (rowT r) c := by
  unfold Spec.ffnOut
  rw [actOfFlat_row, ← add_assoc, h0 c, h6 c]
  refine congrArg (fun s => X (ix2 r c) + s + B2 (ix1 c)) (Finset.sum_congr rfl fun f _ => ?_)
  rw [h5 f c]
  refine congrArg (· * W2 (ix2 f c)) ?_
  unfold hidRow Spec.ffn
  rw [h4 f]
  refine congrArg (fun s => max (s + B1 (ix1 f)) 0) (Finset.sum_congr rfl fun k _ => ?_)
  rw [ln_eq_lnRow, h3 k f]
  have e0 : (fun c' => v0 (ix2 p c')) = actOfFlat X (rowB r) (rowT r) := funext fun c' => (h0 c').trans (actOfFlat_row X r c').symm
  have e1 : vecOf v20 = vecOf g := funext fun k => h1 k
  have e2 : vecOf v24 = vecOf β := funext fun k => h2 k
  rw [e0, e1, e2]
  rfl

variable (V : (c : Dev nD) → (b : Ref sig .tc) → Buf (Elt Ideal) ((c : Thread nD τ).loc b))

abbrev xArr2 (c : Dev nD) : S8192x512.Idx → EReal := V c main_v21
abbrev gArr2 (c : Dev nD) : S512.Idx → EReal := V c main_arg13
abbrev bArr2 (c : Dev nD) : S512.Idx → EReal := V c main_arg14
abbrev w1Arr2 (c : Dev nD) : S512x2048.Idx → EReal := V c main_v23
abbrev b1Arr2 (c : Dev nD) : S2048.Idx → EReal := V c main_arg8
abbrev w2Arr2 (c : Dev nD) : S2048x512.Idx → EReal := V c main_v25
abbrev b2Arr2 (c : Dev nD) : S512.Idx → EReal := V c main_arg10

def ffnArr (c : Dev nD) : S8192x512.Idx → EReal := fun i =>
  Spec.ffnOut (actOfFlat (xArr2 V c))
    (Spec.ffn (Spec.ln (actOfFlat (xArr2 V c)) (vecOf (gArr2 V c)) (vecOf (bArr2 V c))) (matOfT (w1Arr2 V c)) (vecOf (b1Arr2 V c)))
    (matOfT (w2Arr2 V c)) (vecOf (b2Arr2 V c)) (rowB (i 0)) (rowT (i 0)) (i 1)

theorem hz2_1 : (![0] : Fin 1 → Nat) = fun _ => 0 := funext fun a => by fin_cases a; rfl
theorem hz2_2 : (![0, 0] : Fin 2 → Nat) = fun _ => 0 := funext fun a => by fin_cases a <;> rfl

theorem idx_facts2 : ∀ t : Fin cfg2.N, t.val < 8
    ∧ win2_0.index t (0 : Fin 2) = t.val ∧ win2_0.index t (1 : Fin 2) = 0
    ∧ win2_1.index t (0 : Fin 1) = 0 ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 ∧ True :=
  (by decide +kernel : ∀ t : Fin grid2.N, _)

def pt2 (t : Fin cfg2.N) : Fin 8 := ⟨t.val, (idx_facts2 t).1⟩

theorem pt2_onto : ∀ k : Fin 8, ∃ t : Fin cfg2.N, t.val = k.val :=
  (by decide +kernel : ∀ k : Fin 8, ∃ t : Fin grid2.N, t.val = k.val)

theorem iblk2_0_apply (c : Dev nD) (t : Fin cfg2.N) (p : Fin 1024) (k : Fin 512) :
    (iblk2 V c 0 t : Vec Ideal S1024x512 .f32) (ix2 p k) = xArr2 V c (ix2 (blockRow (pt2 t) p) k) := by
  obtain ⟨-, e0, e1, -⟩ := idx_facts2 t
  show V c main_v21 (((cfg2.win 0).blk t).view.emb (ix2 p k)) = V c main_v21 (ix2 (blockRow (pt2 t) p) k)
  refine congrArg (V c main_v21) (funext fun a => Fin.ext ?_)
  match a with
  | ⟨0, _⟩ => show win2_0.index t (0 : Fin 2) * 1024 + 1 * p.val = t.val * 1024 + p.val; rw [e0]; omega
  | ⟨1, _⟩ => show win2_0.index t (1 : Fin 2) * 512 + 1 * k.val = k.val; rw [e1]; omega

theorem iblk2_1_apply (c : Dev nD) (t : Fin cfg2.N) (k : Fin 512) :
    (iblk2 V c 1 t : Vec Ideal S512 .f32) (ix1 k) = gArr2 V c (ix1 k) := by
  obtain ⟨-, -, -, e, -⟩ := idx_facts2 t
  show V c main_arg13 (((cfg2.win 1).blk t).view.emb (ix1 k)) = V c main_arg13 (ix1 k)
  refine congrArg (V c main_arg13) (funext fun a => Fin.ext ?_)
  match a with
  | ⟨0, _⟩ => show win2_1.index t (0 : Fin 1) * 512 + 1 * k.val = k.val; rw [e]; omega
theorem iblk2_2_apply (c : Dev nD) (t : Fin cfg2.N) (k : Fin 512) :
    (iblk2 V c 2 t : Vec Ideal S512 .f32) (ix1 k) = bArr2 V c (ix1 k) := by
  obtain ⟨-, -, -, -, e, -⟩ := idx_facts2 t
  show V c main_arg14 (((cfg2.win 2).blk t).view.emb (ix1 k)) = V c main_arg14 (ix1 k)
  refine congrArg (V c main_arg14) (funext fun a => Fin.ext ?_)
  match a with
  | ⟨0, _⟩ => show win2_2.index t (0 : Fin 1) * 512 + 1 * k.val = k.val; rw [e]; omega
theorem iblk2_3_apply (c : Dev nD) (t : Fin cfg2.N) (k : Fin 512) (j : Fin 2048) :
    (iblk2 V c 3 t : Vec Ideal S512x2048 .bf16) (ix2 k j) = w1Arr2 V c (ix2 k j) := by
  obtain ⟨-, -, -, -, -, e0, e1, -⟩ := idx_facts2 t
  show V c main_v23 (((cfg2.win 3).blk t).view.emb (ix2 k j)) = V c main_v23 (ix2 k j)
  refine congrArg (V c main_v23) (funext fun a => Fin.ext ?_)
  match a with
  | ⟨0, _⟩ => show win2_3.index t (0 : Fin 2) * 512 + 1 * k.val = k.val; rw [e0]; omega
  | ⟨1, _⟩ => show win2_3.index t (1 : Fin 2) * 2048 + 1 * j.val = j.val; rw [e1]; omega
theorem iblk2_4_apply (c : Dev nD) (t : Fin cfg2.N) (k : Fin 2048) :
    (iblk2 V c 4 t : Vec Ideal S2048 .f32) (ix1 k) = b1Arr2 V c (ix1 k) := by
  obtain ⟨-, -, -, -, -, -, -, e, -⟩ := idx_facts2 t
  show V c main_arg8 (((cfg2.win 4).blk t).view.emb (ix1 k)) = V c main_arg8 (ix1 k)
  refine congrArg (V c main_arg8) (funext fun a => Fin.ext ?_)
  match a with
  | ⟨0, _⟩ => show win2_4.index t (0 : Fin 1) * 2048 + 1 * k.val = k.val; rw [e]; omega
theorem iblk2_5_apply (c : Dev nD) (t : Fin cfg2.N) (k : Fin 2048) (j : Fin 512) :
    (iblk2 V c 5 t : Vec Ideal S2048x512 .bf16) (ix2 k j) = w2Arr2 V c (ix2 k j) := by
  obtain ⟨-, -, -, -, -, -, -, -, e0, e1, -⟩ := idx_facts2 t
  show V c main_v25 (((cfg2.win 5).blk t).view.emb (ix2 k j)) = V c main_v25 (ix2 k j)
  refine congrArg (V c main_v25) (funext fun a => Fin.ext ?_)
  match a with
  | ⟨0, _⟩ => show win2_5.index t (0 : Fin 2) * 2048 + 1 * k.val = k.val; rw [e0]; omega
  | ⟨1, _⟩ => show win2_5.index t (1 : Fin 2) * 512 + 1 * j.val = j.val; rw [e1]; omega
theorem iblk2_6_apply (c : Dev nD) (t : Fin cfg2.N) (k : Fin 512) :
    (iblk2 V c 6 t : Vec Ideal S512 .f32) (ix1 k) = b2Arr2 V c (ix1 k) := by
  obtain ⟨-, -, -, -, -, -, -, -, -, -, e, -⟩ := idx_facts2 t
  show V c main_arg10 (((cfg2.win 6).blk t).view.emb (ix1 k)) = V c main_arg10 (ix1 k)
  refine congrArg (V c main_arg10) (funext fun a => Fin.ext ?_)
  match a with
  | ⟨0, _⟩ => show win2_6.index t (0 : Fin 1) * 512 + 1 * k.val = k.val; rw [e]; omega

theorem emb2_7 (t : Fin cfg2.N) (p : Fin 1024) (d : Fin 512) :
    ((cfg2.win 7).blk t).view.emb (ix2 p d) = (ix2 (blockRow (pt2 t) p) d : S8192x512.Idx) := by
  obtain ⟨-, -, -, -, -, -, -, -, -, -, -, e0, e1, -⟩ := idx_facts2 t
  refine funext fun a => Fin.ext ?_
  match a with
  | ⟨0, _⟩ => show win2_7.index t (0 : Fin 2) * 1024 + 1 * p.val = t.val * 1024 + p.val; rw [e0]; omega
  | ⟨1, _⟩ => show win2_7.index t (1 : Fin 2) * 512 + 1 * d.val = d.val; rw [e1]; omega

theorem flushed2_7_eq (c : Dev nD) (t : Fin cfg2.N) :
    (dat2 (F := Ideal) V c).flushed 7 t = ((cfg2.win 7).blk t).view.read (Elt Ideal) (ffnArr V c) := by
  show (cfg2.win 7).cut (grid2.coords t) ((dat2 V c).after 7 t) = _
  rw [after2_7]
  unfold out2_7
  rw [View.canon_unit_zero hz2_2]
  simp only [View.ld_unit_zero (S := S1024x512) hz2_2, View.ld_unit_zero (S := S512) hz2_1, View.ld_unit_zero (S := S512x2048) hz2_2,
    View.ld_unit_zero (S := S2048) hz2_1, View.ld_unit_zero (S := S2048x512) hz2_2]
  refine funext fun (y : S1024x512.Idx) => ?_
  show k2_pay1 (k2_pay2 (iblk2 V c 0 t)) (k2_pay3 (iblk2 V c 0 t) (iblk2 V c 1 t) (iblk2 V c 2 t) (iblk2 V c 3 t) (iblk2 V c 4 t) (iblk2 V c 5 t)) (iblk2 V c 6 t) y
    = ffnArr V c (((cfg2.win 7).blk t).view.emb y)
  obtain ⟨p, d, rfl⟩ := exists_ix2 y
  refine (k2_pay1_apply (k2_pay2 (iblk2 V c 0 t)) (k2_pay3 (iblk2 V c 0 t) (iblk2 V c 1 t) (iblk2 V c 2 t) (iblk2 V c 3 t) (iblk2 V c 4 t) (iblk2 V c 5 t)) (iblk2 V c 6 t) p d).trans ?_
  refine (congrArg₂ (fun a b => a + (b + (iblk2 V c 6 t : Vec Ideal S512 .f32) (ix1 d)))
    (k2_pay2_apply (iblk2 V c 0 t) (ix2 p d))
    (k2_pay3_apply (iblk2 V c 0 t) (iblk2 V c 1 t) (iblk2 V c 2 t) (iblk2 V c 3 t) (iblk2 V c 4 t) (iblk2 V c 5 t) p d)).trans ?_
  refine (ffn_entry (iblk2 V c 0 t) (iblk2 V c 1 t) (iblk2 V c 2 t) (iblk2 V c 3 t) (iblk2 V c 4 t) (iblk2 V c 5 t) (iblk2 V c 6 t)
    (xArr2 V c) (gArr2 V c) (bArr2 V c) (w1Arr2 V c) (b1Arr2 V c) (w2Arr2 V c) (b2Arr2 V c) (blockRow (pt2 t) p) p d
    (iblk2_0_apply V c t p) (iblk2_1_apply V c t) (iblk2_2_apply V c t) (iblk2_3_apply V c t) (iblk2_4_apply V c t)
    (iblk2_5_apply V c t) (iblk2_6_apply V c t)).trans ?_
  rw [emb2_7]
  rfl

theorem mem_blk2_7 (t : Fin cfg2.N) (i : S8192x512.Idx) :
    i ∈ ((cfg2.win 7).blk t).view.set ↔ ∀ a : Fin 2, win2_7.index t a * S1024x512.size a ≤ (i a).val ∧ (i a).val < win2_7.index t a * S1024x512.size a + S1024x512.size a := by
  show i ∈ ((View.whole main_v26).slice (win2_7.rect t)).set ↔ _
  rw [View.set_slice_whole, Rect.mem_set_unit]
  exact Iff.rfl

theorem covered2_7 (i : S8192x512.Idx) :
    ∃ t : Fin cfg2.N, (cfg2.win 7).flush t = true ∧ i ∈ ((cfg2.win 7).blk t).view.set := by
  have hi0 : (i 0).val < 8192 := (i 0).isLt
  have hi1 : (i 1).val < 512 := (i 1).isLt
  obtain ⟨t, ht⟩ := pt2_onto ⟨(i 0).val / 1024, by omega⟩
  have ht' : t.val = (i 0).val / 1024 := ht
  obtain ⟨-, -, -, -, -, -, -, -, -, -, -, e0, e1, -⟩ := idx_facts2 t
  refine ⟨t, flush2_7 t, ?_⟩
  rw [mem_blk2_7]
  intro a
  match a with
  | ⟨0, _⟩ => show win2_7.index t (0 : Fin 2) * 1024 ≤ (i 0).val ∧ (i 0).val < win2_7.index t (0 : Fin 2) * 1024 + 1024; rw [e0]; omega
  | ⟨1, _⟩ => show win2_7.index t (1 : Fin 2) * 512 ≤ (i 1).val ∧ (i 1).val < win2_7.index t (1 : Fin 2) * 512 + 512; rw [e1]; omega

theorem final2_7 (c : Dev nD) : (dat2 (F := Ideal) V c).arrAt 7 cfg2.N = ffnArr V c :=
  (dat2 V c).arrAt_eq_of_cover 7 (ffnArr V c) (fun t _ => flushed2_7_eq V c t) covered2_7

theorem value2_7 (c : Dev nD) (r : Fin 8192) (d : Fin 512) :
    ((dat2 (F := Ideal) V c).arrAt 7 cfg2.N : S8192x512.Idx → EReal) (ix2 r d)
      = Spec.ffnOut (actOfFlat (xArr2 V c))
          (Spec.ffn (Spec.ln (actOfFlat (xArr2 V c)) (vecOf (gArr2 V c)) (vecOf (bArr2 V c))) (matOfT (w1Arr2 V c)) (vecOf (b1Arr2 V c)))
          (matOfT (w2Arr2 V c)) (vecOf (b2Arr2 V c)) (rowB r) (rowT r) d :=
  congrFun (final2_7 V c) (ix2 r d)

end Cert.KernelIdeal.Val

end
-- ==== Proof.KI.Pay3.lean ====
import proofs.«421533_j19645180411976_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val3

open Cert.KernelIdeal Cert.KernelIdeal.Gen
open Idealize.ShloMosaic Idealize.ShloMosaic.ValueIdx
open scoped BigOperators

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_ix (h : S2048x640.Reduces [1] S2048) (r : Fin 2048) (k : Fin 640) :
    h.lift (ix1 r) k = ix2 r k := by
  funext a
  apply Fin.ext
  match a with
  | ⟨0, _⟩ => rfl
  | ⟨1, _⟩ => rfl

theorem ofBits_neg_inf : Ideal.ofBits .f32 0xFF800000#32 = ⊥ := by simp [Ideal.ofBits, Ideal.ieee]

theorem rowMax_apply (src : FVec Ideal S2048x640 .f32) (h : S2048x640.Reduces [1] S2048) (hφ : FKind.Formats .f32)
    (hacc : (0xFF800000#32 : BitVec 32) = 0xFF800000#32) (hc : S2048.ShapeCasts S2048x1) (r : Fin 2048) :
    shapeCast S2048x1 (multiReduction (F := Ideal) .maximumf [1] S2048 src 0xFF800000#32 h hφ hacc) hc (ix2 r 0)
      = (Finset.univ : Finset (Fin 640)).fold max ⊥ (fun k => src (ix2 r k)) := by
  refine (shapeCast_a_a1_apply _ hc r 0).trans ?_
  refine (Ideal.multiReduction_maximumf_single src 0xFF800000#32 h hφ hacc (ix1 r)).trans ?_
  show (Finset.univ : Finset (Fin 640)).fold max (Ideal.ofBits .f32 0xFF800000#32) (src ∘ h.lift (ix1 r)) = _
  rw [ofBits_neg_inf]
  congr 1
  funext k
  exact congrArg src (lift_ix h r k)

theorem rowSum_apply (src : FVec Ideal S2048x640 .f32) (h : S2048x640.Reduces [1] S2048) (hφ : FKind.Formats .f32)
    (hacc : (0x00000000#32 : BitVec 32) = 0x00000000#32) (hc : S2048.ShapeCasts S2048x1) (r : Fin 2048) :
    shapeCast S2048x1 (multiReduction (F := Ideal) .add [1] S2048 src 0x00000000#32 h hφ hacc) hc (ix2 r 0)
      = ∑ k : Fin 640, src (ix2 r k) := by
  refine (shapeCast_a_a1_apply _ hc r 0).trans ?_
  refine (Ideal.multiReduction_add_single src 0x00000000#32 h hφ hacc (ix1 r)).trans ?_
  show ∑ k : Fin 640, src (h.lift (ix1 r) k) = _
  exact Finset.sum_congr rfl fun k _ => congrArg src (lift_ix h r k)

abbrev D3 := dot_S2048x512_S512x640_S2048x640_1_0_0_1_n_n

theorem lhs_D3_0 (j : S2048x640.Idx) (k : D3.contr.Idx) : (D3.lhsIdx j k 0).val = (j 0).val := by
  unfold DotDims.lhsIdx
  rw [dif_neg (show ¬(0 : Fin S2048x512.rank) ∈ D3.lhsBatch by decide),
    dif_pos (show (0 : Fin S2048x512.rank) ∈ D3.lhsNonContracting by decide)]
  rfl

theorem lhs_D3_1 (j : S2048x640.Idx) (k : D3.contr.Idx) :
    (D3.lhsIdx j k 1).val = (k ⟨0, by decide⟩).val :=
  DotDims.lhsIdx_val_of_single (d := D3) (cl := 1) rfl j k

theorem rhs_D3_0 (j : S2048x640.Idx) (k : D3.contr.Idx) :
    (D3.rhsIdx j k 0).val = (k ⟨0, by decide⟩).val :=
  DotDims.rhsIdx_val_of_single (d := D3) (cr := 0) rfl j k

theorem rhs_D3_1 (j : S2048x640.Idx) (k : D3.contr.Idx) : (D3.rhsIdx j k 1).val = (j 1).val := by
  unfold DotDims.rhsIdx
  rw [dif_neg (show ¬(1 : Fin S512x640.rank) ∈ D3.rhsBatch by decide),
    dif_pos (show (1 : Fin S512x640.rank) ∈ D3.rhsNonContracting by decide)]
  rfl

theorem matmul3_apply (lhs : FVec Ideal S2048x512 .bf16) (rhs : FVec Ideal S512x640 .bf16) (r : Fin 2048) (k : Fin 640) :
    FloatOps.matmul D3 none lhs rhs (constant (F := Ideal) S2048x640 .f32 0x00000000#32) (ix2 r k)
      = ∑ c : Fin 512, lhs (ix2 r c) * rhs (ix2 c k) := by
  rw [Ideal.matmul_constant_zero_apply, ← Equiv.sum_comp (contrEquiv1 D3 512 rfl rfl).symm]
  refine Finset.sum_congr rfl fun c _ => ?_
  have hl : D3.lhsIdx (ix2 r k) ((contrEquiv1 D3 512 rfl rfl).symm c) = ix2 r c := by
    funext a
    apply Fin.ext
    match a with
    | ⟨0, _⟩ => exact lhs_D3_0 _ _
    | ⟨1, _⟩ => exact (lhs_D3_1 _ _).trans (contrEquiv1_symm_val D3 512 rfl rfl c)
  have hr : D3.rhsIdx (ix2 r k) ((contrEquiv1 D3 512 rfl rfl).symm c) = ix2 c k := by
    funext a
    apply Fin.ext
    match a with
    | ⟨0, _⟩ => exact (rhs_D3_0 _ _).trans (contrEquiv1_symm_val D3 512 rfl rfl c)
    | ⟨1, _⟩ => exact rhs_D3_1 _ _
  rw [hl, hr]

theorem pay6_apply (v3 : Vec Ideal S2048x512 .bf16) (v5 : Vec Ideal S512x640 .bf16) (v8 : Vec Ideal S1x640 .f32)
    (r : Fin 2048) (k : Fin 640) :
    k3_pay6 (F := Ideal) v3 v5 v8 (ix2 r k) = (∑ c : Fin 512, v3 (ix2 r c) * v5 (ix2 c k)) + v8 (ix2 0 k) := by
  unfold k3_pay6
  simp only [shapeCast_self, matmul]
  rw [addf_apply, matmul3_apply, broadcastTo_1b_ab_apply]

theorem pay7_apply (v3 : Vec Ideal S2048x512 .bf16) (v5 : Vec Ideal S512x640 .bf16) (v8 : Vec Ideal S1x640 .f32)
    (v13 : Vec Ideal S2048x1 .f32) (r : Fin 2048) :
    k3_pay7 (F := Ideal) v3 v5 v8 v13 (ix2 r 0)
      = max (v13 (ix2 r 0)) ((Finset.univ : Finset (Fin 640)).fold max ⊥ fun k => k3_pay6 (F := Ideal) v3 v5 v8 (ix2 r k)) := by
  unfold k3_pay7
  rw [maximumf_apply, rowMax_apply]

theorem pay9_eq (v3 : Vec Ideal S2048x512 .bf16) (v5 : Vec Ideal S512x640 .bf16) (v8 : Vec Ideal S1x640 .f32)
    (v13 : Vec Ideal S2048x1 .f32) : k3_pay9 (F := Ideal) v3 v5 v8 v13 = k3_pay7 (F := Ideal) v3 v5 v8 v13 := by
  unfold k3_pay9
  rw [shapeCast_self]

theorem pay8_apply (v3 : Vec Ideal S2048x512 .bf16) (v5 : Vec Ideal S512x640 .bf16) (v8 : Vec Ideal S1x640 .f32)
    (v13 v22 : Vec Ideal S2048x1 .f32) (r : Fin 2048) :
    k3_pay8 (F := Ideal) v3 v5 v8 v13 v22 (ix2 r 0)
      = Ideal.exp (v13 (ix2 r 0) - k3_pay7 (F := Ideal) v3 v5 v8 v13 (ix2 r 0)) * v22 (ix2 r 0)
        + ∑ k : Fin 640, Ideal.exp (k3_pay6 (F := Ideal) v3 v5 v8 (ix2 r k) - k3_pay7 (F := Ideal) v3 v5 v8 v13 (ix2 r 0)) := by
  unfold k3_pay8
  rw [shapeCast_self, addf_apply, rowSum_apply, mulf_apply]
  congr 1
  refine Finset.sum_congr rfl fun k _ => ?_
  show Ideal.exp (k3_pay6 (F := Ideal) v3 v5 v8 (ix2 r k) - broadcastTo S2048x640 (k3_pay7 (F := Ideal) v3 v5 v8 v13) _ (ix2 r k)) = _
  rw [broadcastTo_a1_ab_apply]

theorem pay2_apply (v53 v54 : Vec Ideal S2048x1 .f32) (r : Fin 2048) :
    k3_pay2 (F := Ideal) v53 v54 (ix2 r 0) = v53 (ix2 r 0) + Ideal.log (v54 (ix2 r 0)) := rfl

theorem pay3_apply (i : S2048x1.Idx) : k3_pay3 (F := Ideal) i = ⊥ := by
  unfold k3_pay3
  rw [shapeCast_self]
  exact ofBits_neg_inf
theorem pay4_apply (i : S2048x1.Idx) : k3_pay4 (F := Ideal) i = 0 := by
  unfold k3_pay4
  rw [shapeCast_self]
  exact Ideal.ofBits_zero_f32
theorem pay5_apply (i : S2048x1.Idx) : k3_pay5 (F := Ideal) i = 0 := by
  unfold k3_pay5
  rw [shapeCast_self]
  exact Ideal.ofBits_zero_f32

theorem select_cmpi_eq {α : Type} (a b : BitVec 32) (x y : α) :
    Scalar.select (IntOp.cmpi .eq a b) x y = if a = b then x else y := by
  unfold Scalar.select IntOp.cmpi
  by_cases h : a = b
  · subst h; simp
  · have hb : (a == b) = false := beq_eq_false_iff_ne.2 h
    rw [hb, if_neg h]
    have hne : ¬ BitVec.ofBool false = (1 : BitVec 1) := by decide
    exact if_neg hne

theorem pay1_apply (arg1 : BitVec 32) (v11 : FVec Ideal S2048x640 .f32) (v37 : Vec Ideal S2048x1 .i32)
    (v39 : Vec Ideal S2048x1 .f32) (r : Fin 2048) :
    k3_pay1 (F := Ideal) arg1 v11 v37 v39 (ix2 r 0)
      = v39 (ix2 r 0) + ∑ k : Fin 640,
          (if arg1 * 640#32 + BitVec.ofNat 32 k.val = v37 (ix2 r 0) then v11 (ix2 r k) else 0) := by
  unfold k3_pay1
  rw [shapeCast_self, addf_apply, rowSum_apply]
  congr 1
  refine Finset.sum_congr rfl fun k _ => ?_
  rw [select_apply]
  show Scalar.select (IntOp.cmpi .eq (IntOp.addi (Scalar.muli arg1 640#32) (iota .tc S2048x640 32 [1] _ (ix2 r k)))
      (broadcastTo S2048x640 (shapeCast S2048x1 v37 _) _ (ix2 r k)))
      (v11 (ix2 r k)) (Ideal.ofBits .f32 0x00000000#32) = _
  rw [iota_single_apply, broadcastTo_a1_ab_apply, shapeCast_self, Ideal.ofBits_zero_f32, select_cmpi_eq]
  rfl

end Cert.KernelIdeal.Val3
-- ==== Proof.OnlineLse.lean ====
import Idealize.ShloMosaic.PureOps.Ideal
import Mathlib.Data.EReal.Operations
import Mathlib.Data.Finset.Fold
import Mathlib.Logic.Equiv.Fin.Basic
import Mathlib.Algebra.BigOperators.Fin
import Mathlib.Analysis.SpecialFunctions.Log.Basic

noncomputable section

namespace Cert.OnlineLse

open Idealize.ShloMosaic
open scoped BigOperators

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem fold_max_coe {ι : Type*} [Fintype ι] [Nonempty ι] (f : ι → ℝ) :
    ∃ k₀ : ι, (Finset.univ.fold max (⊥ : EReal) fun k => (f k : EReal)) = (f k₀ : EReal) ∧ ∀ k, f k ≤ f k₀ := by
  obtain ⟨k₀, -, hk₀⟩ := Finset.exists_max_image Finset.univ f Finset.univ_nonempty
  refine ⟨k₀, le_antisymm ?_ ?_, fun k => hk₀ k (Finset.mem_univ k)⟩
  · exact (Finset.fold_max_le _).2 ⟨bot_le, fun k _ => EReal.coe_le_coe_iff.2 (hk₀ k (Finset.mem_univ k))⟩
  · exact (Finset.le_fold_max _).2 (Or.inr ⟨k₀, Finset.mem_univ k₀, le_rfl⟩)

theorem sum_exp_coe {ι : Type*} [Fintype ι] (f : ι → ℝ) (M : ℝ) :
    (∑ k, Ideal.exp ((f k : EReal) - (M : EReal))) = ((∑ k, Real.exp (f k - M) : ℝ) : EReal) := by
  rw [coe_sum]
  refine Finset.sum_congr rfl fun k _ => ?_
  rw [← EReal.coe_sub, Ideal.exp_coe]

theorem tile_lt {n W N : ℕ} (hN : N = n * W) {j : ℕ} (hj : j < n) (k : Fin W) : j * W + k.val < N := by
  subst hN
  have h1 := Nat.mul_le_mul_right W (Nat.succ_le_of_lt hj)
  rw [Nat.succ_mul] at h1
  have := k.isLt
  omega

section Tiles

variable {W : ℕ} (x : ℕ → Fin W → ℝ) (m l : ℕ → EReal)

def SeenInv (j : ℕ) : Prop :=
  ∃ Mr : ℝ, m j = (Mr : EReal) ∧ (∀ i < j, ∀ k, x i k ≤ Mr) ∧ (∃ i < j, ∃ k, x i k = Mr) ∧
    l j = ((∑ i ∈ Finset.range j, ∑ k : Fin W, Real.exp (x i k - Mr) : ℝ) : EReal)

theorem online_tiles [NeZero W] {n : ℕ} (hm0 : m 0 = ⊥) (hl0 : l 0 = 0)
    (hm : ∀ j < n, m (j + 1) = max (m j) (Finset.univ.fold max (⊥ : EReal) fun k => (x j k : EReal)))
    (hl : ∀ j < n, l (j + 1) = Ideal.exp (m j - m (j + 1)) * l j
        + ∑ k : Fin W, Ideal.exp ((x j k : EReal) - m (j + 1)))
    {j : ℕ} (hj1 : 1 ≤ j) (hjn : j ≤ n) : SeenInv x m l j := by
  induction j, hj1 using Nat.le_induction with
  | base =>
    have h0 : 0 < n := hjn
    obtain ⟨k₀, hk₀, hmax⟩ := fold_max_coe (x 0)
    have hm1 : m 1 = ((x 0 k₀ : ℝ) : EReal) := by
      have h := hm 0 h0
      rw [zero_add, hm0, hk₀, max_eq_right bot_le] at h
      exact h
    refine ⟨x 0 k₀, hm1, ?_, ⟨0, Nat.zero_lt_one, k₀, rfl⟩, ?_⟩
    · intro i hi k
      obtain rfl : i = 0 := by omega
      exact hmax k
    · have h := hl 0 h0
      rw [zero_add, hl0, mul_zero, zero_add, hm1, sum_exp_coe] at h
      rw [h, Finset.sum_range_one]
  | succ j hj ih =>
    have hjlt : j < n := hjn
    obtain ⟨Mr, hmj, hub, ⟨i₀, hi₀, k₁, hk₁⟩, hlj⟩ := ih (Nat.le_of_lt hjlt)
    obtain ⟨k₀, hk₀, hmax⟩ := fold_max_coe (x j)
    have hm' : m (j + 1) = ((max Mr (x j k₀) : ℝ) : EReal) := by
      rw [hm j hjlt, hmj, hk₀, coe_max]
    refine ⟨max Mr (x j k₀), hm', ?_, ?_, ?_⟩
    · intro i hi k
      rcases Nat.lt_succ_iff_lt_or_eq.1 hi with h | rfl
      · exact (hub i h k).trans (le_max_left _ _)
      · exact (hmax k).trans (le_max_right _ _)
    · rcases le_total Mr (x j k₀) with h | h
      · exact ⟨j, Nat.lt_succ_self j, k₀, (max_eq_right h).symm⟩
      · exact ⟨i₀, Nat.lt_succ_of_lt hi₀, k₁, hk₁.trans (max_eq_left h).symm⟩
    · rw [hl j hjlt, hm', hmj, hlj, sum_exp_coe, ← EReal.coe_sub, Ideal.exp_coe, ← EReal.coe_mul,
        ← EReal.coe_add, Finset.sum_range_succ]
      congr 2
      rw [Finset.mul_sum]
      refine Finset.sum_congr rfl fun i _ => ?_
      rw [Finset.mul_sum]
      refine Finset.sum_congr rfl fun k _ => ?_
      rw [← Real.exp_add]
      congr 1
      ring

end Tiles

section Row

variable {n W N : ℕ} (hN : N = n * W) (y : Fin N → ℝ) (m l : ℕ → EReal)

theorem online_row (hn : 0 < n) (hW : 0 < W) (hm0 : m 0 = ⊥) (hl0 : l 0 = 0)
    (hm : ∀ j (hj : j < n), m (j + 1) = max (m j)
        (Finset.univ.fold max (⊥ : EReal) fun k : Fin W => (y ⟨j * W + k.val, tile_lt hN hj k⟩ : EReal)))
    (hl : ∀ j (hj : j < n), l (j + 1) = Ideal.exp (m j - m (j + 1)) * l j
        + ∑ k : Fin W, Ideal.exp ((y ⟨j * W + k.val, tile_lt hN hj k⟩ : EReal) - m (j + 1))) :
    ∃ Mr Sr : ℝ, 1 ≤ Sr ∧ (∀ w, y w ≤ Mr) ∧ Sr = ∑ w : Fin N, Real.exp (y w - Mr) ∧
      m n = (Mr : EReal) ∧ l n = (Sr : EReal) ∧
      (Finset.univ.fold max (⊥ : EReal) fun w : Fin N => (y w : EReal)) = (Mr : EReal) ∧
      (∑ w : Fin N, Ideal.exp ((y w : EReal) - (Mr : EReal))) = (Sr : EReal) := by
  haveI : NeZero W := ⟨hW.ne'⟩

  let x : ℕ → Fin W → ℝ := fun j k => if h : j < n then y ⟨j * W + k.val, tile_lt hN h k⟩ else 0
  have hx : ∀ j (hj : j < n) (k : Fin W), x j k = y ⟨j * W + k.val, tile_lt hN hj k⟩ :=
    fun j hj k => dif_pos hj
  have hm' : ∀ j < n, m (j + 1) = max (m j) (Finset.univ.fold max (⊥ : EReal) fun k => (x j k : EReal)) := by
    intro j hj
    rw [hm j hj]
    simp only [hx j hj]
  have hl' : ∀ j < n, l (j + 1) = Ideal.exp (m j - m (j + 1)) * l j
      + ∑ k : Fin W, Ideal.exp ((x j k : EReal) - m (j + 1)) := by
    intro j hj
    rw [hl j hj]
    simp only [hx j hj]
  obtain ⟨Mr, hmn, hub, ⟨i₀, hi₀, k₁, hk₁⟩, hln⟩ := online_tiles x m l hm0 hl0 hm' hl' (j := n) hn le_rfl

  have hyx : ∀ w : Fin N, ∃ i, i < n ∧ ∃ k : Fin W, y w = x i k := by
    intro w
    have hw : w.val < W * n := by rw [Nat.mul_comm, ← hN]; exact w.isLt
    have hi : w.val / W < n := Nat.div_lt_of_lt_mul hw
    refine ⟨w.val / W, hi, ⟨w.val % W, Nat.mod_lt _ hW⟩, ?_⟩
    rw [hx _ hi]
    congr 1
    exact Fin.ext (Nat.div_add_mod' w.val W).symm
  have hle : ∀ w, y w ≤ Mr := by
    intro w
    obtain ⟨i, hi, k, hk⟩ := hyx w
    rw [hk]
    exact hub i hi k

  have hsum : (∑ i ∈ Finset.range n, ∑ k : Fin W, Real.exp (x i k - Mr)) = ∑ w : Fin N, Real.exp (y w - Mr) := by
    subst hN
    rw [← Fin.sum_univ_eq_sum_range (fun i => ∑ k : Fin W, Real.exp (x i k - Mr)) n,
      ← Equiv.sum_comp finProdFinEquiv (fun w => Real.exp (y w - Mr)), Fintype.sum_prod_type]
    refine Finset.sum_congr rfl fun i _ => Finset.sum_congr rfl fun k _ => ?_
    rw [hx i.val i.isLt k]
    congr 3
    apply Fin.ext
    simp only [finProdFinEquiv_apply_val]
    rw [Nat.mul_comm, Nat.add_comm]
  have hw₀ : y ⟨i₀ * W + k₁.val, tile_lt hN hi₀ k₁⟩ = Mr := by rw [← hx i₀ hi₀ k₁, hk₁]
  refine ⟨Mr, ∑ w : Fin N, Real.exp (y w - Mr), ?_, hle, rfl, hmn, ?_, ?_, sum_exp_coe y Mr⟩
  · calc (1 : ℝ) = Real.exp (y ⟨i₀ * W + k₁.val, tile_lt hN hi₀ k₁⟩ - Mr) := by rw [hw₀, sub_self, Real.exp_zero]
      _ ≤ ∑ w : Fin N, Real.exp (y w - Mr) :=
        Finset.single_le_sum (f := fun w => Real.exp (y w - Mr)) (fun w _ => (Real.exp_pos _).le)
          (Finset.mem_univ _)
  · rw [hln, hsum]
  · refine le_antisymm ?_ ?_
    · exact (Finset.fold_max_le _).2 ⟨bot_le, fun w _ => EReal.coe_le_coe_iff.2 (hle w)⟩
    · refine (Finset.le_fold_max _).2 (Or.inr ⟨⟨i₀ * W + k₁.val, tile_lt hN hi₀ k₁⟩, Finset.mem_univ _, ?_⟩)
      rw [hw₀]

end Row

theorem online_gather {n W : ℕ} (z : ℕ → Fin W → EReal) (t : ℕ) (tl : ℕ → EReal) (h0 : tl 0 = 0)
    (hstep : ∀ j < n, tl (j + 1) = tl j + ∑ k : Fin W, if j * W + k.val = t then z j k else 0)
    (ht : t < n * W) :
    tl n = z (t / W) ⟨t % W, Nat.mod_lt _ (Nat.pos_of_ne_zero fun h => by simp [h] at ht)⟩ := by
  have hW : 0 < W := Nat.pos_of_ne_zero fun h => by simp [h] at ht
  generalize hZ : z (t / W) ⟨t % W, Nat.mod_lt _ (Nat.pos_of_ne_zero fun h => by simp [h] at ht)⟩ = Z

  have htile : ∀ j, (∑ k : Fin W, if j * W + k.val = t then z j k else 0) = if t / W = j then Z else 0 := by
    intro j
    by_cases hj : t / W = j
    · subst hj
      rw [if_pos rfl, Finset.sum_eq_single (⟨t % W, Nat.mod_lt _ hW⟩ : Fin W)]
      · rw [if_pos (Nat.div_add_mod' t W), ← hZ]
      · intro k _ hk
        rw [if_neg]
        intro h
        apply hk
        apply Fin.ext
        have := Nat.div_add_mod' t W
        show k.val = t % W
        omega
      · intro h
        exact absurd (Finset.mem_univ _) h
    · rw [if_neg hj]
      refine Finset.sum_eq_zero fun k _ => ?_
      rw [if_neg]
      intro h
      apply hj
      rw [← h]
      refine Nat.div_eq_of_lt_le (Nat.le_add_right _ _) ?_
      rw [Nat.succ_mul]
      have := k.isLt
      omega
  have hrun : ∀ j, j ≤ n → tl j = if t / W < j then Z else 0 := by
    intro j
    induction j with
    | zero => intro _; rw [h0, if_neg (Nat.not_lt_zero _)]
    | succ j ih =>
      intro hj
      rw [hstep j hj, ih (Nat.le_of_lt hj), htile j]
      by_cases h1 : t / W < j
      · rw [if_pos h1, if_neg (by omega), if_pos (by omega), add_zero]
      · by_cases h2 : t / W = j
        · rw [if_neg h1, if_pos h2, if_pos (by omega), zero_add]
        · rw [if_neg h1, if_neg h2, if_neg (by omega), add_zero]
  have hq : t / W < n := Nat.div_lt_of_lt_mul (by rw [Nat.mul_comm]; exact ht)
  rw [hrun n le_rfl, if_pos hq]

end Cert.OnlineLse
-- ==== Proof.KI.Val3.lean ====
import proofs.«421533_j19645180411976_3_alg».proof.Proof.KI.Reg3
import proofs.«421533_j19645180411976_3_alg».proof.Proof.KI.Pay3
import proofs.«421533_j19645180411976_3_alg».proof.Proof.OnlineLse
import proofs.«421533_j19645180411976_3_alg».proof.Proof.Spec
import Idealize.ShloMosaic.Lib.Pipeline.Value

noncomputable section

namespace Cert.KernelIdeal.Val3

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

theorem hz00 : (![0, 0] : Fin 2 → Nat) = fun _ => 0 := funext fun a => by fin_cases a <;> rfl

abbrev xarr (c : Dev nD) : Vec Ideal S8192x512 .bf16 := V c (Pipeline.arrRef spec3 0)

abbrev warr (c : Dev nD) : Vec Ideal S512x32000 .bf16 := V c (Pipeline.arrRef spec3 1)

abbrev barr (c : Dev nD) : Vec Ideal S1x32000 .f32 := V c (Pipeline.arrRef spec3 2)

abbrev tarr (c : Dev nD) : Vec Ideal S8192x1 .i32 := V c (Pipeline.arrRef spec3 3)

def LG (c : Dev nD) (R : Fin 8192) (w : Fin 32000) : EReal :=
  (∑ cc : Fin 512, xarr V c (ix2 R cc) * warr V c (ix2 cc w)) + barr V c (ix2 0 w)

def lse3 (c : Dev nD) (R : Fin 8192) : EReal :=
  Cert.Spec.lgMax (LG V c) R + Ideal.log (∑ w : Fin 32000, Ideal.exp (LG V c R w - Cert.Spec.lgMax (LG V c) R))

theorem idx_facts3 : ∀ t : Fin cfg3.N,
    win3_0.index t (0 : Fin 2) = t.val / 50 ∧ win3_0.index t (1 : Fin 2) = 0
    ∧ win3_1.index t (0 : Fin 2) = 0 ∧ win3_1.index t (1 : Fin 2) = t.val % 50
    ∧ win3_2.index t (0 : Fin 2) = 0 ∧ win3_2.index t (1 : Fin 2) = t.val % 50
    ∧ win3_3.index t (0 : Fin 2) = t.val / 50 ∧ win3_3.index t (1 : Fin 2) = 0
    ∧ win3_4.index t (0 : Fin 2) = t.val / 50 ∧ win3_4.index t (1 : Fin 2) = t.val % 50
    ∧ win3_5.index t (0 : Fin 2) = t.val / 50 ∧ win3_5.index t (1 : Fin 2) = 0
    ∧ win3_6.index t (0 : Fin 2) = t.val / 50 ∧ win3_6.index t (1 : Fin 2) = 0
    ∧ ((grid3.coords t) 1).val = t.val % 50 :=
  (by decide +kernel : ∀ t : Fin grid3.N, _)

theorem xblk_apply (c : Dev nD) (t : Fin cfg3.N) (r : Fin 2048) (cc : Fin 512) (R : Fin 8192)
    (hR : R.val = t.val / 50 * 2048 + r.val) :
    (iblk3 V c 0 t : Vec Ideal S2048x512 .bf16) (ix2 r cc) = xarr V c (ix2 R cc) := by
  obtain ⟨e0, e1, -⟩ := idx_facts3 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 2048 + 1 * r.val = R.val; rw [e0, hR]; omega
  | ⟨1, _⟩ => show win3_0.index t (1 : Fin 2) * 512 + 1 * cc.val = cc.val; rw [e1]; omega

theorem wblk_apply (c : Dev nD) (t : Fin cfg3.N) (cc : Fin 512) (k : Fin 640) (W : Fin 32000)
    (hW : W.val = t.val % 50 * 640 + k.val) :
    (iblk3 V c 1 t : Vec Ideal S512x640 .bf16) (ix2 cc k) = warr V c (ix2 cc W) := by
  obtain ⟨-, -, e0, e1, -⟩ := idx_facts3 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 512 + 1 * cc.val = cc.val; rw [e0]; omega
  | ⟨1, _⟩ => show win3_1.index t (1 : Fin 2) * 640 + 1 * k.val = W.val; rw [e1, hW]; omega

theorem bblk_apply (c : Dev nD) (t : Fin cfg3.N) (k : Fin 640) (W : Fin 32000)
    (hW : W.val = t.val % 50 * 640 + k.val) :
    (iblk3 V c 2 t : Vec Ideal S1x640 .f32) (ix2 0 k) = barr V c (ix2 0 W) := by
  obtain ⟨-, -, -, -, e0, e1, -⟩ := idx_facts3 t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * 0 = 0; rw [e0]
  | ⟨1, _⟩ => show win3_2.index t (1 : Fin 2) * 640 + 1 * k.val = W.val; rw [e1, hW]; omega

theorem tblk_apply (c : Dev nD) (t : Fin cfg3.N) (r : Fin 2048) (R : Fin 8192)
    (hR : R.val = t.val / 50 * 2048 + r.val) :
    (iblk3 V c 3 t : Vec Ideal S2048x1 .i32) (ix2 r 0) = tarr V c (ix2 R 0) := by
  obtain ⟨-, -, -, -, -, -, e0, e1, -⟩ := idx_facts3 t
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 2048 + 1 * r.val = R.val; rw [e0, hR]; omega
  | ⟨1, _⟩ => show win3_3.index t (1 : Fin 2) * 1 + 1 * 0 = 0; rw [e1]

theorem lg3_apply (x0 : Vec Ideal S2048x512 .bf16) (x1 : Vec Ideal S512x640 .bf16) (x2 : Vec Ideal S1x640 .f32)
    (r : Fin 2048) (k : Fin 640) :
    lg3 (F := Ideal) x0 x1 x2 (ix2 r k) = (∑ cc : Fin 512, x0 (ix2 r cc) * x1 (ix2 cc k)) + x2 (ix2 0 k) := by
  unfold lg3
  simp only [View.ld_unit_zero (S := S2048x512) hz00, View.ld_unit_zero (S := S512x640) hz00, View.ld_unit_zero (S := S1x640) hz00]
  exact pay6_apply x0 x1 x2 r k

theorem lg3_blk (c : Dev nD) (t : Fin cfg3.N) (r : Fin 2048) (k : Fin 640) (R : Fin 8192) (W : Fin 32000)
    (hR : R.val = t.val / 50 * 2048 + r.val) (hW : W.val = t.val % 50 * 640 + k.val) :
    lg3 (F := Ideal) (iblk3 V c 0 t) (iblk3 V c 1 t) (iblk3 V c 2 t) (ix2 r k) = LG V c R W := by
  refine (lg3_apply (iblk3 V c 0 t) (iblk3 V c 1 t) (iblk3 V c 2 t) r k).trans ?_
  unfold LG
  refine congrArg₂ (· + ·) (Finset.sum_congr rfl fun cc _ => ?_) (bblk_apply V c t k W hW)
  exact congrArg₂ (· * ·) (xblk_apply V c t r cc R hR) (wblk_apply V c t cc k W hW)

theorem scReset3_m (i : S2048x1.Idx) : (scReset3 (F := Ideal)).1 i = ⊥ := by
  unfold scReset3
  dsimp only
  rw [View.canon_unit_zero hz00]
  exact pay3_apply i
theorem scReset3_l (i : S2048x1.Idx) : (scReset3 (F := Ideal)).2.1 i = 0 := by
  unfold scReset3
  dsimp only
  rw [View.canon_unit_zero hz00]
  exact pay4_apply i
theorem scReset3_tl (i : S2048x1.Idx) : (scReset3 (F := Ideal)).2.2 i = 0 := by
  unfold scReset3
  dsimp only
  rw [View.canon_unit_zero hz00]
  exact pay5_apply i

section Upd
variable (vi : BitVec 32) (x0 : Vec Ideal S2048x512 .bf16) (x1 : Vec Ideal S512x640 .bf16) (x2 : Vec Ideal S1x640 .f32)
  (x3 : Vec Ideal S2048x1 .i32) (s : Sc3 Ideal) (r : Fin 2048)

theorem scUpd3_m :
    (scUpd3 vi x0 x1 x2 x3 s).1 (ix2 r 0)
      = max (s.1 (ix2 r 0)) ((Finset.univ : Finset (Fin 640)).fold max ⊥ fun k => lg3 (F := Ideal) x0 x1 x2 (ix2 r k)) := by
  unfold scUpd3 lg3
  dsimp only
  rw [View.canon_unit_zero hz00]
  simp only [View.ld_unit_zero (S := S2048x512) hz00, View.ld_unit_zero (S := S512x640) hz00, View.ld_unit_zero (S := S1x640) hz00,
    View.ld_unit_zero (S := S2048x1) hz00]
  rw [pay9_eq]
  exact pay7_apply x0 x1 x2 s.1 r

theorem scUpd3_l :
    (scUpd3 vi x0 x1 x2 x3 s).2.1 (ix2 r 0)
      = Ideal.exp (s.1 (ix2 r 0) - (scUpd3 vi x0 x1 x2 x3 s).1 (ix2 r 0)) * s.2.1 (ix2 r 0)
        + ∑ k : Fin 640, Ideal.exp (lg3 (F := Ideal) x0 x1 x2 (ix2 r k) - (scUpd3 vi x0 x1 x2 x3 s).1 (ix2 r 0)) := by
  unfold scUpd3 lg3
  dsimp only
  rw [View.canon_unit_zero hz00, View.canon_unit_zero hz00]
  simp only [View.ld_unit_zero (S := S2048x512) hz00, View.ld_unit_zero (S := S512x640) hz00, View.ld_unit_zero (S := S1x640) hz00,
    View.ld_unit_zero (S := S2048x1) hz00]
  rw [pay9_eq]
  exact pay8_apply x0 x1 x2 s.1 s.2.1 r

theorem scUpd3_tl :
    (scUpd3 vi x0 x1 x2 x3 s).2.2 (ix2 r 0)
      = s.2.2 (ix2 r 0) + ∑ k : Fin 640,
          (if vi * 640#32 + BitVec.ofNat 32 k.val = x3 (ix2 r 0) then lg3 (F := Ideal) x0 x1 x2 (ix2 r k) else 0) := by
  unfold scUpd3
  dsimp only
  rw [View.canon_unit_zero hz00]
  simp only [View.ld_unit_zero (S := S2048x1) hz00]
  exact pay1_apply vi (lg3 x0 x1 x2) x3 s.2.2 r

end Upd

def scAt (c : Dev nD) (n : ℕ) : Sc3 Ideal :=
  if h : n ≤ cfg3.N then sc3 V c ⟨n, Nat.lt_succ_of_le h⟩ else scReset3

theorem scAt_succ (c : Dev nD) (n : ℕ) (hn : n < cfg3.N) :
    scAt V c (n + 1) = scStep3 (cfg3.grid.coords ⟨n, hn⟩) (iblk3 V c 0 ⟨n, hn⟩) (iblk3 V c 1 ⟨n, hn⟩)
      (iblk3 V c 2 ⟨n, hn⟩) (iblk3 V c 3 ⟨n, hn⟩) (scAt V c n) := by
  unfold scAt
  rw [dif_pos (Nat.succ_le_of_lt hn), dif_pos (Nat.le_of_lt hn)]
  exact sc3_succ V c ⟨n, hn⟩

theorem sc3_succ_eq_scAt (c : Dev nD) (t : Fin cfg3.N) : sc3 V c t.succ = scAt V c (t.val + 1) := by
  unfold scAt
  rw [dif_pos (Nat.succ_le_of_lt t.isLt)]
  rfl

def rowOf (rb : Fin 4) (r : Fin 2048) : Fin 8192 := ⟨rb.val * 2048 + r.val, by omega⟩

section RowGroup
variable (c : Dev nD) (rb : Fin 4) (r : Fin 2048)

def mS (j : ℕ) : EReal := if j = 0 then ⊥ else (scAt V c (rb.val * 50 + j)).1 (ix2 r 0)

def lS (j : ℕ) : EReal := if j = 0 then 0 else (scAt V c (rb.val * 50 + j)).2.1 (ix2 r 0)

def tS (j : ℕ) : EReal := if j = 0 then 0 else (scAt V c (rb.val * 50 + j)).2.2 (ix2 r 0)

theorem step_state (j : ℕ) (hj : j < 50) :
    ∃ (s : Sc3 Ideal) (t : Fin cfg3.N), t.val = rb.val * 50 + j ∧
      s.1 (ix2 r 0) = mS V c rb r j ∧ s.2.1 (ix2 r 0) = lS V c rb r j ∧ s.2.2 (ix2 r 0) = tS V c rb r j ∧
      scAt V c (rb.val * 50 + (j + 1))
        = scUpd3 (BitVec.ofNat 32 j) (iblk3 V c 0 t) (iblk3 V c 1 t) (iblk3 V c 2 t) (iblk3 V c 3 t) s := by
  have hN : cfg3.N = 200 := N_3
  have hrb := rb.isLt
  have hn : rb.val * 50 + j < cfg3.N := by omega
  have hvi : ((grid3.coords ⟨rb.val * 50 + j, hn⟩) 1).val = j := by
    have := (idx_facts3 ⟨rb.val * 50 + j, hn⟩).2.2.2.2.2.2.2.2.2.2.2.2.2.2
    rw [this]
    show (rb.val * 50 + j) % 50 = j
    omega
  refine ⟨if j = 0 then scReset3 else scAt V c (rb.val * 50 + j), ⟨rb.val * 50 + j, hn⟩, rfl, ?_, ?_, ?_, ?_⟩
  · unfold mS
    by_cases h0 : j = 0
    · rw [if_pos h0, if_pos h0]; exact scReset3_m _
    · rw [if_neg h0, if_neg h0]
  · unfold lS
    by_cases h0 : j = 0
    · rw [if_pos h0, if_pos h0]; exact scReset3_l _
    · rw [if_neg h0, if_neg h0]
  · unfold tS
    by_cases h0 : j = 0
    · rw [if_pos h0, if_pos h0]; exact scReset3_tl _
    · rw [if_neg h0, if_neg h0]
  · show scAt V c (rb.val * 50 + j + 1) = _
    rw [scAt_succ V c _ hn]
    unfold scStep3
    show scUpd3 (BitVec.ofNat 32 ((grid3.coords ⟨rb.val * 50 + j, hn⟩) 1).val) _ _ _ _
        (if ((grid3.coords ⟨rb.val * 50 + j, hn⟩) 1).val = 0 then scReset3 else scAt V c (rb.val * 50 + j)) = _
    rw [hvi]

theorem tile_logits (j : ℕ) (hj : j < 50) (t : Fin cfg3.N) (ht : t.val = rb.val * 50 + j) (k : Fin 640) :
    lg3 (F := Ideal) (iblk3 V c 0 t) (iblk3 V c 1 t) (iblk3 V c 2 t) (ix2 r k)
      = LG V c (rowOf rb r) ⟨j * 640 + k.val, Cert.OnlineLse.tile_lt (show 32000 = 50 * 640 by norm_num) hj k⟩ := by
  have hrb := rb.isLt
  refine lg3_blk V c t r k _ _ ?_ ?_
  · show rb.val * 2048 + r.val = t.val / 50 * 2048 + r.val
    rw [ht]; omega
  · show j * 640 + k.val = t.val % 50 * 640 + k.val
    rw [ht]; omega

theorem mS_succ (j : ℕ) (hj : j < 50) :
    mS V c rb r (j + 1) = max (mS V c rb r j) ((Finset.univ : Finset (Fin 640)).fold max ⊥ fun k =>
      LG V c (rowOf rb r) ⟨j * 640 + k.val, Cert.OnlineLse.tile_lt (show 32000 = 50 * 640 by norm_num) hj k⟩) := by
  obtain ⟨s, t, ht, hm, -, -, hs⟩ := step_state V c rb r j hj
  have e : (fun k : Fin 640 => lg3 (F := Ideal) (iblk3 V c 0 t) (iblk3 V c 1 t) (iblk3 V c 2 t) (ix2 r k))
      = fun k => LG V c (rowOf rb r) ⟨j * 640 + k.val, Cert.OnlineLse.tile_lt (show 32000 = 50 * 640 by norm_num) hj k⟩ :=
    funext fun k => tile_logits V c rb r j hj t ht k
  rw [← hm, ← e]
  unfold mS
  rw [if_neg (Nat.succ_ne_zero j), hs]
  exact scUpd3_m _ _ _ _ _ s r

theorem lS_succ (j : ℕ) (hj : j < 50) :
    lS V c rb r (j + 1) = Ideal.exp (mS V c rb r j - mS V c rb r (j + 1)) * lS V c rb r j
      + ∑ k : Fin 640, Ideal.exp (LG V c (rowOf rb r) ⟨j * 640 + k.val, Cert.OnlineLse.tile_lt (show 32000 = 50 * 640 by norm_num) hj k⟩
          - mS V c rb r (j + 1)) := by
  obtain ⟨s, t, ht, hm, hl, -, hs⟩ := step_state V c rb r j hj
  have hm1 : mS V c rb r (j + 1) = (scUpd3 (BitVec.ofNat 32 j) (iblk3 V c 0 t) (iblk3 V c 1 t) (iblk3 V c 2 t) (iblk3 V c 3 t) s).1 (ix2 r 0) := by
    unfold mS
    rw [if_neg (Nat.succ_ne_zero j), hs]
  rw [hm1, ← hm, ← hl]
  unfold lS
  rw [if_neg (Nat.succ_ne_zero j), hs]
  refine (scUpd3_l _ _ _ _ _ s r).trans ?_
  refine congrArg₂ (· + ·) rfl (Finset.sum_congr rfl fun k _ => ?_)
  rw [tile_logits V c rb r j hj t ht k]

theorem word_toNat (j : ℕ) (hj : j < 50) (k : Fin 640) :
    (BitVec.ofNat 32 j * 640#32 + BitVec.ofNat 32 k.val).toNat = j * 640 + k.val := by
  have hk := k.isLt
  have h640 : (640#32 : BitVec 32).toNat = 640 := rfl
  rw [BitVec.toNat_add, BitVec.toNat_mul, h640, BitVec.toNat_ofNat, BitVec.toNat_ofNat]
  omega

theorem word_eq_iff (j : ℕ) (hj : j < 50) (k : Fin 640) (T : BitVec 32) :
    BitVec.ofNat 32 j * 640#32 + BitVec.ofNat 32 k.val = T ↔ j * 640 + k.val = T.toNat := by
  constructor
  · intro h; rw [← h, word_toNat j hj k]
  · intro h; exact BitVec.eq_of_toNat_eq (by rw [word_toNat j hj k, h])

theorem tS_succ (j : ℕ) (hj : j < 50) :
    tS V c rb r (j + 1) = tS V c rb r j + ∑ k : Fin 640,
      (if j * 640 + k.val = (tarr V c (ix2 (rowOf rb r) 0)).toNat
        then LG V c (rowOf rb r) ⟨j * 640 + k.val, Cert.OnlineLse.tile_lt (show 32000 = 50 * 640 by norm_num) hj k⟩ else 0) := by
  obtain ⟨s, t, ht, -, -, htl, hs⟩ := step_state V c rb r j hj
  have hrb := rb.isLt
  have hT : (iblk3 V c 3 t : Vec Ideal S2048x1 .i32) (ix2 r 0) = tarr V c (ix2 (rowOf rb r) 0) :=
    tblk_apply V c t r (rowOf rb r) (by show rb.val * 2048 + r.val = t.val / 50 * 2048 + r.val; rw [ht]; omega)
  rw [← htl]
  unfold tS
  rw [if_neg (Nat.succ_ne_zero j), hs]
  refine (scUpd3_tl _ _ _ _ _ s r).trans ?_
  refine congrArg₂ (· + ·) rfl (Finset.sum_congr rfl fun k _ => ?_)
  rw [hT, tile_logits V c rb r j hj t ht k]
  exact if_congr (word_eq_iff j hj k _) rfl rfl

theorem row_final (y : Fin 32000 → ℝ) (hy : ∀ w, LG V c (rowOf rb r) w = (y w : EReal)) :
    ∃ Mr Sr : ℝ, 1 ≤ Sr ∧ mS V c rb r 50 = (Mr : EReal) ∧ lS V c rb r 50 = (Sr : EReal)
      ∧ Cert.Spec.lgMax (LG V c) (rowOf rb r) = (Mr : EReal)
      ∧ (∑ w : Fin 32000, Ideal.exp (LG V c (rowOf rb r) w - (Mr : EReal))) = (Sr : EReal) := by
  have hN : (32000 : ℕ) = 50 * 640 := by norm_num
  obtain ⟨Mr, Sr, hS1, -, -, hmn, hln, hM, hS⟩ := Cert.OnlineLse.online_row hN y (mS V c rb r) (lS V c rb r)
    (by norm_num) (by norm_num) (if_pos rfl) (if_pos rfl)
    (fun j hj => by rw [mS_succ V c rb r j hj]; simp only [hy])
    (fun j hj => by rw [lS_succ V c rb r j hj]; simp only [hy])
  refine ⟨Mr, Sr, hS1, hmn, hln, ?_, ?_⟩
  · unfold Cert.Spec.lgMax
    simp only [hy]
    exact hM
  · simp only [hy]
    exact hS

theorem row_lse (y : Fin 32000 → ℝ) (hy : ∀ w, LG V c (rowOf rb r) w = (y w : EReal)) :
    mS V c rb r 50 + Ideal.log (lS V c rb r 50) = lse3 V c (rowOf rb r) := by
  obtain ⟨Mr, Sr, -, hm, hl, hM, hS⟩ := row_final V c rb r y hy
  unfold lse3
  rw [hm, hl, hM, hS]

theorem row_tl (hT : (tarr V c (ix2 (rowOf rb r) 0)).toNat < 32000) :
    tS V c rb r 50 = LG V c (rowOf rb r) ⟨(tarr V c (ix2 (rowOf rb r) 0)).toNat, hT⟩ := by
  have hg := Cert.OnlineLse.online_gather (n := 50) (W := 640)
    (fun j k => if h : j < 50 then LG V c (rowOf rb r) ⟨j * 640 + k.val, Cert.OnlineLse.tile_lt (show 32000 = 50 * 640 by norm_num) h k⟩ else 0)
    (tarr V c (ix2 (rowOf rb r) 0)).toNat (tS V c rb r) (if_pos rfl)
    (fun j hj => by
      rw [tS_succ V c rb r j hj]
      refine congrArg₂ (· + ·) rfl (Finset.sum_congr rfl fun k _ => ?_)
      rw [dif_pos hj])
    (by omega)
  rw [hg, dif_pos (by omega)]
  congr 1
  apply Fin.ext
  exact Nat.div_add_mod' _ 640

end RowGroup

def G4 (c : Dev nD) : Vec Ideal S8192x32000 .f32 := fun i => LG V c (i 0) (i 1)

def G5 (c : Dev nD) : Vec Ideal S8192x1 .f32 := fun i => lse3 V c (i 0)

def G6 (c : Dev nD) : Vec Ideal S8192x1 .f32 := fun i =>
  if h : (tarr V c (ix2 (i 0) 0)).toNat < 32000 then LG V c (i 0) ⟨(tarr V c (ix2 (i 0) 0)).toNat, h⟩ else 0

theorem flushed4_eq (c : Dev nD) (t : Fin cfg3.N) :
    (dat3 V c).flushed 4 t = ((cfg3.win 4).blk t).view.read (Elt Ideal) (G4 V c) := by
  obtain ⟨-, -, -, -, -, -, -, -, e0, e1, -⟩ := idx_facts3 t
  show (cfg3.win 4).cut (grid3.coords t) ((dat3 V c).after 4 t) = _
  rw [after3_4]
  unfold out3_4
  rw [View.canon_unit_zero hz00]
  funext j
  obtain ⟨p, q, rfl⟩ : ∃ (p : Fin 2048) (q : Fin 640), j = ix2 p q := ⟨j 0, j 1, eq_ix2 j⟩
  rw [View.read_apply]
  show lg3 (F := Ideal) (iblk3 V c 0 t) (iblk3 V c 1 t) (iblk3 V c 2 t) (ix2 p q) = LG V c _ _
  refine lg3_blk V c t p q _ _ ?_ ?_
  · show win3_4.index t (0 : Fin 2) * 2048 + 1 * p.val = t.val / 50 * 2048 + p.val
    rw [e0]; omega
  · show win3_4.index t (1 : Fin 2) * 640 + 1 * q.val = t.val % 50 * 640 + q.val
    rw [e1]; omega

theorem mem_blk4 (t : Fin cfg3.N) (i : S8192x32000.Idx) :
    i ∈ ((cfg3.win 4).blk t).view.set ↔ ∀ a : Fin 2, win3_4.index t a * S2048x640.size a ≤ (i a).val
      ∧ (i a).val < win3_4.index t a * S2048x640.size a + S2048x640.size a := by
  show i ∈ ((View.whole main_v31_0).slice (win3_4.rect t)).set ↔ _
  rw [View.set_slice_whole, Rect.mem_set_unit]
  exact Iff.rfl

theorem arr3_4 (c : Dev nD) : (dat3 V c).arrAt 4 cfg3.N = G4 V c :=
  (dat3 V c).arrAt_eq_of_cover 4 (G4 V c) (fun t _ => flushed4_eq V c t) fun i => by
    have h0 : (i 0).val < 8192 := (i 0).isLt
    have h1 : (i 1).val < 32000 := (i 1).isLt
    have hN : cfg3.N = 200 := N_3
    have hlt : (i 0).val / 2048 * 50 + (i 1).val / 640 < cfg3.N := by omega
    obtain ⟨-, -, -, -, -, -, -, -, e0, e1, -⟩ := idx_facts3 ⟨(i 0).val / 2048 * 50 + (i 1).val / 640, hlt⟩
    refine ⟨⟨(i 0).val / 2048 * 50 + (i 1).val / 640, hlt⟩, flush3_4 _, ?_⟩
    rw [mem_blk4]
    intro a
    match a with
    | ⟨0, _⟩ =>
      show win3_4.index ⟨(i 0).val / 2048 * 50 + (i 1).val / 640, hlt⟩ (0 : Fin 2) * 2048 ≤ (i 0).val
        ∧ (i 0).val < win3_4.index ⟨(i 0).val / 2048 * 50 + (i 1).val / 640, hlt⟩ (0 : Fin 2) * 2048 + 2048
      rw [e0]
      show ((i 0).val / 2048 * 50 + (i 1).val / 640) / 50 * 2048 ≤ (i 0).val
        ∧ (i 0).val < ((i 0).val / 2048 * 50 + (i 1).val / 640) / 50 * 2048 + 2048
      omega
    | ⟨1, _⟩ =>
      show win3_4.index ⟨(i 0).val / 2048 * 50 + (i 1).val / 640, hlt⟩ (1 : Fin 2) * 640 ≤ (i 1).val
        ∧ (i 1).val < win3_4.index ⟨(i 0).val / 2048 * 50 + (i 1).val / 640, hlt⟩ (1 : Fin 2) * 640 + 640
      rw [e1]
      show ((i 0).val / 2048 * 50 + (i 1).val / 640) % 50 * 640 ≤ (i 1).val
        ∧ (i 1).val < ((i 0).val / 2048 * 50 + (i 1).val / 640) % 50 * 640 + 640
      omega

theorem last_state (c : Dev nD) (t : Fin cfg3.N) (h49 : t.val % 50 = 49) (p : Fin 2048) :
    ∃ rb : Fin 4, rb.val = t.val / 50
      ∧ (sc3 V c t.succ).1 (ix2 p 0) = mS V c rb p 50
      ∧ (sc3 V c t.succ).2.1 (ix2 p 0) = lS V c rb p 50
      ∧ (sc3 V c t.succ).2.2 (ix2 p 0) = tS V c rb p 50 := by
  have hN : cfg3.N = 200 := N_3
  have ht := t.isLt
  refine ⟨⟨t.val / 50, by omega⟩, rfl, ?_, ?_, ?_⟩
  all_goals
    rw [sc3_succ_eq_scAt]
    have e : t.val + 1 = t.val / 50 * 50 + 50 := by omega
    rw [e]
  · unfold mS; rw [if_neg (by decide)]
  · unfold lS; rw [if_neg (by decide)]
  · unfold tS; rw [if_neg (by decide)]

theorem flushed5_eq (c : Dev nD) (y : Fin 8192 → Fin 32000 → ℝ) (hy : ∀ R w, LG V c R w = (y R w : EReal))
    (t : Fin cfg3.N) (hf : (cfg3.win 5).flush t = true) :
    (dat3 V c).flushed 5 t = ((cfg3.win 5).blk t).view.read (Elt Ideal) (G5 V c) := by
  have h49 := (flush3_5 t).mp hf
  obtain ⟨-, -, -, -, -, -, -, -, -, -, e0, e1, -⟩ := idx_facts3 t
  show (cfg3.win 5).cut (grid3.coords t) ((dat3 V c).after 5 t) = _
  rw [after3_5]
  unfold out3_5
  rw [View.canon_unit_zero hz00]
  simp only [View.ld_unit_zero (S := S2048x1) hz00]
  funext j
  obtain ⟨p, q, rfl⟩ : ∃ (p : Fin 2048) (q : Fin 1), j = ix2 p q := ⟨j 0, j 1, eq_ix2 j⟩
  obtain rfl : q = 0 := Subsingleton.elim _ _
  rw [View.read_apply]
  refine (pay2_apply _ _ p).trans ?_
  obtain ⟨rb, hrb, hm, hl, -⟩ := last_state V c t h49 p
  refine (congrArg₂ (fun a b => a + Ideal.log b) hm hl).trans ?_
  refine (row_lse V c rb p (y (rowOf rb p)) (hy (rowOf rb p))).trans ?_
  have hR : rowOf rb p = (((cfg3.win 5).blk t).view.emb (ix2 p 0)) 0 := by
    apply Fin.ext
    show rb.val * 2048 + p.val = win3_5.index t (0 : Fin 2) * 2048 + 1 * p.val
    rw [e0, hrb]; omega
  show _ = G5 V c _
  unfold G5
  rw [← hR]

theorem flushed6_eq (c : Dev nD) (htgt : ∀ R : Fin 8192, (tarr V c (ix2 R 0)).toNat < 32000)
    (t : Fin cfg3.N) (hf : (cfg3.win 6).flush t = true) :
    (dat3 V c).flushed 6 t = ((cfg3.win 6).blk t).view.read (Elt Ideal) (G6 V c) := by
  have h49 := (flush3_6 t).mp hf
  obtain ⟨-, -, -, -, -, -, -, -, -, -, -, -, e0, e1, -⟩ := idx_facts3 t
  show (cfg3.win 6).cut (grid3.coords t) ((dat3 V c).after 6 t) = _
  rw [after3_6]
  unfold out3_6
  rw [View.canon_unit_zero hz00]
  simp only [View.ld_unit_zero (S := S2048x1) hz00]
  funext j
  obtain ⟨p, q, rfl⟩ : ∃ (p : Fin 2048) (q : Fin 1), j = ix2 p q := ⟨j 0, j 1, eq_ix2 j⟩
  obtain rfl : q = 0 := Subsingleton.elim _ _
  rw [View.read_apply]
  obtain ⟨rb, hrb, -, -, htl⟩ := last_state V c t h49 p
  refine htl.trans ?_
  rw [row_tl V c rb p (htgt _)]
  have hR : rowOf rb p = (((cfg3.win 6).blk t).view.emb (ix2 p 0)) 0 := by
    apply Fin.ext
    show rb.val * 2048 + p.val = win3_6.index t (0 : Fin 2) * 2048 + 1 * p.val
    rw [e0, hrb]; omega
  show _ = G6 V c _
  unfold G6
  rw [← hR, dif_pos (htgt _)]

theorem mem_blk5 (t : Fin cfg3.N) (i : S8192x1.Idx) :
    i ∈ ((cfg3.win 5).blk t).view.set ↔ ∀ a : Fin 2, win3_5.index t a * S2048x1.size a ≤ (i a).val
      ∧ (i a).val < win3_5.index t a * S2048x1.size a + S2048x1.size a := by
  show i ∈ ((View.whole main_v31_1).slice (win3_5.rect t)).set ↔ _
  rw [View.set_slice_whole, Rect.mem_set_unit]
  exact Iff.rfl

theorem mem_blk6 (t : Fin cfg3.N) (i : S8192x1.Idx) :
    i ∈ ((cfg3.win 6).blk t).view.set ↔ ∀ a : Fin 2, win3_6.index t a * S2048x1.size a ≤ (i a).val
      ∧ (i a).val < win3_6.index t a * S2048x1.size a + S2048x1.size a := by
  show i ∈ ((View.whole main_v31_2).slice (win3_6.rect t)).set ↔ _
  rw [View.set_slice_whole, Rect.mem_set_unit]
  exact Iff.rfl

theorem arr3_5 (c : Dev nD) (y : Fin 8192 → Fin 32000 → ℝ) (hy : ∀ R w, LG V c R w = (y R w : EReal)) :
    (dat3 V c).arrAt 5 cfg3.N = G5 V c :=
  (dat3 V c).arrAt_eq_of_cover 5 (G5 V c) (fun t hf => flushed5_eq V c y hy t hf) fun i => by
    have h0 : (i 0).val < 8192 := (i 0).isLt
    have h1 : (i 1).val < 1 := (i 1).isLt
    have hN : cfg3.N = 200 := N_3
    have hlt : (i 0).val / 2048 * 50 + 49 < cfg3.N := by omega
    obtain ⟨-, -, -, -, -, -, -, -, -, -, e0, e1, -⟩ := idx_facts3 ⟨(i 0).val / 2048 * 50 + 49, hlt⟩
    refine ⟨⟨(i 0).val / 2048 * 50 + 49, hlt⟩, (flush3_5 _).mpr (by show ((i 0).val / 2048 * 50 + 49) % 50 = 49; omega), ?_⟩
    rw [mem_blk5]
    intro a
    match a with
    | ⟨0, _⟩ =>
      show win3_5.index ⟨(i 0).val / 2048 * 50 + 49, hlt⟩ (0 : Fin 2) * 2048 ≤ (i 0).val
        ∧ (i 0).val < win3_5.index ⟨(i 0).val / 2048 * 50 + 49, hlt⟩ (0 : Fin 2) * 2048 + 2048
      rw [e0]
      show ((i 0).val / 2048 * 50 + 49) / 50 * 2048 ≤ (i 0).val ∧ (i 0).val < ((i 0).val / 2048 * 50 + 49) / 50 * 2048 + 2048
      omega
    | ⟨1, _⟩ =>
      show win3_5.index ⟨(i 0).val / 2048 * 50 + 49, hlt⟩ (1 : Fin 2) * 1 ≤ (i 1).val
        ∧ (i 1).val < win3_5.index ⟨(i 0).val / 2048 * 50 + 49, hlt⟩ (1 : Fin 2) * 1 + 1
      rw [e1]
      omega

theorem arr3_6 (c : Dev nD) (htgt : ∀ R : Fin 8192, (tarr V c (ix2 R 0)).toNat < 32000) :
    (dat3 V c).arrAt 6 cfg3.N = G6 V c :=
  (dat3 V c).arrAt_eq_of_cover 6 (G6 V c) (fun t hf => flushed6_eq V c htgt t hf) fun i => by
    have h0 : (i 0).val < 8192 := (i 0).isLt
    have h1 : (i 1).val < 1 := (i 1).isLt
    have hN : cfg3.N = 200 := N_3
    have hlt : (i 0).val / 2048 * 50 + 49 < cfg3.N := by omega
    obtain ⟨-, -, -, -, -, -, -, -, -, -, -, -, e0, e1, -⟩ := idx_facts3 ⟨(i 0).val / 2048 * 50 + 49, hlt⟩
    refine ⟨⟨(i 0).val / 2048 * 50 + 49, hlt⟩, (flush3_6 _).mpr (by show ((i 0).val / 2048 * 50 + 49) % 50 = 49; omega), ?_⟩
    rw [mem_blk6]
    intro a
    match a with
    | ⟨0, _⟩ =>
      show win3_6.index ⟨(i 0).val / 2048 * 50 + 49, hlt⟩ (0 : Fin 2) * 2048 ≤ (i 0).val
        ∧ (i 0).val < win3_6.index ⟨(i 0).val / 2048 * 50 + 49, hlt⟩ (0 : Fin 2) * 2048 + 2048
      rw [e0]
      show ((i 0).val / 2048 * 50 + 49) / 50 * 2048 ≤ (i 0).val ∧ (i 0).val < ((i 0).val / 2048 * 50 + 49) / 50 * 2048 + 2048
      omega
    | ⟨1, _⟩ =>
      show win3_6.index ⟨(i 0).val / 2048 * 50 + 49, hlt⟩ (1 : Fin 2) * 1 ≤ (i 1).val
        ∧ (i 1).val < win3_6.index ⟨(i 0).val / 2048 * 50 + 49, hlt⟩ (1 : Fin 2) * 1 + 1
      rw [e1]
      omega

theorem tl_sub_lse (c : Dev nD) (R : Fin 8192) (y : Fin 32000 → ℝ) (hy : ∀ w, LG V c R w = (y w : EReal)) (t : Fin 32000) :
    LG V c R t - lse3 V c R = Cert.Spec.logp (LG V c) R t := by
  obtain ⟨rb, r, rfl⟩ : ∃ (rb : Fin 4) (r : Fin 2048), R = rowOf rb r :=
    ⟨⟨R.val / 2048, by have := R.isLt; omega⟩, ⟨R.val % 2048, Nat.mod_lt _ (by norm_num)⟩,
      Fin.ext (by show R.val = R.val / 2048 * 2048 + R.val % 2048; omega)⟩
  obtain ⟨Mr, Sr, hS1, -, -, hM, hS⟩ := row_final V c rb r y hy
  have hpos : ¬ Sr ≤ 0 := by linarith
  unfold lse3 Cert.Spec.logp
  rw [hM, hS, hy t, Ideal.log_coe, if_neg hpos, ← EReal.coe_add, ← EReal.coe_sub, ← EReal.coe_sub, ← EReal.coe_sub]
  refine congrArg (fun x : ℝ => (x : EReal)) ?_
  ring

end Cert.KernelIdeal.Val3

end
-- ==== Proof.SpecFinite.lean ====
import proofs.«421533_j19645180411976_3_alg».proof.Proof.Spec
import Idealize.ShloMosaic.PureOps.Ideal
import Mathlib.Data.EReal.Basic
import Mathlib.Data.EReal.Operations
import Mathlib.Data.Finset.Lattice.Fold
import Mathlib.Algebra.Order.BigOperators.Group.Finset
import Mathlib.Analysis.Complex.Exponential
import Mathlib.Analysis.Real.Sqrt

noncomputable section

open scoped BigOperators

namespace Cert.Spec

open Idealize.ShloMosaic

def IsReal (x : EReal) : Prop := ∃ r : ℝ, x = (r : EReal)

theorem isReal_coe (r : ℝ) : IsReal (r : EReal) := ⟨r, rfl⟩
theorem isReal_zero : IsReal (0 : EReal) := ⟨0, rfl⟩
theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (hb : x ≠ ⊥) (ht : x ≠ ⊤) : IsReal x := by
  induction x using EReal.rec with
  | bot => exact absurd rfl hb
  | coe r => exact ⟨r, rfl⟩
  | top => exact absurd rfl ht

theorem ofBits_512 : Ideal.ofBits .f32 0x44000000#32 = ((512 : ℝ) : EReal) := by
  simp [Ideal.ofBits, Ideal.ieee, -EReal.coe_mul]; norm_num

theorem ofBits_eps_val : Ideal.ofBits .f32 0x3727C5AC#32 = ((10995116 / 2 ^ 40 : ℝ) : EReal) := by
  simp [Ideal.ofBits, Ideal.ieee, -EReal.coe_mul]; norm_num

theorem ofBits_scale_val : Ideal.ofBits .f32 0x3D3504F3#32 = ((11863283 / 2 ^ 28 : ℝ) : EReal) := by
  simp [Ideal.ofBits, Ideal.ieee, -EReal.coe_mul]; norm_num

theorem ofBits_eps : ∃ e : ℝ, 0 < e ∧ Ideal.ofBits .f32 0x3727C5AC#32 = (e : EReal) :=
  ⟨_, by norm_num, ofBits_eps_val⟩

theorem ofBits_scale : ∃ s : ℝ, 0 < s ∧ Ideal.ofBits .f32 0x3D3504F3#32 = (s : EReal) :=
  ⟨_, by norm_num, ofBits_scale_val⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

theorem coe_sum {ι : Type} (s : Finset ι) (p : ι → ℝ) :
    ∑ i ∈ s, ((p i : ℝ) : EReal) = ((∑ i ∈ s, p i : ℝ) : EReal) := by
  induction s using Finset.cons_induction with
  | empty => simp
  | cons a s ha ih => rw [Finset.sum_cons, Finset.sum_cons, ih, EReal.coe_add]

theorem IsReal.sum {ι : Type} (s : Finset ι) (f : ι → EReal) (h : ∀ i ∈ s, IsReal (f i)) :
    IsReal (∑ i ∈ s, f i) := by
  induction s using Finset.cons_induction with
  | empty => exact ⟨0, by simp⟩
  | cons a s ha ih =>
    rw [Finset.sum_cons]
    exact (h a (Finset.mem_cons.2 (Or.inl rfl))).add (ih fun i hi => h i (Finset.mem_cons.2 (Or.inr hi)))

theorem div_coe_coe (a r : ℝ) (hr : r ≠ 0) : Ideal.div (a : EReal) (r : EReal) = ((a / r : ℝ) : EReal) := by
  rw [Ideal.div_coe hr, ← EReal.coe_mul, mul_one_div]

theorem IsReal.div_coe {x : EReal} (hx : IsReal x) {r : ℝ} (hr : r ≠ 0) : IsReal (Ideal.div x (r : EReal)) := by
  obtain ⟨a, rfl⟩ := hx; exact ⟨a / r, div_coe_coe a r hr⟩

theorem IsReal.div {x y : EReal} (hx : IsReal x) (hy : IsReal y) (h0 : y ≠ 0) : IsReal (Ideal.div x y) := by
  obtain ⟨r, rfl⟩ := hy
  exact hx.div_coe fun h => h0 (by rw [h]; rfl)

theorem IsReal.exp {x : EReal} (hx : IsReal x) : IsReal (Ideal.exp x) := by
  obtain ⟨a, rfl⟩ := hx; exact ⟨Real.exp a, Ideal.exp_coe a⟩

theorem rsqrt_pos_real {r : ℝ} (h : 0 < r) : ∃ s : ℝ, 0 < s ∧ Ideal.rsqrt (r : EReal) = (s : EReal) := by
  refine ⟨(Real.sqrt r)⁻¹, inv_pos.2 (Real.sqrt_pos.2 h), ?_⟩
  rw [Ideal.rsqrt_coe, if_neg (not_lt.2 h.le), if_neg h.ne']

section Stages

variable {x h q k v : Act} {b : Fin 4} {t u : Fin 2048}

theorem mean_isReal (hx : ∀ c, IsReal (x b t c)) : IsReal (mean x b t) := by
  unfold mean; rw [ofBits_512]
  exact (IsReal.sum _ _ fun c _ => hx c).div_coe (by norm_num)

theorem var_real (hx : ∀ c, IsReal (x b t c)) : ∃ w : ℝ, 0 ≤ w ∧ var x b t = (w : EReal) := by
  obtain ⟨m, hm⟩ := mean_isReal hx
  choose a ha using hx
  have e : ∀ c : Fin 512,
      (x b t c - mean x b t) * (x b t c - mean x b t) = (((a c - m) * (a c - m) : ℝ) : EReal) := fun c => by
    rw [ha c, hm, ← EReal.coe_sub, ← EReal.coe_mul]
  refine ⟨(∑ c : Fin 512, (a c - m) * (a c - m)) / 512,
    div_nonneg (Finset.sum_nonneg fun c _ => mul_self_nonneg _) (by norm_num), ?_⟩
  unfold var
  rw [Finset.sum_congr rfl (fun c _ => e c), coe_sum, ofBits_512, div_coe_coe _ _ (by norm_num)]

theorem lnScale_real (hx : ∀ c, IsReal (x b t c)) :
    ∃ s : ℝ, 0 < s ∧ Ideal.rsqrt (var x b t + Ideal.ofBits .f32 0x3727C5AC#32) = (s : EReal) := by
  obtain ⟨w, hw0, hw⟩ := var_real hx
  obtain ⟨e, he0, he⟩ := ofBits_eps
  rw [hw, he, ← EReal.coe_add]
  exact rsqrt_pos_real (by linarith)

theorem ln_isReal {g β : Fin 512 → EReal} (hx : ∀ c, IsReal (x b t c)) (hg : ∀ c, IsReal (g c))
    (hβ : ∀ c, IsReal (β c)) (c : Fin 512) : IsReal (ln x g β b t c) := by
  obtain ⟨s, _, hs⟩ := lnScale_real hx
  show IsReal (((x b t c - mean x b t) * Ideal.rsqrt (var x b t + Ideal.ofBits .f32 0x3727C5AC#32)) * g c + β c)
  rw [hs]
  exact ((((hx c).sub (mean_isReal hx)).mul (isReal_coe s)).mul (hg c)).add (hβ c)

theorem proj_isReal {W : Fin 512 → Fin 512 → EReal} (hh : ∀ c, IsReal (h b t c)) (hW : ∀ d c, IsReal (W d c))
    (d : Fin 512) : IsReal (proj h W b t d) :=
  IsReal.sum _ _ fun c _ => (hh c).mul (hW d c)

theorem score_isReal (hq : ∀ d, IsReal (q b t d)) (hk : ∀ d, IsReal (k b u d)) : IsReal (score q k b t u) := by
  obtain ⟨s, _, hs⟩ := ofBits_scale
  unfold score; rw [hs]
  exact (IsReal.sum _ _ fun d _ => (hq d).mul (hk d)).mul (isReal_coe s)

theorem masked_of_le (hu : u.val ≤ t.val) : masked q k b t u = score q k b t u := if_pos hu

theorem masked_of_lt (hu : t.val < u.val) : masked q k b t u = ⊥ := if_neg (not_le.2 hu)

theorem masked_isReal_of_le (hq : ∀ d, IsReal (q b t d)) (hk : ∀ d, IsReal (k b u d)) (hu : u.val ≤ t.val) :
    IsReal (masked q k b t u) := by
  rw [masked_of_le hu]; exact score_isReal hq hk

theorem masked_ne_top (hq : ∀ d, IsReal (q b t d)) (hk : ∀ d, IsReal (k b u d)) : masked q k b t u ≠ ⊤ := by
  by_cases hu : u.val ≤ t.val
  · exact (masked_isReal_of_le hq hk hu).ne_top
  · rw [masked_of_lt (not_le.1 hu)]; exact bot_ne_top

theorem masked_zero_isReal (hq : ∀ d, IsReal (q b t d)) (hk : ∀ d, IsReal (k b ⟨0, by norm_num⟩ d)) :
    IsReal (masked q k b t ⟨0, by norm_num⟩) :=
  masked_isReal_of_le hq hk (Nat.zero_le _)

theorem rowMax_eq_sup : rowMax q k b t = Finset.univ.sup (fun u => masked q k b t u) := rfl

theorem masked_le_rowMax (u : Fin 2048) : masked q k b t u ≤ rowMax q k b t :=
  Finset.le_sup (f := fun u => masked q k b t u) (Finset.mem_univ u)

theorem rowMax_attained : ∃ u : Fin 2048, rowMax q k b t = masked q k b t u := by
  obtain ⟨u, _, hu⟩ := Finset.exists_mem_eq_sup Finset.univ ⟨(⟨0, by norm_num⟩ : Fin 2048), Finset.mem_univ _⟩
    (fun u => masked q k b t u)
  exact ⟨u, hu⟩

theorem rowMax_isReal (hq : ∀ d, IsReal (q b t d)) (hk : ∀ u d, IsReal (k b u d)) : IsReal (rowMax q k b t) := by
  refine isReal_of_ne (fun hbot => ?_) (fun htop => ?_)
  · have hle := masked_le_rowMax (q := q) (k := k) (b := b) (t := t) ⟨0, by norm_num⟩
    rw [hbot, le_bot_iff] at hle
    exact (masked_zero_isReal hq (hk _)).ne_bot hle
  · have hlt : rowMax q k b t < ⊤ := by
      rw [rowMax_eq_sup]
      exact (Finset.sup_lt_iff bot_lt_top).2 fun u _ => lt_top_iff_ne_top.2 (masked_ne_top hq (hk u))
    exact hlt.ne htop

theorem pRef_real (hq : ∀ d, IsReal (q b t d)) (hk : ∀ u d, IsReal (k b u d)) (u : Fin 2048) :
    ∃ p : ℝ, 0 ≤ p ∧ p ≤ 1 ∧ pRef q k b t u = (p : EReal) := by
  obtain ⟨M, hM⟩ := rowMax_isReal hq hk
  by_cases hu : u.val ≤ t.val
  · obtain ⟨s, hs⟩ := masked_isReal_of_le hq (hk u) hu
    have hle : s ≤ M := by
      have := masked_le_rowMax (q := q) (k := k) (b := b) (t := t) u
      rw [hs, hM] at this; exact EReal.coe_le_coe_iff.1 this
    refine ⟨Real.exp (s - M), (Real.exp_pos _).le, Real.exp_le_one_iff.2 (by linarith), ?_⟩
    unfold pRef; rw [hs, hM, ← EReal.coe_sub, Ideal.exp_coe]
  · refine ⟨0, le_rfl, zero_le_one, ?_⟩
    unfold pRef; rw [masked_of_lt (not_le.1 hu), EReal.bot_sub, Ideal.exp_bot]; rfl

theorem lRef_real (hq : ∀ d, IsReal (q b t d)) (hk : ∀ u d, IsReal (k b u d)) :
    ∃ L : ℝ, 1 ≤ L ∧ lRef q k b t = (L : EReal) := by
  choose p hp0 _ hp using pRef_real (b := b) (t := t) hq hk
  refine ⟨∑ u, p u, ?_, ?_⟩
  · obtain ⟨u, hu⟩ := rowMax_attained (q := q) (k := k) (b := b) (t := t)
    obtain ⟨M, hM⟩ := rowMax_isReal hq hk
    have h1 : p u = 1 := by
      have e := hp u
      unfold pRef at e
      rw [← hu, hM, ← EReal.coe_sub, sub_self, Ideal.exp_coe, Real.exp_zero] at e
      exact (EReal.coe_eq_coe_iff.1 e).symm
    calc (1 : ℝ) = p u := h1.symm
      _ ≤ ∑ u, p u := Finset.single_le_sum (fun i _ => hp0 i) (Finset.mem_univ u)
  · unfold lRef
    rw [Finset.sum_congr rfl (fun u _ => hp u), coe_sum]

theorem attRef_isReal (hq : ∀ d, IsReal (q b t d)) (hk : ∀ u d, IsReal (k b u d)) (hv : ∀ u d, IsReal (v b u d))
    (d : Fin 512) : IsReal (attRef q k v b t d) := by
  obtain ⟨L, hL1, hL⟩ := lRef_real hq hk
  refine IsReal.sum _ _ fun u _ => ?_
  obtain ⟨p, _, _, hp⟩ := pRef_real hq hk u
  show IsReal (Ideal.div (pRef q k b t u) (lRef q k b t) * v b u d)
  rw [hL, hp]
  exact ((isReal_coe p).div_coe (by linarith)).mul (hv u d)

theorem ffn_isReal {W1 : Fin 2048 → Fin 512 → EReal} {b1 : Fin 2048 → EReal} (hh : ∀ c, IsReal (h b t c))
    (hW : ∀ f c, IsReal (W1 f c)) (hb : ∀ f, IsReal (b1 f)) (f : Fin 2048) : IsReal (ffn h W1 b1 b t f) :=
  ((IsReal.sum _ _ fun c _ => (hh c).mul (hW f c)).add (hb f)).max isReal_zero

theorem ffnOut_isReal {ff : Fin 4 → Fin 2048 → Fin 2048 → EReal} {W2 : Fin 512 → Fin 2048 → EReal}
    {b2 : Fin 512 → EReal} (hx : ∀ c, IsReal (x b t c)) (hff : ∀ f, IsReal (ff b t f)) (hW : ∀ c f, IsReal (W2 c f))
    (hb : ∀ c, IsReal (b2 c)) (c : Fin 512) : IsReal (ffnOut x ff W2 b2 b t c) :=
  ((hx c).add (IsReal.sum _ _ fun f _ => (hff f).mul (hW c f))).add (hb c)

theorem head_isReal {Wlm : Fin 32000 → Fin 512 → EReal} {blm : Fin 32000 → EReal} (hx : ∀ c, IsReal (x b t c))
    (hW : ∀ w c, IsReal (Wlm w c)) (hb : ∀ w, IsReal (blm w)) (w : Fin 32000) : IsReal (head x Wlm blm b t w) :=
  (IsReal.sum _ _ fun c _ => (hx c).mul (hW w c)).add (hb w)

end Stages

structure Params.Real (P : Params) : Prop where
  x0 : ∀ b t c, IsReal (P.x0 b t c)
  g1 : ∀ c, IsReal (P.g1 c)
  β1 : ∀ c, IsReal (P.β1 c)
  g2 : ∀ c, IsReal (P.g2 c)
  β2 : ∀ c, IsReal (P.β2 c)
  Wq : ∀ d c, IsReal (P.Wq d c)
  Wk : ∀ d c, IsReal (P.Wk d c)
  Wv : ∀ d c, IsReal (P.Wv d c)
  W1 : ∀ f c, IsReal (P.W1 f c)
  b1 : ∀ f, IsReal (P.b1 f)
  W2 : ∀ c f, IsReal (P.W2 c f)
  b2 : ∀ c, IsReal (P.b2 c)
  Wlm : ∀ w c, IsReal (P.Wlm w c)
  blm : ∀ w, IsReal (P.blm w)

section Network

variable {P : Params} (hP : P.Real)
include hP

theorem h1_isReal (b : Fin 4) (t : Fin 2048) (c : Fin 512) : IsReal (h1 P b t c) :=
  ln_isReal (hP.x0 b t) hP.g1 hP.β1 c

theorem qP_isReal (b : Fin 4) (t : Fin 2048) (d : Fin 512) : IsReal (qP P b t d) :=
  proj_isReal (h1_isReal hP b t) hP.Wq d

theorem kP_isReal (b : Fin 4) (t : Fin 2048) (d : Fin 512) : IsReal (kP P b t d) :=
  proj_isReal (h1_isReal hP b t) hP.Wk d

theorem vP_isReal (b : Fin 4) (t : Fin 2048) (d : Fin 512) : IsReal (vP P b t d) :=
  proj_isReal (h1_isReal hP b t) hP.Wv d

theorem x1_isReal (b : Fin 4) (t : Fin 2048) (c : Fin 512) : IsReal (x1 P b t c) :=
  (hP.x0 b t c).add (attRef_isReal (qP_isReal hP b t) (fun u => kP_isReal hP b u) (fun u => vP_isReal hP b u) c)

theorem h2_isReal (b : Fin 4) (t : Fin 2048) (c : Fin 512) : IsReal (h2 P b t c) :=
  ln_isReal (x1_isReal hP b t) hP.g2 hP.β2 c

theorem ff_isReal (b : Fin 4) (t : Fin 2048) (f : Fin 2048) : IsReal (ff P b t f) :=
  ffn_isReal (h2_isReal hP b t) hP.W1 hP.b1 f

theorem x2_isReal (b : Fin 4) (t : Fin 2048) (c : Fin 512) : IsReal (x2 P b t c) :=
  ffnOut_isReal (x1_isReal hP b t) (ff_isReal hP b t) hP.W2 hP.b2 c

theorem logits3_isReal (b : Fin 4) (t : Fin 2048) (w : Fin 32000) : IsReal (logits3 P b t w) :=
  head_isReal (x2_isReal hP b t) hP.Wlm hP.blm w

theorem logits_isReal (r : Fin 8192) (w : Fin 32000) : IsReal (logits P r w) :=
  logits3_isReal hP (rowB r) (rowT r) w

end Network

end Cert.Spec

end
-- ==== Proof.PreFacts.lean ====
import proofs.«421533_j19645180411976_3_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Cert.Pre_finite_inputs

instance : Subsingleton S_.Idx := ⟨fun a b => funext fun d => d.elim0⟩

theorem real_of_abs_lt_inf (x : EReal)
    (h : Ideal.cmp .olt (max x (-x)) (Ideal.ofBits .f32 0x7F800000#32) = 1#1) : ∃ r : ℝ, x = (r : EReal) := by

  have htop : Ideal.ofBits .f32 0x7F800000#32 = (⊤ : EReal) := by simp [Ideal.ofBits, Ideal.ieee]
  rw [htop] at h
  have hlt : max x (-x) < (⊤ : EReal) := by
    simpa only [Ideal.cmp, StableHlo.Predicate.ofBool_eq_one_iff, decide_eq_true_eq] using h
  induction x using EReal.rec with
  | bot => exact absurd hlt (by simp)
  | coe r => exact ⟨r, rfl⟩
  | top => exact absurd hlt (by simp)

theorem allReal_of_reduce {s : Shape} {axes : List (Fin s.rank)} (x : FVec Ideal s .f32)
    (hb : S_.BroadcastsInDim s (![] : Fin 0 → Fin s.rank)) (hr : s.ReducesTo axes S_) (hS : 0 < S_.numel)
    (h : Host.reduce IntOp.andi
          (cmpf .olt (Host.absf x) (broadcastInDim s ![] hb (constant (F := Ideal) S_ .f32 0x7F800000#32)))
          (constantI S_ 1 1#1) hr hS ValueIdx.ix0 = 1#1) :
    ∀ i : s.Idx, ∃ r : ℝ, x i = (r : EReal) := fun i =>

  real_of_abs_lt_inf (x i) (Host.reduce_andi_all _ _ hr hS _ h i)

theorem range_of_reduce {s : Shape} {axes : List (Fin s.rank)} (x : IVec s 32)
    (hb : S_.BroadcastsInDim s (![] : Fin 0 → Fin s.rank)) (hr : s.ReducesTo axes S_) (hS : 0 < S_.numel)
    (h0 : Host.reduce IntOp.andi (cmpi .sge x (broadcastInDim s ![] hb (constantI S_ 32 0#32)))
          (constantI S_ 1 1#1) hr hS ValueIdx.ix0 = 1#1)
    (h1 : Host.reduce IntOp.andi (cmpi .slt x (broadcastInDim s ![] hb (constantI S_ 32 32000#32)))
          (constantI S_ 1 1#1) hr hS ValueIdx.ix0 = 1#1) :
    ∀ i : s.Idx, 0 ≤ (x i).toInt ∧ (x i).toInt < 32000 := fun i => by
  have e0 : IntOp.cmpi .sge (x i) 0#32 = 1#1 := Host.reduce_andi_all _ _ hr hS _ h0 i
  have e1 : IntOp.cmpi .slt (x i) 32000#32 = 1#1 := Host.reduce_andi_all _ _ hr hS _ h1 i
  rw [IntOp.cmpi_sge, show (0#32 : BitVec 32).toInt = 0 from by decide] at e0
  rw [IntOp.cmpi_slt, show (32000#32 : BitVec 32).toInt = 32000 from by decide] at e1
  exact ⟨e0, e1⟩

theorem andi_ix0 {x y : IVec S_ 1} (h : andi x y ValueIdx.ix0 = 1#1) :
    x ValueIdx.ix0 = 1#1 ∧ y ValueIdx.ix0 = 1#1 := IntOp.andi_eq_one.1 h

structure InputFacts (a1 : IVec S4x2048 32) (a2 : FVec Ideal S32000x512 .f32) (a3 : FVec Ideal S2048x512 .f32) (a4 : FVec Ideal S512x512 .f32) (a5 : FVec Ideal S512x512 .f32) (a6 : FVec Ideal S512x512 .f32) (a7 : FVec Ideal S2048x512 .f32) (a8 : FVec Ideal S2048 .f32) (a9 : FVec Ideal S512x2048 .f32) (a10 : FVec Ideal S512 .f32) (a11 : FVec Ideal S512 .f32) (a12 : FVec Ideal S512 .f32) (a13 : FVec Ideal S512 .f32) (a14 : FVec Ideal S512 .f32) (a15 : FVec Ideal S32000x512 .f32) (a16 : FVec Ideal S32000 .f32) : Prop where

  real2 : ∀ i : S32000x512.Idx, ∃ r : ℝ, a2 i = (r : EReal)

  real3 : ∀ i : S2048x512.Idx, ∃ r : ℝ, a3 i = (r : EReal)

  real4 : ∀ i : S512x512.Idx, ∃ r : ℝ, a4 i = (r : EReal)

  real5 : ∀ i : S512x512.Idx, ∃ r : ℝ, a5 i = (r : EReal)

  real6 : ∀ i : S512x512.Idx, ∃ r : ℝ, a6 i = (r : EReal)

  real7 : ∀ i : S2048x512.Idx, ∃ r : ℝ, a7 i = (r : EReal)

  real8 : ∀ i : S2048.Idx, ∃ r : ℝ, a8 i = (r : EReal)

  real9 : ∀ i : S512x2048.Idx, ∃ r : ℝ, a9 i = (r : EReal)

  real10 : ∀ i : S512.Idx, ∃ r : ℝ, a10 i = (r : EReal)

  real11 : ∀ i : S512.Idx, ∃ r : ℝ, a11 i = (r : EReal)

  real12 : ∀ i : S512.Idx, ∃ r : ℝ, a12 i = (r : EReal)

  real13 : ∀ i : S512.Idx, ∃ r : ℝ, a13 i = (r : EReal)

  real14 : ∀ i : S512.Idx, ∃ r : ℝ, a14 i = (r : EReal)

  real15 : ∀ i : S32000x512.Idx, ∃ r : ℝ, a15 i = (r : EReal)

  real16 : ∀ i : S32000.Idx, ∃ r : ℝ, a16 i = (r : EReal)

  tgt : ∀ i : S4x2048.Idx, 0 ≤ (a1 i).toInt ∧ (a1 i).toInt < 32000

theorem InputFacts.tgt_toNat {a1 : IVec S4x2048 32} {a2 a3 a4 a5 a6 a7 a8 a9 a10 a11 a12 a13 a14 a15 a16 : _}
    (H : InputFacts a1 a2 a3 a4 a5 a6 a7 a8 a9 a10 a11 a12 a13 a14 a15 a16) (i : S4x2048.Idx) : (a1 i).toNat < 32000 ∧ (a1 i).toInt = ((a1 i).toNat : Int) := by
  obtain ⟨h0, h1⟩ := H.tgt i
  have hlt := (a1 i).isLt
  rw [BitVec.toInt_eq_toNat_cond] at h0 h1
  split at h0 <;> rename_i hc
  · rw [BitVec.toInt_eq_toNat_cond, if_pos hc]; exact ⟨by omega, rfl⟩
  · exfalso; omega

theorem of_pre [Facts] (a0 a1 : IVec S4x2048 32) (a2 : FVec Ideal S32000x512 .f32) (a3 : FVec Ideal S2048x512 .f32) (a4 : FVec Ideal S512x512 .f32) (a5 : FVec Ideal S512x512 .f32) (a6 : FVec Ideal S512x512 .f32) (a7 : FVec Ideal S2048x512 .f32) (a8 : FVec Ideal S2048 .f32) (a9 : FVec Ideal S512x2048 .f32) (a10 : FVec Ideal S512 .f32) (a11 : FVec Ideal S512 .f32) (a12 : FVec Ideal S512 .f32) (a13 : FVec Ideal S512 .f32) (a14 : FVec Ideal S512 .f32) (a15 : FVec Ideal S32000x512 .f32) (a16 : FVec Ideal S32000 .f32)
    (h : fn (F := Ideal) a0 a1 a2 a3 a4 a5 a6 a7 a8 a9 a10 a11 a12 a13 a14 a15 a16 = (fun _ => 1#1)) : InputFacts a1 a2 a3 a4 a5 a6 a7 a8 a9 a10 a11 a12 a13 a14 a15 a16 := by

  have h := congrFun h ValueIdx.ix0
  dsimp only [fn, fn_part1, fn_part2, fn_part3, fn_part4] at h

  obtain ⟨h, t1⟩ := andi_ix0 h
  obtain ⟨h, t0⟩ := andi_ix0 h
  obtain ⟨h, c16⟩ := andi_ix0 h
  obtain ⟨h, c15⟩ := andi_ix0 h
  obtain ⟨h, c14⟩ := andi_ix0 h
  obtain ⟨h, c13⟩ := andi_ix0 h
  obtain ⟨h, c12⟩ := andi_ix0 h
  obtain ⟨h, c11⟩ := andi_ix0 h
  obtain ⟨h, c10⟩ := andi_ix0 h
  obtain ⟨h, c9⟩ := andi_ix0 h
  obtain ⟨h, c8⟩ := andi_ix0 h
  obtain ⟨h, c7⟩ := andi_ix0 h
  obtain ⟨h, c6⟩ := andi_ix0 h
  obtain ⟨h, c5⟩ := andi_ix0 h
  obtain ⟨h, c4⟩ := andi_ix0 h
  obtain ⟨c2, c3⟩ := andi_ix0 h
  exact
    { real2 := allReal_of_reduce a2 _ _ _ c2
      real3 := allReal_of_reduce a3 _ _ _ c3
      real4 := allReal_of_reduce a4 _ _ _ c4
      real5 := allReal_of_reduce a5 _ _ _ c5
      real6 := allReal_of_reduce a6 _ _ _ c6
      real7 := allReal_of_reduce a7 _ _ _ c7
      real8 := allReal_of_reduce a8 _ _ _ c8
      real9 := allReal_of_reduce a9 _ _ _ c9
      real10 := allReal_of_reduce a10 _ _ _ c10
      real11 := allReal_of_reduce a11 _ _ _ c11
      real12 := allReal_of_reduce a12 _ _ _ c12
      real13 := allReal_of_reduce a13 _ _ _ c13
      real14 := allReal_of_reduce a14 _ _ _ c14
      real15 := allReal_of_reduce a15 _ _ _ c15
      real16 := allReal_of_reduce a16 _ _ _ c16
      tgt := range_of_reduce a1 _ _ _ t0 t1 }

end Cert.PreFacts

end
-- ==== Proof.KI.ParamsK.lean ====
import proofs.«421533_j19645180411976_3_alg».proof.Proof.Spec
import proofs.«421533_j19645180411976_3_alg».proof.Proof.SpecFinite
import proofs.«421533_j19645180411976_3_alg».proof.Proof.PreFacts
import proofs.«421533_j19645180411976_3_alg».proof.Proof.KI.ValIdx
import proofs.«421533_j19645180411976_3_alg».proof.Proof.Gen.KernelIdeal.Launch

noncomputable section

namespace Cert.KernelIdeal.Val

open Cert.KernelIdeal Cert.Spec Idealize.ShloMosaic Idealize.ShloMosaic.ValueIdx Idealize.SL.Sem

variable (m : (ℓ : Loc nD τ sig) → Buf (Elt Ideal) ℓ) (c : Dev nD)

def embK : Spec.Act :=
  actOf3 (StableHlo.after (Cert.KernelIdeal.Gen.hostOps0 (F := Ideal)) (fun b => m (c, b)) (Proc.devRef .tc main_v9))

def parK : Spec.Params :=
  { x0 := embK m c
    g1 := vecOf (m ((c.tc : Thread nD τ).loc main_arg11))
    β1 := vecOf (m ((c.tc : Thread nD τ).loc main_arg12))
    g2 := vecOf (m ((c.tc : Thread nD τ).loc main_arg13))
    β2 := vecOf (m ((c.tc : Thread nD τ).loc main_arg14))
    Wq := matOf (m ((c.tc : Thread nD τ).loc main_arg5))
    Wk := matOf (m ((c.tc : Thread nD τ).loc main_arg4))
    Wv := matOf (m ((c.tc : Thread nD τ).loc main_arg6))
    W1 := matOf (m ((c.tc : Thread nD τ).loc main_arg7))
    b1 := vecOf (m ((c.tc : Thread nD τ).loc main_arg8))
    W2 := matOf (m ((c.tc : Thread nD τ).loc main_arg9))
    b2 := vecOf (m ((c.tc : Thread nD τ).loc main_arg10))
    Wlm := matOf (m ((c.tc : Thread nD τ).loc main_arg15))
    blm := vecOf (m ((c.tc : Thread nD τ).loc main_arg16)) }

def tgtK : Fin 8192 → Fin 32000 := fun r =>
  ⟨((m ((c.tc : Thread nD τ).loc main_arg1)) (ix2 (Spec.rowB r) (Spec.rowT r))).toNat % 32000, Nat.mod_lt _ (by norm_num)⟩

theorem tgtK_val (H : Cert.PreFacts.InputFacts (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) (r : Fin 8192) :
    ((tgtK m c r).val : ℤ) = ((m ((c.tc : Thread nD τ).loc main_arg1)) (ix2 (Spec.rowB r) (Spec.rowT r))).toInt
      ∧ (tgtK m c r).val = ((m ((c.tc : Thread nD τ).loc main_arg1)) (ix2 (Spec.rowB r) (Spec.rowT r))).toNat := by
  obtain ⟨hlt, hint⟩ := H.tgt_toNat (ix2 (Spec.rowB r) (Spec.rowT r))

  have hv : (tgtK m c r).val = ((m ((c.tc : Thread nD τ).loc main_arg1)) (ix2 (Spec.rowB r) (Spec.rowT r))).toNat :=
    Nat.mod_eq_of_lt hlt
  exact ⟨by rw [hv, hint], hv⟩

theorem parK_real (H : Cert.PreFacts.InputFacts (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
    (hemb : ∀ b t c', Spec.IsReal (embK m c b t c')) : (parK m c).Real :=
  { x0 := hemb
    g1 := fun i => H.real11 (ix1 i)
    β1 := fun i => H.real12 (ix1 i)
    g2 := fun i => H.real13 (ix1 i)
    β2 := fun i => H.real14 (ix1 i)
    Wq := fun d c' => H.real5 (ix2 d c')
    Wk := fun d c' => H.real4 (ix2 d c')
    Wv := fun d c' => H.real6 (ix2 d c')
    W1 := fun f c' => H.real7 (ix2 f c')
    b1 := fun f => H.real8 (ix1 f)
    W2 := fun c' f => H.real9 (ix2 c' f)
    b2 := fun c' => H.real10 (ix1 c')
    Wlm := fun w c' => H.real15 (ix2 w c')
    blm := fun w => H.real16 (ix1 w) }

end Cert.KernelIdeal.Val

end
-- ==== Proof.KI.Chain.lean ====
import proofs.«421533_j19645180411976_3_alg».proof.Proof.KI.Run
import proofs.«421533_j19645180411976_3_alg».proof.Proof.KI.GlueHost
import proofs.«421533_j19645180411976_3_alg».proof.Proof.KI.Val0
import proofs.«421533_j19645180411976_3_alg».proof.Proof.KI.Val1
import proofs.«421533_j19645180411976_3_alg».proof.Proof.KI.Val2
import proofs.«421533_j19645180411976_3_alg».proof.Proof.KI.Val3
import proofs.«421533_j19645180411976_3_alg».proof.Proof.KI.ParamsK
import proofs.«421533_j19645180411976_3_alg».proof.Proof.SpecFinite
import proofs.«421533_j19645180411976_3_alg».proof.Proof.PreFacts

set_option maxRecDepth 16384

noncomputable section

open scoped BigOperators

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

theorem W1_arg (r : Ref sig .tc) (h0 : r ∉ hostOps0_W) :
    W1 m ρ c (Proc.devRef .tc r) = m ((c : Thread nD τ).loc r) :=
  (W1_of m ρ c r h0).trans rfl

theorem W2_arg (r : Ref sig .tc) (h0 : r ∉ hostOps0_W)
    (g0 : ∀ w, Pipeline.arrRef spec0 w = r → (cfg0.win w).isOut = false) :
    W2 m ρ c (Proc.devRef .tc r) = m ((c : Thread nD τ).loc r) :=
  (W2_of_in m ρ c r g0).trans (W1_arg m ρ c r h0)

theorem W3_arg (r : Ref sig .tc) (h0 : r ∉ hostOps0_W)
    (g0 : ∀ w, Pipeline.arrRef spec0 w = r → (cfg0.win w).isOut = false) (h1 : r ∉ hostOps1_W) :
    W3 m ρ c (Proc.devRef .tc r) = m ((c : Thread nD τ).loc r) :=
  (W3_of m ρ c r h1).trans (W2_arg m ρ c r h0 g0)

theorem W4_arg (r : Ref sig .tc) (h0 : r ∉ hostOps0_W)
    (g0 : ∀ w, Pipeline.arrRef spec0 w = r → (cfg0.win w).isOut = false) (h1 : r ∉ hostOps1_W)
    (g1 : ∀ w, Pipeline.arrRef spec1 w = r → (cfg1.win w).isOut = false) :
    W4 m ρ c (Proc.devRef .tc r) = m ((c : Thread nD τ).loc r) :=
  (W4_of_in m ρ c r g1).trans (W3_arg m ρ c r h0 g0 h1)

theorem W5_arg (r : Ref sig .tc) (h0 : r ∉ hostOps0_W)
    (g0 : ∀ w, Pipeline.arrRef spec0 w = r → (cfg0.win w).isOut = false) (h1 : r ∉ hostOps1_W)
    (g1 : ∀ w, Pipeline.arrRef spec1 w = r → (cfg1.win w).isOut = false) (h2 : r ∉ hostOps2_W) :
    W5 m ρ c (Proc.devRef .tc r) = m ((c : Thread nD τ).loc r) :=
  (W5_of m ρ c r h2).trans (W4_arg m ρ c r h0 g0 h1 g1)

theorem W6_arg (r : Ref sig .tc) (h0 : r ∉ hostOps0_W)
    (g0 : ∀ w, Pipeline.arrRef spec0 w = r → (cfg0.win w).isOut = false) (h1 : r ∉ hostOps1_W)
    (g1 : ∀ w, Pipeline.arrRef spec1 w = r → (cfg1.win w).isOut = false) (h2 : r ∉ hostOps2_W)
    (g2 : ∀ w, Pipeline.arrRef spec2 w = r → (cfg2.win w).isOut = false) :
    W6 m ρ c (Proc.devRef .tc r) = m ((c : Thread nD τ).loc r) :=
  (W6_of_in m ρ c r g2).trans (W5_arg m ρ c r h0 g0 h1 g1 h2)

theorem embK_real (H : Cert.PreFacts.InputFacts (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) (b : Fin 4) (t : Fin 2048) (c' : Fin 512) : Spec.IsReal (embK m c b t c') :=
  host0_v9_real (fun b => m (c, b)) H.real2 H.real3 (ix3 b t c')

theorem parK_Real (H : Cert.PreFacts.InputFacts (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) : (parK m c).Real :=
  parK_real m c H (embK_real m c H)

theorem in0_x : actOfFlat (xArr0 (V1 m ρ) c) = (parK m c).x0 := by
  funext b t d
  have h := host0_v10 (W0 m ρ c) (flatRow b t) d
  rw [show hRowB (flatRow b t) = b from rowB_flatRow b t, show hRowT (flatRow b t) = t from rowT_flatRow b t] at h
  exact h

theorem in0_g : vecOf (gArr0 (V1 m ρ) c) = (parK m c).g1 := by
  funext i
  exact congrFun (W1_arg m ρ c main_arg11 (by decide)) (ix1 i)

theorem in0_b : vecOf (bArr0 (V1 m ρ) c) = (parK m c).β1 := by
  funext i
  exact congrFun (W1_arg m ρ c main_arg12 (by decide)) (ix1 i)

theorem in0_wq (h : 0 + 512 ≤ 1536) : colsOfT (wArr0 (V1 m ρ) c) 0 h = (parK m c).Wq := by
  funext d c'
  show (V1 m ρ c main_v15 : S512x1536.Idx → EReal) (ix2 c' (⟨0 + d.val, by omega⟩ : Fin 1536))
    = (m ((c.tc : Thread nD τ).loc main_arg5) : S512x512.Idx → EReal) (ix2 d c')
  rw [show (ix2 c' (⟨0 + d.val, by omega⟩ : Fin 1536) : S512x1536.Idx) = ix2 c' (⟨d.val, by omega⟩ : Fin 1536) from
    ix2_congr rfl (Nat.zero_add _)]
  exact host0_v15_q (W0 m ρ c) c' d

theorem in0_wk (h : 512 + 512 ≤ 1536) : colsOfT (wArr0 (V1 m ρ) c) 512 h = (parK m c).Wk := by
  funext d c'
  exact host0_v15_k (W0 m ρ c) c' d

theorem in0_wv (h : 1024 + 512 ≤ 1536) : colsOfT (wArr0 (V1 m ρ) c) 1024 h = (parK m c).Wv := by
  funext d c'
  exact host0_v15_v (W0 m ρ c) c' d

theorem reg0_q (r : Fin 8192) (d : Fin 512) :
    (W2 m ρ c (Proc.devRef .tc main_v16_0) : Vec Ideal S8192x512 .bf16) (ix2 r d)
      = Spec.qP (parK m c) (rowB r) (rowT r) d := by
  have e : W2 m ρ c (Proc.devRef .tc main_v16_0) = (dat0 (V1 m ρ) c).arrAt 4 cfg0.N := W2_arr m ρ c 4
  refine (congrFun e (ix2 r d)).trans ((value0_4 (V1 m ρ) c r d).trans ?_)
  rw [in0_x, in0_g, in0_b, in0_wq]
  rfl

theorem reg0_k (r : Fin 8192) (d : Fin 512) :
    (W2 m ρ c (Proc.devRef .tc main_v16_1) : Vec Ideal S8192x512 .bf16) (ix2 r d)
      = Spec.kP (parK m c) (rowB r) (rowT r) d := by
  have e : W2 m ρ c (Proc.devRef .tc main_v16_1) = (dat0 (V1 m ρ) c).arrAt 5 cfg0.N := W2_arr m ρ c 5
  refine (congrFun e (ix2 r d)).trans ((value0_5 (V1 m ρ) c r d).trans ?_)
  rw [in0_x, in0_g, in0_b, in0_wk]
  rfl

theorem reg0_v (r : Fin 8192) (d : Fin 512) :
    (W2 m ρ c (Proc.devRef .tc main_v16_2) : Vec Ideal S8192x512 .bf16) (ix2 r d)
      = Spec.vP (parK m c) (rowB r) (rowT r) d := by
  have e : W2 m ρ c (Proc.devRef .tc main_v16_2) = (dat0 (V1 m ρ) c).arrAt 6 cfg0.N := W2_arr m ρ c 6
  refine (congrFun e (ix2 r d)).trans ((value0_6 (V1 m ρ) c r d).trans ?_)
  rw [in0_x, in0_g, in0_b, in0_wv]
  rfl

theorem in1_x0 (b : Fin 4) (t : Fin 2048) (d : Fin 512) :
    V3 m ρ c main_v9 (ix3 b t d) = (parK m c).x0 b t d := by
  have e : W3 m ρ c (Proc.devRef .tc main_v9) = W1 m ρ c (Proc.devRef .tc main_v9) :=
    (W3_of m ρ c main_v9 (by decide)).trans (W2_of_in m ρ c main_v9 (by decide))
  exact congrFun e (ix3 b t d)

theorem in1_q (b : Fin 4) (t : Fin 2048) (d : Fin 512) :
    V3 m ρ c main_v17 (ix3 b t d) = Spec.qP (parK m c) b t d := by
  refine (host1_v17 (W2 m ρ c) b t d).trans ?_
  have h := reg0_q m ρ c (flatRow b t) d
  rw [rowB_flatRow, rowT_flatRow] at h
  exact h

theorem in1_k (b : Fin 4) (t : Fin 2048) (d : Fin 512) :
    V3 m ρ c main_v18 (ix3 b t d) = Spec.kP (parK m c) b t d := by
  refine (host1_v18 (W2 m ρ c) b t d).trans ?_
  have h := reg0_k m ρ c (flatRow b t) d
  rw [rowB_flatRow, rowT_flatRow] at h
  exact h

theorem in1_v (b : Fin 4) (t : Fin 2048) (d : Fin 512) :
    V3 m ρ c main_v19 (ix3 b t d) = Spec.vP (parK m c) b t d := by
  refine (host1_v19 (W2 m ρ c) b t d).trans ?_
  have h := reg0_v m ρ c (flatRow b t) d
  rw [rowB_flatRow, rowT_flatRow] at h
  exact h

theorem reg1_x1 (H : Cert.PreFacts.InputFacts (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) :
    (W4 m ρ c (Proc.devRef .tc main_v20) : Vec Ideal S4x2048x512 .f32)
      = fun i => Spec.x1 (parK m c) (i 0) (i 1) (i 2) := by
  have hP := parK_Real m c H
  have e : W4 m ρ c (Proc.devRef .tc main_v20) = (dat1 (V3 m ρ) c).arrAt 4 cfg1.N := W4_arr m ρ c 4
  refine e.trans ((val1 (V3 m ρ) c (parK m c).x0 (Spec.qP (parK m c)) (Spec.kP (parK m c)) (Spec.vP (parK m c))
    (in1_x0 m ρ c) (in1_q m ρ c) (in1_k m ρ c) (in1_v m ρ c)
    (fun b t d => ⟨(qP_isReal hP b t d).ne_bot, (qP_isReal hP b t d).ne_top⟩)
    (fun b t d => ⟨(kP_isReal hP b t d).ne_bot, (kP_isReal hP b t d).ne_top⟩)
    (fun b t d => ⟨(vP_isReal hP b t d).ne_bot, (vP_isReal hP b t d).ne_top⟩)).trans ?_)
  rfl

theorem in2_x (H : Cert.PreFacts.InputFacts (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) : actOfFlat (xArr2 (V5 m ρ) c) = Spec.x1 (parK m c) := by
  funext b t d
  have h := host2_v21 (W4 m ρ c) (flatRow b t) d
  rw [show hRowB (flatRow b t) = b from rowB_flatRow b t, show hRowT (flatRow b t) = t from rowT_flatRow b t] at h
  exact h.trans (congrFun (reg1_x1 m ρ c H) (ix3 b t d))

theorem in2_g : vecOf (gArr2 (V5 m ρ) c) = (parK m c).g2 := by
  funext i
  exact congrFun (W5_arg m ρ c main_arg13 (by decide) (by decide) (by decide) (by decide) (by decide)) (ix1 i)

theorem in2_b : vecOf (bArr2 (V5 m ρ) c) = (parK m c).β2 := by
  funext i
  exact congrFun (W5_arg m ρ c main_arg14 (by decide) (by decide) (by decide) (by decide) (by decide)) (ix1 i)

theorem in2_b1 : vecOf (b1Arr2 (V5 m ρ) c) = (parK m c).b1 := by
  funext i
  exact congrFun (W5_arg m ρ c main_arg8 (by decide) (by decide) (by decide) (by decide) (by decide)) (ix1 i)

theorem in2_b2 : vecOf (b2Arr2 (V5 m ρ) c) = (parK m c).b2 := by
  funext i
  exact congrFun (W5_arg m ρ c main_arg10 (by decide) (by decide) (by decide) (by decide) (by decide)) (ix1 i)

theorem in2_w1 : matOfT (w1Arr2 (V5 m ρ) c) = (parK m c).W1 := by
  funext f c'
  refine (host2_v23 (W4 m ρ c) c' f).trans ?_
  exact congrFun (W4_arg m ρ c main_arg7 (by decide) (by decide) (by decide) (by decide)) (ix2 f c')

theorem in2_w2 : matOfT (w2Arr2 (V5 m ρ) c) = (parK m c).W2 := by
  funext c' f
  refine (host2_v25 (W4 m ρ c) f c').trans ?_
  exact congrFun (W4_arg m ρ c main_arg9 (by decide) (by decide) (by decide) (by decide)) (ix2 c' f)

theorem reg2_x2 (H : Cert.PreFacts.InputFacts (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) (r : Fin 8192) (c' : Fin 512) :
    (W6 m ρ c (Proc.devRef .tc main_v26) : Vec Ideal S8192x512 .bf16) (ix2 r c')
      = Spec.x2 (parK m c) (rowB r) (rowT r) c' := by
  have e : W6 m ρ c (Proc.devRef .tc main_v26) = (dat2 (V5 m ρ) c).arrAt 7 cfg2.N := W6_arr m ρ c 7
  refine (congrFun e (ix2 r c')).trans ((value2_7 (V5 m ρ) c r c').trans ?_)
  rw [in2_x m ρ c H, in2_g, in2_b, in2_b1, in2_b2, in2_w1, in2_w2]
  rfl

theorem reg3_LG (H : Cert.PreFacts.InputFacts (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) (R : Fin 8192) (w : Fin 32000) :
    Val3.LG (V7 m ρ) c R w = Spec.logits (parK m c) R w := by
  have hx : ∀ cc : Fin 512, Val3.xarr (V7 m ρ) c (ix2 R cc) = Spec.x2 (parK m c) (rowB R) (rowT R) cc := fun cc => by
    have e : W7 m ρ c (Proc.devRef .tc main_v26) = W6 m ρ c (Proc.devRef .tc main_v26) := W7_of m ρ c main_v26 (by decide)
    exact (congrFun e (ix2 R cc)).trans (reg2_x2 m ρ c H R cc)
  have hw : ∀ cc : Fin 512, Val3.warr (V7 m ρ) c (ix2 cc w) = (parK m c).Wlm w cc := fun cc => by
    refine (host3_v28 (W6 m ρ c) cc w).trans ?_
    exact congrFun (W6_arg m ρ c main_arg15 (by decide) (by decide) (by decide) (by decide) (by decide) (by decide)) (ix2 w cc)
  have hb : Val3.barr (V7 m ρ) c (ix2 0 w) = (parK m c).blm w := by
    refine (host3_v29 (W6 m ρ c) w).trans ?_
    exact congrFun (W6_arg m ρ c main_arg16 (by decide) (by decide) (by decide) (by decide) (by decide) (by decide)) (ix1 w)
  unfold Val3.LG
  rw [hb, Finset.sum_congr rfl (fun cc _ => by rw [hx cc, hw cc])]
  rfl

theorem reg3_tgt (R : Fin 8192) :
    Val3.tarr (V7 m ρ) c (ix2 R 0) = m ((c.tc : Thread nD τ).loc main_arg1) (ix2 (rowB R) (rowT R)) := by
  refine (host3_v30 (W6 m ρ c) R).trans ?_
  exact congrFun (W6_arg m ρ c main_arg1 (by decide) (by decide) (by decide) (by decide) (by decide) (by decide))
    (ix2 (rowB R) (rowT R))

theorem reg3_tgt_lt (H : Cert.PreFacts.InputFacts (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) (R : Fin 8192) : (Val3.tarr (V7 m ρ) c (ix2 R 0)).toNat < 32000 := by
  rw [reg3_tgt]; exact (H.tgt_toNat _).1

theorem kernel_logits (H : Cert.PreFacts.InputFacts (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) :
    (W9 m ρ c (Proc.devRef .tc main_v31_0) : Vec Ideal S8192x32000 .f32)
      = fun i => Spec.logits (parK m c) (i 0) (i 1) := by
  have e9 : W9 m ρ c (Proc.devRef .tc main_v31_0) = W8 m ρ c (Proc.devRef .tc main_v31_0) := W9_of m ρ c main_v31_0 (by decide)
  have e8 : W8 m ρ c (Proc.devRef .tc main_v31_0) = (dat3 (V7 m ρ) c).arrAt 4 cfg3.N := W8_arr m ρ c 4
  refine e9.trans (e8.trans ((Val3.arr3_4 (V7 m ρ) c).trans ?_))
  funext i
  exact reg3_LG m ρ c H (i 0) (i 1)

theorem kernel_loss (H : Cert.PreFacts.InputFacts (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) :
    (W9 m ρ c (Proc.devRef .tc main_v37) : Vec Ideal S_ .f32) = fun _ => Spec.lossRef (parK m c) (tgtK m c) := by
  have hP := parK_Real m c H

  choose y hy using fun (R : Fin 8192) (w : Fin 32000) => logits_isReal hP R w
  have hLG : ∀ R w, Val3.LG (V7 m ρ) c R w = ((y R w : ℝ) : EReal) := fun R w => (reg3_LG m ρ c H R w).trans (hy R w)
  have hLGfun : Val3.LG (V7 m ρ) c = Spec.logits (parK m c) := funext fun R => funext fun w => reg3_LG m ρ c H R w

  have hlse : ∀ r : Fin 8192, (W8 m ρ c (Proc.devRef .tc main_v31_1) : Vec Ideal S8192x1 .f32) (ix2 r (0 : Fin 1))
      = Val3.lse3 (V7 m ρ) c r := fun r => by
    have e8 : W8 m ρ c (Proc.devRef .tc main_v31_1) = (dat3 (V7 m ρ) c).arrAt 5 cfg3.N := W8_arr m ρ c 5
    exact (congrFun (e8.trans (Val3.arr3_5 (V7 m ρ) c y hLG)) (ix2 r 0))

  have htl : ∀ r : Fin 8192, (W8 m ρ c (Proc.devRef .tc main_v31_2) : Vec Ideal S8192x1 .f32) (ix2 r (0 : Fin 1))
      = Val3.LG (V7 m ρ) c r (tgtK m c r) := fun r => by
    have e8 : W8 m ρ c (Proc.devRef .tc main_v31_2) = (dat3 (V7 m ρ) c).arrAt 6 cfg3.N := W8_arr m ρ c 6
    refine (congrFun (e8.trans (Val3.arr3_6 (V7 m ρ) c (reg3_tgt_lt m ρ c H))) (ix2 r 0)).trans ?_
    show (if h : (Val3.tarr (V7 m ρ) c (ix2 r 0)).toNat < 32000 then Val3.LG (V7 m ρ) c r ⟨_, h⟩ else 0) = _
    rw [dif_pos (reg3_tgt_lt m ρ c H r)]
    congr 1
    apply Fin.ext
    show (Val3.tarr (V7 m ρ) c (ix2 r 0)).toNat = (tgtK m c r).val
    rw [reg3_tgt, (tgtK_val m c H r).2]
  funext j
  rw [eq_ix0 j]
  refine (host4_v37_of (W8 m ρ c) _ _ htl hlse).trans ?_
  show _ = Spec.nll (Spec.logits (parK m c)) (tgtK m c)
  unfold Spec.nll
  refine congrArg (fun s : EReal => -(Ideal.div s (Ideal.ofBits .f32 0x46000000#32))) ?_
  refine Finset.sum_congr rfl fun r _ => ?_
  rw [Val3.tl_sub_lse (V7 m ρ) c r (y r) (hLG r) (tgtK m c r), hLGfun]

end Cert.KernelIdeal.Val

end
-- ==== Proof.RefSpec.lean ====
import proofs.«421533_j19645180411976_3_alg».proof.Proof.RefRead
import proofs.«421533_j19645180411976_3_alg».proof.Proof.Spec
import Idealize.ShloMosaic.Lib.StableHlo.Predicate

noncomputable section

namespace Cert.RefSpec

open Cert.ReferenceIdeal Cert.ReferenceIdeal.Gen Cert.ReferenceIdeal.ReadP Idealize.ShloMosaic Idealize.ShloMosaic.ValueIdx
open Idealize.ShloMosaic.StableHlo.Predicate
open scoped BigOperators

theorem ofBits_neg_inf_f32 : Ideal.ofBits .f32 0xFF800000#32 = ⊥ := by simp [Ideal.ofBits, Ideal.ieee]

def rd1 {n : Nat} (y : (⟨1, ![n]⟩ : Shape).Idx → EReal) : Fin n → EReal := fun a => y (ix1 a)
theorem rd1_read {n : Nat} (y : (⟨1, ![n]⟩ : Shape).Idx → EReal) (j : (⟨1, ![n]⟩ : Shape).Idx) : y j = rd1 y (j 0) :=
  congrArg y (eq_ix1 j)

def rd2 {n0 n1 : Nat} (y : (⟨2, ![n0, n1]⟩ : Shape).Idx → EReal) : Fin n0 → Fin n1 → EReal := fun a b => y (ix2 a b)
theorem rd2_read {n0 n1 : Nat} (y : (⟨2, ![n0, n1]⟩ : Shape).Idx → EReal) (j : (⟨2, ![n0, n1]⟩ : Shape).Idx) : y j = rd2 y (j 0) (j 1) :=
  congrArg y (eq_ix2 j)

def rd3 {n0 n1 n2 : Nat} (y : (⟨3, ![n0, n1, n2]⟩ : Shape).Idx → EReal) : Fin n0 → Fin n1 → Fin n2 → EReal := fun a b c => y (ix3 a b c)
theorem rd3_read {n0 n1 n2 : Nat} (y : (⟨3, ![n0, n1, n2]⟩ : Shape).Idx → EReal) (j : (⟨3, ![n0, n1, n2]⟩ : Shape).Idx) :
    y j = rd3 y (j 0) (j 1) (j 2) :=
  congrArg y (eq_ix3 j)

variable (x0 x1 : (⟨S4x2048, .i32⟩ : BufTy).Contents (Elt Ideal)) (x2 : (⟨S32000x512, .f32⟩ : BufTy).Contents (Elt Ideal))
  (x3 : (⟨S2048x512, .f32⟩ : BufTy).Contents (Elt Ideal)) (x4 x5 x6 : (⟨S512x512, .f32⟩ : BufTy).Contents (Elt Ideal))
  (x7 : (⟨S2048x512, .f32⟩ : BufTy).Contents (Elt Ideal)) (x8 : (⟨S2048, .f32⟩ : BufTy).Contents (Elt Ideal))
  (x9 : (⟨S512x2048, .f32⟩ : BufTy).Contents (Elt Ideal)) (x10 x11 x12 x13 x14 : (⟨S512, .f32⟩ : BufTy).Contents (Elt Ideal))
  (x15 : (⟨S32000x512, .f32⟩ : BufTy).Contents (Elt Ideal)) (x16 : (⟨S32000, .f32⟩ : BufTy).Contents (Elt Ideal))

def X0 : Spec.Act := rd3 (val_main_v9 (F := Ideal) x0 x2 x3)
theorem X0_read (j : S4x2048x512.Idx) : (val_main_v9 (F := Ideal) x0 x2 x3) j = X0 x0 x2 x3 (j 0) (j 1) (j 2) :=
  rd3_read (val_main_v9 (F := Ideal) x0 x2 x3) j

def par : Spec.Params where
  x0 := X0 x0 x2 x3
  g1 := rd1 x11
  β1 := rd1 x12
  g2 := rd1 x13
  β2 := rd1 x14
  Wq := rd2 x5
  Wk := rd2 x4
  Wv := rd2 x6
  W1 := rd2 x7
  b1 := rd1 x8
  W2 := rd2 x9
  b2 := rd1 x10
  Wlm := rd2 x15
  blm := rd1 x16

local notation "𝒫" => par x0 x2 x3 x4 x5 x6 x7 x8 x9 x10 x11 x12 x13 x14 x15 x16

theorem mean1 (j : S4x2048x1.Idx) : (val_main_v13 (F := Ideal) x0 x2 x3) j = Spec.mean (X0 x0 x2 x3) (j 0) (j 1) := by
  rw [val_main_v13_apply, val_main_v11_apply, val_main_v10_apply, val_main_v12_apply, val_main_cst_1_apply, val_main_cst_apply]
  simp only [X0_read, Ideal.hostDivf_def, Ideal.ofBits_def, Ideal.ofBits_zero_f32, zero_add]
  rfl

theorem var1 (j : S4x2048x1.Idx) : (val_main_v20 (F := Ideal) x0 x2 x3) j = Spec.var (X0 x0 x2 x3) (j 0) (j 1) := by
  rw [val_main_v20_apply, val_main_v18_apply, val_main_v17_apply, val_main_v19_apply, val_main_cst_3_apply, val_main_cst_2_apply]
  simp only [val_main_v16_apply, val_main_v15_apply, val_main_v14_apply, mean1, X0_read, Ideal.mulf_def, Ideal.subf_def,
    Ideal.hostDivf_def, Ideal.ofBits_def, Ideal.ofBits_zero_f32, zero_add]
  rfl

theorem ln1 (i : S4x2048x512.Idx) :
    (val_main_v33 (F := Ideal) x0 x2 x3 x11 x12) i = Spec.ln (X0 x0 x2 x3) (rd1 x11) (rd1 x12) (i 0) (i 1) (i 2) := by
  simp only [val_main_v33_apply, val_main_v30_apply, val_main_v27_apply, val_main_v22_apply, val_main_v21_apply, val_main_v26_apply,
    val_main_v25_apply, val_main_v24_apply, val_main_v23_apply, val_main_cst_4_apply, val_main_v29_apply, val_main_v28_apply,
    val_main_v32_apply, val_main_v31_apply, mean1, var1, X0_read, Ideal.mulf_def, Ideal.subf_def, Ideal.addf_def,
    Ideal.hostUnary_rsqrt_def, Ideal.ofBits_def]
  rw [rd1_read x11, rd1_read x12]
  rfl

theorem h1_eq (i : S4x2048x512.Idx) : (val_main_v33 (F := Ideal) x0 x2 x3 x11 x12) i = Spec.h1 𝒫 (i 0) (i 1) (i 2) :=
  ln1 x0 x2 x3 x11 x12 i

theorem q_eq (i : S4x2048x512.Idx) : (val_main_v34 (F := Ideal) x0 x2 x3 x5 x11 x12) i = Spec.qP 𝒫 (i 0) (i 1) (i 2) := by
  rw [val_main_v34_apply]
  simp only [h1_eq x0 x2 x3 x4 x5 x6 x7 x8 x9 x10 x11 x12 x13 x14 x15 x16, rd2_read x5]
  rfl

theorem k_eq (i : S4x2048x512.Idx) : (val_main_v35 (F := Ideal) x0 x2 x3 x4 x11 x12) i = Spec.kP 𝒫 (i 0) (i 1) (i 2) := by
  rw [val_main_v35_apply]
  simp only [h1_eq x0 x2 x3 x4 x5 x6 x7 x8 x9 x10 x11 x12 x13 x14 x15 x16, rd2_read x4]
  rfl

theorem v_eq (i : S4x2048x512.Idx) : (val_main_v36 (F := Ideal) x0 x2 x3 x6 x11 x12) i = Spec.vP 𝒫 (i 0) (i 1) (i 2) := by
  rw [val_main_v36_apply]
  simp only [h1_eq x0 x2 x3 x4 x5 x6 x7 x8 x9 x10 x11 x12 x13 x14 x15 x16, rd2_read x6]
  rfl

theorem score_eq (i : S4x2048x2048.Idx) : (val_main_v39 (F := Ideal) x0 x2 x3 x4 x5 x11 x12) i = Spec.score (Spec.qP 𝒫) (Spec.kP 𝒫) (i 0) (i 1) (i 2) := by
  rw [val_main_v39_apply, val_main_v37_apply, val_main_v38_apply, val_main_cst_5_apply]
  simp only [q_eq x0 x2 x3 x4 x5 x6 x7 x8 x9 x10 x11 x12 x13 x14 x15 x16, k_eq x0 x2 x3 x4 x5 x6 x7 x8 x9 x10 x11 x12 x13 x14 x15 x16, Ideal.mulf_def, Ideal.ofBits_def]
  rfl

theorem tril_bit (j : S2048x2048.Idx) : (val_main_v41 (F := Ideal)) j = if (j 1).val ≤ (j 0).val then 1#1 else 0#1 := by
  rw [val_main_v41_apply, val_main_call0_v4_apply, val_main_call0_v2_apply, val_main_call0_v0_apply, val_main_call0_v1_apply, val_main_call0_c_apply, val_main_call0_v3_apply, val_main_v40_apply, val_main_c_6_apply, val_main_call0_v5_apply, val_main_call0_c_0_apply]
  have h0 : (j 0).val < 2048 := (j 0).isLt
  have h1 : (j 1).val < 2048 := (j 1).isLt
  have ha : (IntOp.addi (BitVec.ofNat 32 (j 0).val) 0#32).toNat = (j 0).val := by
    simp only [IntOp.addi, BitVec.add_zero, BitVec.toNat_ofNat]; omega
  have hb : (BitVec.ofNat 32 (j 1).val).toNat = (j 1).val := by simp only [BitVec.toNat_ofNat]; omega
  by_cases h : (j 1).val ≤ (j 0).val
  · rw [if_pos h, (sge_iff_toNat (by omega) (by omega)).mpr (by omega), select_one]
  · have hc : IntOp.cmpi .sge (IntOp.addi (BitVec.ofNat 32 (j 0).val) 0#32) (BitVec.ofNat 32 (j 1).val) = 0#1 :=
      eq_zero_of_ne_one (fun e => h (by
        have := (sge_iff_toNat (a := IntOp.addi (BitVec.ofNat 32 (j 0).val) 0#32) (b := BitVec.ofNat 32 (j 1).val)
          (by omega) (by omega)).mp e
        omega))
    rw [if_neg h, hc, select_zero]

theorem masked_eq (i : S4x2048x2048.Idx) : (val_main_v42 (F := Ideal) x0 x2 x3 x4 x5 x11 x12) i = Spec.masked (Spec.qP 𝒫) (Spec.kP 𝒫) (i 0) (i 1) (i 2) := by
  rw [val_main_v42_apply, val_main_call1_v1_apply, tril_bit, val_main_call1_v2_apply, val_main_call1_v0_apply, val_main_cst_7_apply, score_eq x0 x2 x3 x4 x5 x6 x7 x8 x9 x10 x11 x12 x13 x14 x15 x16]
  simp only [Ideal.ofBits_def, ofBits_neg_inf_f32]
  unfold Spec.masked
  by_cases h : (i 2).val ≤ (i 1).val
  · rw [if_pos h, if_pos (show (idx_main_call1_v1 i 1).val ≤ (idx_main_call1_v1 i 0).val from h), select_one]
  · rw [if_neg h, if_neg (show ¬ (idx_main_call1_v1 i 1).val ≤ (idx_main_call1_v1 i 0).val from h), select_zero]

theorem red_keys : S4x2048x2048.Reduces [2] S4x2048 := by decide

theorem rowMax_eq (l : S4x2048.Idx) : (val_main_v45 (F := Ideal) x0 x2 x3 x4 x5 x11 x12) l = Spec.rowMax (Spec.qP 𝒫) (Spec.kP 𝒫) (l 0) (l 1) := by
  rw [val_main_v45_apply, val_main_v44_apply, val_main_cst_9_apply]
  unfold val_main_v43
  rw [Host.reduce_eq_fold_single FloatOps.maximumf _ _ reducesTo_S4x2048x2048_S4x2048_d2 red_keys h_S_ l, val_main_cst_8_apply]
  have hf : ((val_main_v42 (F := Ideal) x0 x2 x3 x4 x5 x11 x12) ∘ red_keys.lift l) = fun u => Spec.masked (Spec.qP 𝒫) (Spec.kP 𝒫) (l 0) (l 1) u :=
    funext fun u => masked_eq x0 x2 x3 x4 x5 x6 x7 x8 x9 x10 x11 x12 x13 x14 x15 x16 (red_keys.lift l u)
  rw [hf]
  simp only [Ideal.ofBits_def, ofBits_neg_inf_f32]
  exact max_eq_right bot_le

theorem p_eq (i : S4x2048x2048.Idx) : (val_main_v49 (F := Ideal) x0 x2 x3 x4 x5 x11 x12) i = Spec.pRef (Spec.qP 𝒫) (Spec.kP 𝒫) (i 0) (i 1) (i 2) := by
  rw [val_main_v49_apply, val_main_v48_apply, val_main_v47_apply, val_main_v46_apply, masked_eq x0 x2 x3 x4 x5 x6 x7 x8 x9 x10 x11 x12 x13 x14 x15 x16, rowMax_eq x0 x2 x3 x4 x5 x6 x7 x8 x9 x10 x11 x12 x13 x14 x15 x16]
  simp only [Ideal.subf_def, Ideal.hostUnary_exp_def]
  rfl

theorem l_eq (l : S4x2048.Idx) : (val_main_v50 (F := Ideal) x0 x2 x3 x4 x5 x11 x12) l = Spec.lRef (Spec.qP 𝒫) (Spec.kP 𝒫) (l 0) (l 1) := by
  rw [val_main_v50_apply, val_main_cst_10_apply]
  simp only [p_eq x0 x2 x3 x4 x5 x6 x7 x8 x9 x10 x11 x12 x13 x14 x15 x16, Ideal.ofBits_def, Ideal.ofBits_zero_f32, zero_add]
  rfl

theorem att_eq (i : S4x2048x512.Idx) :
    (val_main_v54 (F := Ideal) x0 x2 x3 x4 x5 x6 x11 x12) i = Spec.attRef (Spec.qP 𝒫) (Spec.kP 𝒫) (Spec.vP 𝒫) (i 0) (i 1) (i 2) := by
  rw [val_main_v54_apply]
  simp only [val_main_v53_apply, val_main_v52_apply, val_main_v51_apply, p_eq x0 x2 x3 x4 x5 x6 x7 x8 x9 x10 x11 x12 x13 x14 x15 x16, l_eq x0 x2 x3 x4 x5 x6 x7 x8 x9 x10 x11 x12 x13 x14 x15 x16, v_eq x0 x2 x3 x4 x5 x6 x7 x8 x9 x10 x11 x12 x13 x14 x15 x16, Ideal.hostDivf_def]
  rfl

theorem x1_eq (i : S4x2048x512.Idx) : (val_main_v55 (F := Ideal) x0 x2 x3 x4 x5 x6 x11 x12) i = Spec.x1 𝒫 (i 0) (i 1) (i 2) := by
  rw [val_main_v55_apply, att_eq x0 x2 x3 x4 x5 x6 x7 x8 x9 x10 x11 x12 x13 x14 x15 x16, X0_read]
  rfl

theorem mean2 (j : S4x2048x1.Idx) : (val_main_v59 (F := Ideal) x0 x2 x3 x4 x5 x6 x11 x12) j = Spec.mean (Spec.x1 𝒫) (j 0) (j 1) := by
  rw [val_main_v59_apply, val_main_v57_apply, val_main_v56_apply, val_main_v58_apply, val_main_cst_12_apply, val_main_cst_11_apply]
  simp only [x1_eq x0 x2 x3 x4 x5 x6 x7 x8 x9 x10 x11 x12 x13 x14 x15 x16, Ideal.hostDivf_def, Ideal.ofBits_def, Ideal.ofBits_zero_f32, zero_add]
  rfl

theorem var2 (j : S4x2048x1.Idx) : (val_main_v66 (F := Ideal) x0 x2 x3 x4 x5 x6 x11 x12) j = Spec.var (Spec.x1 𝒫) (j 0) (j 1) := by
  rw [val_main_v66_apply, val_main_v64_apply, val_main_v63_apply, val_main_v65_apply, val_main_cst_14_apply, val_main_cst_13_apply]
  simp only [val_main_v62_apply, val_main_v61_apply, val_main_v60_apply, mean2 x0 x2 x3 x4 x5 x6 x7 x8 x9 x10 x11 x12 x13 x14 x15 x16, x1_eq x0 x2 x3 x4 x5 x6 x7 x8 x9 x10 x11 x12 x13 x14 x15 x16, Ideal.mulf_def, Ideal.subf_def,
    Ideal.hostDivf_def, Ideal.ofBits_def, Ideal.ofBits_zero_f32, zero_add]
  rfl

theorem h2_eq (i : S4x2048x512.Idx) : (val_main_v79 (F := Ideal) x0 x2 x3 x4 x5 x6 x11 x12 x13 x14) i = Spec.h2 𝒫 (i 0) (i 1) (i 2) := by
  simp only [val_main_v79_apply, val_main_v76_apply, val_main_v73_apply, val_main_v68_apply, val_main_v67_apply, val_main_v72_apply,
    val_main_v71_apply, val_main_v70_apply, val_main_v69_apply, val_main_cst_15_apply, val_main_v75_apply, val_main_v74_apply,
    val_main_v78_apply, val_main_v77_apply, mean2 x0 x2 x3 x4 x5 x6 x7 x8 x9 x10 x11 x12 x13 x14 x15 x16, var2 x0 x2 x3 x4 x5 x6 x7 x8 x9 x10 x11 x12 x13 x14 x15 x16, x1_eq x0 x2 x3 x4 x5 x6 x7 x8 x9 x10 x11 x12 x13 x14 x15 x16, Ideal.mulf_def, Ideal.subf_def, Ideal.addf_def,
    Ideal.hostUnary_rsqrt_def, Ideal.ofBits_def]
  rw [rd1_read x13, rd1_read x14]
  rfl

theorem ff_eq (i : S4x2048x2048.Idx) : (val_main_v84 (F := Ideal) x0 x2 x3 x4 x5 x6 x7 x8 x11 x12 x13 x14) i = Spec.ff 𝒫 (i 0) (i 1) (i 2) := by
  rw [val_main_v84_apply, val_main_v83_apply, val_main_v80_apply, val_main_v82_apply, val_main_v81_apply, val_main_call2_v0_apply, val_main_call2_cst_apply]
  simp only [h2_eq x0 x2 x3 x4 x5 x6 x7 x8 x9 x10 x11 x12 x13 x14 x15 x16, rd2_read x7, Ideal.maximumf_def, Ideal.addf_def, Ideal.ofBits_def, Ideal.ofBits_zero_f32]
  rw [rd1_read x8]
  rfl

theorem x2_eq (i : S4x2048x512.Idx) : (val_main_v89 (F := Ideal) x0 x2 x3 x4 x5 x6 x7 x8 x9 x10 x11 x12 x13 x14) i = Spec.x2 𝒫 (i 0) (i 1) (i 2) := by
  rw [val_main_v89_apply, val_main_v86_apply, val_main_v85_apply, val_main_v88_apply, val_main_v87_apply, x1_eq x0 x2 x3 x4 x5 x6 x7 x8 x9 x10 x11 x12 x13 x14 x15 x16]
  simp only [ff_eq x0 x2 x3 x4 x5 x6 x7 x8 x9 x10 x11 x12 x13 x14 x15 x16, rd2_read x9, Ideal.addf_def]
  rw [rd1_read x10]
  rfl

theorem logits3_eq (i : S4x2048x32000.Idx) : (val_main_v93 (F := Ideal) x0 x2 x3 x4 x5 x6 x7 x8 x9 x10 x11 x12 x13 x14 x15 x16) i = Spec.logits3 𝒫 (i 0) (i 1) (i 2) := by
  rw [val_main_v93_apply, val_main_v90_apply, val_main_v92_apply, val_main_v91_apply]
  simp only [x2_eq x0 x2 x3 x4 x5 x6 x7 x8 x9 x10 x11 x12 x13 x14 x15 x16, rd2_read x15, Ideal.addf_def]
  rw [rd1_read x16]
  rfl

theorem logits_eq (i : S8192x32000.Idx) : (val_main_v94 (F := Ideal) x0 x2 x3 x4 x5 x6 x7 x8 x9 x10 x11 x12 x13 x14 x15 x16) i = Spec.logits 𝒫 (i 0) (i 1) := by
  rw [val_main_v94_apply, logits3_eq x0 x2 x3 x4 x5 x6 x7 x8 x9 x10 x11 x12 x13 x14 x15 x16]
  have h0 : (i 0).val < 8192 := (i 0).isLt
  have h1 : (i 1).val < 32000 := (i 1).isLt
  have e0 : idx_main_v94 i 0 = Spec.rowB (i 0) :=
    Fin.ext (by show ((i 0).val * 32000 + (i 1).val) / 65536000 = (i 0).val / 2048; omega)
  have e1 : idx_main_v94 i 1 = Spec.rowT (i 0) :=
    Fin.ext (by show ((i 0).val * 32000 + (i 1).val) / 32000 % 2048 = (i 0).val % 2048; omega)
  have e2 : idx_main_v94 i 2 = i 1 :=
    Fin.ext (by show ((i 0).val * 32000 + (i 1).val) % 32000 = (i 1).val; omega)
  rw [e0, e1, e2]
  rfl

theorem red_vocab : S8192x32000.Reduces [1] S8192 := by decide

theorem lgMax_eq (r : S8192.Idx) : (val_main_call3_v2 (F := Ideal) x0 x2 x3 x4 x5 x6 x7 x8 x9 x10 x11 x12 x13 x14 x15 x16) r = Spec.lgMax (Spec.logits 𝒫) (r 0) := by
  rw [val_main_call3_v2_apply, val_main_call3_v1_apply, val_main_call3_cst_0_apply]
  unfold val_main_call3_v0
  rw [Host.reduce_eq_fold_single FloatOps.maximumf _ _ reducesTo_S8192x32000_S8192_d1 red_vocab h_S_ r, val_main_call3_cst_apply]
  have hf : ((val_main_v94 (F := Ideal) x0 x2 x3 x4 x5 x6 x7 x8 x9 x10 x11 x12 x13 x14 x15 x16) ∘ red_vocab.lift r) = fun w => Spec.logits 𝒫 (r 0) w :=
    funext fun w => logits_eq x0 x2 x3 x4 x5 x6 x7 x8 x9 x10 x11 x12 x13 x14 x15 x16 (red_vocab.lift r w)
  rw [hf]
  simp only [Ideal.ofBits_def, ofBits_neg_inf_f32]
  exact max_eq_right bot_le

theorem logp_eq (i : S8192x32000.Idx) : (val_main_v95 (F := Ideal) x0 x2 x3 x4 x5 x6 x7 x8 x9 x10 x11 x12 x13 x14 x15 x16) i = Spec.logp (Spec.logits 𝒫) (i 0) (i 1) := by
  simp only [val_main_v95_apply, val_main_call3_v5_apply, val_main_call3_v4_apply, val_main_call3_v3_apply, val_main_call3_v10_apply, val_main_call3_v9_apply, val_main_call3_v8_apply, val_main_call3_v7_apply,
    val_main_call3_cst_1_apply, val_main_call3_v6_apply, lgMax_eq x0 x2 x3 x4 x5 x6 x7 x8 x9 x10 x11 x12 x13 x14 x15 x16, logits_eq x0 x2 x3 x4 x5 x6 x7 x8 x9 x10 x11 x12 x13 x14 x15 x16, Ideal.subf_def, Ideal.hostUnary_exp_def,
    Ideal.hostUnary_log_def, Ideal.ofBits_def, Ideal.ofBits_zero_f32, zero_add]
  rfl

def tgtOf : Fin 8192 → Fin 32000 := fun r =>
  ⟨(x1 (ix2 (Spec.rowB r) (Spec.rowT r))).toNat % 32000, Nat.mod_lt _ (by norm_num)⟩

theorem toNat_of_range {x : BitVec 32} (h : 0 ≤ x.toInt ∧ x.toInt < 32000) : x.toNat < 32000 := by
  have e := BitVec.toInt_eq_toNat_cond x
  have := x.isLt
  omega

theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_one f l (fun n hn => h n (List.mem_cons_of_mem _ hn))

theorem idx_label (n : S8192x1x1.Idx) :
    idx_main_v96 (idx_main_call4_v5 n) = ix2 (Spec.rowB (n 0)) (Spec.rowT (n 0)) := by
  have h1 : (n 1).val < 1 := (n 1).isLt
  have h2 : (n 2).val < 1 := (n 2).isLt
  funext a
  refine Fin.ext ?_
  match a with
  | ⟨0, _⟩ =>
    show ((((n 0).val * 1 + (n 1).val) * 1 + (n 2).val) / 1 * 1 + 0) / 2048 = (n 0).val / 2048
    omega
  | ⟨1, _⟩ =>
    show ((((n 0).val * 1 + (n 1).val) * 1 + (n 2).val) / 1 * 1 + 0) % 2048 = (n 0).val % 2048
    omega

variable (ht : ∀ j : S4x2048.Idx, 0 ≤ (x1 j).toInt ∧ (x1 j).toInt < 32000)
include ht

theorem label_eq (n : S8192x1x1.Idx) : (val_main_call4_v5 (F := Ideal) x1) n = x1 (ix2 (Spec.rowB (n 0)) (Spec.rowT (n 0))) := by
  rw [val_main_call4_v5_apply, val_main_call4_v4_apply, val_main_call4_v1_apply, val_main_v96_apply, val_main_call4_v0_apply, val_main_call4_c_apply, idx_label]
  have hn := toNat_of_range (ht (ix2 (Spec.rowB (n 0)) (Spec.rowT (n 0))))
  have hc : IntOp.cmpi .slt (x1 (ix2 (Spec.rowB (n 0)) (Spec.rowT (n 0)))) 0#32 = 0#1 :=
    eq_zero_of_ne_one (fun e => by
      have := (slt_iff_toNat (a := x1 (ix2 (Spec.rowB (n 0)) (Spec.rowT (n 0)))) (b := 0#32) (by omega) (by decide)).mp e
      exact Nat.not_lt_zero _ this)
  rw [hc, select_zero]

theorem inb_eq (y : S8192x1.Idx) : (val_main_call4_v12 (F := Ideal) x1) y = 1#1 := by
  unfold val_main_call4_v12
  rw [Host.reduce_eq_foldl, val_main_call4_c_3_apply]
  refine foldl_andi_one (val_main_call4_v11 (F := Ideal) x1) _ (fun n _ => ?_)
  rw [val_main_call4_v11_apply, val_main_call4_v7_apply, val_main_call4_v10_apply, label_eq x1 ht, val_main_call4_v6_apply, val_main_call4_c_2_apply, val_main_call4_v9_apply, val_main_call4_v8_apply, val_main_call4_c_1_apply]
  have hn := toNat_of_range (ht (ix2 (Spec.rowB (n 0)) (Spec.rowT (n 0))))
  have e9 : (31999#32 : BitVec 32).toNat = 31999 := by decide
  have e0 : (0#32 : BitVec 32).toNat = 0 := by decide
  rw [(sge_iff_toNat (a := x1 (ix2 (Spec.rowB (n 0)) (Spec.rowT (n 0)))) (b := 0#32) (by omega) (by omega)).mpr (by omega),
    (sle_iff_toNat (a := x1 (ix2 (Spec.rowB (n 0)) (Spec.rowT (n 0)))) (b := 31999#32) (by omega) (by omega)).mpr (by omega)]
  decide

omit ht

theorem gather_row_apply {α : Type} (x : S8192x32000.Idx → α) (idx : IVec S8192x1x1 32) (y : S8192x1.Idx) :
    Host.gather gather_S8192x32000_S8192x1x1_S8192x1_n_1_0_0_1_2_11 x idx y
      = x (ix2 (y 0) ⟨min (idx (ix3 (y 0) (y 1) (0 : Fin 1))).toInt.toNat (32000 - 1), by omega⟩) := by
  unfold Host.gather
  congr 1
  funext a
  refine Fin.ext ?_
  match a with
  | ⟨0, _⟩ =>
    show gather_S8192x32000_S8192x1x1_S8192x1_n_1_0_0_1_2_11.start y idx 0
      + gather_S8192x32000_S8192x1x1_S8192x1_n_1_0_0_1_2_11.batchCoord y 0
      + gather_S8192x32000_S8192x1x1_S8192x1_n_1_0_0_1_2_11.offCoord y 0 = (y 0).val
    rw [GatherDims.start_batching _ _ _ _ (by decide), GatherDims.offCoord_eq_zero _ _ _ (by decide)]
    simp only [Nat.zero_add, Nat.add_zero]
    unfold GatherDims.batchCoord
    rw [dif_pos (by decide)]
    rfl
  | ⟨1, _⟩ =>
    show gather_S8192x32000_S8192x1x1_S8192x1_n_1_0_0_1_2_11.start y idx 1
      + gather_S8192x32000_S8192x1x1_S8192x1_n_1_0_0_1_2_11.batchCoord y 1
      + gather_S8192x32000_S8192x1x1_S8192x1_n_1_0_0_1_2_11.offCoord y 1 = _
    rw [GatherDims.batchCoord_eq_zero _ _ _ (by decide), GatherDims.offCoord_eq_zero _ _ _ (by decide)]
    simp only [Nat.add_zero]
    unfold GatherDims.start
    rw [dif_pos (by decide)]
    have hsi : gather_S8192x32000_S8192x1x1_S8192x1_n_1_0_0_1_2_11.siIdx y
        ⟨List.idxOf (1 : Fin 2) gather_S8192x32000_S8192x1x1_S8192x1_n_1_0_0_1_2_11.startIndexMap,
          List.idxOf_lt_length_iff.2 (by decide)⟩ = ix3 (y 0) (y 1) (0 : Fin 1) := by
      funext b; refine Fin.ext ?_
      match b with
      | ⟨0, _⟩ => rfl
      | ⟨1, _⟩ => rfl
      | ⟨2, _⟩ => rfl
    rw [hsi]
    rfl

include ht

theorem gathered_eq (y : S8192x1.Idx) :
    (val_main_call4_v13 (F := Ideal) x0 x1 x2 x3 x4 x5 x6 x7 x8 x9 x10 x11 x12 x13 x14 x15 x16) y = Spec.logp (Spec.logits 𝒫) (y 0) (tgtOf x1 (y 0)) := by
  unfold val_main_call4_v13
  rw [gather_row_apply, logp_eq x0 x2 x3 x4 x5 x6 x7 x8 x9 x10 x11 x12 x13 x14 x15 x16]
  have hn := toNat_of_range (ht (ix2 (Spec.rowB (y 0)) (Spec.rowT (y 0))))
  have hh := (ht (ix2 (Spec.rowB (y 0)) (Spec.rowT (y 0)))).1
  have e := BitVec.toInt_eq_toNat_cond (x1 (ix2 (Spec.rowB (y 0)) (Spec.rowT (y 0))))
  have hl : (val_main_call4_v5 (F := Ideal) x1) (ix3 (y 0) (y 1) (0 : Fin 1)) = x1 (ix2 (Spec.rowB (y 0)) (Spec.rowT (y 0))) :=
    label_eq x1 ht (ix3 (y 0) (y 1) (0 : Fin 1))
  refine congrArg (Spec.logp (Spec.logits 𝒫) (y 0)) (Fin.ext ?_)
  show min ((val_main_call4_v5 (F := Ideal) x1) (ix3 (y 0) (y 1) (0 : Fin 1))).toInt.toNat (32000 - 1)
    = (x1 (ix2 (Spec.rowB (y 0)) (Spec.rowT (y 0)))).toNat % 32000
  rw [hl]
  omega

theorem picked_eq (y : S8192x1.Idx) : (val_main_v97 (F := Ideal) x0 x1 x2 x3 x4 x5 x6 x7 x8 x9 x10 x11 x12 x13 x14 x15 x16) y = Spec.logp (Spec.logits 𝒫) (y 0) (tgtOf x1 (y 0)) := by
  rw [val_main_v97_apply, inb_eq x1 ht, select_one, gathered_eq x0 x1 x2 x3 x4 x5 x6 x7 x8 x9 x10 x11 x12 x13 x14 x15 x16 ht]

theorem loss_eq (i : S_.Idx) : (val_main_v100 (F := Ideal) x0 x1 x2 x3 x4 x5 x6 x7 x8 x9 x10 x11 x12 x13 x14 x15 x16) i = Spec.lossRef 𝒫 (tgtOf x1) := by
  rw [val_main_v100_apply, val_main_v99_apply, val_main_v98_apply, val_main_cst_17_apply, val_main_cst_16_apply]
  simp only [picked_eq x0 x1 x2 x3 x4 x5 x6 x7 x8 x9 x10 x11 x12 x13 x14 x15 x16 ht, Ideal.hostNegf_def, Ideal.negf_def, Ideal.hostDivf_def, Ideal.ofBits_def,
    Ideal.ofBits_zero_f32, zero_add]
  rw [sum_idx2, show (∑ a : Fin 8192, ∑ b : Fin 1, Spec.logp (Spec.logits 𝒫) ((ix2 a b : S8192x1.Idx) 0) (tgtOf x1 ((ix2 a b : S8192x1.Idx) 0)))
      = ∑ r : Fin 8192, Spec.logp (Spec.logits 𝒫) r (tgtOf x1 r) from
    Finset.sum_congr rfl fun a _ => Fin.sum_univ_one _]
  rfl

omit ht

theorem logits_fun : (val_main_v94 (F := Ideal) x0 x2 x3 x4 x5 x6 x7 x8 x9 x10 x11 x12 x13 x14 x15 x16) = fun i => Spec.logits 𝒫 (i 0) (i 1) :=
  funext (logits_eq x0 x2 x3 x4 x5 x6 x7 x8 x9 x10 x11 x12 x13 x14 x15 x16)

include ht

theorem loss_fun : (val_main_v100 (F := Ideal) x0 x1 x2 x3 x4 x5 x6 x7 x8 x9 x10 x11 x12 x13 x14 x15 x16) = fun _ => Spec.lossRef 𝒫 (tgtOf x1) :=
  funext (loss_eq x0 x1 x2 x3 x4 x5 x6 x7 x8 x9 x10 x11 x12 x13 x14 x15 x16 ht)

omit ht

end Cert.RefSpec

end
-- ==== Proof.KI.ParEq.lean ====
import proofs.«421533_j19645180411976_3_alg».proof.Proof.RefSpec
import proofs.«421533_j19645180411976_3_alg».proof.Proof.Gen.KernelIdeal.Launch
import proofs.«421533_j19645180411976_3_alg».proof.Proof.KI.ValIdx
import proofs.«421533_j19645180411976_3_alg».proof.Proof.KI.ParamsK
import Idealize.ShloMosaic.Lib.StableHlo.Run

noncomputable section

namespace Cert.KernelIdeal.Val

open Cert.KernelIdeal Cert.KernelIdeal.Gen
open Idealize.ShloMosaic Idealize.ShloMosaic.TcCoe Idealize.ShloMosaic.ValueIdx Idealize.ShloMosaic.StableHlo Idealize.SL.Sem

set_option maxHeartbeats 1600000 in

theorem emb_eq (W : Valuation τ sig (Elt Ideal)) :
    (StableHlo.after (Cert.KernelIdeal.Gen.hostOps0 (F := Ideal)) W (Proc.devRef .tc Cert.KernelIdeal.main_v9) : Vec Ideal Cert.KernelIdeal.S4x2048x512 .f32)
      = Cert.ReferenceIdeal.ReadP.val_main_v9 (F := Ideal) (W (Proc.devRef .tc Cert.KernelIdeal.main_arg0))
          (W (Proc.devRef .tc Cert.KernelIdeal.main_arg2)) (W (Proc.devRef .tc Cert.KernelIdeal.main_arg3)) := by
  show StableHlo.after (hostOps0 (F := Ideal)) W (Proc.devRef .tc main_v9) = _
  after_results_simp
  unfold Cert.ReferenceIdeal.ReadP.val_main_v9 Cert.ReferenceIdeal.ReadP.val_main_v6 Cert.ReferenceIdeal.ReadP.val_main_v8
    Cert.ReferenceIdeal.ReadP.val_main_v7 Cert.ReferenceIdeal.ReadP.val_main_v5 Cert.ReferenceIdeal.ReadP.val_main_v4
    Cert.ReferenceIdeal.ReadP.val_main_v3 Cert.ReferenceIdeal.ReadP.val_main_v2 Cert.ReferenceIdeal.ReadP.val_main_v1
    Cert.ReferenceIdeal.ReadP.val_main_v0 Cert.ReferenceIdeal.ReadP.val_main_c Cert.ReferenceIdeal.ReadP.val_main_c_0
  rfl

variable (m : (ℓ : Loc nD τ sig) → Buf (Elt Ideal) ℓ) (c : Dev nD)

theorem embK_eq : embK m c = Cert.RefSpec.X0 (m ((c.tc : Thread nD τ).loc main_arg0)) (m ((c.tc : Thread nD τ).loc main_arg2)) (m ((c.tc : Thread nD τ).loc main_arg3)) := by
  unfold embK Cert.RefSpec.X0
  rw [emb_eq]
  rfl

theorem parK_eq : parK m c = Cert.RefSpec.par (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold parK Cert.RefSpec.par
  rw [embK_eq]
  rfl

theorem tgtK_eq : tgtK m c = Cert.RefSpec.tgtOf (m ((c.tc : Thread nD τ).loc main_arg1)) := rfl

end Cert.KernelIdeal.Val

end
-- ==== Proof.LibSsa.lean ====
import Idealize.ShloMosaic.Lib.StableHlo.Run
import Mathlib.Data.List.Forall2

namespace Idealize.ShloMosaic.StableHlo

open Idealize.ShloMosaic

variable {τ : Topo} {sig : RefSig} {Val : EltTy → Type}

/-- A straight line in which operation k writes exactly the k-th reference of outs. -/
abbrev WritesOnce (ops : List (HloOp τ sig Val)) (outs : List (Ref sig .tc)) : Prop :=
  List.Forall₂ (fun op r => op.writes = {Proc.devRef (τ := τ) .tc r}) ops outs

/-- The fold splits at any position. -/
theorem after_take_drop : ∀ (ops : List (HloOp τ sig Val)) (k : ℕ) (V : Valuation τ sig Val),
    after ops V = after (ops.drop k) (after (ops.take k) V)
  | _, 0, _ => rfl
  | [], _ + 1, _ => rfl
  | op :: ops, k + 1, V => after_take_drop ops k (op.result V)

variable {ops : List (HloOp τ sig Val)} {outs : List (Ref sig .tc)}

/-- A reference outside outs is written by no operation. -/
theorem WritesOnce.not_mem_writes (h : WritesOnce ops outs) {r : Ref sig .tc} (hr : r ∉ outs) :
    ∀ op ∈ ops, Proc.devRef (τ := τ) .tc r ∉ op.writes := by
  induction h with
  | nil => intro op hop; cases hop
  | cons hw _ ih =>
    intro op hop
    rcases List.mem_cons.mp hop with rfl | hop
    · rw [hw, Finset.mem_singleton]
      exact fun e => hr (Proc.devRef_injective _ e ▸ List.mem_cons_self)
    · exact ih (fun h' => hr (List.mem_cons_of_mem _ h')) op hop

/-- A reference that no operation from position k on writes already holds its final contents after the first k. -/
theorem WritesOnce.after_take (h : WritesOnce ops outs) (V : Valuation τ sig Val) (k : ℕ) {r : Ref sig .tc}
    (hr : r ∉ outs.drop k) : after (ops.take k) V (Proc.devRef .tc r) = after ops V (Proc.devRef .tc r) := by
  rw [after_take_drop ops k V]
  exact (after_of_forall_not_mem _ _ (WritesOnce.not_mem_writes (List.forall₂_drop k h) hr)).symm

/-- One more operation of the line: its result over the contents before it. -/
theorem after_take_succ : ∀ (ops : List (HloOp τ sig Val)) (k : ℕ) (V : Valuation τ sig Val) {op : HloOp τ sig Val},
    ops[k]? = some op → after (ops.take (k + 1)) V = op.result (after (ops.take k) V)
  | [], _, _, _, h => by simp at h
  | o :: ops, 0, V, op, h => by simp at h; subst h; rfl
  | o :: ops, k + 1, V, op, h => after_take_succ ops k (o.result V) (by simpa using h)

/-- The buffer that operation k writes and no later one does ends at that operation's result. -/
theorem WritesOnce.after_at (h : WritesOnce ops outs) (V : Valuation τ sig Val) (k : ℕ) {op : HloOp τ sig Val}
    (hk : ops[k]? = some op) {y : Ref sig .tc} (hy : y ∉ outs.drop (k + 1)) :
    after ops V (Proc.devRef .tc y) = op.result (after (ops.take k) V) (Proc.devRef .tc y) := by
  rw [← h.after_take V (k + 1) hy, after_take_succ ops k V hk]

section Stages

variable (h : WritesOnce ops outs) (V : Valuation τ sig Val) (k : ℕ)
include h

/-- An argument of the line (a reference no operation writes) keeps its contents. -/
theorem WritesOnce.after_arg (r : Ref sig .tc) (hr : r ∉ outs := by decide) :
    after ops V (Proc.devRef .tc r) = V (Proc.devRef .tc r) :=
  after_of_forall_not_mem ops V (h.not_mem_writes hr)

/-- Operation k's result from the FINAL contents of its operands: each is written once, and before position k. -/
theorem WritesOnce.stage0 {y : Ref sig .tc} {v : y.ty.Contents Val} {hy}
    (hk : ops[k]? = some (nullary y v hy)) (hn : y ∉ outs.drop (k + 1) := by decide) :
    after ops V (Proc.devRef .tc y) = v := by
  rw [h.after_at V k hk hn, nullary_result]

theorem WritesOnce.stage1 {x y : Ref sig .tc} {f : x.ty.Contents Val → y.ty.Contents Val} {hx hy}
    (hk : ops[k]? = some (unary x y f hx hy)) {vx} (sx : after ops V (Proc.devRef .tc x) = vx)
    (hn : x ∉ outs.drop k ∧ y ∉ outs.drop (k + 1) := by decide) :
    after ops V (Proc.devRef .tc y) = f vx := by
  rw [h.after_at V k hk hn.2, unary_result, h.after_take V k hn.1, sx]

theorem WritesOnce.stageR {x y : Ref sig .tc} {he : x.ty.elt = y.ty.elt} {hc : x.ty.shape.ShapeCasts y.ty.shape} {hx hy}
    (hk : ops[k]? = some (reshape x y he hc hx hy)) {vx} (sx : after ops V (Proc.devRef .tc x) = vx)
    (hn : x ∉ outs.drop k ∧ y ∉ outs.drop (k + 1) := by decide) :
    after ops V (Proc.devRef .tc y) = fun i => he ▸ shapeCast y.ty.shape vx hc i := by
  rw [h.after_at V k hk hn.2, reshape_result, h.after_take V k hn.1, sx]

theorem WritesOnce.stage2 {a b y : Ref sig .tc} {f : a.ty.Contents Val → b.ty.Contents Val → y.ty.Contents Val} {ha hb hy}
    (hk : ops[k]? = some (binary a b y f ha hb hy)) {va vb} (sa : after ops V (Proc.devRef .tc a) = va)
    (sb : after ops V (Proc.devRef .tc b) = vb)
    (hn : a ∉ outs.drop k ∧ b ∉ outs.drop k ∧ y ∉ outs.drop (k + 1) := by decide) :
    after ops V (Proc.devRef .tc y) = f va vb := by
  rw [h.after_at V k hk hn.2.2, binary_result, h.after_take V k hn.1, h.after_take V k hn.2.1, sa, sb]

theorem WritesOnce.stage3 {c a b y : Ref sig .tc}
    {f : c.ty.Contents Val → a.ty.Contents Val → b.ty.Contents Val → y.ty.Contents Val} {hc ha hb hy}
    (hk : ops[k]? = some (ternary c a b y f hc ha hb hy)) {vc va vb} (sc : after ops V (Proc.devRef .tc c) = vc)
    (sa : after ops V (Proc.devRef .tc a) = va) (sb : after ops V (Proc.devRef .tc b) = vb)
    (hn : c ∉ outs.drop k ∧ a ∉ outs.drop k ∧ b ∉ outs.drop k ∧ y ∉ outs.drop (k + 1) := by decide) :
    after ops V (Proc.devRef .tc y) = f vc va vb := by
  rw [h.after_at V k hk hn.2.2.2, ternary_result, h.after_take V k hn.1, h.after_take V k hn.2.1,
    h.after_take V k hn.2.2.1, sc, sa, sb]

end Stages

end Idealize.ShloMosaic.StableHlo
-- ==== Proof.RefStages.lean ====
import proofs.«421533_j19645180411976_3_alg».proof.Proof.RefOps
import proofs.«421533_j19645180411976_3_alg».proof.Proof.RefRead
import proofs.«421533_j19645180411976_3_alg».proof.Proof.LibSsa

noncomputable section

namespace Cert.ReferenceIdeal.StagesP

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

abbrev outs : List (Ref sig .tc) :=
  [main_c, main_v0, main_v1, main_c_0, main_v2, main_v3, main_v4, main_v5, main_v6, main_v7, main_v8, main_v9,
   main_cst, main_v10, main_v11, main_cst_1, main_v12, main_v13, main_v14, main_v15, main_v16, main_cst_2,
   main_v17, main_v18, main_cst_3, main_v19, main_v20, main_v21, main_v22, main_cst_4, main_v23, main_v24,
   main_v25, main_v26, main_v27, main_v28, main_v29, main_v30, main_v31, main_v32, main_v33, main_v34, main_v35,
   main_v36, main_v37, main_cst_5, main_v38, main_v39, main_c_6, main_v40, main_call0_v0, main_call0_c,
   main_call0_v1, main_call0_v2, main_call0_v3, main_call0_v4, main_call0_c_0, main_call0_v5, main_v41,
   main_cst_7, main_call1_v0, main_call1_v1, main_call1_v2, main_v42, main_cst_8, main_v43, main_cst_9, main_v44,
   main_v45, main_v46, main_v47, main_v48, main_v49, main_cst_10, main_v50, main_v51, main_v52, main_v53,
   main_v54, main_v55, main_cst_11, main_v56, main_v57, main_cst_12, main_v58, main_v59, main_v60, main_v61,
   main_v62, main_cst_13, main_v63, main_v64, main_cst_14, main_v65, main_v66, main_v67, main_v68, main_cst_15,
   main_v69, main_v70, main_v71, main_v72, main_v73, main_v74, main_v75, main_v76, main_v77, main_v78, main_v79,
   main_v80, main_v81, main_v82, main_v83, main_call2_cst, main_call2_v0, main_v84, main_v85, main_v86, main_v87,
   main_v88, main_v89, main_v90, main_v91, main_v92, main_v93, main_v94, main_call3_cst, main_call3_v0,
   main_call3_cst_0, main_call3_v1, main_call3_v2, main_call3_v3, main_call3_v4, main_call3_v5, main_call3_v6,
   main_call3_cst_1, main_call3_v7, main_call3_v8, main_call3_v9, main_call3_v10, main_v95, main_v96,
   main_call4_c, main_call4_v0, main_call4_v1, main_call4_c_0, main_call4_v2, main_call4_v3, main_call4_v4,
   main_call4_v5, main_call4_c_1, main_call4_c_2, main_call4_v6, main_call4_v7, main_call4_v8, main_call4_v9,
   main_call4_v10, main_call4_v11, main_call4_c_3, main_call4_v12, main_call4_v13, main_call4_cst, main_call4_v14,
   main_v97, main_cst_16, main_v98, main_cst_17, main_v99, main_v100]

theorem hW : WritesOnce (ops : List (HloOp τ sig (Elt F))) outs := by repeat' constructor

abbrev A (W : Valuation τ sig (Elt F)) (r : Ref sig .tc) := W (Proc.devRef .tc r)

variable (W : Valuation τ sig (Elt F))

theorem s_main_c : after ops W (Proc.devRef .tc main_c) = val_main_c (F := F) :=
  (hW.stage0 W 0 rfl :)
theorem s_main_v0 : after ops W (Proc.devRef .tc main_v0) = val_main_v0 (F := F) :=
  (hW.stage1 W 1 rfl (s_main_c W) :)
theorem s_main_v1 : after ops W (Proc.devRef .tc main_v1) = val_main_v1 (F := F) (A W main_arg0) :=
  (hW.stage2 W 2 rfl (hW.after_arg W main_arg0) (s_main_v0 W) :)
theorem s_main_c_0 : after ops W (Proc.devRef .tc main_c_0) = val_main_c_0 (F := F) :=
  (hW.stage0 W 3 rfl :)
theorem s_main_v2 : after ops W (Proc.devRef .tc main_v2) = val_main_v2 (F := F) :=
  (hW.stage1 W 4 rfl (s_main_c_0 W) :)
theorem s_main_v3 : after ops W (Proc.devRef .tc main_v3) = val_main_v3 (F := F) (A W main_arg0) :=
  (hW.stage2 W 5 rfl (hW.after_arg W main_arg0) (s_main_v2 W) :)
theorem s_main_v4 : after ops W (Proc.devRef .tc main_v4) = val_main_v4 (F := F) (A W main_arg0) :=
  (hW.stage3 W 6 rfl (s_main_v1 W) (s_main_v3 W) (hW.after_arg W main_arg0) :)
theorem s_main_v5 : after ops W (Proc.devRef .tc main_v5) = val_main_v5 (F := F) (A W main_arg0) :=
  (hW.stage1 W 7 rfl (s_main_v4 W) :)
theorem s_main_v6 : after ops W (Proc.devRef .tc main_v6) = val_main_v6 (F := F) (A W main_arg0) (A W main_arg2) :=
  (hW.stage2 W 8 rfl (hW.after_arg W main_arg2) (s_main_v5 W) :)
theorem s_main_v7 : after ops W (Proc.devRef .tc main_v7) = val_main_v7 (F := F) (A W main_arg3) :=
  (hW.stage1 W 9 rfl (hW.after_arg W main_arg3) :)
theorem s_main_v8 : after ops W (Proc.devRef .tc main_v8) = val_main_v8 (F := F) (A W main_arg3) :=
  (hW.stage1 W 10 rfl (s_main_v7 W) :)
theorem s_main_v9 : after ops W (Proc.devRef .tc main_v9) = val_main_v9 (F := F) (A W main_arg0) (A W main_arg2) (A W main_arg3) :=
  (hW.stage2 W 11 rfl (s_main_v6 W) (s_main_v8 W) :)
theorem s_main_cst : after ops W (Proc.devRef .tc main_cst) = val_main_cst (F := F) :=
  (hW.stage0 W 12 rfl :)
theorem s_main_v10 : after ops W (Proc.devRef .tc main_v10) = val_main_v10 (F := F) (A W main_arg0) (A W main_arg2) (A W main_arg3) :=
  (hW.stage2 W 13 rfl (s_main_v9 W) (s_main_cst W) :)
theorem s_main_v11 : after ops W (Proc.devRef .tc main_v11) = val_main_v11 (F := F) (A W main_arg0) (A W main_arg2) (A W main_arg3) :=
  (hW.stage1 W 14 rfl (s_main_v10 W) :)
theorem s_main_cst_1 : after ops W (Proc.devRef .tc main_cst_1) = val_main_cst_1 (F := F) :=
  (hW.stage0 W 15 rfl :)
theorem s_main_v12 : after ops W (Proc.devRef .tc main_v12) = val_main_v12 (F := F) :=
  (hW.stage1 W 16 rfl (s_main_cst_1 W) :)
theorem s_main_v13 : after ops W (Proc.devRef .tc main_v13) = val_main_v13 (F := F) (A W main_arg0) (A W main_arg2) (A W main_arg3) :=
  (hW.stage2 W 17 rfl (s_main_v11 W) (s_main_v12 W) :)
theorem s_main_v14 : after ops W (Proc.devRef .tc main_v14) = val_main_v14 (F := F) (A W main_arg0) (A W main_arg2) (A W main_arg3) :=
  (hW.stage1 W 18 rfl (s_main_v13 W) :)
theorem s_main_v15 : after ops W (Proc.devRef .tc main_v15) = val_main_v15 (F := F) (A W main_arg0) (A W main_arg2) (A W main_arg3) :=
  (hW.stage2 W 19 rfl (s_main_v9 W) (s_main_v14 W) :)
theorem s_main_v16 : after ops W (Proc.devRef .tc main_v16) = val_main_v16 (F := F) (A W main_arg0) (A W main_arg2) (A W main_arg3) :=
  (hW.stage2 W 20 rfl (s_main_v15 W) (s_main_v15 W) :)
theorem s_main_cst_2 : after ops W (Proc.devRef .tc main_cst_2) = val_main_cst_2 (F := F) :=
  (hW.stage0 W 21 rfl :)
theorem s_main_v17 : after ops W (Proc.devRef .tc main_v17) = val_main_v17 (F := F) (A W main_arg0) (A W main_arg2) (A W main_arg3) :=
  (hW.stage2 W 22 rfl (s_main_v16 W) (s_main_cst_2 W) :)
theorem s_main_v18 : after ops W (Proc.devRef .tc main_v18) = val_main_v18 (F := F) (A W main_arg0) (A W main_arg2) (A W main_arg3) :=
  (hW.stage1 W 23 rfl (s_main_v17 W) :)
theorem s_main_cst_3 : after ops W (Proc.devRef .tc main_cst_3) = val_main_cst_3 (F := F) :=
  (hW.stage0 W 24 rfl :)
theorem s_main_v19 : after ops W (Proc.devRef .tc main_v19) = val_main_v19 (F := F) :=
  (hW.stage1 W 25 rfl (s_main_cst_3 W) :)
theorem s_main_v20 : after ops W (Proc.devRef .tc main_v20) = val_main_v20 (F := F) (A W main_arg0) (A W main_arg2) (A W main_arg3) :=
  (hW.stage2 W 26 rfl (s_main_v18 W) (s_main_v19 W) :)
theorem s_main_v21 : after ops W (Proc.devRef .tc main_v21) = val_main_v21 (F := F) (A W main_arg0) (A W main_arg2) (A W main_arg3) :=
  (hW.stage1 W 27 rfl (s_main_v13 W) :)
theorem s_main_v22 : after ops W (Proc.devRef .tc main_v22) = val_main_v22 (F := F) (A W main_arg0) (A W main_arg2) (A W main_arg3) :=
  (hW.stage2 W 28 rfl (s_main_v9 W) (s_main_v21 W) :)
theorem s_main_cst_4 : after ops W (Proc.devRef .tc main_cst_4) = val_main_cst_4 (F := F) :=
  (hW.stage0 W 29 rfl :)
theorem s_main_v23 : after ops W (Proc.devRef .tc main_v23) = val_main_v23 (F := F) :=
  (hW.stage1 W 30 rfl (s_main_cst_4 W) :)
theorem s_main_v24 : after ops W (Proc.devRef .tc main_v24) = val_main_v24 (F := F) (A W main_arg0) (A W main_arg2) (A W main_arg3) :=
  (hW.stage2 W 31 rfl (s_main_v20 W) (s_main_v23 W) :)
theorem s_main_v25 : after ops W (Proc.devRef .tc main_v25) = val_main_v25 (F := F) (A W main_arg0) (A W main_arg2) (A W main_arg3) :=
  (hW.stage1 W 32 rfl (s_main_v24 W) :)
theorem s_main_v26 : after ops W (Proc.devRef .tc main_v26) = val_main_v26 (F := F) (A W main_arg0) (A W main_arg2) (A W main_arg3) :=
  (hW.stage1 W 33 rfl (s_main_v25 W) :)
theorem s_main_v27 : after ops W (Proc.devRef .tc main_v27) = val_main_v27 (F := F) (A W main_arg0) (A W main_arg2) (A W main_arg3) :=
  (hW.stage2 W 34 rfl (s_main_v22 W) (s_main_v26 W) :)
theorem s_main_v28 : after ops W (Proc.devRef .tc main_v28) = val_main_v28 (F := F) (A W main_arg11) :=
  (hW.stage1 W 35 rfl (hW.after_arg W main_arg11) :)
theorem s_main_v29 : after ops W (Proc.devRef .tc main_v29) = val_main_v29 (F := F) (A W main_arg11) :=
  (hW.stage1 W 36 rfl (s_main_v28 W) :)
theorem s_main_v30 : after ops W (Proc.devRef .tc main_v30) = val_main_v30 (F := F) (A W main_arg0) (A W main_arg2) (A W main_arg3) (A W main_arg11) :=
  (hW.stage2 W 37 rfl (s_main_v27 W) (s_main_v29 W) :)
theorem s_main_v31 : after ops W (Proc.devRef .tc main_v31) = val_main_v31 (F := F) (A W main_arg12) :=
  (hW.stage1 W 38 rfl (hW.after_arg W main_arg12) :)
theorem s_main_v32 : after ops W (Proc.devRef .tc main_v32) = val_main_v32 (F := F) (A W main_arg12) :=
  (hW.stage1 W 39 rfl (s_main_v31 W) :)
theorem s_main_v33 : after ops W (Proc.devRef .tc main_v33) = val_main_v33 (F := F) (A W main_arg0) (A W main_arg2) (A W main_arg3) (A W main_arg11) (A W main_arg12) :=
  (hW.stage2 W 40 rfl (s_main_v30 W) (s_main_v32 W) :)
theorem s_main_v34 : after ops W (Proc.devRef .tc main_v34) = val_main_v34 (F := F) (A W main_arg0) (A W main_arg2) (A W main_arg3) (A W main_arg5) (A W main_arg11) (A W main_arg12) :=
  (hW.stage2 W 41 rfl (s_main_v33 W) (hW.after_arg W main_arg5) :)
theorem s_main_v35 : after ops W (Proc.devRef .tc main_v35) = val_main_v35 (F := F) (A W main_arg0) (A W main_arg2) (A W main_arg3) (A W main_arg4) (A W main_arg11) (A W main_arg12) :=
  (hW.stage2 W 42 rfl (s_main_v33 W) (hW.after_arg W main_arg4) :)
theorem s_main_v36 : after ops W (Proc.devRef .tc main_v36) = val_main_v36 (F := F) (A W main_arg0) (A W main_arg2) (A W main_arg3) (A W main_arg6) (A W main_arg11) (A W main_arg12) :=
  (hW.stage2 W 43 rfl (s_main_v33 W) (hW.after_arg W main_arg6) :)
theorem s_main_v37 : after ops W (Proc.devRef .tc main_v37) = val_main_v37 (F := F) (A W main_arg0) (A W main_arg2) (A W main_arg3) (A W main_arg4) (A W main_arg5) (A W main_arg11) (A W main_arg12) :=
  (hW.stage2 W 44 rfl (s_main_v34 W) (s_main_v35 W) :)
theorem s_main_cst_5 : after ops W (Proc.devRef .tc main_cst_5) = val_main_cst_5 (F := F) :=
  (hW.stage0 W 45 rfl :)
theorem s_main_v38 : after ops W (Proc.devRef .tc main_v38) = val_main_v38 (F := F) :=
  (hW.stage1 W 46 rfl (s_main_cst_5 W) :)
theorem s_main_v39 : after ops W (Proc.devRef .tc main_v39) = val_main_v39 (F := F) (A W main_arg0) (A W main_arg2) (A W main_arg3) (A W main_arg4) (A W main_arg5) (A W main_arg11) (A W main_arg12) :=
  (hW.stage2 W 47 rfl (s_main_v37 W) (s_main_v38 W) :)
theorem s_main_c_6 : after ops W (Proc.devRef .tc main_c_6) = val_main_c_6 (F := F) :=
  (hW.stage0 W 48 rfl :)
theorem s_main_v40 : after ops W (Proc.devRef .tc main_v40) = val_main_v40 (F := F) :=
  (hW.stage1 W 49 rfl (s_main_c_6 W) :)
theorem s_main_call0_v0 : after ops W (Proc.devRef .tc main_call0_v0) = val_main_call0_v0 (F := F) :=
  by have h := hW.stage0 W 50 rfl; simp only [TRef.ofBuf, TRef.toBuf, cast_eq] at h; exact h
theorem s_main_call0_c : after ops W (Proc.devRef .tc main_call0_c) = val_main_call0_c (F := F) :=
  by have h := hW.stage0 W 51 rfl; simp only [TRef.ofBuf, TRef.toBuf, cast_eq] at h; exact h
theorem s_main_call0_v1 : after ops W (Proc.devRef .tc main_call0_v1) = val_main_call0_v1 (F := F) :=
  by have h := hW.stage1 W 52 rfl rfl; simp only [TRef.ofBuf, TRef.toBuf, cast_eq] at h; rw [s_main_call0_c W] at h; exact h
theorem s_main_call0_v2 : after ops W (Proc.devRef .tc main_call0_v2) = val_main_call0_v2 (F := F) :=
  by have h := hW.stage2 W 53 rfl rfl rfl; simp only [TRef.ofBuf, TRef.toBuf, cast_eq] at h; rw [s_main_call0_v0 W, s_main_call0_v1 W] at h; exact h
theorem s_main_call0_v3 : after ops W (Proc.devRef .tc main_call0_v3) = val_main_call0_v3 (F := F) :=
  by have h := hW.stage0 W 54 rfl; simp only [TRef.ofBuf, TRef.toBuf, cast_eq] at h; exact h
theorem s_main_call0_v4 : after ops W (Proc.devRef .tc main_call0_v4) = val_main_call0_v4 (F := F) :=
  by have h := hW.stage2 W 55 rfl rfl rfl; simp only [TRef.ofBuf, TRef.toBuf, cast_eq] at h; rw [s_main_call0_v2 W, s_main_call0_v3 W] at h; exact h
theorem s_main_call0_c_0 : after ops W (Proc.devRef .tc main_call0_c_0) = val_main_call0_c_0 (F := F) :=
  by have h := hW.stage0 W 56 rfl; simp only [TRef.ofBuf, TRef.toBuf, cast_eq] at h; exact h
theorem s_main_call0_v5 : after ops W (Proc.devRef .tc main_call0_v5) = val_main_call0_v5 (F := F) :=
  by have h := hW.stage1 W 57 rfl rfl; simp only [TRef.ofBuf, TRef.toBuf, cast_eq] at h; rw [s_main_call0_c_0 W] at h; exact h
theorem s_main_v41 : after ops W (Proc.devRef .tc main_v41) = val_main_v41 (F := F) :=
  by have h := hW.stage3 W 58 rfl rfl rfl rfl; simp only [TRef.ofBuf, TRef.toBuf, cast_eq] at h; rw [s_main_call0_v4 W, s_main_v40 W, s_main_call0_v5 W] at h; exact h
theorem s_main_cst_7 : after ops W (Proc.devRef .tc main_cst_7) = val_main_cst_7 (F := F) :=
  (hW.stage0 W 59 rfl :)
theorem s_main_call1_v0 : after ops W (Proc.devRef .tc main_call1_v0) = val_main_call1_v0 (F := F) :=
  by have h := hW.stage1 W 60 rfl rfl; simp only [TRef.ofBuf, TRef.toBuf, cast_eq] at h; rw [s_main_cst_7 W] at h; exact h
theorem s_main_call1_v1 : after ops W (Proc.devRef .tc main_call1_v1) = val_main_call1_v1 (F := F) :=
  by have h := hW.stage1 W 61 rfl rfl; simp only [TRef.ofBuf, TRef.toBuf, cast_eq] at h; rw [s_main_v41 W] at h; exact h
theorem s_main_call1_v2 : after ops W (Proc.devRef .tc main_call1_v2) = val_main_call1_v2 (F := F) :=
  by have h := hW.stage1 W 62 rfl rfl; simp only [TRef.ofBuf, TRef.toBuf, cast_eq] at h; rw [s_main_call1_v0 W] at h; exact h
theorem s_main_v42 : after ops W (Proc.devRef .tc main_v42) = val_main_v42 (F := F) (A W main_arg0) (A W main_arg2) (A W main_arg3) (A W main_arg4) (A W main_arg5) (A W main_arg11) (A W main_arg12) :=
  by have h := hW.stage3 W 63 rfl rfl rfl rfl; simp only [TRef.ofBuf, TRef.toBuf, cast_eq] at h; rw [s_main_call1_v1 W, s_main_v39 W, s_main_call1_v2 W] at h; exact h
theorem s_main_cst_8 : after ops W (Proc.devRef .tc main_cst_8) = val_main_cst_8 (F := F) :=
  (hW.stage0 W 64 rfl :)
theorem s_main_v43 : after ops W (Proc.devRef .tc main_v43) = val_main_v43 (F := F) (A W main_arg0) (A W main_arg2) (A W main_arg3) (A W main_arg4) (A W main_arg5) (A W main_arg11) (A W main_arg12) :=
  (hW.stage2 W 65 rfl (s_main_v42 W) (s_main_cst_8 W) :)
theorem s_main_cst_9 : after ops W (Proc.devRef .tc main_cst_9) = val_main_cst_9 (F := F) :=
  (hW.stage0 W 66 rfl :)
theorem s_main_v44 : after ops W (Proc.devRef .tc main_v44) = val_main_v44 (F := F) :=
  (hW.stage1 W 67 rfl (s_main_cst_9 W) :)
theorem s_main_v45 : after ops W (Proc.devRef .tc main_v45) = val_main_v45 (F := F) (A W main_arg0) (A W main_arg2) (A W main_arg3) (A W main_arg4) (A W main_arg5) (A W main_arg11) (A W main_arg12) :=
  (hW.stage2 W 68 rfl (s_main_v44 W) (s_main_v43 W) :)
theorem s_main_v46 : after ops W (Proc.devRef .tc main_v46) = val_main_v46 (F := F) (A W main_arg0) (A W main_arg2) (A W main_arg3) (A W main_arg4) (A W main_arg5) (A W main_arg11) (A W main_arg12) :=
  (hW.stage1 W 69 rfl (s_main_v45 W) :)
theorem s_main_v47 : after ops W (Proc.devRef .tc main_v47) = val_main_v47 (F := F) (A W main_arg0) (A W main_arg2) (A W main_arg3) (A W main_arg4) (A W main_arg5) (A W main_arg11) (A W main_arg12) :=
  (hW.stage1 W 70 rfl (s_main_v46 W) :)
theorem s_main_v48 : after ops W (Proc.devRef .tc main_v48) = val_main_v48 (F := F) (A W main_arg0) (A W main_arg2) (A W main_arg3) (A W main_arg4) (A W main_arg5) (A W main_arg11) (A W main_arg12) :=
  (hW.stage2 W 71 rfl (s_main_v42 W) (s_main_v47 W) :)
theorem s_main_v49 : after ops W (Proc.devRef .tc main_v49) = val_main_v49 (F := F) (A W main_arg0) (A W main_arg2) (A W main_arg3) (A W main_arg4) (A W main_arg5) (A W main_arg11) (A W main_arg12) :=
  (hW.stage1 W 72 rfl (s_main_v48 W) :)
theorem s_main_cst_10 : after ops W (Proc.devRef .tc main_cst_10) = val_main_cst_10 (F := F) :=
  (hW.stage0 W 73 rfl :)
theorem s_main_v50 : after ops W (Proc.devRef .tc main_v50) = val_main_v50 (F := F) (A W main_arg0) (A W main_arg2) (A W main_arg3) (A W main_arg4) (A W main_arg5) (A W main_arg11) (A W main_arg12) :=
  (hW.stage2 W 74 rfl (s_main_v49 W) (s_main_cst_10 W) :)
theorem s_main_v51 : after ops W (Proc.devRef .tc main_v51) = val_main_v51 (F := F) (A W main_arg0) (A W main_arg2) (A W main_arg3) (A W main_arg4) (A W main_arg5) (A W main_arg11) (A W main_arg12) :=
  (hW.stage1 W 75 rfl (s_main_v50 W) :)
theorem s_main_v52 : after ops W (Proc.devRef .tc main_v52) = val_main_v52 (F := F) (A W main_arg0) (A W main_arg2) (A W main_arg3) (A W main_arg4) (A W main_arg5) (A W main_arg11) (A W main_arg12) :=
  (hW.stage1 W 76 rfl (s_main_v51 W) :)
theorem s_main_v53 : after ops W (Proc.devRef .tc main_v53) = val_main_v53 (F := F) (A W main_arg0) (A W main_arg2) (A W main_arg3) (A W main_arg4) (A W main_arg5) (A W main_arg11) (A W main_arg12) :=
  (hW.stage2 W 77 rfl (s_main_v49 W) (s_main_v52 W) :)
theorem s_main_v54 : after ops W (Proc.devRef .tc main_v54) = val_main_v54 (F := F) (A W main_arg0) (A W main_arg2) (A W main_arg3) (A W main_arg4) (A W main_arg5) (A W main_arg6) (A W main_arg11) (A W main_arg12) :=
  (hW.stage2 W 78 rfl (s_main_v53 W) (s_main_v36 W) :)
theorem s_main_v55 : after ops W (Proc.devRef .tc main_v55) = val_main_v55 (F := F) (A W main_arg0) (A W main_arg2) (A W main_arg3) (A W main_arg4) (A W main_arg5) (A W main_arg6) (A W main_arg11) (A W main_arg12) :=
  (hW.stage2 W 79 rfl (s_main_v9 W) (s_main_v54 W) :)
theorem s_main_cst_11 : after ops W (Proc.devRef .tc main_cst_11) = val_main_cst_11 (F := F) :=
  (hW.stage0 W 80 rfl :)
theorem s_main_v56 : after ops W (Proc.devRef .tc main_v56) = val_main_v56 (F := F) (A W main_arg0) (A W main_arg2) (A W main_arg3) (A W main_arg4) (A W main_arg5) (A W main_arg6) (A W main_arg11) (A W main_arg12) :=
  (hW.stage2 W 81 rfl (s_main_v55 W) (s_main_cst_11 W) :)
theorem s_main_v57 : after ops W (Proc.devRef .tc main_v57) = val_main_v57 (F := F) (A W main_arg0) (A W main_arg2) (A W main_arg3) (A W main_arg4) (A W main_arg5) (A W main_arg6) (A W main_arg11) (A W main_arg12) :=
  (hW.stage1 W 82 rfl (s_main_v56 W) :)
theorem s_main_cst_12 : after ops W (Proc.devRef .tc main_cst_12) = val_main_cst_12 (F := F) :=
  (hW.stage0 W 83 rfl :)
theorem s_main_v58 : after ops W (Proc.devRef .tc main_v58) = val_main_v58 (F := F) :=
  (hW.stage1 W 84 rfl (s_main_cst_12 W) :)
theorem s_main_v59 : after ops W (Proc.devRef .tc main_v59) = val_main_v59 (F := F) (A W main_arg0) (A W main_arg2) (A W main_arg3) (A W main_arg4) (A W main_arg5) (A W main_arg6) (A W main_arg11) (A W main_arg12) :=
  (hW.stage2 W 85 rfl (s_main_v57 W) (s_main_v58 W) :)
theorem s_main_v60 : after ops W (Proc.devRef .tc main_v60) = val_main_v60 (F := F) (A W main_arg0) (A W main_arg2) (A W main_arg3) (A W main_arg4) (A W main_arg5) (A W main_arg6) (A W main_arg11) (A W main_arg12) :=
  (hW.stage1 W 86 rfl (s_main_v59 W) :)
theorem s_main_v61 : after ops W (Proc.devRef .tc main_v61) = val_main_v61 (F := F) (A W main_arg0) (A W main_arg2) (A W main_arg3) (A W main_arg4) (A W main_arg5) (A W main_arg6) (A W main_arg11) (A W main_arg12) :=
  (hW.stage2 W 87 rfl (s_main_v55 W) (s_main_v60 W) :)
theorem s_main_v62 : after ops W (Proc.devRef .tc main_v62) = val_main_v62 (F := F) (A W main_arg0) (A W main_arg2) (A W main_arg3) (A W main_arg4) (A W main_arg5) (A W main_arg6) (A W main_arg11) (A W main_arg12) :=
  (hW.stage2 W 88 rfl (s_main_v61 W) (s_main_v61 W) :)
theorem s_main_cst_13 : after ops W (Proc.devRef .tc main_cst_13) = val_main_cst_13 (F := F) :=
  (hW.stage0 W 89 rfl :)
theorem s_main_v63 : after ops W (Proc.devRef .tc main_v63) = val_main_v63 (F := F) (A W main_arg0) (A W main_arg2) (A W main_arg3) (A W main_arg4) (A W main_arg5) (A W main_arg6) (A W main_arg11) (A W main_arg12) :=
  (hW.stage2 W 90 rfl (s_main_v62 W) (s_main_cst_13 W) :)
theorem s_main_v64 : after ops W (Proc.devRef .tc main_v64) = val_main_v64 (F := F) (A W main_arg0) (A W main_arg2) (A W main_arg3) (A W main_arg4) (A W main_arg5) (A W main_arg6) (A W main_arg11) (A W main_arg12) :=
  (hW.stage1 W 91 rfl (s_main_v63 W) :)
theorem s_main_cst_14 : after ops W (Proc.devRef .tc main_cst_14) = val_main_cst_14 (F := F) :=
  (hW.stage0 W 92 rfl :)
theorem s_main_v65 : after ops W (Proc.devRef .tc main_v65) = val_main_v65 (F := F) :=
  (hW.stage1 W 93 rfl (s_main_cst_14 W) :)
theorem s_main_v66 : after ops W (Proc.devRef .tc main_v66) = val_main_v66 (F := F) (A W main_arg0) (A W main_arg2) (A W main_arg3) (A W main_arg4) (A W main_arg5) (A W main_arg6) (A W main_arg11) (A W main_arg12) :=
  (hW.stage2 W 94 rfl (s_main_v64 W) (s_main_v65 W) :)
theorem s_main_v67 : after ops W (Proc.devRef .tc main_v67) = val_main_v67 (F := F) (A W main_arg0) (A W main_arg2) (A W main_arg3) (A W main_arg4) (A W main_arg5) (A W main_arg6) (A W main_arg11) (A W main_arg12) :=
  (hW.stage1 W 95 rfl (s_main_v59 W) :)
theorem s_main_v68 : after ops W (Proc.devRef .tc main_v68) = val_main_v68 (F := F) (A W main_arg0) (A W main_arg2) (A W main_arg3) (A W main_arg4) (A W main_arg5) (A W main_arg6) (A W main_arg11) (A W main_arg12) :=
  (hW.stage2 W 96 rfl (s_main_v55 W) (s_main_v67 W) :)
theorem s_main_cst_15 : after ops W (Proc.devRef .tc main_cst_15) = val_main_cst_15 (F := F) :=
  (hW.stage0 W 97 rfl :)
theorem s_main_v69 : after ops W (Proc.devRef .tc main_v69) = val_main_v69 (F := F) :=
  (hW.stage1 W 98 rfl (s_main_cst_15 W) :)
theorem s_main_v70 : after ops W (Proc.devRef .tc main_v70) = val_main_v70 (F := F) (A W main_arg0) (A W main_arg2) (A W main_arg3) (A W main_arg4) (A W main_arg5) (A W main_arg6) (A W main_arg11) (A W main_arg12) :=
  (hW.stage2 W 99 rfl (s_main_v66 W) (s_main_v69 W) :)
theorem s_main_v71 : after ops W (Proc.devRef .tc main_v71) = val_main_v71 (F := F) (A W main_arg0) (A W main_arg2) (A W main_arg3) (A W main_arg4) (A W main_arg5) (A W main_arg6) (A W main_arg11) (A W main_arg12) :=
  (hW.stage1 W 100 rfl (s_main_v70 W) :)
theorem s_main_v72 : after ops W (Proc.devRef .tc main_v72) = val_main_v72 (F := F) (A W main_arg0) (A W main_arg2) (A W main_arg3) (A W main_arg4) (A W main_arg5) (A W main_arg6) (A W main_arg11) (A W main_arg12) :=
  (hW.stage1 W 101 rfl (s_main_v71 W) :)
theorem s_main_v73 : after ops W (Proc.devRef .tc main_v73) = val_main_v73 (F := F) (A W main_arg0) (A W main_arg2) (A W main_arg3) (A W main_arg4) (A W main_arg5) (A W main_arg6) (A W main_arg11) (A W main_arg12) :=
  (hW.stage2 W 102 rfl (s_main_v68 W) (s_main_v72 W) :)
theorem s_main_v74 : after ops W (Proc.devRef .tc main_v74) = val_main_v74 (F := F) (A W main_arg13) :=
  (hW.stage1 W 103 rfl (hW.after_arg W main_arg13) :)
theorem s_main_v75 : after ops W (Proc.devRef .tc main_v75) = val_main_v75 (F := F) (A W main_arg13) :=
  (hW.stage1 W 104 rfl (s_main_v74 W) :)
theorem s_main_v76 : after ops W (Proc.devRef .tc main_v76) = val_main_v76 (F := F) (A W main_arg0) (A W main_arg2) (A W main_arg3) (A W main_arg4) (A W main_arg5) (A W main_arg6) (A W main_arg11) (A W main_arg12) (A W main_arg13) :=
  (hW.stage2 W 105 rfl (s_main_v73 W) (s_main_v75 W) :)
theorem s_main_v77 : after ops W (Proc.devRef .tc main_v77) = val_main_v77 (F := F) (A W main_arg14) :=
  (hW.stage1 W 106 rfl (hW.after_arg W main_arg14) :)
theorem s_main_v78 : after ops W (Proc.devRef .tc main_v78) = val_main_v78 (F := F) (A W main_arg14) :=
  (hW.stage1 W 107 rfl (s_main_v77 W) :)
theorem s_main_v79 : after ops W (Proc.devRef .tc main_v79) = val_main_v79 (F := F) (A W main_arg0) (A W main_arg2) (A W main_arg3) (A W main_arg4) (A W main_arg5) (A W main_arg6) (A W main_arg11) (A W main_arg12) (A W main_arg13) (A W main_arg14) :=
  (hW.stage2 W 108 rfl (s_main_v76 W) (s_main_v78 W) :)
theorem s_main_v80 : after ops W (Proc.devRef .tc main_v80) = val_main_v80 (F := F) (A W main_arg0) (A W main_arg2) (A W main_arg3) (A W main_arg4) (A W main_arg5) (A W main_arg6) (A W main_arg7) (A W main_arg11) (A W main_arg12) (A W main_arg13) (A W main_arg14) :=
  (hW.stage2 W 109 rfl (s_main_v79 W) (hW.after_arg W main_arg7) :)
theorem s_main_v81 : after ops W (Proc.devRef .tc main_v81) = val_main_v81 (F := F) (A W main_arg8) :=
  (hW.stage1 W 110 rfl (hW.after_arg W main_arg8) :)
theorem s_main_v82 : after ops W (Proc.devRef .tc main_v82) = val_main_v82 (F := F) (A W main_arg8) :=
  (hW.stage1 W 111 rfl (s_main_v81 W) :)
theorem s_main_v83 : after ops W (Proc.devRef .tc main_v83) = val_main_v83 (F := F) (A W main_arg0) (A W main_arg2) (A W main_arg3) (A W main_arg4) (A W main_arg5) (A W main_arg6) (A W main_arg7) (A W main_arg8) (A W main_arg11) (A W main_arg12) (A W main_arg13) (A W main_arg14) :=
  (hW.stage2 W 112 rfl (s_main_v80 W) (s_main_v82 W) :)
theorem s_main_call2_cst : after ops W (Proc.devRef .tc main_call2_cst) = val_main_call2_cst (F := F) :=
  by have h := hW.stage0 W 113 rfl; simp only [TRef.ofBuf, TRef.toBuf, cast_eq] at h; exact h
theorem s_main_call2_v0 : after ops W (Proc.devRef .tc main_call2_v0) = val_main_call2_v0 (F := F) :=
  by have h := hW.stage1 W 114 rfl rfl; simp only [TRef.ofBuf, TRef.toBuf, cast_eq] at h; rw [s_main_call2_cst W] at h; exact h
theorem s_main_v84 : after ops W (Proc.devRef .tc main_v84) = val_main_v84 (F := F) (A W main_arg0) (A W main_arg2) (A W main_arg3) (A W main_arg4) (A W main_arg5) (A W main_arg6) (A W main_arg7) (A W main_arg8) (A W main_arg11) (A W main_arg12) (A W main_arg13) (A W main_arg14) :=
  by have h := hW.stage2 W 115 rfl rfl rfl; simp only [TRef.ofBuf, TRef.toBuf, cast_eq] at h; rw [s_main_v83 W, s_main_call2_v0 W] at h; exact h
theorem s_main_v85 : after ops W (Proc.devRef .tc main_v85) = val_main_v85 (F := F) (A W main_arg0) (A W main_arg2) (A W main_arg3) (A W main_arg4) (A W main_arg5) (A W main_arg6) (A W main_arg7) (A W main_arg8) (A W main_arg9) (A W main_arg11) (A W main_arg12) (A W main_arg13) (A W main_arg14) :=
  (hW.stage2 W 116 rfl (s_main_v84 W) (hW.after_arg W main_arg9) :)
theorem s_main_v86 : after ops W (Proc.devRef .tc main_v86) = val_main_v86 (F := F) (A W main_arg0) (A W main_arg2) (A W main_arg3) (A W main_arg4) (A W main_arg5) (A W main_arg6) (A W main_arg7) (A W main_arg8) (A W main_arg9) (A W main_arg11) (A W main_arg12) (A W main_arg13) (A W main_arg14) :=
  (hW.stage2 W 117 rfl (s_main_v55 W) (s_main_v85 W) :)
theorem s_main_v87 : after ops W (Proc.devRef .tc main_v87) = val_main_v87 (F := F) (A W main_arg10) :=
  (hW.stage1 W 118 rfl (hW.after_arg W main_arg10) :)
theorem s_main_v88 : after ops W (Proc.devRef .tc main_v88) = val_main_v88 (F := F) (A W main_arg10) :=
  (hW.stage1 W 119 rfl (s_main_v87 W) :)
theorem s_main_v89 : after ops W (Proc.devRef .tc main_v89) = val_main_v89 (F := F) (A W main_arg0) (A W main_arg2) (A W main_arg3) (A W main_arg4) (A W main_arg5) (A W main_arg6) (A W main_arg7) (A W main_arg8) (A W main_arg9) (A W main_arg10) (A W main_arg11) (A W main_arg12) (A W main_arg13) (A W main_arg14) :=
  (hW.stage2 W 120 rfl (s_main_v86 W) (s_main_v88 W) :)
theorem s_main_v90 : after ops W (Proc.devRef .tc main_v90) = val_main_v90 (F := F) (A W main_arg0) (A W main_arg2) (A W main_arg3) (A W main_arg4) (A W main_arg5) (A W main_arg6) (A W main_arg7) (A W main_arg8) (A W main_arg9) (A W main_arg10) (A W main_arg11) (A W main_arg12) (A W main_arg13) (A W main_arg14) (A W main_arg15) :=
  (hW.stage2 W 121 rfl (s_main_v89 W) (hW.after_arg W main_arg15) :)
theorem s_main_v91 : after ops W (Proc.devRef .tc main_v91) = val_main_v91 (F := F) (A W main_arg16) :=
  (hW.stage1 W 122 rfl (hW.after_arg W main_arg16) :)
theorem s_main_v92 : after ops W (Proc.devRef .tc main_v92) = val_main_v92 (F := F) (A W main_arg16) :=
  (hW.stage1 W 123 rfl (s_main_v91 W) :)
theorem s_main_v93 : after ops W (Proc.devRef .tc main_v93) = val_main_v93 (F := F) (A W main_arg0) (A W main_arg2) (A W main_arg3) (A W main_arg4) (A W main_arg5) (A W main_arg6) (A W main_arg7) (A W main_arg8) (A W main_arg9) (A W main_arg10) (A W main_arg11) (A W main_arg12) (A W main_arg13) (A W main_arg14) (A W main_arg15) (A W main_arg16) :=
  (hW.stage2 W 124 rfl (s_main_v90 W) (s_main_v92 W) :)
theorem s_main_v94 : after ops W (Proc.devRef .tc main_v94) = val_main_v94 (F := F) (A W main_arg0) (A W main_arg2) (A W main_arg3) (A W main_arg4) (A W main_arg5) (A W main_arg6) (A W main_arg7) (A W main_arg8) (A W main_arg9) (A W main_arg10) (A W main_arg11) (A W main_arg12) (A W main_arg13) (A W main_arg14) (A W main_arg15) (A W main_arg16) :=
  (hW.stageR W 125 rfl (s_main_v93 W) :)
theorem s_main_call3_cst : after ops W (Proc.devRef .tc main_call3_cst) = val_main_call3_cst (F := F) :=
  by have h := hW.stage0 W 126 rfl; simp only [TRef.ofBuf, TRef.toBuf, cast_eq] at h; exact h
theorem s_main_call3_v0 : after ops W (Proc.devRef .tc main_call3_v0) = val_main_call3_v0 (F := F) (A W main_arg0) (A W main_arg2) (A W main_arg3) (A W main_arg4) (A W main_arg5) (A W main_arg6) (A W main_arg7) (A W main_arg8) (A W main_arg9) (A W main_arg10) (A W main_arg11) (A W main_arg12) (A W main_arg13) (A W main_arg14) (A W main_arg15) (A W main_arg16) :=
  by have h := hW.stage2 W 127 rfl rfl rfl; simp only [TRef.ofBuf, TRef.toBuf, cast_eq] at h; rw [s_main_v94 W, s_main_call3_cst W] at h; exact h
theorem s_main_call3_cst_0 : after ops W (Proc.devRef .tc main_call3_cst_0) = val_main_call3_cst_0 (F := F) :=
  by have h := hW.stage0 W 128 rfl; simp only [TRef.ofBuf, TRef.toBuf, cast_eq] at h; exact h
theorem s_main_call3_v1 : after ops W (Proc.devRef .tc main_call3_v1) = val_main_call3_v1 (F := F) :=
  by have h := hW.stage1 W 129 rfl rfl; simp only [TRef.ofBuf, TRef.toBuf, cast_eq] at h; rw [s_main_call3_cst_0 W] at h; exact h
theorem s_main_call3_v2 : after ops W (Proc.devRef .tc main_call3_v2) = val_main_call3_v2 (F := F) (A W main_arg0) (A W main_arg2) (A W main_arg3) (A W main_arg4) (A W main_arg5) (A W main_arg6) (A W main_arg7) (A W main_arg8) (A W main_arg9) (A W main_arg10) (A W main_arg11) (A W main_arg12) (A W main_arg13) (A W main_arg14) (A W main_arg15) (A W main_arg16) :=
  by have h := hW.stage2 W 130 rfl rfl rfl; simp only [TRef.ofBuf, TRef.toBuf, cast_eq] at h; rw [s_main_call3_v1 W, s_main_call3_v0 W] at h; exact h
theorem s_main_call3_v3 : after ops W (Proc.devRef .tc main_call3_v3) = val_main_call3_v3 (F := F) (A W main_arg0) (A W main_arg2) (A W main_arg3) (A W main_arg4) (A W main_arg5) (A W main_arg6) (A W main_arg7) (A W main_arg8) (A W main_arg9) (A W main_arg10) (A W main_arg11) (A W main_arg12) (A W main_arg13) (A W main_arg14) (A W main_arg15) (A W main_arg16) :=
  by have h := hW.stage1 W 131 rfl rfl; simp only [TRef.ofBuf, TRef.toBuf, cast_eq] at h; rw [s_main_call3_v2 W] at h; exact h
theorem s_main_call3_v4 : after ops W (Proc.devRef .tc main_call3_v4) = val_main_call3_v4 (F := F) (A W main_arg0) (A W main_arg2) (A W main_arg3) (A W main_arg4) (A W main_arg5) (A W main_arg6) (A W main_arg7) (A W main_arg8) (A W main_arg9) (A W main_arg10) (A W main_arg11) (A W main_arg12) (A W main_arg13) (A W main_arg14) (A W main_arg15) (A W main_arg16) :=
  by have h := hW.stage1 W 132 rfl rfl; simp only [TRef.ofBuf, TRef.toBuf, cast_eq] at h; rw [s_main_call3_v3 W] at h; exact h
theorem s_main_call3_v5 : after ops W (Proc.devRef .tc main_call3_v5) = val_main_call3_v5 (F := F) (A W main_arg0) (A W main_arg2) (A W main_arg3) (A W main_arg4) (A W main_arg5) (A W main_arg6) (A W main_arg7) (A W main_arg8) (A W main_arg9) (A W main_arg10) (A W main_arg11) (A W main_arg12) (A W main_arg13) (A W main_arg14) (A W main_arg15) (A W main_arg16) :=
  by have h := hW.stage2 W 133 rfl rfl rfl; simp only [TRef.ofBuf, TRef.toBuf, cast_eq] at h; rw [s_main_v94 W, s_main_call3_v4 W] at h; exact h
theorem s_main_call3_v6 : after ops W (Proc.devRef .tc main_call3_v6) = val_main_call3_v6 (F := F) (A W main_arg0) (A W main_arg2) (A W main_arg3) (A W main_arg4) (A W main_arg5) (A W main_arg6) (A W main_arg7) (A W main_arg8) (A W main_arg9) (A W main_arg10) (A W main_arg11) (A W main_arg12) (A W main_arg13) (A W main_arg14) (A W main_arg15) (A W main_arg16) :=
  by have h := hW.stage1 W 134 rfl rfl; simp only [TRef.ofBuf, TRef.toBuf, cast_eq] at h; rw [s_main_call3_v5 W] at h; exact h
theorem s_main_call3_cst_1 : after ops W (Proc.devRef .tc main_call3_cst_1) = val_main_call3_cst_1 (F := F) :=
  by have h := hW.stage0 W 135 rfl; simp only [TRef.ofBuf, TRef.toBuf, cast_eq] at h; exact h
theorem s_main_call3_v7 : after ops W (Proc.devRef .tc main_call3_v7) = val_main_call3_v7 (F := F) (A W main_arg0) (A W main_arg2) (A W main_arg3) (A W main_arg4) (A W main_arg5) (A W main_arg6) (A W main_arg7) (A W main_arg8) (A W main_arg9) (A W main_arg10) (A W main_arg11) (A W main_arg12) (A W main_arg13) (A W main_arg14) (A W main_arg15) (A W main_arg16) :=
  by have h := hW.stage2 W 136 rfl rfl rfl; simp only [TRef.ofBuf, TRef.toBuf, cast_eq] at h; rw [s_main_call3_v6 W, s_main_call3_cst_1 W] at h; exact h
theorem s_main_call3_v8 : after ops W (Proc.devRef .tc main_call3_v8) = val_main_call3_v8 (F := F) (A W main_arg0) (A W main_arg2) (A W main_arg3) (A W main_arg4) (A W main_arg5) (A W main_arg6) (A W main_arg7) (A W main_arg8) (A W main_arg9) (A W main_arg10) (A W main_arg11) (A W main_arg12) (A W main_arg13) (A W main_arg14) (A W main_arg15) (A W main_arg16) :=
  by have h := hW.stage1 W 137 rfl rfl; simp only [TRef.ofBuf, TRef.toBuf, cast_eq] at h; rw [s_main_call3_v7 W] at h; exact h
theorem s_main_call3_v9 : after ops W (Proc.devRef .tc main_call3_v9) = val_main_call3_v9 (F := F) (A W main_arg0) (A W main_arg2) (A W main_arg3) (A W main_arg4) (A W main_arg5) (A W main_arg6) (A W main_arg7) (A W main_arg8) (A W main_arg9) (A W main_arg10) (A W main_arg11) (A W main_arg12) (A W main_arg13) (A W main_arg14) (A W main_arg15) (A W main_arg16) :=
  by have h := hW.stage1 W 138 rfl rfl; simp only [TRef.ofBuf, TRef.toBuf, cast_eq] at h; rw [s_main_call3_v8 W] at h; exact h
theorem s_main_call3_v10 : after ops W (Proc.devRef .tc main_call3_v10) = val_main_call3_v10 (F := F) (A W main_arg0) (A W main_arg2) (A W main_arg3) (A W main_arg4) (A W main_arg5) (A W main_arg6) (A W main_arg7) (A W main_arg8) (A W main_arg9) (A W main_arg10) (A W main_arg11) (A W main_arg12) (A W main_arg13) (A W main_arg14) (A W main_arg15) (A W main_arg16) :=
  by have h := hW.stage1 W 139 rfl rfl; simp only [TRef.ofBuf, TRef.toBuf, cast_eq] at h; rw [s_main_call3_v9 W] at h; exact h
theorem s_main_v95 : after ops W (Proc.devRef .tc main_v95) = val_main_v95 (F := F) (A W main_arg0) (A W main_arg2) (A W main_arg3) (A W main_arg4) (A W main_arg5) (A W main_arg6) (A W main_arg7) (A W main_arg8) (A W main_arg9) (A W main_arg10) (A W main_arg11) (A W main_arg12) (A W main_arg13) (A W main_arg14) (A W main_arg15) (A W main_arg16) :=
  by have h := hW.stage2 W 140 rfl rfl rfl; simp only [TRef.ofBuf, TRef.toBuf, cast_eq] at h; rw [s_main_call3_v5 W, s_main_call3_v10 W] at h; exact h
theorem s_main_v96 : after ops W (Proc.devRef .tc main_v96) = val_main_v96 (F := F) (A W main_arg1) :=
  (hW.stageR W 141 rfl (hW.after_arg W main_arg1) :)
theorem s_main_call4_c : after ops W (Proc.devRef .tc main_call4_c) = val_main_call4_c (F := F) :=
  by have h := hW.stage0 W 142 rfl; simp only [TRef.ofBuf, TRef.toBuf, cast_eq] at h; exact h
theorem s_main_call4_v0 : after ops W (Proc.devRef .tc main_call4_v0) = val_main_call4_v0 (F := F) :=
  by have h := hW.stage1 W 143 rfl rfl; simp only [TRef.ofBuf, TRef.toBuf, cast_eq] at h; rw [s_main_call4_c W] at h; exact h
theorem s_main_call4_v1 : after ops W (Proc.devRef .tc main_call4_v1) = val_main_call4_v1 (F := F) (A W main_arg1) :=
  by have h := hW.stage2 W 144 rfl rfl rfl; simp only [TRef.ofBuf, TRef.toBuf, cast_eq] at h; rw [s_main_v96 W, s_main_call4_v0 W] at h; exact h
theorem s_main_call4_c_0 : after ops W (Proc.devRef .tc main_call4_c_0) = val_main_call4_c_0 (F := F) :=
  by have h := hW.stage0 W 145 rfl; simp only [TRef.ofBuf, TRef.toBuf, cast_eq] at h; exact h
theorem s_main_call4_v2 : after ops W (Proc.devRef .tc main_call4_v2) = val_main_call4_v2 (F := F) :=
  by have h := hW.stage1 W 146 rfl rfl; simp only [TRef.ofBuf, TRef.toBuf, cast_eq] at h; rw [s_main_call4_c_0 W] at h; exact h
theorem s_main_call4_v3 : after ops W (Proc.devRef .tc main_call4_v3) = val_main_call4_v3 (F := F) (A W main_arg1) :=
  by have h := hW.stage2 W 147 rfl rfl rfl; simp only [TRef.ofBuf, TRef.toBuf, cast_eq] at h; rw [s_main_v96 W, s_main_call4_v2 W] at h; exact h
theorem s_main_call4_v4 : after ops W (Proc.devRef .tc main_call4_v4) = val_main_call4_v4 (F := F) (A W main_arg1) :=
  by have h := hW.stage3 W 148 rfl rfl rfl rfl; simp only [TRef.ofBuf, TRef.toBuf, cast_eq] at h; rw [s_main_call4_v1 W, s_main_call4_v3 W, s_main_v96 W] at h; exact h
theorem s_main_call4_v5 : after ops W (Proc.devRef .tc main_call4_v5) = val_main_call4_v5 (F := F) (A W main_arg1) :=
  (hW.stageR W 149 rfl (s_main_call4_v4 W) :)
theorem s_main_call4_c_1 : after ops W (Proc.devRef .tc main_call4_c_1) = val_main_call4_c_1 (F := F) :=
  by have h := hW.stage0 W 150 rfl; simp only [TRef.ofBuf, TRef.toBuf, cast_eq] at h; exact h
theorem s_main_call4_c_2 : after ops W (Proc.devRef .tc main_call4_c_2) = val_main_call4_c_2 (F := F) :=
  by have h := hW.stage0 W 151 rfl; simp only [TRef.ofBuf, TRef.toBuf, cast_eq] at h; exact h
theorem s_main_call4_v6 : after ops W (Proc.devRef .tc main_call4_v6) = val_main_call4_v6 (F := F) :=
  by have h := hW.stage1 W 152 rfl rfl; simp only [TRef.ofBuf, TRef.toBuf, cast_eq] at h; rw [s_main_call4_c_2 W] at h; exact h
theorem s_main_call4_v7 : after ops W (Proc.devRef .tc main_call4_v7) = val_main_call4_v7 (F := F) (A W main_arg1) :=
  by have h := hW.stage2 W 153 rfl rfl rfl; simp only [TRef.ofBuf, TRef.toBuf, cast_eq] at h; rw [s_main_call4_v5 W, s_main_call4_v6 W] at h; exact h
theorem s_main_call4_v8 : after ops W (Proc.devRef .tc main_call4_v8) = val_main_call4_v8 (F := F) :=
  by have h := hW.stage1 W 154 rfl rfl; simp only [TRef.ofBuf, TRef.toBuf, cast_eq] at h; rw [s_main_call4_c_1 W] at h; exact h
theorem s_main_call4_v9 : after ops W (Proc.devRef .tc main_call4_v9) = val_main_call4_v9 (F := F) :=
  by have h := hW.stage1 W 155 rfl rfl; simp only [TRef.ofBuf, TRef.toBuf, cast_eq] at h; rw [s_main_call4_v8 W] at h; exact h
theorem s_main_call4_v10 : after ops W (Proc.devRef .tc main_call4_v10) = val_main_call4_v10 (F := F) (A W main_arg1) :=
  by have h := hW.stage2 W 156 rfl rfl rfl; simp only [TRef.ofBuf, TRef.toBuf, cast_eq] at h; rw [s_main_call4_v5 W, s_main_call4_v9 W] at h; exact h
theorem s_main_call4_v11 : after ops W (Proc.devRef .tc main_call4_v11) = val_main_call4_v11 (F := F) (A W main_arg1) :=
  by have h := hW.stage2 W 157 rfl rfl rfl; simp only [TRef.ofBuf, TRef.toBuf, cast_eq] at h; rw [s_main_call4_v7 W, s_main_call4_v10 W] at h; exact h
theorem s_main_call4_c_3 : after ops W (Proc.devRef .tc main_call4_c_3) = val_main_call4_c_3 (F := F) :=
  by have h := hW.stage0 W 158 rfl; simp only [TRef.ofBuf, TRef.toBuf, cast_eq] at h; exact h
theorem s_main_call4_v12 : after ops W (Proc.devRef .tc main_call4_v12) = val_main_call4_v12 (F := F) (A W main_arg1) :=
  by have h := hW.stage2 W 159 rfl rfl rfl; simp only [TRef.ofBuf, TRef.toBuf, cast_eq] at h; rw [s_main_call4_v11 W, s_main_call4_c_3 W] at h; exact h
theorem s_main_call4_v13 : after ops W (Proc.devRef .tc main_call4_v13) = val_main_call4_v13 (F := F) (A W main_arg0) (A W main_arg1) (A W main_arg2) (A W main_arg3) (A W main_arg4) (A W main_arg5) (A W main_arg6) (A W main_arg7) (A W main_arg8) (A W main_arg9) (A W main_arg10) (A W main_arg11) (A W main_arg12) (A W main_arg13) (A W main_arg14) (A W main_arg15) (A W main_arg16) :=
  by have h := hW.stage2 W 160 rfl rfl rfl; simp only [TRef.ofBuf, TRef.toBuf, cast_eq] at h; rw [s_main_v95 W, s_main_call4_v5 W] at h; exact h
theorem s_main_call4_cst : after ops W (Proc.devRef .tc main_call4_cst) = val_main_call4_cst (F := F) :=
  by have h := hW.stage0 W 161 rfl; simp only [TRef.ofBuf, TRef.toBuf, cast_eq] at h; exact h
theorem s_main_call4_v14 : after ops W (Proc.devRef .tc main_call4_v14) = val_main_call4_v14 (F := F) :=
  by have h := hW.stage1 W 162 rfl rfl; simp only [TRef.ofBuf, TRef.toBuf, cast_eq] at h; rw [s_main_call4_cst W] at h; exact h
theorem s_main_v97 : after ops W (Proc.devRef .tc main_v97) = val_main_v97 (F := F) (A W main_arg0) (A W main_arg1) (A W main_arg2) (A W main_arg3) (A W main_arg4) (A W main_arg5) (A W main_arg6) (A W main_arg7) (A W main_arg8) (A W main_arg9) (A W main_arg10) (A W main_arg11) (A W main_arg12) (A W main_arg13) (A W main_arg14) (A W main_arg15) (A W main_arg16) :=
  by have h := hW.stage3 W 163 rfl rfl rfl rfl; simp only [TRef.ofBuf, TRef.toBuf, cast_eq] at h; rw [s_main_call4_v12 W, s_main_call4_v13 W, s_main_call4_v14 W] at h; exact h
theorem s_main_cst_16 : after ops W (Proc.devRef .tc main_cst_16) = val_main_cst_16 (F := F) :=
  (hW.stage0 W 164 rfl :)
theorem s_main_v98 : after ops W (Proc.devRef .tc main_v98) = val_main_v98 (F := F) (A W main_arg0) (A W main_arg1) (A W main_arg2) (A W main_arg3) (A W main_arg4) (A W main_arg5) (A W main_arg6) (A W main_arg7) (A W main_arg8) (A W main_arg9) (A W main_arg10) (A W main_arg11) (A W main_arg12) (A W main_arg13) (A W main_arg14) (A W main_arg15) (A W main_arg16) :=
  (hW.stage2 W 165 rfl (s_main_v97 W) (s_main_cst_16 W) :)
theorem s_main_cst_17 : after ops W (Proc.devRef .tc main_cst_17) = val_main_cst_17 (F := F) :=
  (hW.stage0 W 166 rfl :)
theorem s_main_v99 : after ops W (Proc.devRef .tc main_v99) = val_main_v99 (F := F) (A W main_arg0) (A W main_arg1) (A W main_arg2) (A W main_arg3) (A W main_arg4) (A W main_arg5) (A W main_arg6) (A W main_arg7) (A W main_arg8) (A W main_arg9) (A W main_arg10) (A W main_arg11) (A W main_arg12) (A W main_arg13) (A W main_arg14) (A W main_arg15) (A W main_arg16) :=
  (hW.stage2 W 167 rfl (s_main_v98 W) (s_main_cst_17 W) :)
theorem s_main_v100 : after ops W (Proc.devRef .tc main_v100) = val_main_v100 (F := F) (A W main_arg0) (A W main_arg1) (A W main_arg2) (A W main_arg3) (A W main_arg4) (A W main_arg5) (A W main_arg6) (A W main_arg7) (A W main_arg8) (A W main_arg9) (A W main_arg10) (A W main_arg11) (A W main_arg12) (A W main_arg13) (A W main_arg14) (A W main_arg15) (A W main_arg16) :=
  (hW.stage1 W 168 rfl (s_main_v99 W) :)

end Cert.ReferenceIdeal.StagesP

end
-- ==== Proof.RefRun.lean ====
import proofs.«421533_j19645180411976_3_alg».proof.Proof.RefStages

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP Cert.ReferenceIdeal.StagesP

variable {F : FTy → Type} [FloatOps F]

theorem ops_fresh : (ops : List (HloOp τ sig (Elt F))).Forall fun op => op.fresh = ∅ := by
  simp only [List.Forall]; repeat' constructor

/-- What the memory m holds in the TensorCore buffer r of device c. -/
abbrev rd (m : (ℓ : Loc nD τ sig) → Buf (Elt F) ℓ) (c : Dev nD) (r : Ref sig .tc) := m ((c.tc : Thread nD τ).loc r)

/-- The memory m₁ holds the seventeen arguments as m does. -/
abbrev ArgsKept (m m₁ : (ℓ : Loc nD τ sig) → Buf (Elt F) ℓ) (c : Dev nD) : Prop :=
  rd m₁ c main_arg0 = rd m c main_arg0 ∧ rd m₁ c main_arg1 = rd m c main_arg1 ∧ rd m₁ c main_arg2 = rd m c main_arg2
  ∧ rd m₁ c main_arg3 = rd m c main_arg3 ∧ rd m₁ c main_arg4 = rd m c main_arg4 ∧ rd m₁ c main_arg5 = rd m c main_arg5
  ∧ rd m₁ c main_arg6 = rd m c main_arg6 ∧ rd m₁ c main_arg7 = rd m c main_arg7 ∧ rd m₁ c main_arg8 = rd m c main_arg8
  ∧ rd m₁ c main_arg9 = rd m c main_arg9 ∧ rd m₁ c main_arg10 = rd m c main_arg10 ∧ rd m₁ c main_arg11 = rd m c main_arg11
  ∧ rd m₁ c main_arg12 = rd m c main_arg12 ∧ rd m₁ c main_arg13 = rd m c main_arg13 ∧ rd m₁ c main_arg14 = rd m c main_arg14
  ∧ rd m₁ c main_arg15 = rd m c main_arg15 ∧ rd m₁ c main_arg16 = rd m c main_arg16

-- The straight line's launch theorem, each result read as its stage and each argument as never written.
theorem run (m : (ℓ : Loc nD τ sig) → Buf (Elt F) ℓ) (ρ : Dev nD → PrngReg) :
    θ_run defs (onTc (τ := τ) (main (F := F))) ⟨m, fun _ => 0, ρ⟩ fun r => ∀ c : Dev nD,
      rd r.2.mem c main_v94 = val_main_v94 (F := F) (rd m c main_arg0) (rd m c main_arg2) (rd m c main_arg3) (rd m c main_arg4) (rd m c main_arg5)
        (rd m c main_arg6) (rd m c main_arg7) (rd m c main_arg8) (rd m c main_arg9) (rd m c main_arg10)
        (rd m c main_arg11) (rd m c main_arg12) (rd m c main_arg13) (rd m c main_arg14) (rd m c main_arg15)
        (rd m c main_arg16)
      ∧ rd r.2.mem c main_v100 = val_main_v100 (F := F) (rd m c main_arg0) (rd m c main_arg1) (rd m c main_arg2) (rd m c main_arg3) (rd m c main_arg4)
        (rd m c main_arg5) (rd m c main_arg6) (rd m c main_arg7) (rd m c main_arg8) (rd m c main_arg9)
        (rd m c main_arg10) (rd m c main_arg11) (rd m c main_arg12) (rd m c main_arg13) (rd m c main_arg14)
        (rd m c main_arg15) (rd m c main_arg16)
      ∧ ArgsKept m r.2.mem c :=
  (θ_run defs _ _).mono (fun _ h c =>
      ⟨(h c main_v94).trans (s_main_v94 (launchContents m c)), (h c main_v100).trans (s_main_v100 (launchContents m c)),
        (h c main_arg0).trans (hW.after_arg _ main_arg0), (h c main_arg1).trans (hW.after_arg _ main_arg1),
        (h c main_arg2).trans (hW.after_arg _ main_arg2), (h c main_arg3).trans (hW.after_arg _ main_arg3),
        (h c main_arg4).trans (hW.after_arg _ main_arg4), (h c main_arg5).trans (hW.after_arg _ main_arg5),
        (h c main_arg6).trans (hW.after_arg _ main_arg6), (h c main_arg7).trans (hW.after_arg _ main_arg7),
        (h c main_arg8).trans (hW.after_arg _ main_arg8), (h c main_arg9).trans (hW.after_arg _ main_arg9),
        (h c main_arg10).trans (hW.after_arg _ main_arg10), (h c main_arg11).trans (hW.after_arg _ main_arg11),
        (h c main_arg12).trans (hW.after_arg _ main_arg12), (h c main_arg13).trans (hW.after_arg _ main_arg13),
        (h c main_arg14).trans (hW.after_arg _ main_arg14), (h c main_arg15).trans (hW.after_arg _ main_arg15),
        (h c main_arg16).trans (hW.after_arg _ main_arg16)⟩)
    (run_seq scopedRefs_eq scopedSems_eq defs main (fun _ => ops) main_eq (fun _ => ops_sub) m ρ
      (fun _ op hop => (List.forall_iff_forall_mem.mp ops_fresh) op hop))

end Cert.ReferenceIdeal.RunH

end
-- ==== Proof.RefClaims.lean ====
import proofs.«421533_j19645180411976_3_alg».proof.Defs
import proofs.«421533_j19645180411976_3_alg».proof.Proof.RefRun
import proofs.«421533_j19645180411976_3_alg».proof.Proof.RefSpec
import proofs.«421533_j19645180411976_3_alg».proof.Proof.PreFacts
import proofs.«421533_j19645180411976_3_alg».proof.Proof.Gen.ReferenceIdeal
import proofs.«421533_j19645180411976_3_alg».proof.Proof.Gen.Pre_finite_inputs

noncomputable section

namespace Cert.Proof.Ref

open Idealize.ShloMosaic Idealize.SL.Sem Cert.ReferenceIdeal Cert.ReferenceIdeal.RunH

theorem frame_ri : Cert.frame_ReferenceIdeal (hReferenceIdeal := Cert.ReferenceIdeal.Gen.facts)
    (hPre_finite_inputs := Cert.Pre_finite_inputs.Gen.facts) :=
  fun m ρ _ => (θ_run defs _ _).mono (fun _ h c => (h c).2.2) (run (F := Ideal) m ρ)

/-- The specification's parameters read off the reference's argument arrays in the memory m. -/
abbrev parR (m : (ℓ : Loc nD τ sig) → Buf (Elt Ideal) ℓ) (c : Dev nD) : Cert.Spec.Params :=
  Cert.RefSpec.par (rd m c main_arg0) (rd m c main_arg2) (rd m c main_arg3) (rd m c main_arg4) (rd m c main_arg5)
    (rd m c main_arg6) (rd m c main_arg7) (rd m c main_arg8) (rd m c main_arg9) (rd m c main_arg10)
    (rd m c main_arg11) (rd m c main_arg12) (rd m c main_arg13) (rd m c main_arg14) (rd m c main_arg15)
    (rd m c main_arg16)

-- The run's two stages are the specification's logits and loss: the labels are in range by the precondition.
theorem ref_results (m' : (ℓ : Loc nD τ sig) → Buf (Elt Ideal) ℓ) (ρ' : Dev nD → PrngReg)
    (hpre : Cert.Pre_ReferenceIdeal (hPre_finite_inputs := Cert.Pre_finite_inputs.Gen.facts) m') :
    θ_run (defs (F := Ideal)) (onTc (τ := τ) (main (F := Ideal))) ⟨m', fun _ => 0, ρ'⟩ (fun r => ∀ c : Dev nD,
      rd r.2.mem c main_v94 = (fun (i : S8192x32000.Idx) => Cert.Spec.logits (parR m' c) (i 0) (i 1))
      ∧ rd r.2.mem c main_v100 = (fun (_ : S_.Idx) => Cert.Spec.lossRef (parR m' c) (Cert.RefSpec.tgtOf (rd m' c main_arg1)))
      ∧ ArgsKept m' r.2.mem c) :=
  (θ_run defs _ _).mono (fun _ h c =>
      ⟨(h c).1.trans (Cert.RefSpec.logits_fun (rd m' c main_arg0) (rd m' c main_arg2) (rd m' c main_arg3) (rd m' c main_arg4) (rd m' c main_arg5)
          (rd m' c main_arg6) (rd m' c main_arg7) (rd m' c main_arg8) (rd m' c main_arg9) (rd m' c main_arg10)
          (rd m' c main_arg11) (rd m' c main_arg12) (rd m' c main_arg13) (rd m' c main_arg14)
          (rd m' c main_arg15) (rd m' c main_arg16)),
        (h c).2.1.trans (Cert.RefSpec.loss_fun (rd m' c main_arg0) (rd m' c main_arg1) (rd m' c main_arg2) (rd m' c main_arg3) (rd m' c main_arg4)
          (rd m' c main_arg5) (rd m' c main_arg6) (rd m' c main_arg7) (rd m' c main_arg8) (rd m' c main_arg9)
          (rd m' c main_arg10) (rd m' c main_arg11) (rd m' c main_arg12) (rd m' c main_arg13)
          (rd m' c main_arg14) (rd m' c main_arg15) (rd m' c main_arg16)
          (Cert.PreFacts.of_pre _ _ _ _ _ _ _ _ _ _ _ _ _ _ _ _ _ (hpre c)).tgt),
        (h c).2.2⟩)
    (run (F := Ideal) m' ρ')

end Cert.Proof.Ref

end
-- ==== Proof.lean ====
import proofs.«421533_j19645180411976_3_alg».proof.Defs
import proofs.«421533_j19645180411976_3_alg».proof.Proof.Gen.Kernel
import proofs.«421533_j19645180411976_3_alg».proof.Proof.Gen.KernelIdeal
import proofs.«421533_j19645180411976_3_alg».proof.Proof.Gen.ReferenceIdeal
import proofs.«421533_j19645180411976_3_alg».proof.Proof.Gen.Pre_finite_inputs
import proofs.«421533_j19645180411976_3_alg».proof.Proof.K.Run
import proofs.«421533_j19645180411976_3_alg».proof.Proof.KI.Run
import proofs.«421533_j19645180411976_3_alg».proof.Proof.KI.Chain
import proofs.«421533_j19645180411976_3_alg».proof.Proof.KI.ParEq
import proofs.«421533_j19645180411976_3_alg».proof.Proof.RefClaims
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

-- The one rewrite of the idealization: the attention mask's finite fill is read as -∞.
theorem preserves : Cert.preserves_Kernel_KernelIdeal :=
  IdealRules.named_const.statement Cert.KernelIdeal.κ "neg_big" .f32 0xFF333332#32 ⊥ rfl

-- Both idealized programs end at the specification's logits and loss, read off inputs on which the two memories agree.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun i => Cert.Spec.logits (Cert.KernelIdeal.Val.parK m c) (i 0) (i 1),
    fun c => fun _ => Cert.Spec.lossRef (Cert.KernelIdeal.Val.parK m c) (Cert.KernelIdeal.Val.tgtK m c), ?_, ?_⟩
  · refine Cert.KernelIdeal.Hand.run_Q (F := Ideal) m ρ (fun s h c => ?_)
    have H := Cert.PreFacts.of_pre _ _ _ _ _ _ _ _ _ _ _ _ _ _ _ _ _ (hpre c)
    exact ⟨(h c _ (Cert.KernelIdeal.Hand.mem_uc Cert.KernelIdeal.main_v31_0 (by decide))).trans (Cert.KernelIdeal.Val.kernel_logits m ρ c H),
      (h c _ (Cert.KernelIdeal.Hand.mem_uc Cert.KernelIdeal.main_v37 (by decide))).trans (Cert.KernelIdeal.Val.kernel_loss m ρ c H),
      Cert.KernelIdeal.Hand.kept (F := Ideal) m ρ h c Cert.KernelIdeal.main_arg0,
      Cert.KernelIdeal.Hand.kept (F := Ideal) m ρ h c Cert.KernelIdeal.main_arg1,
      Cert.KernelIdeal.Hand.kept (F := Ideal) m ρ h c Cert.KernelIdeal.main_arg2,
      Cert.KernelIdeal.Hand.kept (F := Ideal) m ρ h c Cert.KernelIdeal.main_arg3,
      Cert.KernelIdeal.Hand.kept (F := Ideal) m ρ h c Cert.KernelIdeal.main_arg4,
      Cert.KernelIdeal.Hand.kept (F := Ideal) m ρ h c Cert.KernelIdeal.main_arg5,
      Cert.KernelIdeal.Hand.kept (F := Ideal) m ρ h c Cert.KernelIdeal.main_arg6,
      Cert.KernelIdeal.Hand.kept (F := Ideal) m ρ h c Cert.KernelIdeal.main_arg7,
      Cert.KernelIdeal.Hand.kept (F := Ideal) m ρ h c Cert.KernelIdeal.main_arg8,
      Cert.KernelIdeal.Hand.kept (F := Ideal) m ρ h c Cert.KernelIdeal.main_arg9,
      Cert.KernelIdeal.Hand.kept (F := Ideal) m ρ h c Cert.KernelIdeal.main_arg10,
      Cert.KernelIdeal.Hand.kept (F := Ideal) m ρ h c Cert.KernelIdeal.main_arg11,
      Cert.KernelIdeal.Hand.kept (F := Ideal) m ρ h c Cert.KernelIdeal.main_arg12,
      Cert.KernelIdeal.Hand.kept (F := Ideal) m ρ h c Cert.KernelIdeal.main_arg13,
      Cert.KernelIdeal.Hand.kept (F := Ideal) m ρ h c Cert.KernelIdeal.main_arg14,
      Cert.KernelIdeal.Hand.kept (F := Ideal) m ρ h c Cert.KernelIdeal.main_arg15,
      Cert.KernelIdeal.Hand.kept (F := Ideal) m ρ h c Cert.KernelIdeal.main_arg16⟩
  · have hpre' : Cert.Pre_ReferenceIdeal (hPre_finite_inputs := Cert.Pre_finite_inputs.Gen.facts) m' := fun c => by
      obtain ⟨h0, h1, h2, h3, h4, h5, h6, h7, h8, h9, h10, h11, h12, h13, h14, h15, h16⟩ := hagree c
      have h := hpre c
      rw [← h0, ← h1, ← h2, ← h3, ← h4, ← h5, ← h6, ← h7, ← h8, ← h9, ← h10, ← h11, ← h12, ← h13, ← h14, ← h15, ← h16] at h
      exact h
    refine (θ_run (Cert.ReferenceIdeal.defs (F := Ideal)) _ _).mono (fun r h c => ?_) (Cert.Proof.Ref.ref_results m' ρ' hpre')
    obtain ⟨h94, h100, hargs⟩ := h c
    obtain ⟨h0, h1, h2, h3, h4, h5, h6, h7, h8, h9, h10, h11, h12, h13, h14, h15, h16⟩ := hagree c
    have hP : Cert.KernelIdeal.Val.parK m c = Cert.Proof.Ref.parR m' c := by
      rw [Cert.KernelIdeal.Val.parK_eq m c, ← h0, ← h2, ← h3, ← h4, ← h5, ← h6, ← h7, ← h8, ← h9, ← h10, ← h11, ← h12, ← h13, ← h14, ← h15, ← h16]
    have hT : Cert.KernelIdeal.Val.tgtK m c = Cert.RefSpec.tgtOf (Cert.ReferenceIdeal.RunH.rd m' c Cert.ReferenceIdeal.main_arg1) := by
      rw [Cert.KernelIdeal.Val.tgtK_eq m c, ← h1]
    refine ⟨h94.trans ?_, h100.trans ?_, hargs⟩
    · beta_reduce; rw [hP]; rfl
    · beta_reduce; rw [hP, hT]; rfl

theorem claim : Cert.Claim := ⟨Cert.Kernel.Gen.facts, Cert.KernelIdeal.Gen.facts, Cert.ReferenceIdeal.Gen.facts, Cert.Pre_finite_inputs.Gen.facts,
  frame_k, frame_ki, Cert.Proof.Ref.frame_ri, preserves, algebraic⟩

end Cert.Proof

end
